-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.named_const.Statement Cert.KernelIdeal.κ "inv_sqrt_dh" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg16 : FVec F S128x256 .f32) (main_arg17 : FVec F S256x128 .f32) (main_v63 : IVec S_ 1) (main_v67 : IVec S_ 1) : IVec S_ 1 :=
  let main_v68 : IVec S_ 1 := andi main_v63 main_v67
  let main_v69 : FVec F S128x256 .f32 := Host.absf main_arg16
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S256x128 .f32 := Host.absf main_arg17
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  main_v78

def fn_part3 {F : FTy → Type} [FloatOps F] (main_arg13 : FVec F S128 .f32) (main_arg14 : FVec F S128 .f32) (main_arg15 : FVec F S128 .f32) (main_arg16 : FVec F S128x256 .f32) (main_arg17 : FVec F S256x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128x256 .f32) (main_arg17 : FVec F S256x128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128x256 .f32) (main_arg17 : FVec F S256x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128x128 .f32) (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128x256 .f32) (main_arg17 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256x128 : Shape := ⟨2, ![256, 128]⟩
abbrev S128x4 : Shape := ⟨2, ![128, 4]⟩
abbrev S1x128 : Shape := ⟨2, ![1, 128]⟩
abbrev S5000x128 : Shape := ⟨2, ![5000, 128]⟩
abbrev S_ : Shape := ⟨0, ![]⟩
abbrev S8000x128 : Shape := ⟨2, ![8000, 128]⟩
abbrev S128x384 : Shape := ⟨2, ![128, 384]⟩
abbrev S50000x384 : Shape := ⟨2, ![50000, 384]⟩
abbrev S5000x384 : Shape := ⟨2, ![5000, 384]⟩
abbrev S50000x256 : Shape := ⟨2, ![50000, 256]⟩
abbrev S800000x1 : Shape := ⟨2, ![800000, 1]⟩
abbrev S800000x256 : Shape := ⟨2, ![800000, 256]⟩
abbrev S4x128 : Shape := ⟨2, ![4, 128]⟩
abbrev S4000x256 : Shape := ⟨2, ![4000, 256]⟩
abbrev S4000x128 : Shape := ⟨2, ![4000, 128]⟩
abbrev S4000x4 : Shape := ⟨2, ![4000, 4]⟩
abbrev S5000x256 : Shape := ⟨2, ![5000, 256]⟩

abbrev nBuf : Space → Nat
  | .hbm => 102
  | .vmem => 66
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x256, .f32⟩
  | .hbm, ⟨17, _⟩ => ⟨S256x128, .f32⟩
  | .hbm, ⟨18, _⟩ => ⟨S128x4, .f32⟩
  | .hbm, ⟨19, _⟩ => ⟨S1x128, .f32⟩
  | .hbm, ⟨20, _⟩ => ⟨S1x128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S1x128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128x384, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S50000x384, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S800000x128, .f32⟩
  | .hbm, ⟨54, _⟩ => ⟨S50000x128, .f32⟩
  | .hbm, ⟨55, _⟩ => ⟨S50000x256, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S4x128, .f32⟩
  | .hbm, ⟨75, _⟩ => ⟨S800000x256, .f32⟩
  | .hbm, ⟨76, _⟩ => ⟨S_, .f32⟩
  | .hbm, ⟨77, _⟩ => ⟨S50000x256, .f32⟩
  | .hbm, ⟨78, _⟩ => ⟨S800000x1, .i32⟩
  | .hbm, ⟨79, _⟩ => ⟨S50000x256, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S1x128, .f32⟩
  | .hbm, ⟨85, _⟩ => ⟨S1x128, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S50000x256, .f32⟩
  | .hbm, ⟨101, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x384, .f32⟩
  | .local _ .vmem, ⟨15, _⟩ => ⟨S5000x384, .f32⟩
  | .local _ .vmem, ⟨16, _⟩ => ⟨S5000x384, .f32⟩
  | .local _ .vmem, ⟨17, _⟩ => ⟨S8000x128, .f32⟩
  | .local _ .vmem, ⟨18, _⟩ => ⟨S8000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S128x128, .f32⟩
  | .local _ .vmem, ⟨24, _⟩ => ⟨S8000x128, .f32⟩
  | .local _ .vmem, ⟨25, _⟩ => ⟨S8000x128, .f32⟩
  | .local _ .vmem, ⟨26, _⟩ => ⟨S4000x256, .f32⟩
  | .local _ .vmem, ⟨27, _⟩ => ⟨S4000x256, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x4, .f32⟩
  | .local _ .vmem, ⟨33, _⟩ => ⟨S4x128, .f32⟩
  | .local _ .vmem, ⟨34, _⟩ => ⟨S4000x256, .f32⟩
  | .local _ .vmem, ⟨35, _⟩ => ⟨S4000x256, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S128x256, .f32⟩
  | .local _ .vmem, ⟨57, _⟩ => ⟨S5000x256, .f32⟩
  | .local _ .vmem, ⟨58, _⟩ => ⟨S5000x256, .f32⟩
  | .local _ .vmem, ⟨59, _⟩ => ⟨S5000x256, .f32⟩
  | .local _ .vmem, ⟨60, _⟩ => ⟨S5000x256, .f32⟩
  | .local _ .vmem, ⟨61, _⟩ => ⟨S256x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0_0 : Ref sig .tc := ⟨.hbm, 19, rfl⟩
abbrev main_v0_1 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9_0 : Ref sig .tc := ⟨.hbm, 31, rfl⟩
abbrev main_v9_1 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c : Ref sig .tc := ⟨.hbm, 56, rfl⟩
abbrev main_v31 : Ref sig .tc := ⟨.hbm, 57, rfl⟩
abbrev main_v32 : Ref sig .tc := ⟨.hbm, 58, rfl⟩
abbrev main_c_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_5 : Ref sig .tc := ⟨.hbm, 65, rfl⟩
abbrev main_v38 : Ref sig .tc := ⟨.hbm, 66, rfl⟩
abbrev main_v39 : Ref sig .tc := ⟨.hbm, 67, rfl⟩
abbrev main_c_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54_0 : Ref sig .tc := ⟨.hbm, 84, rfl⟩
abbrev main_v54_1 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg6_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg5_0 : Ref sig .tc := ⟨.vmem, 56, rfl⟩
abbrev cc7_stg6_0 : Ref sig .tc := ⟨.vmem, 57, rfl⟩
abbrev cc7_stg6_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg2_1 : Ref sig .tc := ⟨.vmem, 63, rfl⟩
abbrev cc8_stg3_0 : Ref sig .tc := ⟨.vmem, 64, rfl⟩
abbrev cc8_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem6_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem4_1 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem3_0 : DmaSem sig := 54
abbrev cc7_sem4_0 : DmaSem sig := 55
abbrev cc7_sem5_0 : DmaSem sig := 56
abbrev cc7_sem6_0 : DmaSem sig := 57
abbrev cc7_sem6_1 : DmaSem sig := 58
abbrev cc8_sem0_0 : DmaSem sig := 59
abbrev cc8_sem0_1 : DmaSem sig := 60
abbrev cc8_sem1_0 : DmaSem sig := 61
abbrev cc8_sem2_0 : DmaSem sig := 62
abbrev cc8_sem2_1 : DmaSem sig := 63
abbrev cc8_sem3_0 : DmaSem sig := 64
abbrev cc8_sem3_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S4x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S1x128_S1x128 : S1x128.ShapeCasts S1x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  inb_S8000x128_S8000x128_0_0 : ∀ a, (![0, 0] : Fin 2 → Nat) a + S8000x128.size a ≤ S8000x128.size a
  h_S8000x128 : 0 < S8000x128.numel
  reduces_S8000x128_S128 : S8000x128.Reduces [0] S128
  concatenates_S128x128_S128x128_S128x128_S128x384_d1 : Shape.Concatenates [S128x128, S128x128, S128x128] S128x384 1
  broadcasts_S1x128_S5000x128 : S1x128.Broadcasts S5000x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  broadcasts_S1x128_S8000x128 : S1x128.Broadcasts S8000x128
  inb_S128x128_S128x128_0_0 : ∀ a, (![0, 0] : Fin 2 → Nat) a + S128x128.size a ≤ S128x128.size a
  h_S128x128 : 0 < S128x128.numel
  slices_S50000x384_S50000x128_0_0 : S50000x384.Slices ![0, 0] S50000x128
  slices_S50000x384_S50000x256_0_128 : S50000x384.Slices ![0, 128] S50000x256
  bcast_S_S800000 : S_.BroadcastsInDim S800000 (![] : Fin 0 → Fin S800000.rank)
  bcast_S800000_S800000x1_0 : S800000.BroadcastsInDim S800000x1 (![0] : Fin 1 → Fin S800000x1.rank)
  transposes_S128x4_S4x128_1_0 : S128x4.Transposes [1, 0] S4x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  slices_S4000x256_o0_0_S4000x128 : S4000x256.Slices ![0, 0] S4000x128
  slices_S4000x256_o0_128_S4000x128 : S4000x256.Slices ![0, 128] S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x4_S128x4_0_0 : ∀ a, (![0, 0] : Fin 2 → Nat) a + S128x4.size a ≤ S128x4.size a
  h_S128x4 : 0 < S128x4.numel
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S4000x256_S4000x128_0_0 : ∀ a, (![0, 0] : Fin 2 → Nat) a + S4000x128.size a ≤ S4000x256.size a
  inb_S4000x256_S4000x128_0_128 : ∀ a, (![0, 128] : Fin 2 → Nat) a + S4000x128.size a ≤ S4000x256.size a
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  dot_S5000x128_S128x384_S5000x384_1_0_0_1_n_n_wf : DotDims.WF S5000x128 S128x384 S5000x384 [1] [0] [0] [1] [] []
  dot_S8000x128_S128x128_S8000x128_1_0_0_1_n_n_wf : DotDims.WF S8000x128 S128x128 S8000x128 [1] [0] [0] [1] [] []
  gather_S50000x256_S800000x1_S800000x256_1_0_n_n_0_1_1256_wf : GatherDims.WF S50000x256 S800000x1 S800000x256 [1] [0] [] [0] [] 1 ![1, 256]
  gather_S50000x128_S800000x1_S800000x128_1_0_n_n_0_1_1128_wf : GatherDims.WF S50000x128 S800000x1 S800000x128 [1] [0] [] [0] [] 1 ![1, 128]
  dot_S4000x128_S128x4_S4000x4_1_0_0_1_n_n_wf : DotDims.WF S4000x128 S128x4 S4000x4 [1] [0] [0] [1] [] []
  dot_S4000x4_S4x128_S4000x128_1_0_0_1_n_n_wf : DotDims.WF S4000x4 S4x128 S4000x128 [1] [0] [0] [1] [] []
  scatter_S50000x256_S800000x1_S800000x256_1_0_0_1_wf : ScatterDims.WF S50000x256 S800000x1 S800000x256 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x384.size a ≤ S128x384.size a
  hwx2_5 : ∀ i : grid2.Coords, EltTy.bits .f32 = 32 ∨ (Rect.block (s := S128x384) S128x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x384.size a ≤ S50000x384.size a
  hwx2_6 : ∀ i : grid2.Coords, EltTy.bits .f32 = 32 ∨ (Rect.block (s := S50000x384) S5000x384.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S800000x128.size a
  hwx3_0 : ∀ i : grid3.Coords, EltTy.bits .f32 = 32 ∨ (Rect.block (s := S800000x128) S8000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x128.size a ≤ S800000x128.size a
  hwx3_6 : ∀ i : grid3.Coords, EltTy.bits .f32 = 32 ∨ (Rect.block (s := S800000x128) S8000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S800000x256.size a
  hwx4_0 : ∀ i : grid4.Coords, EltTy.bits .f32 = 32 ∨ (Rect.block (s := S800000x256) S4000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S800000x128.size a
  hwx4_1 : ∀ i : grid4.Coords, EltTy.bits .f32 = 32 ∨ (Rect.block (s := S800000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S800000x128.size a
  hwx4_2 : ∀ i : grid4.Coords, EltTy.bits .f32 = 32 ∨ (Rect.block (s := S800000x128) S4000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x4.size a ≤ S128x4.size a
  hwx4_3 : ∀ i : grid4.Coords, EltTy.bits .f32 = 32 ∨ (Rect.block (s := S128x4) S128x4.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S4x128.size a ≤ S4x128.size a
  hwx4_4 : ∀ i : grid4.Coords, EltTy.bits .f32 = 32 ∨ (Rect.block (s := S4x128) S4x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x256.size a ≤ S800000x256.size a
  hwx4_5 : ∀ i : grid4.Coords, EltTy.bits .f32 = 32 ∨ (Rect.block (s := S800000x256) S4000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x256.size a ≤ S128x256.size a
  hwx7_5 : ∀ i : grid7.Coords, EltTy.bits .f32 = 32 ∨ (Rect.block (s := S128x256) S128x256.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x256.size a ≤ S50000x256.size a
  hwx7_6 : ∀ i : grid7.Coords, EltTy.bits .f32 = 32 ∨ (Rect.block (s := S50000x256) S5000x256.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x256.size a ≤ S50000x256.size a
  hwx8_0 : ∀ i : grid8.Coords, EltTy.bits .f32 = 32 ∨ (Rect.block (s := S50000x256) S5000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .f32 = 32 ∨ (Rect.block (s := S256x128) S256x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def dot_S4000x4_S4x128_S4000x128_1_0_0_1_n_n : DotDims S4000x4 S4x128 S4000x128 where
  lhsContracting := [1]
  rhsContracting := [0]
  lhsNonContracting := [0]
  rhsNonContracting := [1]
  lhsBatch := []
  rhsBatch := []
  wf := dot_S4000x4_S4x128_S4000x128_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S128x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S5000x384.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v28) S8000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v37) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_cst) S128x4.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S4x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S4000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v50) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v52) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg0) S5000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v53) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v53) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v54_0) S1x128.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v54_1) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v53) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v63) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v64) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v65) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v66) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg16) S128x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v67) S5000x256.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v67) S5000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg17) S256x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v53) S5000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v68) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256x128 : Shape := ⟨2, ![256, 128]⟩
abbrev S_ : Shape := ⟨0, ![]⟩
abbrev S1x128 : Shape := ⟨2, ![1, 128]⟩
abbrev S50000x4x32 : Shape := ⟨3, ![50000, 4, 32]⟩
abbrev S800000x4x32 : Shape := ⟨3, ![800000, 4, 32]⟩
abbrev S800000x1 : Shape := ⟨2, ![800000, 1]⟩
abbrev S800000x4 : Shape := ⟨2, ![800000, 4]⟩
abbrev S800000x4x1 : Shape := ⟨3, ![800000, 4, 1]⟩
abbrev S50000x4x1 : Shape := ⟨3, ![50000, 4, 1]⟩
abbrev S50000x256 : Shape := ⟨2, ![50000, 256]⟩

abbrev nBuf : Space → Nat
  | .hbm => 243
  | .vmem => 0
  | .smem => 0
  | _ => 0

abbrev hbmTy0_0 (i : Nat) : BufTy := match i % 128 with
  | 0 => ⟨S50000x128, .f32⟩
  | 1 => ⟨S800000x128, .f32⟩
  | 2 => ⟨S800000, .i32⟩
  | 3 => ⟨S800000, .i32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128x256, .f32⟩
  | 17 => ⟨S256x128, .f32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S50000x128, .f32⟩
  | 31 => ⟨S50000x128, .f32⟩
  | 32 => ⟨S50000x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S800000x128, .f32⟩
  | 75 => ⟨S800000x128, .f32⟩
  | 76 => ⟨S800000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S800000x128, .f32⟩
  | 92 => ⟨S800000x128, .f32⟩
  | 93 => ⟨S_, .f32⟩
  | 94 => ⟨S128, .f32⟩
  | 95 => ⟨S128, .f32⟩
  | 96 => ⟨S128, .f32⟩
  | 97 => ⟨S1x128, .f32⟩
  | 98 => ⟨S800000x128, .f32⟩
  | 99 => ⟨S800000x128, .f32⟩
  | 100 => ⟨S1x128, .f32⟩
  | 101 => ⟨S800000x128, .f32⟩
  | 102 => ⟨S800000x128, .f32⟩
  | 103 => ⟨S1x128, .f32⟩
  | 104 => ⟨S800000x128, .f32⟩
  | 105 => ⟨S800000x128, .f32⟩
  | 106 => ⟨S50000x128, .f32⟩
  | 107 => ⟨S50000x4x32, .f32⟩
  | 108 => ⟨S50000x128, .f32⟩
  | 109 => ⟨S50000x4x32, .f32⟩
  | 110 => ⟨S50000x128, .f32⟩
  | 111 => ⟨S50000x4x32, .f32⟩
  | 112 => ⟨S800000x128, .f32⟩
  | 113 => ⟨S800000x4x32, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x4x32, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x4x32, .f32⟩
  | 4 => ⟨S800000x4x32, .f32⟩
  | 5 => ⟨S_, .f32⟩
  | 6 => ⟨S800000x4x32, .f32⟩
  | 7 => ⟨S800000x4x32, .f32⟩
  | 8 => ⟨S_, .f32⟩
  | 9 => ⟨S_, .f32⟩
  | 10 => ⟨S_, .f32⟩
  | 11 => ⟨S800000x4x32, .f32⟩
  | 12 => ⟨S800000x4x32, .f32⟩
  | 13 => ⟨S_, .f32⟩
  | 14 => ⟨S800000x4x32, .f32⟩
  | 15 => ⟨S800000x4x32, .f32⟩
  | 16 => ⟨S800000x4x32, .f32⟩
  | 17 => ⟨S_, .f32⟩
  | 18 => ⟨S800000x4, .f32⟩
  | 19 => ⟨S800000x4x1, .f32⟩
  | 20 => ⟨S_, .f32⟩
  | 21 => ⟨S_, .f32⟩
  | 22 => ⟨S_, .f32⟩
  | 23 => ⟨S800000x4x1, .f32⟩
  | 24 => ⟨S800000x4x1, .f32⟩
  | 25 => ⟨S_, .f32⟩
  | 26 => ⟨S800000x4x1, .f32⟩
  | 27 => ⟨S800000x4x1, .f32⟩
  | 28 => ⟨S800000x4x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x4x32, .f32⟩
  | 38 => ⟨S800000x4x32, .f32⟩
  | 39 => ⟨S800000x4x32, .f32⟩
  | 40 => ⟨S_, .f32⟩
  | 41 => ⟨S50000x4x32, .f32⟩
  | 42 => ⟨S800000x1, .i32⟩
  | 43 => ⟨S50000x4x32, .f32⟩
  | 44 => ⟨S_, .f32⟩
  | 45 => ⟨S50000x4x1, .f32⟩
  | 46 => ⟨S800000x1, .i32⟩
  | 47 => ⟨S50000x4x1, .f32⟩
  | 48 => ⟨S_, .f32⟩
  | 49 => ⟨S50000x4x1, .f32⟩
  | 50 => ⟨S50000x4x1, .f32⟩
  | 51 => ⟨S50000x4x32, .f32⟩
  | 52 => ⟨S50000x4x32, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S50000x128, .f32⟩
  | 59 => ⟨S_, .f32⟩
  | 60 => ⟨S128, .f32⟩
  | 61 => ⟨S_, .f32⟩
  | 62 => ⟨S128, .f32⟩
  | 63 => ⟨S128, .f32⟩
  | 64 => ⟨S_, .i32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S50000x128, .f32⟩
  | 72 => ⟨S50000x128, .f32⟩
  | 73 => ⟨S50000x128, .f32⟩
  | 74 => ⟨S_, .f32⟩
  | 75 => ⟨S_, .f32⟩
  | 76 => ⟨S_, .f32⟩
  | 77 => ⟨S_, .f32⟩
  | 78 => ⟨S128, .f32⟩
  | 79 => ⟨S128, .f32⟩
  | 80 => ⟨S128, .f32⟩
  | 81 => ⟨S_, .f32⟩
  | 82 => ⟨S_, .i1⟩
  | 83 => ⟨S_, .f32⟩
  | 84 => ⟨S_, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x256, .f32⟩
  | 104 => ⟨S50000x256, .f32⟩
  | 105 => ⟨S50000x256, .f32⟩
  | 106 => ⟨S_, .f32⟩
  | 107 => ⟨S50000x256, .f32⟩
  | 108 => ⟨S50000x256, .f32⟩
  | 109 => ⟨S_, .f32⟩
  | 110 => ⟨S50000x256, .f32⟩
  | 111 => ⟨S50000x256, .f32⟩
  | 112 => ⟨S50000x256, .f32⟩
  | 113 => ⟨S50000x128, .f32⟩
  | 114 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst_1 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_2 : Ref sig .tc := ⟨.hbm, 62, rfl⟩
abbrev main_v19 : Ref sig .tc := ⟨.hbm, 63, rfl⟩
abbrev main_cst_3 : Ref sig .tc := ⟨.hbm, 64, rfl⟩
abbrev main_v20 : Ref sig .tc := ⟨.hbm, 65, rfl⟩
abbrev main_v21 : Ref sig .tc := ⟨.hbm, 66, rfl⟩
abbrev main_c_4 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_cst_3 : Ref sig .tc := ⟨.hbm, 84, rfl⟩
abbrev main_call1_v12 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_cst_5 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_c_6 : Ref sig .tc := ⟨.hbm, 114, rfl⟩
abbrev main_v46 : Ref sig .tc := ⟨.hbm, 115, rfl⟩
abbrev main_v47 : Ref sig .tc := ⟨.hbm, 116, rfl⟩
abbrev main_c_7 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_c_8 : Ref sig .tc := ⟨.hbm, 123, rfl⟩
abbrev main_v53 : Ref sig .tc := ⟨.hbm, 124, rfl⟩
abbrev main_v54 : Ref sig .tc := ⟨.hbm, 125, rfl⟩
abbrev main_c_9 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_cst_10 : Ref sig .tc := ⟨.hbm, 133, rfl⟩
abbrev main_v61 : Ref sig .tc := ⟨.hbm, 134, rfl⟩
abbrev main_v62 : Ref sig .tc := ⟨.hbm, 135, rfl⟩
abbrev main_cst_11 : Ref sig .tc := ⟨.hbm, 136, rfl⟩
abbrev main_cst_12 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_v63 : Ref sig .tc := ⟨.hbm, 143, rfl⟩
abbrev main_v64 : Ref sig .tc := ⟨.hbm, 144, rfl⟩
abbrev main_cst_13 : Ref sig .tc := ⟨.hbm, 145, rfl⟩
abbrev main_v65 : Ref sig .tc := ⟨.hbm, 146, rfl⟩
abbrev main_v66 : Ref sig .tc := ⟨.hbm, 147, rfl⟩
abbrev main_cst_14 : Ref sig .tc := ⟨.hbm, 148, rfl⟩
abbrev main_cst_15 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_v67 : Ref sig .tc := ⟨.hbm, 155, rfl⟩
abbrev main_v68 : Ref sig .tc := ⟨.hbm, 156, rfl⟩
abbrev main_c_16 : Ref sig .tc := ⟨.hbm, 157, rfl⟩
abbrev main_v69 : Ref sig .tc := ⟨.hbm, 158, rfl⟩
abbrev main_v70 : Ref sig .tc := ⟨.hbm, 159, rfl⟩
abbrev main_c_17 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_cst_18 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_cst_19 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_cst_20 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_cst_21 : Ref sig .tc := ⟨.hbm, 187, rfl⟩
abbrev main_v94 : Ref sig .tc := ⟨.hbm, 188, rfl⟩
abbrev main_cst_22 : Ref sig .tc := ⟨.hbm, 189, rfl⟩
abbrev main_v95 : Ref sig .tc := ⟨.hbm, 190, rfl⟩
abbrev main_v96 : Ref sig .tc := ⟨.hbm, 191, rfl⟩
abbrev main_c_23 : Ref sig .tc := ⟨.hbm, 192, rfl⟩
abbrev main_call4_cst : Ref sig .tc := ⟨.hbm, 193, rfl⟩
abbrev main_call4_v0 : Ref sig .tc := ⟨.hbm, 194, rfl⟩
abbrev main_call4_v1 : Ref sig .tc := ⟨.hbm, 195, rfl⟩
abbrev main_call4_cst_0 : Ref sig .tc := ⟨.hbm, 196, rfl⟩
abbrev main_call4_v2 : Ref sig .tc := ⟨.hbm, 197, rfl⟩
abbrev main_call4_v3 : Ref sig .tc := ⟨.hbm, 198, rfl⟩
abbrev main_call4_v4 : Ref sig .tc := ⟨.hbm, 199, rfl⟩
abbrev main_call4_v5 : Ref sig .tc := ⟨.hbm, 200, rfl⟩
abbrev main_call4_v6 : Ref sig .tc := ⟨.hbm, 201, rfl⟩
abbrev main_call4_v7 : Ref sig .tc := ⟨.hbm, 202, rfl⟩
abbrev main_call4_cst_1 : Ref sig .tc := ⟨.hbm, 203, rfl⟩
abbrev main_call4_v8 : Ref sig .tc := ⟨.hbm, 204, rfl⟩
abbrev main_call4_cst_2 : Ref sig .tc := ⟨.hbm, 205, rfl⟩
abbrev main_call4_v9 : Ref sig .tc := ⟨.hbm, 206, rfl⟩
abbrev main_call4_v10 : Ref sig .tc := ⟨.hbm, 207, rfl⟩
abbrev main_call4_v11 : Ref sig .tc := ⟨.hbm, 208, rfl⟩
abbrev main_call4_cst_3 : Ref sig .tc := ⟨.hbm, 209, rfl⟩
abbrev main_call4_v12 : Ref sig .tc := ⟨.hbm, 210, rfl⟩
abbrev main_call4_cst_4 : Ref sig .tc := ⟨.hbm, 211, rfl⟩
abbrev main_call4_call0_v0 : Ref sig .tc := ⟨.hbm, 212, rfl⟩
abbrev main_call4_call0_v1 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_cst_24 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_call5_v0 : Ref sig .tc := ⟨.hbm, 232, rfl⟩
abbrev main_call5_v1 : Ref sig .tc := ⟨.hbm, 233, rfl⟩
abbrev main_call5_cst : Ref sig .tc := ⟨.hbm, 234, rfl⟩
abbrev main_call5_v2 : Ref sig .tc := ⟨.hbm, 235, rfl⟩
abbrev main_call5_v3 : Ref sig .tc := ⟨.hbm, 236, rfl⟩
abbrev main_call5_cst_0 : Ref sig .tc := ⟨.hbm, 237, rfl⟩
abbrev main_call5_v4 : Ref sig .tc := ⟨.hbm, 238, rfl⟩
abbrev main_call5_v5 : Ref sig .tc := ⟨.hbm, 239, rfl⟩
abbrev main_v114 : Ref sig .tc := ⟨.hbm, 240, rfl⟩
abbrev main_v115 : Ref sig .tc := ⟨.hbm, 241, rfl⟩
abbrev main_v116 : Ref sig .tc := ⟨.hbm, 242, rfl⟩

abbrev nD : Nat := 1
abbrev τ : Topo := Topo.v7x

variable {F : FTy → Type} [FloatOps F]

class Facts₀ : Prop where
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  reducesTo_S800000x128_S128_d0 : S800000x128.ReducesTo [0] S128
  bcast_S1x128_S800000x128_0_1 : S1x128.BroadcastsInDim S800000x128 (![0, 1] : Fin 2 → Fin S800000x128.rank)
  shapeCasts_S50000x128_S50000x4x32 : S50000x128.ShapeCasts S50000x4x32
  shapeCasts_S800000x128_S800000x4x32 : S800000x128.ShapeCasts S800000x4x32
  bcast_S_S800000 : S_.BroadcastsInDim S800000 (![] : Fin 0 → Fin S800000.rank)
  bcast_S800000_S800000x1_0 : S800000.BroadcastsInDim S800000x1 (![0] : Fin 1 → Fin S800000x1.rank)
  bcast_S_S800000x4x32 : S_.BroadcastsInDim S800000x4x32 (![] : Fin 0 → Fin S800000x4x32.rank)
  reducesTo_S800000x4x32_S800000x4_d2 : S800000x4x32.ReducesTo [2] S800000x4
  bcast_S800000x4_S800000x4x1_0_1 : S800000x4.BroadcastsInDim S800000x4x1 (![0, 1] : Fin 2 → Fin S800000x4x1.rank)
  bcast_S_S800000x4x1 : S_.BroadcastsInDim S800000x4x1 (![] : Fin 0 → Fin S800000x4x1.rank)
  bcast_S800000x4x1_S800000x4x32_0_1_2 : S800000x4x1.BroadcastsInDim S800000x4x32 (![0, 1, 2] : Fin 3 → Fin S800000x4x32.rank)
  bcast_S_S50000x4x32 : S_.BroadcastsInDim S50000x4x32 (![] : Fin 0 → Fin S50000x4x32.rank)
  bcast_S_S50000x4x1 : S_.BroadcastsInDim S50000x4x1 (![] : Fin 0 → Fin S50000x4x1.rank)
  bcast_S50000x4x1_S50000x4x32_0_1_2 : S50000x4x1.BroadcastsInDim S50000x4x32 (![0, 1, 2] : Fin 3 → Fin S50000x4x32.rank)
  shapeCasts_S50000x4x32_S50000x128 : S50000x4x32.ShapeCasts S50000x128
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x4x32_S800000x1_S800000x4x32_12_0_n_n_0_1_1432_wf : GatherDims.WF S50000x4x32 S800000x1 S800000x4x32 [1, 2] [0] [] [0] [] 1 ![1, 4, 32]
  scatter_S50000x4x32_S800000x1_S800000x4x32_12_0_0_1_wf : ScatterDims.WF S50000x4x32 S800000x1 S800000x4x32 [1, 2] [0] [0] 1
  scatter_S50000x4x1_S800000x1_S800000x4x1_12_0_0_1_wf : ScatterDims.WF S50000x4x1 S800000x1 S800000x4x1 [1, 2] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x4x32_S800000x1_S800000x4x32_12_0_n_n_0_1_1432 : GatherDims S50000x4x32 S800000x1 S800000x4x32 where
  offsetDims := [1, 2]
  collapsedSliceDims := [0]
  operandBatchingDims := []
  startIndicesBatchingDims := []
  startIndexMap := [0]
  indexVectorDim := 1
  sliceSizes := ![1, 4, 32]
  wf := gather_S50000x4x32_S800000x1_S800000x4x32_12_0_n_n_0_1_1432_wf
def scatter_S50000x4x32_S800000x1_S800000x4x32_12_0_0_1 : ScatterDims S50000x4x32 S800000x1 S800000x4x32 where
  updateWindowDims := [1, 2]
  insertedWindowDims := [0]
  scatterDimsToOperandDims := [0]
  indexVectorDim := 1
  wf := scatter_S50000x4x32_S800000x1_S800000x4x32_12_0_0_1_wf
def scatter_S50000x4x1_S800000x1_S800000x4x1_12_0_0_1 : ScatterDims S50000x4x1 S800000x1 S800000x4x1 where
  updateWindowDims := [1, 2]
  insertedWindowDims := [0]
  scatterDimsToOperandDims := [0]
  indexVectorDim := 1
  wf := scatter_S50000x4x1_S800000x1_S800000x4x1_12_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KI.Region0.lean ====
import proofs.«163757_j14508399526691_2_alg».proof.Proof.Gen.KernelIdeal.Launch
import proofs.«163757_j14508399526691_2_alg».proof.Proof.Gen.KernelIdeal.Skeleton
import proofs.«163757_j14508399526691_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1
-- the two rows are reset at the first point only
theorem hcond0_0 : ∀ t : Fin cfg0.N, cond0_0 (grid0.coords t) ↔ t.val % 10 = 0 :=
  (by decide +kernel : ∀ t : Fin grid0.N, cond0_0 (grid0.coords t) ↔ t.val % 10 = 0)

abbrev hs0_0 (t : Fin cfg0.N) : (win0_0.stage (cfg0.slots t 0)).IsWhole := hstage0_0 ((cfg0.slots t 0).cast nbuf0_0)
abbrev hs0_1 (t : Fin cfg0.N) : (win0_1.stage (cfg0.slots t 1)).IsWhole := hstage0_1 ((cfg0.slots t 1).cast nbuf0_1)
abbrev hs0_2 (t : Fin cfg0.N) : (win0_2.stage (cfg0.slots t 2)).IsWhole := hstage0_2 ((cfg0.slots t 2).cast nbuf0_2)

section Run
variable (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole)

-- a run from `pre`: the body leaves the input as it was and each row at the pieces it stored
abbrev Run0 (x0 : Vec F S5000x128 .f32) (pre : sProp 𝕄) : Type :=
  Σ' (L1 : List (View.Piece (Elt F) S1x128 .f32)), { L2 : List (View.Piece (Elt F) S1x128 .f32) //
    ∀ (E : Set ℕ) (K : PUnit → sProp 𝕄),
      iprop(owns (c : Thread nD τ) arg1 fullShare x0 ∗ pre
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
        ⊢ wp frame (wpE (defs₀ (F := F)) Variants.none c none) E (cc0__bn_stats_kernel i arg1 harg1 arg2 harg2 arg3 harg3) K }

-- the reset taken: whatever the two rows held
def kernelRun0_A (hc0 : cond0_0 i) (x0 : Vec F S5000x128 .f32) :
    Run0 c i arg1 harg1 arg2 harg2 arg3 harg3 x0 iprop((∃ d, owns (c : Thread nD τ) arg2 fullShare d) ∗ (∃ d, owns (c : Thread nD τ) arg3 fullShare d)) := by
  refine ⟨?_, ?_, fun E K => ?run⟩
  case run =>
    simp only [cc0__bn_stats_kernel_eq_skeleton]; unfold cc0__bn_stats_kernel_skel
    unfold owns
    iintro ⟨⟨%f0, %hf0, H0⟩, ⟨⟨%d1, %f1, -, H1⟩, ⟨%d2, %f2, -, H2⟩⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    iexists _; iexact H2

-- the reset not taken: from the rows the point before left, which the body reads before it stores over them
def kernelRun0_B (hc0 : ¬cond0_0 i) (x0 : Vec F S5000x128 .f32) (xo1 xo2 : Vec F S1x128 .f32) :
    Run0 c i arg1 harg1 arg2 harg2 arg3 harg3 x0 iprop(owns (c : Thread nD τ) arg2 fullShare xo1 ∗ owns (c : Thread nD τ) arg3 fullShare xo2) := by
  refine ⟨?_, ?_, fun E K => ?run⟩
  case run =>
    simp only [cc0__bn_stats_kernel_eq_skeleton]; unfold cc0__bn_stats_kernel_skel
    unfold owns
    iintro ⟨⟨%f0, %hf0, H0⟩, ⟨⟨%f1, %hf1, H1⟩, ⟨%f2, %hf2, H2⟩⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]; · iexists _; iexact H1
    iexists _; iexact H2

end Run

def runA0 (t : Fin cfg0.N) (h0 : t.val % 10 = 0) :=
  kernelRun0_A c (grid0.coords t) _ (hs0_0 t) _ (hs0_1 t) _ (hs0_2 t) ((hcond0_0 t).mpr h0) (iblk0 V c 0 t)
def runB0 (t : Fin cfg0.N) (h0 : ¬t.val % 10 = 0) :=
  kernelRun0_B c (grid0.coords t) _ (hs0_0 t) _ (hs0_1 t) _ (hs0_2 t) (fun h => h0 ((hcond0_0 t).mp h)) (iblk0 V c 0 t)

-- what a point leaves in the two rows: at each index the last store to reach it
def outA0 (t : Fin cfg0.N) (h0 : t.val % 10 = 0) : Vec F S1x128 .f32 × Vec F S1x128 .f32 :=
  (View.canon (runA0 V c t h0).1, View.canon (runA0 V c t h0).2.1)
def outB0 (t : Fin cfg0.N) (h0 : ¬t.val % 10 = 0) (p : Vec F S1x128 .f32 × Vec F S1x128 .f32) : Vec F S1x128 .f32 × Vec F S1x128 .f32 :=
  (View.canon (runB0 V c t h0 p.1 p.2).1, View.canon (runB0 V c t h0 p.1 p.2).2.1)

-- the two rows after point n: a point that does not reset reads what the point before left
def outsAt0 : (n : ℕ) → n < cfg0.N → Vec F S1x128 .f32 × Vec F S1x128 .f32
  | 0, hn => outA0 V c ⟨0, hn⟩ (Nat.zero_mod _)
  | n + 1, hn =>
    if h0 : (n + 1) % 10 = 0 then outA0 V c ⟨n + 1, hn⟩ h0
    else outB0 V c ⟨n + 1, hn⟩ h0 (outsAt0 n (Nat.lt_of_succ_lt hn))

theorem outsAt0_A (t : Fin cfg0.N) (h0 : t.val % 10 = 0) : outsAt0 V c t.val t.isLt = outA0 V c t h0 := by
  obtain ⟨n, hn⟩ := t
  cases n with
  | zero => rfl
  | succ n => exact dif_pos h0

theorem outsAt0_B (t : Fin cfg0.N) (h0 : ¬t.val % 10 = 0) :
    outsAt0 V c t.val t.isLt = outB0 V c t h0 (outsAt0 V c (t.val - 1) (Nat.lt_of_le_of_lt (Nat.sub_le _ _) t.isLt)) := by
  obtain ⟨n, hn⟩ := t
  cases n with
  | zero => exact absurd (Nat.zero_mod _) h0
  | succ n => exact dif_neg h0

def dat0 : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (w : Fin cfg0.W) : (dat0 V c).A w = V c (Pipeline.arrRef spec0 w) := rfl

theorem after0_0 (t : Fin cfg0.N) : (dat0 V c).after 0 t = iblk0 V c 0 t := rfl
theorem after0_1 (t : Fin cfg0.N) : (dat0 V c).after 1 t = (outsAt0 V c t.val t.isLt).1 := rfl
theorem after0_2 (t : Fin cfg0.N) : (dat0 V c).after 2 t = (outsAt0 V c t.val t.isLt).2 := rfl

theorem before0_0 (t : Fin cfg0.N) (d) : (dat0 V c).before 0 t d = iblk0 V c 0 t :=
  ((dat0 V c).before_in_eq_fetched 0 rfl (fun _ => rfl) (fun _ _ _ => rfl) (fun _ => rfl) t d).trans rfl

theorem before0_B (t : Fin cfg0.N) (h0 : ¬t.val % 10 = 0) :
    (∀ d, (dat0 V c).before 1 t d = (outsAt0 V c (t.val - 1) (Nat.lt_of_le_of_lt (Nat.sub_le _ _) t.isLt)).1)
    ∧ ∀ d, (dat0 V c).before 2 t d = (outsAt0 V c (t.val - 1) (Nat.lt_of_le_of_lt (Nat.sub_le _ _) t.isLt)).2 := by
  have hN : t.val < 10 := lt_of_lt_of_eq t.isLt (show cfg0.N = 10 from N_0)
  constructor <;> intro d
  · rw [Dat.before_out_kept _ 1 rfl t (by omega) (Bool.eq_false_iff.mpr fun h => by have := (flush0_1 _).mp h; dsimp only at this; omega)
      (fun _ => rfl) (fun _ _ => rfl)]
    rfl
  · rw [Dat.before_out_kept _ 2 rfl t (by omega) (Bool.eq_false_iff.mpr fun h => by have := (flush0_2 _).mp h; dsimp only at this; omega)
      (fun _ => rfl) (fun _ _ => rfl)]
    rfl

-- at every point that case's run applies; its stores tile each row, so the row reads back as the last store at each index
theorem body_obligation0 : BodyObligation (dat0 (F := F) V c) (defs₀ (F := F)) Variants.none () Set.univ := fun t => by
  rw [bigSep_W0, bigSep_W0]
  simp only [before0_0]
  change _ ⊢ wp _ _ _ (bodyAt0 t) _
  unfold bodyAt0
  rw [show (dat0 V c).Φ t.succ = (dat0 V c).Φ t.castSucc from rfl, show (dat0 V c).owesAt () t.succ = (dat0 V c).owesAt () t.castSucc from rfl,
    after0_0, after0_1, after0_2]
  by_cases h0 : t.val % 10 = 0
  on_goal 1 =>
    rw [outsAt0_A V c t h0]
    unfold outA0; (try dsimp only)
    iintro ⟨HΦ, Ho, ⟨%d0, H0⟩, ⟨%d1, H1⟩, ⟨%d2, H2⟩⟩
    iapply ((runA0 V c t h0).2.2 Set.univ _)
  on_goal 2 =>
    rw [outsAt0_B V c t h0]
    simp only [(before0_B V c t h0).1, (before0_B V c t h0).2]
    unfold outB0; (try dsimp only)
    iintro ⟨HΦ, Ho, ⟨%d0, H0⟩, ⟨%d1, H1⟩, ⟨%d2, H2⟩⟩
    iapply ((runB0 V c t h0 _ _).2.2 Set.univ _)
  all_goals
    isplitl [H0]; · iexact H0
    isplitl [H1 H2]
    · isplitl [H1]; · first | iexact H1 | (iexists _; iexact H1)
      first | iexact H2 | (iexists _; iexact H2)
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (View.cover_of_tiledL _ S1x128.size (by sl_kernel_rfl))
    unfold owns; iexists _; isplitr
    swap; · iexact H2
    ipureintro; exact View.read_writes_eq_canon _ _ _ (View.cover_of_tiledL _ S1x128.size (by sl_kernel_rfl))

end Region0

end Cert.KernelIdeal.Hand

end
-- ==== Proof.KI.Region1.lean ====
import proofs.«163757_j14508399526691_2_alg».proof.Proof.Gen.KernelIdeal.Launch
import proofs.«163757_j14508399526691_2_alg».proof.Proof.Gen.KernelIdeal.Skeleton
import proofs.«163757_j14508399526691_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
-- the two rows are reset at the first point only
theorem hcond1_0 : ∀ t : Fin cfg1.N, cond1_0 (grid1.coords t) ↔ t.val % 100 = 0 :=
  (by decide +kernel : ∀ t : Fin grid1.N, cond1_0 (grid1.coords t) ↔ t.val % 100 = 0)

abbrev hs1_0 (t : Fin cfg1.N) : (win1_0.stage (cfg1.slots t 0)).IsWhole := hstage1_0 ((cfg1.slots t 0).cast nbuf1_0)
abbrev hs1_1 (t : Fin cfg1.N) : (win1_1.stage (cfg1.slots t 1)).IsWhole := hstage1_1 ((cfg1.slots t 1).cast nbuf1_1)
abbrev hs1_2 (t : Fin cfg1.N) : (win1_2.stage (cfg1.slots t 2)).IsWhole := hstage1_2 ((cfg1.slots t 2).cast nbuf1_2)

section Run
variable (i : grid1.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole)

-- a run from `pre`: the body leaves the input as it was and each row at the pieces it stored
abbrev Run1 (x0 : Vec F S8000x128 .f32) (pre : sProp 𝕄) : Type :=
  Σ' (L1 : List (View.Piece (Elt F) S1x128 .f32)), { L2 : List (View.Piece (Elt F) S1x128 .f32) //
    ∀ (E : Set ℕ) (K : PUnit → sProp 𝕄),
      iprop(owns (c : Thread nD τ) arg1 fullShare x0 ∗ pre
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
        ⊢ wp frame (wpE (defs₀ (F := F)) Variants.none c none) E (cc1__bn_stats_kernel i arg1 harg1 arg2 harg2 arg3 harg3) K }

-- the reset taken: whatever the two rows held
def kernelRun1_A (hc0 : cond1_0 i) (x0 : Vec F S8000x128 .f32) :
    Run1 c i arg1 harg1 arg2 harg2 arg3 harg3 x0 iprop((∃ d, owns (c : Thread nD τ) arg2 fullShare d) ∗ (∃ d, owns (c : Thread nD τ) arg3 fullShare d)) := by
  refine ⟨?_, ?_, fun E K => ?run⟩
  case run =>
    simp only [cc1__bn_stats_kernel_eq_skeleton]; unfold cc1__bn_stats_kernel_skel
    unfold owns
    iintro ⟨⟨%f0, %hf0, H0⟩, ⟨⟨%d1, %f1, -, H1⟩, ⟨%d2, %f2, -, H2⟩⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    iexists _; iexact H2

-- the reset not taken: from the rows the point before left, which the body reads before it stores over them
def kernelRun1_B (hc0 : ¬cond1_0 i) (x0 : Vec F S8000x128 .f32) (xo1 xo2 : Vec F S1x128 .f32) :
    Run1 c i arg1 harg1 arg2 harg2 arg3 harg3 x0 iprop(owns (c : Thread nD τ) arg2 fullShare xo1 ∗ owns (c : Thread nD τ) arg3 fullShare xo2) := by
  refine ⟨?_, ?_, fun E K => ?run⟩
  case run =>
    simp only [cc1__bn_stats_kernel_eq_skeleton]; unfold cc1__bn_stats_kernel_skel
    unfold owns
    iintro ⟨⟨%f0, %hf0, H0⟩, ⟨⟨%f1, %hf1, H1⟩, ⟨%f2, %hf2, H2⟩⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]; · iexists _; iexact H1
    iexists _; iexact H2

end Run

def runA1 (t : Fin cfg1.N) (h0 : t.val % 100 = 0) :=
  kernelRun1_A c (grid1.coords t) _ (hs1_0 t) _ (hs1_1 t) _ (hs1_2 t) ((hcond1_0 t).mpr h0) (iblk1 V c 0 t)
def runB1 (t : Fin cfg1.N) (h0 : ¬t.val % 100 = 0) :=
  kernelRun1_B c (grid1.coords t) _ (hs1_0 t) _ (hs1_1 t) _ (hs1_2 t) (fun h => h0 ((hcond1_0 t).mp h)) (iblk1 V c 0 t)

-- what a point leaves in the two rows: at each index the last store to reach it
def outA1 (t : Fin cfg1.N) (h0 : t.val % 100 = 0) : Vec F S1x128 .f32 × Vec F S1x128 .f32 :=
  (View.canon (runA1 V c t h0).1, View.canon (runA1 V c t h0).2.1)
def outB1 (t : Fin cfg1.N) (h0 : ¬t.val % 100 = 0) (p : Vec F S1x128 .f32 × Vec F S1x128 .f32) : Vec F S1x128 .f32 × Vec F S1x128 .f32 :=
  (View.canon (runB1 V c t h0 p.1 p.2).1, View.canon (runB1 V c t h0 p.1 p.2).2.1)

-- the two rows after point n: a point that does not reset reads what the point before left
def outsAt1 : (n : ℕ) → n < cfg1.N → Vec F S1x128 .f32 × Vec F S1x128 .f32
  | 0, hn => outA1 V c ⟨0, hn⟩ (Nat.zero_mod _)
  | n + 1, hn =>
    if h0 : (n + 1) % 100 = 0 then outA1 V c ⟨n + 1, hn⟩ h0
    else outB1 V c ⟨n + 1, hn⟩ h0 (outsAt1 n (Nat.lt_of_succ_lt hn))

theorem outsAt1_A (t : Fin cfg1.N) (h0 : t.val % 100 = 0) : outsAt1 V c t.val t.isLt = outA1 V c t h0 := by
  obtain ⟨n, hn⟩ := t
  cases n with
  | zero => rfl
  | succ n => exact dif_pos h0

theorem outsAt1_B (t : Fin cfg1.N) (h0 : ¬t.val % 100 = 0) :
    outsAt1 V c t.val t.isLt = outB1 V c t h0 (outsAt1 V c (t.val - 1) (Nat.lt_of_le_of_lt (Nat.sub_le _ _) t.isLt)) := by
  obtain ⟨n, hn⟩ := t
  cases n with
  | zero => exact absurd (Nat.zero_mod _) h0
  | succ n => exact dif_neg h0

def dat1 : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

theorem A_eq1 (w : Fin cfg1.W) : (dat1 V c).A w = V c (Pipeline.arrRef spec1 w) := rfl

theorem after1_0 (t : Fin cfg1.N) : (dat1 V c).after 0 t = iblk1 V c 0 t := rfl
theorem after1_1 (t : Fin cfg1.N) : (dat1 V c).after 1 t = (outsAt1 V c t.val t.isLt).1 := rfl
theorem after1_2 (t : Fin cfg1.N) : (dat1 V c).after 2 t = (outsAt1 V c t.val t.isLt).2 := rfl

theorem before1_0 (t : Fin cfg1.N) (d) : (dat1 V c).before 0 t d = iblk1 V c 0 t :=
  ((dat1 V c).before_in_eq_fetched 0 rfl (fun _ => rfl) (fun _ _ _ => rfl) (fun _ => rfl) t d).trans rfl

theorem before1_B (t : Fin cfg1.N) (h0 : ¬t.val % 100 = 0) :
    (∀ d, (dat1 V c).before 1 t d = (outsAt1 V c (t.val - 1) (Nat.lt_of_le_of_lt (Nat.sub_le _ _) t.isLt)).1)
    ∧ ∀ d, (dat1 V c).before 2 t d = (outsAt1 V c (t.val - 1) (Nat.lt_of_le_of_lt (Nat.sub_le _ _) t.isLt)).2 := by
  have hN : t.val < 100 := lt_of_lt_of_eq t.isLt (show cfg1.N = 100 from N_1)
  constructor <;> intro d
  · rw [Dat.before_out_kept _ 1 rfl t (by omega) (Bool.eq_false_iff.mpr fun h => by have := (flush1_1 _).mp h; dsimp only at this; omega)
      (fun _ => rfl) (fun _ _ => rfl)]
    rfl
  · rw [Dat.before_out_kept _ 2 rfl t (by omega) (Bool.eq_false_iff.mpr fun h => by have := (flush1_2 _).mp h; dsimp only at this; omega)
      (fun _ => rfl) (fun _ _ => rfl)]
    rfl

-- at every point that case's run applies; its stores tile each row, so the row reads back as the last store at each index
theorem body_obligation1 : BodyObligation (dat1 (F := F) V c) (defs₀ (F := F)) Variants.none () Set.univ := fun t => by
  rw [bigSep_W1, bigSep_W1]
  simp only [before1_0]
  change _ ⊢ wp _ _ _ (bodyAt1 t) _
  unfold bodyAt1
  rw [show (dat1 V c).Φ t.succ = (dat1 V c).Φ t.castSucc from rfl, show (dat1 V c).owesAt () t.succ = (dat1 V c).owesAt () t.castSucc from rfl,
    after1_0, after1_1, after1_2]
  by_cases h0 : t.val % 100 = 0
  on_goal 1 =>
    rw [outsAt1_A V c t h0]
    unfold outA1; (try dsimp only)
    iintro ⟨HΦ, Ho, ⟨%d0, H0⟩, ⟨%d1, H1⟩, ⟨%d2, H2⟩⟩
    iapply ((runA1 V c t h0).2.2 Set.univ _)
  on_goal 2 =>
    rw [outsAt1_B V c t h0]
    simp only [(before1_B V c t h0).1, (before1_B V c t h0).2]
    unfold outB1; (try dsimp only)
    iintro ⟨HΦ, Ho, ⟨%d0, H0⟩, ⟨%d1, H1⟩, ⟨%d2, H2⟩⟩
    iapply ((runB1 V c t h0 _ _).2.2 Set.univ _)
  all_goals
    isplitl [H0]; · iexact H0
    isplitl [H1 H2]
    · isplitl [H1]; · first | iexact H1 | (iexists _; iexact H1)
      first | iexact H2 | (iexists _; iexact H2)
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (View.cover_of_tiledL _ S1x128.size (by sl_kernel_rfl))
    unfold owns; iexists _; isplitr
    swap; · iexact H2
    ipureintro; exact View.read_writes_eq_canon _ _ _ (View.cover_of_tiledL _ S1x128.size (by sl_kernel_rfl))

end Region1

end Cert.KernelIdeal.Hand

end
-- ==== Proof.KI.Region2.lean ====
import proofs.«163757_j14508399526691_2_alg».proof.Proof.Gen.KernelIdeal.Launch
import proofs.«163757_j14508399526691_2_alg».proof.Proof.Gen.KernelIdeal.Skeleton
import proofs.«163757_j14508399526691_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S128x384 := Rect.unit (s := S128x384) ![0, 0] S128x384.size inb_S128x384_S128x384_0_0
abbrev r2_3 : Rect S5000x384 := Rect.unit (s := S5000x384) ![0, 0] S5000x384.size inb_S5000x384_S5000x384_0_0

def out2_6 (x0 : Vec F S5000x128 .f32) (x1 x2 x3 x4 : Vec F S1x128 .f32) (x5 : Vec F S128x384 .f32) : Vec F S5000x384 .f32 :=
  View.canon [⟨r2_3, k2_pay1 (View.ld x0 r2_0) (View.ld x2 r2_1) (View.ld x1 r2_1) (View.ld x3 r2_1) (View.ld x4 r2_1) (View.ld x5 r2_2)⟩]

set_option maxHeartbeats 1000000 in
/-- The one store covers the whole output, so the output ends as `out2_6` of the inputs, which are only read. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x384 .f32) (harg6 : arg6.IsWhole) (arg7 : Memref sig .tc .vmem S5000x384 .f32) (harg7 : arg7.IsWhole)
    (x0 : Vec F S5000x128 .f32) (x1 x2 x3 x4 : Vec F S1x128 .f32) (x5 : Vec F S128x384 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out2_6 x0 x1 x2 x3 x4 x5)) -∗ K ⟨⟩))
      ⊢ wp frame (wpE (defs₀ (F := F)) Variants.none c none) E (cc2__bn_mm_kernel i arg1 harg1 arg2 harg2 arg3 harg3 arg4 harg4 arg5 harg5 arg6 harg6 arg7 harg7) K := by
  simp only [cc2__bn_mm_kernel_eq_skeleton]; unfold cc2__bn_mm_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x384.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem before2 (c : Dev nD) (t : Fin cfg2.N) :
    ∀ (w : Fin cfg2.W) (_ : (cfg2.win w).isOut = false) (d), (dat2 V c).before w t d = (dat2 V c).after w t
  | ⟨6, _⟩, h, _ => Bool.noConfusion h
  | ⟨0, _⟩, h, d | ⟨1, _⟩, h, d | ⟨2, _⟩, h, d | ⟨3, _⟩, h, d | ⟨4, _⟩, h, d | ⟨5, _⟩, h, d =>
    ((dat2 V c).before_in_eq_fetched _ h (fun _ => rfl) (fun _ _ _ => rfl) (fun _ => rfl) t d).trans rfl

/-- At a point the inputs are their blocks (`before2`), so `sound_kernel2` applies and the invariant is framed. -/
theorem body_obligation2 (c : Dev nD) : BodyObligation (dat2 (F := F) V c) (defs₀ (F := F)) Variants.none () Set.univ := fun t => by
  have hb := before2 V c t
  simp only [bigSep_W2, hb 0 rfl, hb 1 rfl, hb 2 rfl, hb 3 rfl, hb 4 rfl, hb 5 rfl]
  show _ ⊢ wp _ _ _ (bodyAt2 t) fun _ => iprop(_ ∗ _ ∗ owns _ _ _ _ ∗ owns _ _ _ _ ∗ owns _ _ _ _ ∗ owns _ _ _ _ ∗ owns _ _ _ _ ∗ owns _ _ _ _ ∗ owns _ _ _ _)
  rw [show (dat2 V c).Φ t.succ = (dat2 V c).Φ t.castSucc from rfl,
    show (dat2 V c).owesAt () t.succ = (dat2 V c).owesAt () t.castSucc from rfl,
    show (dat2 V c).after 6 t = out2_6 ((dat2 V c).after 0 t) ((dat2 V c).after 1 t) ((dat2 V c).after 2 t) ((dat2 V c).after 3 t) ((dat2 V c).after 4 t) ((dat2 V c).after 5 t) by dsimp only [dat2]]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ ((dat2 V c).after 0 t) ((dat2 V c).after 1 t) ((dat2 V c).after 2 t) ((dat2 V c).after 3 t) ((dat2 V c).after 4 t) ((dat2 V c).after 5 t) _)
  iframe H0 H1 H2 H3 H4 H5
  isplitl [H6]; · iexists _; iexact H6
  iintro ⟨H0, H1, H2, H3, H4, H5, H6⟩
  iframe

end Region

end Cert.KernelIdeal.Hand
-- ==== Proof.KI.Region3.lean ====
import proofs.«163757_j14508399526691_2_alg».proof.Proof.Gen.KernelIdeal.Launch
import proofs.«163757_j14508399526691_2_alg».proof.Proof.Gen.KernelIdeal.Skeleton
import proofs.«163757_j14508399526691_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S8000x128 := Rect.unit (s := S8000x128) ![0, 0] S8000x128.size inb_S8000x128_S8000x128_0_0
abbrev r3_1 : Rect S1x128 := Rect.unit (s := S1x128) ![0, 0] S1x128.size inb_S1x128_S1x128_0_0
abbrev r3_2 : Rect S128x128 := Rect.unit (s := S128x128) ![0, 0] S128x128.size inb_S128x128_S128x128_0_0

def out3_6 (x0 : Vec F S8000x128 .f32) (x1 x2 x3 x4 : Vec F S1x128 .f32) (x5 : Vec F S128x128 .f32) : Vec F S8000x128 .f32 :=
  View.canon [⟨r3_0, k3_pay1 (View.ld x0 r3_0) (View.ld x2 r3_1) (View.ld x1 r3_1) (View.ld x3 r3_1) (View.ld x4 r3_1) (View.ld x5 r3_2)⟩]

set_option maxHeartbeats 1000000 in
/-- The one store covers the whole output, so the output ends as `out3_6` of the inputs, which are only read. -/
theorem sound_kernel3 (c : Dev nD) (E : Set ℕ) (i : grid3.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S8000x128 .f32) (harg7 : arg7.IsWhole)
    (x0 : Vec F S8000x128 .f32) (x1 x2 x3 x4 : Vec F S1x128 .f32) (x5 : Vec F S128x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out3_6 x0 x1 x2 x3 x4 x5)) -∗ K ⟨⟩))
      ⊢ wp frame (wpE (defs₀ (F := F)) Variants.none c none) E (cc3__bn_mm_kernel i arg1 harg1 arg2 harg2 arg3 harg3 arg4 harg4 arg5 harg5 arg6 harg6 arg7 harg7) K := by
  simp only [cc3__bn_mm_kernel_eq_skeleton]; unfold cc3__bn_mm_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S8000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem before3 (c : Dev nD) (t : Fin cfg3.N) :
    ∀ (w : Fin cfg3.W) (_ : (cfg3.win w).isOut = false) (d), (dat3 V c).before w t d = (dat3 V c).after w t
  | ⟨6, _⟩, h, _ => Bool.noConfusion h
  | ⟨0, _⟩, h, d | ⟨1, _⟩, h, d | ⟨2, _⟩, h, d | ⟨3, _⟩, h, d | ⟨4, _⟩, h, d | ⟨5, _⟩, h, d =>
    ((dat3 V c).before_in_eq_fetched _ h (fun _ => rfl) (fun _ _ _ => rfl) (fun _ => rfl) t d).trans rfl

/-- At a point the inputs are their blocks (`before3`), so `sound_kernel3` applies and the invariant is framed. -/
theorem body_obligation3 (c : Dev nD) : BodyObligation (dat3 (F := F) V c) (defs₀ (F := F)) Variants.none () Set.univ := fun t => by
  have hb := before3 V c t
  simp only [bigSep_W3, hb 0 rfl, hb 1 rfl, hb 2 rfl, hb 3 rfl, hb 4 rfl, hb 5 rfl]
  show _ ⊢ wp _ _ _ (bodyAt3 t) fun _ => iprop(_ ∗ _ ∗ owns _ _ _ _ ∗ owns _ _ _ _ ∗ owns _ _ _ _ ∗ owns _ _ _ _ ∗ owns _ _ _ _ ∗ owns _ _ _ _ ∗ owns _ _ _ _)
  rw [show (dat3 V c).Φ t.succ = (dat3 V c).Φ t.castSucc from rfl,
    show (dat3 V c).owesAt () t.succ = (dat3 V c).owesAt () t.castSucc from rfl,
    show (dat3 V c).after 6 t = out3_6 ((dat3 V c).after 0 t) ((dat3 V c).after 1 t) ((dat3 V c).after 2 t) ((dat3 V c).after 3 t) ((dat3 V c).after 4 t) ((dat3 V c).after 5 t) by dsimp only [dat3]]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ ((dat3 V c).after 0 t) ((dat3 V c).after 1 t) ((dat3 V c).after 2 t) ((dat3 V c).after 3 t) ((dat3 V c).after 4 t) ((dat3 V c).after 5 t) _)
  iframe H0 H1 H2 H3 H4 H5
  isplitl [H6]; · iexists _; iexact H6
  iintro ⟨H0, H1, H2, H3, H4, H5, H6⟩
  iframe

end Region

end Cert.KernelIdeal.Hand
-- ==== Proof.KI.Region4.lean ====
import proofs.«163757_j14508399526691_2_alg».proof.Proof.Gen.KernelIdeal.Launch
import proofs.«163757_j14508399526691_2_alg».proof.Proof.Gen.KernelIdeal.Skeleton
import proofs.«163757_j14508399526691_2_alg».proof.Proof.Gen.KernelIdeal.Points
import Idealize.ShloMosaic.Lib.Pipeline.FrameBody
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S4000x256 := Rect.unit (s := S4000x256) ![0, 0] S4000x256.size inb_S4000x256_S4000x256_0_0
abbrev r4_1 : Rect S4000x128 := Rect.unit (s := S4000x128) ![0, 0] S4000x128.size inb_S4000x128_S4000x128_0_0
abbrev r4_2 : Rect S128x4 := Rect.unit (s := S128x4) ![0, 0] S128x4.size inb_S128x4_S128x4_0_0
abbrev r4_3 : Rect S4x128 := Rect.unit (s := S4x128) ![0, 0] S4x128.size inb_S4x128_S4x128_0_0
abbrev r4_4 : Rect S4000x256 := Rect.unit (s := S4000x256) ![0, 0] S4000x128.size inb_S4000x256_S4000x128_0_0
abbrev r4_5 : Rect S4000x256 := Rect.unit (s := S4000x256) ![0, 128] S4000x128.size inb_S4000x256_S4000x128_0_128

def out4_5 (x0 : Vec F S4000x256 .f32) (x1 : Vec F S4000x128 .f32) (x2 : Vec F S4000x128 .f32) (x3 : Vec F S128x4 .f32) (x4 : Vec F S4x128 .f32) : Vec F S4000x256 .f32 :=
  View.canon [⟨r4_5, k4_pay2 (View.ld x0 r4_0) (View.ld x1 r4_1) (View.ld x2 r4_1) (View.ld x3 r4_2) (View.ld x4 r4_3)⟩,
    ⟨r4_4, k4_pay3 (View.ld x0 r4_0) (View.ld x1 r4_1) (View.ld x2 r4_1) (View.ld x3 r4_2) (View.ld x4 r4_3)⟩]

set_option maxHeartbeats 1000000 in
theorem sound_kernel4 (c : Dev nD) (E : Set ℕ) (i : grid4.Coords) (arg1 : Memref sig .tc .vmem S4000x256 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x4 .f32) (harg4 : arg4.IsWhole) (arg5 : Memref sig .tc .vmem S4x128 .f32) (harg5 : arg5.IsWhole) (arg6 : Memref sig .tc .vmem S4000x256 .f32) (harg6 : arg6.IsWhole)
    (x0 : Vec F S4000x256 .f32) (x1 : Vec F S4000x128 .f32) (x2 : Vec F S4000x128 .f32) (x3 : Vec F S128x4 .f32) (x4 : Vec F S4x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ (∃ d, owns c.tc arg6 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare (out4_5 x0 x1 x2 x3 x4)) -∗ K ⟨⟩))
      ⊢ wp frame (wpE (defs₀ (F := F)) Variants.none c none) E (cc4__edge_kernel i arg1 harg1 arg2 harg2 arg3 harg3 arg4 harg4 arg5 harg5 arg6 harg6) K := by
  simp only [cc4__edge_kernel_eq_skeleton]; unfold cc4__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S4000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns c.tc (st4_0 t) fullShare ((dat4 V c).before 0 t d))
    ∗ (∃ d, owns c.tc (st4_1 t) fullShare ((dat4 V c).before 1 t d))
    ∗ (∃ d, owns c.tc (st4_2 t) fullShare ((dat4 V c).before 2 t d))
    ∗ (∃ d, owns c.tc (st4_3 t) fullShare ((dat4 V c).before 3 t d))
    ∗ (∃ d, owns c.tc (st4_4 t) fullShare ((dat4 V c).before 4 t d))
    ∗ (∃ d, owns c.tc (st4_5 t) fullShare ((dat4 V c).before 5 t d)))

def bodyPost4 (c : Dev nD) (t : Fin cfg4.N) : sProp 𝕄 :=
  iprop((dat4 V c).Φ t.castSucc ∗ (dat4 V c).owesAt () t.castSucc
    ∗ owns c.tc (st4_0 t) fullShare (iblk4 V c 0 t)
    ∗ owns c.tc (st4_1 t) fullShare (iblk4 V c 1 t)
    ∗ owns c.tc (st4_2 t) fullShare (iblk4 V c 2 t)
    ∗ owns c.tc (st4_3 t) fullShare (iblk4 V c 3 t)
    ∗ owns c.tc (st4_4 t) fullShare (iblk4 V c 4 t)
    ∗ owns c.tc (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe

theorem body_obligation4 (c : Dev nD) : BodyObligation (dat4 (F := F) V c) (defs₀ (F := F)) Variants.none () Set.univ := fun t => by
  rw [bigSep_W4, bigSep_W4]
  exact sound_body4 V c t

end Region4

end Cert.KernelIdeal.Hand
-- ==== Proof.KI.Region5.lean ====
import proofs.«163757_j14508399526691_2_alg».proof.Proof.Gen.KernelIdeal.Launch
import proofs.«163757_j14508399526691_2_alg».proof.Proof.Gen.KernelIdeal.Skeleton
import proofs.«163757_j14508399526691_2_alg».proof.Proof.Gen.KernelIdeal.Points
import Idealize.ShloMosaic.Lib.Pipeline.FrameBody
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

def out5_5 (x0 : Vec F S5000x128 .f32) (x1 : Vec F S5000x128 .f32) (x2 : Vec F S128x128 .f32) (x3 : Vec F S1x128 .f32) (x4 : Vec F S5000x128 .f32) : Vec F S5000x128 .f32 :=
  View.canon [⟨r5_0, k5_pay1 (View.ld x0 r5_0) (View.ld x1 r5_0) (View.ld x2 r5_1) (View.ld x3 r5_2) (View.ld x4 r5_0)⟩]

set_option maxHeartbeats 1000000 in
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S5000x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ (∃ d, owns c.tc arg6 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare (out5_5 x0 x1 x2 x3 x4)) -∗ K ⟨⟩))
      ⊢ wp frame (wpE (defs₀ (F := F)) Variants.none c none) E (cc5__divide_mm_bias_res_kernel i arg1 harg1 arg2 harg2 arg3 harg3 arg4 harg4 arg5 harg5 arg6 harg6) K := by
  simp only [cc5__divide_mm_bias_res_kernel_eq_skeleton]; unfold cc5__divide_mm_bias_res_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns c.tc (st5_0 t) fullShare ((dat5 V c).before 0 t d))
    ∗ (∃ d, owns c.tc (st5_1 t) fullShare ((dat5 V c).before 1 t d))
    ∗ (∃ d, owns c.tc (st5_2 t) fullShare ((dat5 V c).before 2 t d))
    ∗ (∃ d, owns c.tc (st5_3 t) fullShare ((dat5 V c).before 3 t d))
    ∗ (∃ d, owns c.tc (st5_4 t) fullShare ((dat5 V c).before 4 t d))
    ∗ (∃ d, owns c.tc (st5_5 t) fullShare ((dat5 V c).before 5 t d)))

def bodyPost5 (c : Dev nD) (t : Fin cfg5.N) : sProp 𝕄 :=
  iprop((dat5 V c).Φ t.castSucc ∗ (dat5 V c).owesAt () t.castSucc
    ∗ owns c.tc (st5_0 t) fullShare (iblk5 V c 0 t)
    ∗ owns c.tc (st5_1 t) fullShare (iblk5 V c 1 t)
    ∗ owns c.tc (st5_2 t) fullShare (iblk5 V c 2 t)
    ∗ owns c.tc (st5_3 t) fullShare (iblk5 V c 3 t)
    ∗ owns c.tc (st5_4 t) fullShare (iblk5 V c 4 t)
    ∗ owns c.tc (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe

theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.Region6.lean ====
import proofs.«163757_j14508399526691_2_alg».proof.Proof.Gen.KernelIdeal.Launch
import proofs.«163757_j14508399526691_2_alg».proof.Proof.Gen.KernelIdeal.Skeleton
import proofs.«163757_j14508399526691_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region6
variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
-- the two rows are reset at the first point only
theorem hcond6_0 : ∀ t : Fin cfg6.N, cond6_0 (grid6.coords t) ↔ t.val % 10 = 0 :=
  (by decide +kernel : ∀ t : Fin grid6.N, cond6_0 (grid6.coords t) ↔ t.val % 10 = 0)

abbrev hs6_0 (t : Fin cfg6.N) : (win6_0.stage (cfg6.slots t 0)).IsWhole := hstage6_0 ((cfg6.slots t 0).cast nbuf6_0)
abbrev hs6_1 (t : Fin cfg6.N) : (win6_1.stage (cfg6.slots t 1)).IsWhole := hstage6_1 ((cfg6.slots t 1).cast nbuf6_1)
abbrev hs6_2 (t : Fin cfg6.N) : (win6_2.stage (cfg6.slots t 2)).IsWhole := hstage6_2 ((cfg6.slots t 2).cast nbuf6_2)

section Run
variable (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole)

-- a run from `pre`: the body leaves the input as it was and each row at the pieces it stored
abbrev Run6 (x0 : Vec F S5000x128 .f32) (pre : sProp 𝕄) : Type :=
  Σ' (L1 : List (View.Piece (Elt F) S1x128 .f32)), { L2 : List (View.Piece (Elt F) S1x128 .f32) //
    ∀ (E : Set ℕ) (K : PUnit → sProp 𝕄),
      iprop(owns (c : Thread nD τ) arg1 fullShare x0 ∗ pre
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
        ⊢ wp frame (wpE (defs₀ (F := F)) Variants.none c none) E (cc6__bn_stats_kernel i arg1 harg1 arg2 harg2 arg3 harg3) K }

-- the reset taken: whatever the two rows held
def kernelRun6_A (hc0 : cond6_0 i) (x0 : Vec F S5000x128 .f32) :
    Run6 c i arg1 harg1 arg2 harg2 arg3 harg3 x0 iprop((∃ d, owns (c : Thread nD τ) arg2 fullShare d) ∗ (∃ d, owns (c : Thread nD τ) arg3 fullShare d)) := by
  refine ⟨?_, ?_, fun E K => ?run⟩
  case run =>
    simp only [cc6__bn_stats_kernel_eq_skeleton]; unfold cc6__bn_stats_kernel_skel
    unfold owns
    iintro ⟨⟨%f0, %hf0, H0⟩, ⟨⟨%d1, %f1, -, H1⟩, ⟨%d2, %f2, -, H2⟩⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    iexists _; iexact H2

-- the reset not taken: from the rows the point before left, which the body reads before it stores over them
def kernelRun6_B (hc0 : ¬cond6_0 i) (x0 : Vec F S5000x128 .f32) (xo1 xo2 : Vec F S1x128 .f32) :
    Run6 c i arg1 harg1 arg2 harg2 arg3 harg3 x0 iprop(owns (c : Thread nD τ) arg2 fullShare xo1 ∗ owns (c : Thread nD τ) arg3 fullShare xo2) := by
  refine ⟨?_, ?_, fun E K => ?run⟩
  case run =>
    simp only [cc6__bn_stats_kernel_eq_skeleton]; unfold cc6__bn_stats_kernel_skel
    unfold owns
    iintro ⟨⟨%f0, %hf0, H0⟩, ⟨⟨%f1, %hf1, H1⟩, ⟨%f2, %hf2, H2⟩⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]; · iexists _; iexact H1
    iexists _; iexact H2

end Run

def runA6 (t : Fin cfg6.N) (h0 : t.val % 10 = 0) :=
  kernelRun6_A c (grid6.coords t) _ (hs6_0 t) _ (hs6_1 t) _ (hs6_2 t) ((hcond6_0 t).mpr h0) (iblk6 V c 0 t)
def runB6 (t : Fin cfg6.N) (h0 : ¬t.val % 10 = 0) :=
  kernelRun6_B c (grid6.coords t) _ (hs6_0 t) _ (hs6_1 t) _ (hs6_2 t) (fun h => h0 ((hcond6_0 t).mp h)) (iblk6 V c 0 t)

-- what a point leaves in the two rows: at each index the last store to reach it
def outA6 (t : Fin cfg6.N) (h0 : t.val % 10 = 0) : Vec F S1x128 .f32 × Vec F S1x128 .f32 :=
  (View.canon (runA6 V c t h0).1, View.canon (runA6 V c t h0).2.1)
def outB6 (t : Fin cfg6.N) (h0 : ¬t.val % 10 = 0) (p : Vec F S1x128 .f32 × Vec F S1x128 .f32) : Vec F S1x128 .f32 × Vec F S1x128 .f32 :=
  (View.canon (runB6 V c t h0 p.1 p.2).1, View.canon (runB6 V c t h0 p.1 p.2).2.1)

-- the two rows after point n: a point that does not reset reads what the point before left
def outsAt6 : (n : ℕ) → n < cfg6.N → Vec F S1x128 .f32 × Vec F S1x128 .f32
  | 0, hn => outA6 V c ⟨0, hn⟩ (Nat.zero_mod _)
  | n + 1, hn =>
    if h0 : (n + 1) % 10 = 0 then outA6 V c ⟨n + 1, hn⟩ h0
    else outB6 V c ⟨n + 1, hn⟩ h0 (outsAt6 n (Nat.lt_of_succ_lt hn))

theorem outsAt6_A (t : Fin cfg6.N) (h0 : t.val % 10 = 0) : outsAt6 V c t.val t.isLt = outA6 V c t h0 := by
  obtain ⟨n, hn⟩ := t
  cases n with
  | zero => rfl
  | succ n => exact dif_pos h0

theorem outsAt6_B (t : Fin cfg6.N) (h0 : ¬t.val % 10 = 0) :
    outsAt6 V c t.val t.isLt = outB6 V c t h0 (outsAt6 V c (t.val - 1) (Nat.lt_of_le_of_lt (Nat.sub_le _ _) t.isLt)) := by
  obtain ⟨n, hn⟩ := t
  cases n with
  | zero => exact absurd (Nat.zero_mod _) h0
  | succ n => exact dif_neg h0

def dat6 : Dat τ (Elt F) Unit ℕ (UR sig nD τ) ℕ cfg6 c where
  A w := V c (Pipeline.arrRef spec6 w)
  after w t := match w with
    | ⟨0, _⟩ => iblk6 V c 0 t
    | ⟨1, _⟩ => (outsAt6 V c t.val t.isLt).1
    | ⟨2, _⟩ => (outsAt6 V c t.val t.isLt).2
  Φ _ := Pipeline.ΦA spec6 c
  q _ := fullShare
  owed _ := 0

theorem A_eq6 (w : Fin cfg6.W) : (dat6 V c).A w = V c (Pipeline.arrRef spec6 w) := rfl

theorem after6_0 (t : Fin cfg6.N) : (dat6 V c).after 0 t = iblk6 V c 0 t := rfl
theorem after6_1 (t : Fin cfg6.N) : (dat6 V c).after 1 t = (outsAt6 V c t.val t.isLt).1 := rfl
theorem after6_2 (t : Fin cfg6.N) : (dat6 V c).after 2 t = (outsAt6 V c t.val t.isLt).2 := rfl

theorem before6_0 (t : Fin cfg6.N) (d) : (dat6 V c).before 0 t d = iblk6 V c 0 t :=
  ((dat6 V c).before_in_eq_fetched 0 rfl (fun _ => rfl) (fun _ _ _ => rfl) (fun _ => rfl) t d).trans rfl

theorem before6_B (t : Fin cfg6.N) (h0 : ¬t.val % 10 = 0) :
    (∀ d, (dat6 V c).before 1 t d = (outsAt6 V c (t.val - 1) (Nat.lt_of_le_of_lt (Nat.sub_le _ _) t.isLt)).1)
    ∧ ∀ d, (dat6 V c).before 2 t d = (outsAt6 V c (t.val - 1) (Nat.lt_of_le_of_lt (Nat.sub_le _ _) t.isLt)).2 := by
  have hN : t.val < 10 := lt_of_lt_of_eq t.isLt (show cfg6.N = 10 from N_6)
  constructor <;> intro d
  · rw [Dat.before_out_kept _ 1 rfl t (by omega) (Bool.eq_false_iff.mpr fun h => by have := (flush6_1 _).mp h; dsimp only at this; omega)
      (fun _ => rfl) (fun _ _ => rfl)]
    rfl
  · rw [Dat.before_out_kept _ 2 rfl t (by omega) (Bool.eq_false_iff.mpr fun h => by have := (flush6_2 _).mp h; dsimp only at this; omega)
      (fun _ => rfl) (fun _ _ => rfl)]
    rfl

-- at every point that case's run applies; its stores tile each row, so the row reads back as the last store at each index
theorem body_obligation6 : BodyObligation (dat6 (F := F) V c) (defs₀ (F := F)) Variants.none () Set.univ := fun t => by
  rw [bigSep_W6, bigSep_W6]
  simp only [before6_0]
  change _ ⊢ wp _ _ _ (bodyAt6 t) _
  unfold bodyAt6
  rw [show (dat6 V c).Φ t.succ = (dat6 V c).Φ t.castSucc from rfl, show (dat6 V c).owesAt () t.succ = (dat6 V c).owesAt () t.castSucc from rfl,
    after6_0, after6_1, after6_2]
  by_cases h0 : t.val % 10 = 0
  on_goal 1 =>
    rw [outsAt6_A V c t h0]
    unfold outA6; (try dsimp only)
    iintro ⟨HΦ, Ho, ⟨%d0, H0⟩, ⟨%d1, H1⟩, ⟨%d2, H2⟩⟩
    iapply ((runA6 V c t h0).2.2 Set.univ _)
  on_goal 2 =>
    rw [outsAt6_B V c t h0]
    simp only [(before6_B V c t h0).1, (before6_B V c t h0).2]
    unfold outB6; (try dsimp only)
    iintro ⟨HΦ, Ho, ⟨%d0, H0⟩, ⟨%d1, H1⟩, ⟨%d2, H2⟩⟩
    iapply ((runB6 V c t h0 _ _).2.2 Set.univ _)
  all_goals
    isplitl [H0]; · iexact H0
    isplitl [H1 H2]
    · isplitl [H1]; · first | iexact H1 | (iexists _; iexact H1)
      first | iexact H2 | (iexists _; iexact H2)
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (View.cover_of_tiledL _ S1x128.size (by sl_kernel_rfl))
    unfold owns; iexists _; isplitr
    swap; · iexact H2
    ipureintro; exact View.read_writes_eq_canon _ _ _ (View.cover_of_tiledL _ S1x128.size (by sl_kernel_rfl))

end Region6

end Cert.KernelIdeal.Hand

end
-- ==== Proof.KI.Region7.lean ====
import proofs.«163757_j14508399526691_2_alg».proof.Proof.Gen.KernelIdeal.Launch
import proofs.«163757_j14508399526691_2_alg».proof.Proof.Gen.KernelIdeal.Skeleton
import proofs.«163757_j14508399526691_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0
abbrev r7_2 : Rect S128x256 := Rect.unit (s := S128x256) ![0, 0] S128x256.size inb_S128x256_S128x256_0_0
abbrev r7_3 : Rect S5000x256 := Rect.unit (s := S5000x256) ![0, 0] S5000x256.size inb_S5000x256_S5000x256_0_0

def out7_6 (x0 : Vec F S5000x128 .f32) (x1 x2 x3 x4 : Vec F S1x128 .f32) (x5 : Vec F S128x256 .f32) : Vec F S5000x256 .f32 :=
  View.canon [⟨r7_3, k7_pay1 (View.ld x0 r7_0) (View.ld x2 r7_1) (View.ld x1 r7_1) (View.ld x3 r7_1) (View.ld x4 r7_1) (View.ld x5 r7_2)⟩]

set_option maxHeartbeats 1000000 in
/-- The one store covers the whole output, so the output ends as `out7_6` of the inputs, which are only read. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S5000x256 .f32) (harg7 : arg7.IsWhole)
    (x0 : Vec F S5000x128 .f32) (x1 x2 x3 x4 : Vec F S1x128 .f32) (x5 : Vec F S128x256 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out7_6 x0 x1 x2 x3 x4 x5)) -∗ K ⟨⟩))
      ⊢ wp frame (wpE (defs₀ (F := F)) Variants.none c none) E (cc7__bn_mm_kernel i arg1 harg1 arg2 harg2 arg3 harg3 arg4 harg4 arg5 harg5 arg6 harg6 arg7 harg7) K := by
  simp only [cc7__bn_mm_kernel_eq_skeleton]; unfold cc7__bn_mm_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x256.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := rfl

theorem before7 (c : Dev nD) (t : Fin cfg7.N) :
    ∀ (w : Fin cfg7.W) (_ : (cfg7.win w).isOut = false) (d), (dat7 V c).before w t d = (dat7 V c).after w t
  | ⟨6, _⟩, h, _ => Bool.noConfusion h
  | ⟨0, _⟩, h, d | ⟨1, _⟩, h, d | ⟨2, _⟩, h, d | ⟨3, _⟩, h, d | ⟨4, _⟩, h, d | ⟨5, _⟩, h, d =>
    ((dat7 V c).before_in_eq_fetched _ h (fun _ => rfl) (fun _ _ _ => rfl) (fun _ => rfl) t d).trans rfl

/-- At a point the inputs are their blocks (`before7`), so `sound_kernel7` applies and the invariant is framed. -/
theorem body_obligation7 (c : Dev nD) : BodyObligation (dat7 (F := F) V c) (defs₀ (F := F)) Variants.none () Set.univ := fun t => by
  have hb := before7 V c t
  simp only [bigSep_W7, hb 0 rfl, hb 1 rfl, hb 2 rfl, hb 3 rfl, hb 4 rfl, hb 5 rfl]
  show _ ⊢ wp _ _ _ (bodyAt7 t) fun _ => iprop(_ ∗ _ ∗ owns _ _ _ _ ∗ owns _ _ _ _ ∗ owns _ _ _ _ ∗ owns _ _ _ _ ∗ owns _ _ _ _ ∗ owns _ _ _ _ ∗ owns _ _ _ _)
  rw [show (dat7 V c).Φ t.succ = (dat7 V c).Φ t.castSucc from rfl,
    show (dat7 V c).owesAt () t.succ = (dat7 V c).owesAt () t.castSucc from rfl,
    show (dat7 V c).after 6 t = out7_6 ((dat7 V c).after 0 t) ((dat7 V c).after 1 t) ((dat7 V c).after 2 t) ((dat7 V c).after 3 t) ((dat7 V c).after 4 t) ((dat7 V c).after 5 t) by dsimp only [dat7]]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ ((dat7 V c).after 0 t) ((dat7 V c).after 1 t) ((dat7 V c).after 2 t) ((dat7 V c).after 3 t) ((dat7 V c).after 4 t) ((dat7 V c).after 5 t) _)
  iframe H0 H1 H2 H3 H4 H5
  isplitl [H6]; · iexists _; iexact H6
  iintro ⟨H0, H1, H2, H3, H4, H5, H6⟩
  iframe

end Region

end Cert.KernelIdeal.Hand
-- ==== Proof.KI.Region8.lean ====
import proofs.«163757_j14508399526691_2_alg».proof.Proof.Gen.KernelIdeal.Launch
import proofs.«163757_j14508399526691_2_alg».proof.Proof.Gen.KernelIdeal.Skeleton
import proofs.«163757_j14508399526691_2_alg».proof.Proof.Gen.KernelIdeal.Points
import Idealize.ShloMosaic.Lib.Pipeline.FrameBody
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S5000x256 := Rect.unit (s := S5000x256) ![0, 0] S5000x256.size inb_S5000x256_S5000x256_0_0
abbrev r8_1 : Rect S256x128 := Rect.unit (s := S256x128) ![0, 0] S256x128.size inb_S256x128_S256x128_0_0
abbrev r8_2 : Rect S5000x128 := Rect.unit (s := S5000x128) ![0, 0] S5000x128.size inb_S5000x128_S5000x128_0_0

def out8_3 (x0 : Vec F S5000x256 .f32) (x1 : Vec F S256x128 .f32) (x2 : Vec F S5000x128 .f32) : Vec F S5000x128 .f32 :=
  View.canon [⟨r8_2, k8_pay1 (View.ld x0 r8_0) (View.ld x1 r8_1) (View.ld x2 r8_2)⟩]

set_option maxHeartbeats 1000000 in
theorem sound_kernel8 (c : Dev nD) (E : Set ℕ) (i : grid8.Coords) (arg1 : Memref sig .tc .vmem S5000x256 .f32) (harg1 : arg1.IsWhole) (arg2 : Memref sig .tc .vmem S256x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x256 .f32) (x1 : Vec F S256x128 .f32) (x2 : Vec F S5000x128 .f32) (K : PUnit → sProp 𝕄) :
    iprop(owns c.tc arg1 fullShare x0 ∗ owns c.tc arg2 fullShare x1 ∗ owns c.tc arg3 fullShare x2 ∗ (∃ d, owns c.tc arg4 fullShare d)
        ∗ (iprop(owns c.tc arg1 fullShare x0 ∗ owns c.tc arg2 fullShare x1 ∗ owns c.tc arg3 fullShare x2 ∗ owns c.tc arg4 fullShare (out8_3 x0 x1 x2)) -∗ K ⟨⟩))
      ⊢ wp frame (wpE (defs₀ (F := F)) Variants.none c none) E (cc8__mm_res_kernel i arg1 harg1 arg2 harg2 arg3 harg3 arg4 harg4) K := by
  simp only [cc8__mm_res_kernel_eq_skeleton]; unfold cc8__mm_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl

theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d

def bodyPre8 (c : Dev nD) (t : Fin cfg8.N) : sProp 𝕄 :=
  iprop((dat8 V c).Φ t.castSucc ∗ (dat8 V c).owesAt () t.castSucc
    ∗ (∃ d, owns c.tc (st8_0 t) fullShare ((dat8 V c).before 0 t d))
    ∗ (∃ d, owns c.tc (st8_1 t) fullShare ((dat8 V c).before 1 t d))
    ∗ (∃ d, owns c.tc (st8_2 t) fullShare ((dat8 V c).before 2 t d))
    ∗ (∃ d, owns c.tc (st8_3 t) fullShare ((dat8 V c).before 3 t d)))

def bodyPost8 (c : Dev nD) (t : Fin cfg8.N) : sProp 𝕄 :=
  iprop((dat8 V c).Φ t.castSucc ∗ (dat8 V c).owesAt () t.castSucc
    ∗ owns c.tc (st8_0 t) fullShare (iblk8 V c 0 t)
    ∗ owns c.tc (st8_1 t) fullShare (iblk8 V c 1 t)
    ∗ owns c.tc (st8_2 t) fullShare (iblk8 V c 2 t)
    ∗ owns c.tc (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  iframe H0 H1 H2
  isplitl [H3]; · iexists _; iexact H3
  iintro ⟨H0, H1, H2, H3⟩
  iframe

theorem body_obligation8 (c : Dev nD) : BodyObligation (dat8 (F := F) V c) (defs₀ (F := F)) Variants.none () Set.univ := fun t => by
  rw [bigSep_W8, bigSep_W8]
  exact sound_body8 V c t

end Region8

end Cert.KernelIdeal.Hand

end
-- ==== Proof.KI.Fold.lean ====
import proofs.«163757_j14508399526691_2_alg».proof.Proof.Gen.KernelIdeal.Launch
import proofs.«163757_j14508399526691_2_alg».proof.Proof.Gen.KernelIdeal.Regions
import proofs.«163757_j14508399526691_2_alg».proof.Proof.KI.Region0
import proofs.«163757_j14508399526691_2_alg».proof.Proof.KI.Region1
import proofs.«163757_j14508399526691_2_alg».proof.Proof.KI.Region2
import proofs.«163757_j14508399526691_2_alg».proof.Proof.KI.Region3
import proofs.«163757_j14508399526691_2_alg».proof.Proof.KI.Region4
import proofs.«163757_j14508399526691_2_alg».proof.Proof.KI.Region5
import proofs.«163757_j14508399526691_2_alg».proof.Proof.KI.Region6
import proofs.«163757_j14508399526691_2_alg».proof.Proof.KI.Region7
import proofs.«163757_j14508399526691_2_alg».proof.Proof.KI.Region8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Every core's buffer contents. -/
abbrev Conts : Type := Dev nD → Valuation τ sig (Elt F)
abbrev TcConts : Type := (c : Dev nD) → (b : Ref sig .tc) → Buf (Elt F) ((c : Thread nD τ).loc b)
abbrev tcOf (W : Conts (F := F)) : TcConts (F := F) := fun c b => W c b

section Region

variable {p : Fin 9} (lf : Pipeline.LaunchFacts (nD := nD) (τ := τ) cfgs p)
  (D : TcConts (F := F) → (c : Dev nD) → Dat τ (Elt F) Unit ℕ (UR sig nD τ) ℕ (cfgs p) c) (W : Conts (F := F))

/-- A region's exit contents: its arrays at what the last grid point leaves in them, every other buffer as entered. -/
def exitOf (c : Dev nD) : Valuation τ sig (Elt F) :=
  Pipeline.withArrays (cfgs p).spec c (W c) fun w => (D (tcOf W) c).arrAt w (cfgs p).N

include lf

theorem exitOf_arr (c : Dev nD) (w : Fin (cfgs p).W) :
    exitOf D W c (Proc.devRef .tc (Pipeline.arrRef (cfgs p).spec w)) = (D (tcOf W) c).arrAt w (cfgs p).N :=
  Pipeline.withArrays_arr _ lf.win.arr_inj c _ _ w

/-- Only output arrays change: an input array holds its entry contents at every point, any other buffer is untouched. -/
theorem exitOf_keep (hA : ∀ V c w, (D V c).A w = V c (Pipeline.arrRef (cfgs p).spec w)) (c : Dev nD) (r : Ref sig .tc)
    (hr : ∀ w, ((cfgs p).win w).isOut = true → Pipeline.arrRef (cfgs p).spec w ≠ r) :
    exitOf D W c (Proc.devRef .tc r) = W c (Proc.devRef .tc r) := by
  by_cases h : ∃ w, Pipeline.arrRef (cfgs p).spec w = r
  · obtain ⟨w, rfl⟩ := h
    exact (exitOf_arr lf D W c w).trans (((D (tcOf W) c).arrAt_in w (Bool.eq_false_iff.mpr fun hw => hr w hw rfl) _).trans (hA _ c w))
  · exact Pipeline.withArrays_of_ne _ c _ _ r fun w e => h ⟨w, e⟩

end Region

variable (m : (ℓ : Loc nD τ sig) → Buf (Elt F) ℓ) (ρ : Dev nD → PrngReg)

/-- The contents between the items, from the launch memory on: a host stretch applies its operations, a region leaves its exit contents. -/
abbrev W0 : Conts (F := F) := fun c b => (s₀ m ρ).mem ((c : Dev nD), b)
abbrev W1 : Conts (F := F) := fun c => StableHlo.after hostOps0 (W0 m ρ c)
def W2 : Conts (F := F) := exitOf (p := 0) dat0 (W1 m ρ)
abbrev W3 : Conts (F := F) := fun c => StableHlo.after hostOps1 (W2 m ρ c)
def W4 : Conts (F := F) := exitOf (p := 1) dat1 (W3 m ρ)
abbrev W5 : Conts (F := F) := fun c => StableHlo.after hostOps2 (W4 m ρ c)
def W6 : Conts (F := F) := exitOf (p := 2) dat2 (W5 m ρ)
abbrev W7 : Conts (F := F) := fun c => StableHlo.after hostOps3 (W6 m ρ c)
def W8 : Conts (F := F) := exitOf (p := 3) dat3 (W7 m ρ)
abbrev W9 : Conts (F := F) := fun c => StableHlo.after hostOps4 (W8 m ρ c)
def W10 : Conts (F := F) := exitOf (p := 4) dat4 (W9 m ρ)
abbrev W11 : Conts (F := F) := fun c => StableHlo.after hostOps5 (W10 m ρ c)
def W12 : Conts (F := F) := exitOf (p := 5) dat5 (W11 m ρ)
def W13 : Conts (F := F) := exitOf (p := 6) dat6 (W12 m ρ)
abbrev W14 : Conts (F := F) := fun c => StableHlo.after hostOps7 (W13 m ρ c)
def W15 : Conts (F := F) := exitOf (p := 7) dat7 (W14 m ρ)
def W16 : Conts (F := F) := exitOf (p := 8) dat8 (W15 m ρ)

/-- The references each host stretch writes. -/
noncomputable def hostW : Fin 7 → List (Ref sig .tc)
  | ⟨0, _⟩ => hostOps0_W | ⟨1, _⟩ => hostOps1_W | ⟨2, _⟩ => hostOps2_W | ⟨3, _⟩ => hostOps3_W | ⟨4, _⟩ => hostOps4_W
  | ⟨5, _⟩ => hostOps5_W | _ => hostOps7_W

/-- No item writes `r`: no host stretch's operation does, and it is no region's output array. -/
abbrev Kept (r : Ref sig .tc) : Prop :=
  (∀ j, r ∉ hostW j) ∧ ∀ p w, ((cfgs p).win w).isOut = true → Pipeline.arrRef (cfgs p).spec w ≠ r

section Walk

variable (c : Dev nD) (r : Ref sig .tc) (h : Kept r)
include h

/-- A buffer no item writes holds its launch contents at every boundary: item by item back to the launch memory. -/
theorem W1_launch : W1 m ρ c (Proc.devRef .tc r) = m ((c : Thread nD τ).loc r) :=
  StableHlo.after_of_writes_sub hostOps0 _ hostOps0_writes (h.1 0)
theorem W2_launch : W2 m ρ c (Proc.devRef .tc r) = m ((c : Thread nD τ).loc r) :=
  (exitOf_keep launch0 dat0 _ A_eq0 c r (h.2 0)).trans (W1_launch m ρ c r h)
theorem W3_launch : W3 m ρ c (Proc.devRef .tc r) = m ((c : Thread nD τ).loc r) :=
  (StableHlo.after_of_writes_sub hostOps1 _ hostOps1_writes (h.1 1)).trans (W2_launch m ρ c r h)
theorem W4_launch : W4 m ρ c (Proc.devRef .tc r) = m ((c : Thread nD τ).loc r) :=
  (exitOf_keep launch1 dat1 _ A_eq1 c r (h.2 1)).trans (W3_launch m ρ c r h)
theorem W5_launch : W5 m ρ c (Proc.devRef .tc r) = m ((c : Thread nD τ).loc r) :=
  (StableHlo.after_of_writes_sub hostOps2 _ hostOps2_writes (h.1 2)).trans (W4_launch m ρ c r h)
theorem W6_launch : W6 m ρ c (Proc.devRef .tc r) = m ((c : Thread nD τ).loc r) :=
  (exitOf_keep launch2 dat2 _ A_eq2 c r (h.2 2)).trans (W5_launch m ρ c r h)
theorem W7_launch : W7 m ρ c (Proc.devRef .tc r) = m ((c : Thread nD τ).loc r) :=
  (StableHlo.after_of_writes_sub hostOps3 _ hostOps3_writes (h.1 3)).trans (W6_launch m ρ c r h)
theorem W8_launch : W8 m ρ c (Proc.devRef .tc r) = m ((c : Thread nD τ).loc r) :=
  (exitOf_keep launch3 dat3 _ A_eq3 c r (h.2 3)).trans (W7_launch m ρ c r h)
theorem W9_launch : W9 m ρ c (Proc.devRef .tc r) = m ((c : Thread nD τ).loc r) :=
  (StableHlo.after_of_writes_sub hostOps4 _ hostOps4_writes (h.1 4)).trans (W8_launch m ρ c r h)
theorem W10_launch : W10 m ρ c (Proc.devRef .tc r) = m ((c : Thread nD τ).loc r) :=
  (exitOf_keep launch4 dat4 _ A_eq4 c r (h.2 4)).trans (W9_launch m ρ c r h)
theorem W11_launch : W11 m ρ c (Proc.devRef .tc r) = m ((c : Thread nD τ).loc r) :=
  (StableHlo.after_of_writes_sub hostOps5 _ hostOps5_writes (h.1 5)).trans (W10_launch m ρ c r h)
theorem W12_launch : W12 m ρ c (Proc.devRef .tc r) = m ((c : Thread nD τ).loc r) :=
  (exitOf_keep launch5 dat5 _ A_eq5 c r (h.2 5)).trans (W11_launch m ρ c r h)
theorem W13_launch : W13 m ρ c (Proc.devRef .tc r) = m ((c : Thread nD τ).loc r) :=
  (exitOf_keep launch6 dat6 _ A_eq6 c r (h.2 6)).trans (W12_launch m ρ c r h)
theorem W14_launch : W14 m ρ c (Proc.devRef .tc r) = m ((c : Thread nD τ).loc r) :=
  (StableHlo.after_of_writes_sub hostOps7 _ hostOps7_writes (h.1 6)).trans (W13_launch m ρ c r h)
theorem W15_launch : W15 m ρ c (Proc.devRef .tc r) = m ((c : Thread nD τ).loc r) :=
  (exitOf_keep launch7 dat7 _ A_eq7 c r (h.2 7)).trans (W14_launch m ρ c r h)
theorem W16_launch : W16 m ρ c (Proc.devRef .tc r) = m ((c : Thread nD τ).loc r) :=
  (exitOf_keep launch8 dat8 _ A_eq8 c r (h.2 8)).trans (W15_launch m ρ c r h)

end Walk

end Cert.KernelIdeal.Hand

end
-- ==== Proof.KI.Records.lean ====
import proofs.«163757_j14508399526691_2_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each region's data, taken at the region's entry contents. -/
def pdats : (p : Fin 9) → (c : Dev nD) → Dat τ (Elt F) Unit ℕ (UR sig nD τ) ℕ (Pipeline.pin (pcfgs (F := F)) adm p) c
  | ⟨0, _⟩ => dat0 (tcOf (W1 m ρ))
  | ⟨1, _⟩ => dat1 (tcOf (W3 m ρ))
  | ⟨2, _⟩ => dat2 (tcOf (W5 m ρ))
  | ⟨3, _⟩ => dat3 (tcOf (W7 m ρ))
  | ⟨4, _⟩ => dat4 (tcOf (W9 m ρ))
  | ⟨5, _⟩ => dat5 (tcOf (W11 m ρ))
  | ⟨6, _⟩ => dat6 (tcOf (W12 m ρ))
  | ⟨7, _⟩ => dat7 (tcOf (W14 m ρ))
  | ⟨8, _⟩ => dat8 (tcOf (W15 m ρ))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A host stretch as a segment from the contents `W`, left at its operations applied to them. -/
abbrev hseg (ops : List (HloOp τ sig (Elt F))) (hsub : ops.Forall fun op => op.bufs ⊆ StableHlo.tcRefs τ sig)
    (hfresh : ops.Forall fun op => op.fresh = ∅) (W : Conts (F := F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

/-- A region as a segment: entered at the contents `W`, left at `W'`, which differs from `W` only at the region's arrays. -/
def regSeg {p : Fin 9} (lf : Pipeline.LaunchFacts (nD := nD) (τ := τ) cfgs p) (W W' : Conts (F := F))
    (hW' : ∀ c b, W' c b = Pipeline.withArrays (cfgs p).spec c (W c) (fun w => (pdats m ρ p c).arrAt w (cfgs p).N) b)
    (hb : ∀ c, BodyObligation (pdats m ρ p c) (defs₀ (F := F)) Variants.none () Set.univ)
    (hA : ∀ c w, (pdats m ρ p c).A w = tcOf W c (Pipeline.arrRef (cfgs p).spec w))
    (hΦ : ∀ c t, (pdats m ρ p c).Φ t = Pipeline.ΦA (cfgs p).spec c) (hq : ∀ c w, (pdats m ρ p c).q w = fullShare)
    (howed : ∀ c t, (pdats m ρ p c).owed t = 0) (hrec : ∀ c t, (pdats m ρ p c).recorded t = Set.univ) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (tcOf W c)
  hentry c := by
    have hsplit := Pipeline.arrays_of_unscopedBufs (p := p) (pcfgs (F := F)) adm (pdats m ρ) lf.win lf.arr_whole c
      ((pdats m ρ p c).share_full (hq c)) (tcOf W c) (hA c)
    rw [Pipeline.unscopedBufs_held] at hsplit
    rw [Pipeline.ownSems0_none]; unfold Pipeline.Dat.owesAt Pipeline.owesWithin; rw [howed c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%O, HO⟩; iexists O; isplitr; · ipureintro; exact fun x _ => Or.inl (by rw [hrec c]; exact Set.mem_univ x)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (tcOf W c) (tcOf W' c)
      ((pdats m ρ p c).arrAt · (cfgs p).N)
      (fun w => ((hW' c _).trans (Pipeline.withArrays_arr _ lf.win.arr_inj c _ _ w)).symm)
      (fun b hb => (hW' c _).trans
        (Pipeline.withArrays_of_ne _ c _ _ b fun w e => hb (Finset.mem_image.mpr ⟨w, Finset.mem_univ _, e⟩)))
    rw [Pipeline.unscopedBufs_held] at hjoin
    unfold Pipeline.Dat.owesAt Pipeline.owesWithin; rw [howed c]
    iintro ⟨Ha, HO, HY, Hrest⟩
    imodintro
    isplitl [Ha Hrest]
    · iapply hjoin; isplitl [Ha] <;> iassumption
    isplitl [HY]; · iexact HY
    icases HO with ⟨%O, -, HO⟩; iexists O; iexact HO

def reg0 := regSeg m ρ launch0 (W1 m ρ) (W2 m ρ) (fun _ _ => rfl) (body_obligation0 _) (A_eq0 _)
  (fun _ _ => rfl) (fun _ _ => rfl) (fun _ _ => rfl) (fun _ _ => rfl)
def reg1 := regSeg m ρ launch1 (W3 m ρ) (W4 m ρ) (fun _ _ => rfl) (body_obligation1 _) (A_eq1 _)
  (fun _ _ => rfl) (fun _ _ => rfl) (fun _ _ => rfl) (fun _ _ => rfl)
def reg2 := regSeg m ρ launch2 (W5 m ρ) (W6 m ρ) (fun _ _ => rfl) (body_obligation2 _) (A_eq2 _)
  (fun _ _ => rfl) (fun _ _ => rfl) (fun _ _ => rfl) (fun _ _ => rfl)
def reg3 := regSeg m ρ launch3 (W7 m ρ) (W8 m ρ) (fun _ _ => rfl) (body_obligation3 _) (A_eq3 _)
  (fun _ _ => rfl) (fun _ _ => rfl) (fun _ _ => rfl) (fun _ _ => rfl)
def reg4 := regSeg m ρ launch4 (W9 m ρ) (W10 m ρ) (fun _ _ => rfl) (body_obligation4 _) (A_eq4 _)
  (fun _ _ => rfl) (fun _ _ => rfl) (fun _ _ => rfl) (fun _ _ => rfl)
def reg5 := regSeg m ρ launch5 (W11 m ρ) (W12 m ρ) (fun _ _ => rfl) (body_obligation5 _) (A_eq5 _)
  (fun _ _ => rfl) (fun _ _ => rfl) (fun _ _ => rfl) (fun _ _ => rfl)
def reg6 := regSeg m ρ launch6 (W12 m ρ) (W13 m ρ) (fun _ _ => rfl) (body_obligation6 _) (A_eq6 _)
  (fun _ _ => rfl) (fun _ _ => rfl) (fun _ _ => rfl) (fun _ _ => rfl)
def reg7 := regSeg m ρ launch7 (W14 m ρ) (W15 m ρ) (fun _ _ => rfl) (body_obligation7 _) (A_eq7 _)
  (fun _ _ => rfl) (fun _ _ => rfl) (fun _ _ => rfl) (fun _ _ => rfl)
def reg8 := regSeg m ρ launch8 (W15 m ρ) (W16 m ρ) (fun _ _ => rfl) (body_obligation8 _) (A_eq8 _)
  (fun _ _ => rfl) (fun _ _ => rfl) (fun _ _ => rfl) (fun _ _ => rfl)

end Cert.KernelIdeal.Hand

end
-- ==== Proof.KI.Run.lean ====
import proofs.«163757_j14508399526691_2_alg».proof.Proof.KI.Records
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's sixteen items in order: a host segment per stretch, a region per kernel launch. -/
abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)), .region (reg3 m ρ),
    .host (hseg hostOps4 hostOps4_sub hostOps4_fresh (W8 m ρ)), .region (reg4 m ρ),
    .host (hseg hostOps5 hostOps5_sub hostOps5_fresh (W10 m ρ)), .region (reg5 m ρ), .region (reg6 m ρ),
    .host (hseg hostOps7 hostOps7_sub hostOps7_fresh (W13 m ρ)), .region (reg7 m ρ), .region (reg8 m ρ) ]
theorem main_run (c : Dev nD) : main (F := F) c = Pipeline.Seg.run (segs m ρ) := (main_chain c).trans (by chain_rfl)

set_option backward.isDefEq.respectTransparency.types false in
/-- The several-region launch theorem over the segments; the result read off the last contents, each argument walked back to the launch. -/
theorem run : θ_run defs (onTc (τ := τ) (main (F := F))) ⟨m, fun _ => 0, ρ⟩ (fun r => ∀ c : Dev nD,
      r.2.mem ((c.tc : Thread nD τ).loc main_v68) = W16 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      have a (r : Ref sig .tc) (hu : ¬ (Proc.devRef .tc r : DevRef τ sig).isScoped) (hk : Kept r) :=
        (h c _ (mem_uc r hu)).trans (W16_launch m ρ c r hk)
      ⟨h c _ (mem_uc main_v68 (by decide)),
       a main_arg0 (by decide) (by decide), a main_arg1 (by decide) (by decide), a main_arg2 (by decide) (by decide),
       a main_arg3 (by decide) (by decide), a main_arg4 (by decide) (by decide), a main_arg5 (by decide) (by decide),
       a main_arg6 (by decide) (by decide), a main_arg7 (by decide) (by decide), a main_arg8 (by decide) (by decide),
       a main_arg9 (by decide) (by decide), a main_arg10 (by decide) (by decide), a main_arg11 (by decide) (by decide),
       a main_arg12 (by decide) (by decide), a main_arg13 (by decide) (by decide), a main_arg14 (by decide) (by decide),
       a main_arg15 (by decide) (by decide), a main_arg16 (by decide) (by decide), a main_arg17 (by decide) (by decide)⟩)

end Cert.KernelIdeal.Hand

end
-- ==== Proof.K.Region0.lean ====
import proofs.«163757_j14508399526691_2_alg».proof.Proof.Gen.Kernel.Launch
import proofs.«163757_j14508399526691_2_alg».proof.Proof.Gen.Kernel.Skeleton
import proofs.«163757_j14508399526691_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1
-- the two rows are reset at the first point only
theorem hcond0_0 : ∀ t : Fin cfg0.N, cond0_0 (grid0.coords t) ↔ t.val % 10 = 0 :=
  (by decide +kernel : ∀ t : Fin grid0.N, cond0_0 (grid0.coords t) ↔ t.val % 10 = 0)

abbrev hs0_0 (t : Fin cfg0.N) : (win0_0.stage (cfg0.slots t 0)).IsWhole := hstage0_0 ((cfg0.slots t 0).cast nbuf0_0)
abbrev hs0_1 (t : Fin cfg0.N) : (win0_1.stage (cfg0.slots t 1)).IsWhole := hstage0_1 ((cfg0.slots t 1).cast nbuf0_1)
abbrev hs0_2 (t : Fin cfg0.N) : (win0_2.stage (cfg0.slots t 2)).IsWhole := hstage0_2 ((cfg0.slots t 2).cast nbuf0_2)

section Run
variable (i : grid0.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole)

-- a run from `pre`: the body leaves the input as it was and each row at the pieces it stored
abbrev Run0 (x0 : Vec F S5000x128 .f32) (pre : sProp 𝕄) : Type :=
  Σ' (L1 : List (View.Piece (Elt F) S1x128 .f32)), { L2 : List (View.Piece (Elt F) S1x128 .f32) //
    ∀ (E : Set ℕ) (K : PUnit → sProp 𝕄),
      iprop(owns (c : Thread nD τ) arg1 fullShare x0 ∗ pre
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
        ⊢ wp frame (wpE (defs₀ (F := F)) Variants.none c none) E (cc0__bn_stats_kernel i arg1 harg1 arg2 harg2 arg3 harg3) K }

-- the reset taken: whatever the two rows held
def kernelRun0_A (hc0 : cond0_0 i) (x0 : Vec F S5000x128 .f32) :
    Run0 c i arg1 harg1 arg2 harg2 arg3 harg3 x0 iprop((∃ d, owns (c : Thread nD τ) arg2 fullShare d) ∗ (∃ d, owns (c : Thread nD τ) arg3 fullShare d)) := by
  refine ⟨?_, ?_, fun E K => ?run⟩
  case run =>
    simp only [cc0__bn_stats_kernel_eq_skeleton]; unfold cc0__bn_stats_kernel_skel
    unfold owns
    iintro ⟨⟨%f0, %hf0, H0⟩, ⟨⟨%d1, %f1, -, H1⟩, ⟨%d2, %f2, -, H2⟩⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    iexists _; iexact H2

-- the reset not taken: from the rows the point before left, which the body reads before it stores over them
def kernelRun0_B (hc0 : ¬cond0_0 i) (x0 : Vec F S5000x128 .f32) (xo1 xo2 : Vec F S1x128 .f32) :
    Run0 c i arg1 harg1 arg2 harg2 arg3 harg3 x0 iprop(owns (c : Thread nD τ) arg2 fullShare xo1 ∗ owns (c : Thread nD τ) arg3 fullShare xo2) := by
  refine ⟨?_, ?_, fun E K => ?run⟩
  case run =>
    simp only [cc0__bn_stats_kernel_eq_skeleton]; unfold cc0__bn_stats_kernel_skel
    unfold owns
    iintro ⟨⟨%f0, %hf0, H0⟩, ⟨⟨%f1, %hf1, H1⟩, ⟨%f2, %hf2, H2⟩⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]; · iexists _; iexact H1
    iexists _; iexact H2

end Run

def runA0 (t : Fin cfg0.N) (h0 : t.val % 10 = 0) :=
  kernelRun0_A c (grid0.coords t) _ (hs0_0 t) _ (hs0_1 t) _ (hs0_2 t) ((hcond0_0 t).mpr h0) (iblk0 V c 0 t)
def runB0 (t : Fin cfg0.N) (h0 : ¬t.val % 10 = 0) :=
  kernelRun0_B c (grid0.coords t) _ (hs0_0 t) _ (hs0_1 t) _ (hs0_2 t) (fun h => h0 ((hcond0_0 t).mp h)) (iblk0 V c 0 t)

-- what a point leaves in the two rows: at each index the last store to reach it
def outA0 (t : Fin cfg0.N) (h0 : t.val % 10 = 0) : Vec F S1x128 .f32 × Vec F S1x128 .f32 :=
  (View.canon (runA0 V c t h0).1, View.canon (runA0 V c t h0).2.1)
def outB0 (t : Fin cfg0.N) (h0 : ¬t.val % 10 = 0) (p : Vec F S1x128 .f32 × Vec F S1x128 .f32) : Vec F S1x128 .f32 × Vec F S1x128 .f32 :=
  (View.canon (runB0 V c t h0 p.1 p.2).1, View.canon (runB0 V c t h0 p.1 p.2).2.1)

-- the two rows after point n: a point that does not reset reads what the point before left
def outsAt0 : (n : ℕ) → n < cfg0.N → Vec F S1x128 .f32 × Vec F S1x128 .f32
  | 0, hn => outA0 V c ⟨0, hn⟩ (Nat.zero_mod _)
  | n + 1, hn =>
    if h0 : (n + 1) % 10 = 0 then outA0 V c ⟨n + 1, hn⟩ h0
    else outB0 V c ⟨n + 1, hn⟩ h0 (outsAt0 n (Nat.lt_of_succ_lt hn))

theorem outsAt0_A (t : Fin cfg0.N) (h0 : t.val % 10 = 0) : outsAt0 V c t.val t.isLt = outA0 V c t h0 := by
  obtain ⟨n, hn⟩ := t
  cases n with
  | zero => rfl
  | succ n => exact dif_pos h0

theorem outsAt0_B (t : Fin cfg0.N) (h0 : ¬t.val % 10 = 0) :
    outsAt0 V c t.val t.isLt = outB0 V c t h0 (outsAt0 V c (t.val - 1) (Nat.lt_of_le_of_lt (Nat.sub_le _ _) t.isLt)) := by
  obtain ⟨n, hn⟩ := t
  cases n with
  | zero => exact absurd (Nat.zero_mod _) h0
  | succ n => exact dif_neg h0

def dat0 : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (w : Fin cfg0.W) : (dat0 V c).A w = V c (Pipeline.arrRef spec0 w) := rfl

theorem after0_0 (t : Fin cfg0.N) : (dat0 V c).after 0 t = iblk0 V c 0 t := rfl
theorem after0_1 (t : Fin cfg0.N) : (dat0 V c).after 1 t = (outsAt0 V c t.val t.isLt).1 := rfl
theorem after0_2 (t : Fin cfg0.N) : (dat0 V c).after 2 t = (outsAt0 V c t.val t.isLt).2 := rfl

theorem before0_0 (t : Fin cfg0.N) (d) : (dat0 V c).before 0 t d = iblk0 V c 0 t :=
  ((dat0 V c).before_in_eq_fetched 0 rfl (fun _ => rfl) (fun _ _ _ => rfl) (fun _ => rfl) t d).trans rfl

theorem before0_B (t : Fin cfg0.N) (h0 : ¬t.val % 10 = 0) :
    (∀ d, (dat0 V c).before 1 t d = (outsAt0 V c (t.val - 1) (Nat.lt_of_le_of_lt (Nat.sub_le _ _) t.isLt)).1)
    ∧ ∀ d, (dat0 V c).before 2 t d = (outsAt0 V c (t.val - 1) (Nat.lt_of_le_of_lt (Nat.sub_le _ _) t.isLt)).2 := by
  have hN : t.val < 10 := lt_of_lt_of_eq t.isLt (show cfg0.N = 10 from N_0)
  constructor <;> intro d
  · rw [Dat.before_out_kept _ 1 rfl t (by omega) (Bool.eq_false_iff.mpr fun h => by have := (flush0_1 _).mp h; dsimp only at this; omega)
      (fun _ => rfl) (fun _ _ => rfl)]
    rfl
  · rw [Dat.before_out_kept _ 2 rfl t (by omega) (Bool.eq_false_iff.mpr fun h => by have := (flush0_2 _).mp h; dsimp only at this; omega)
      (fun _ => rfl) (fun _ _ => rfl)]
    rfl

-- at every point that case's run applies; its stores tile each row, so the row reads back as the last store at each index
theorem body_obligation0 : BodyObligation (dat0 (F := F) V c) (defs₀ (F := F)) Variants.none () Set.univ := fun t => by
  rw [bigSep_W0, bigSep_W0]
  simp only [before0_0]
  change _ ⊢ wp _ _ _ (bodyAt0 t) _
  unfold bodyAt0
  rw [show (dat0 V c).Φ t.succ = (dat0 V c).Φ t.castSucc from rfl, show (dat0 V c).owesAt () t.succ = (dat0 V c).owesAt () t.castSucc from rfl,
    after0_0, after0_1, after0_2]
  by_cases h0 : t.val % 10 = 0
  on_goal 1 =>
    rw [outsAt0_A V c t h0]
    unfold outA0; (try dsimp only)
    iintro ⟨HΦ, Ho, ⟨%d0, H0⟩, ⟨%d1, H1⟩, ⟨%d2, H2⟩⟩
    iapply ((runA0 V c t h0).2.2 Set.univ _)
  on_goal 2 =>
    rw [outsAt0_B V c t h0]
    simp only [(before0_B V c t h0).1, (before0_B V c t h0).2]
    unfold outB0; (try dsimp only)
    iintro ⟨HΦ, Ho, ⟨%d0, H0⟩, ⟨%d1, H1⟩, ⟨%d2, H2⟩⟩
    iapply ((runB0 V c t h0 _ _).2.2 Set.univ _)
  all_goals
    isplitl [H0]; · iexact H0
    isplitl [H1 H2]
    · isplitl [H1]; · first | iexact H1 | (iexists _; iexact H1)
      first | iexact H2 | (iexists _; iexact H2)
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (View.cover_of_tiledL _ S1x128.size (by sl_kernel_rfl))
    unfold owns; iexists _; isplitr
    swap; · iexact H2
    ipureintro; exact View.read_writes_eq_canon _ _ _ (View.cover_of_tiledL _ S1x128.size (by sl_kernel_rfl))

end Region0

end Cert.Kernel.Hand

end
-- ==== Proof.K.Region1.lean ====
import proofs.«163757_j14508399526691_2_alg».proof.Proof.Gen.Kernel.Launch
import proofs.«163757_j14508399526691_2_alg».proof.Proof.Gen.Kernel.Skeleton
import proofs.«163757_j14508399526691_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1
-- the two rows are reset at the first point only
theorem hcond1_0 : ∀ t : Fin cfg1.N, cond1_0 (grid1.coords t) ↔ t.val % 100 = 0 :=
  (by decide +kernel : ∀ t : Fin grid1.N, cond1_0 (grid1.coords t) ↔ t.val % 100 = 0)

abbrev hs1_0 (t : Fin cfg1.N) : (win1_0.stage (cfg1.slots t 0)).IsWhole := hstage1_0 ((cfg1.slots t 0).cast nbuf1_0)
abbrev hs1_1 (t : Fin cfg1.N) : (win1_1.stage (cfg1.slots t 1)).IsWhole := hstage1_1 ((cfg1.slots t 1).cast nbuf1_1)
abbrev hs1_2 (t : Fin cfg1.N) : (win1_2.stage (cfg1.slots t 2)).IsWhole := hstage1_2 ((cfg1.slots t 2).cast nbuf1_2)

section Run
variable (i : grid1.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole)

-- a run from `pre`: the body leaves the input as it was and each row at the pieces it stored
abbrev Run1 (x0 : Vec F S8000x128 .f32) (pre : sProp 𝕄) : Type :=
  Σ' (L1 : List (View.Piece (Elt F) S1x128 .f32)), { L2 : List (View.Piece (Elt F) S1x128 .f32) //
    ∀ (E : Set ℕ) (K : PUnit → sProp 𝕄),
      iprop(owns (c : Thread nD τ) arg1 fullShare x0 ∗ pre
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
        ⊢ wp frame (wpE (defs₀ (F := F)) Variants.none c none) E (cc1__bn_stats_kernel i arg1 harg1 arg2 harg2 arg3 harg3) K }

-- the reset taken: whatever the two rows held
def kernelRun1_A (hc0 : cond1_0 i) (x0 : Vec F S8000x128 .f32) :
    Run1 c i arg1 harg1 arg2 harg2 arg3 harg3 x0 iprop((∃ d, owns (c : Thread nD τ) arg2 fullShare d) ∗ (∃ d, owns (c : Thread nD τ) arg3 fullShare d)) := by
  refine ⟨?_, ?_, fun E K => ?run⟩
  case run =>
    simp only [cc1__bn_stats_kernel_eq_skeleton]; unfold cc1__bn_stats_kernel_skel
    unfold owns
    iintro ⟨⟨%f0, %hf0, H0⟩, ⟨⟨%d1, %f1, -, H1⟩, ⟨%d2, %f2, -, H2⟩⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    iexists _; iexact H2

-- the reset not taken: from the rows the point before left, which the body reads before it stores over them
def kernelRun1_B (hc0 : ¬cond1_0 i) (x0 : Vec F S8000x128 .f32) (xo1 xo2 : Vec F S1x128 .f32) :
    Run1 c i arg1 harg1 arg2 harg2 arg3 harg3 x0 iprop(owns (c : Thread nD τ) arg2 fullShare xo1 ∗ owns (c : Thread nD τ) arg3 fullShare xo2) := by
  refine ⟨?_, ?_, fun E K => ?run⟩
  case run =>
    simp only [cc1__bn_stats_kernel_eq_skeleton]; unfold cc1__bn_stats_kernel_skel
    unfold owns
    iintro ⟨⟨%f0, %hf0, H0⟩, ⟨⟨%f1, %hf1, H1⟩, ⟨%f2, %hf2, H2⟩⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]; · iexists _; iexact H1
    iexists _; iexact H2

end Run

def runA1 (t : Fin cfg1.N) (h0 : t.val % 100 = 0) :=
  kernelRun1_A c (grid1.coords t) _ (hs1_0 t) _ (hs1_1 t) _ (hs1_2 t) ((hcond1_0 t).mpr h0) (iblk1 V c 0 t)
def runB1 (t : Fin cfg1.N) (h0 : ¬t.val % 100 = 0) :=
  kernelRun1_B c (grid1.coords t) _ (hs1_0 t) _ (hs1_1 t) _ (hs1_2 t) (fun h => h0 ((hcond1_0 t).mp h)) (iblk1 V c 0 t)

-- what a point leaves in the two rows: at each index the last store to reach it
def outA1 (t : Fin cfg1.N) (h0 : t.val % 100 = 0) : Vec F S1x128 .f32 × Vec F S1x128 .f32 :=
  (View.canon (runA1 V c t h0).1, View.canon (runA1 V c t h0).2.1)
def outB1 (t : Fin cfg1.N) (h0 : ¬t.val % 100 = 0) (p : Vec F S1x128 .f32 × Vec F S1x128 .f32) : Vec F S1x128 .f32 × Vec F S1x128 .f32 :=
  (View.canon (runB1 V c t h0 p.1 p.2).1, View.canon (runB1 V c t h0 p.1 p.2).2.1)

-- the two rows after point n: a point that does not reset reads what the point before left
def outsAt1 : (n : ℕ) → n < cfg1.N → Vec F S1x128 .f32 × Vec F S1x128 .f32
  | 0, hn => outA1 V c ⟨0, hn⟩ (Nat.zero_mod _)
  | n + 1, hn =>
    if h0 : (n + 1) % 100 = 0 then outA1 V c ⟨n + 1, hn⟩ h0
    else outB1 V c ⟨n + 1, hn⟩ h0 (outsAt1 n (Nat.lt_of_succ_lt hn))

theorem outsAt1_A (t : Fin cfg1.N) (h0 : t.val % 100 = 0) : outsAt1 V c t.val t.isLt = outA1 V c t h0 := by
  obtain ⟨n, hn⟩ := t
  cases n with
  | zero => rfl
  | succ n => exact dif_pos h0

theorem outsAt1_B (t : Fin cfg1.N) (h0 : ¬t.val % 100 = 0) :
    outsAt1 V c t.val t.isLt = outB1 V c t h0 (outsAt1 V c (t.val - 1) (Nat.lt_of_le_of_lt (Nat.sub_le _ _) t.isLt)) := by
  obtain ⟨n, hn⟩ := t
  cases n with
  | zero => exact absurd (Nat.zero_mod _) h0
  | succ n => exact dif_neg h0

def dat1 : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

theorem A_eq1 (w : Fin cfg1.W) : (dat1 V c).A w = V c (Pipeline.arrRef spec1 w) := rfl

theorem after1_0 (t : Fin cfg1.N) : (dat1 V c).after 0 t = iblk1 V c 0 t := rfl
theorem after1_1 (t : Fin cfg1.N) : (dat1 V c).after 1 t = (outsAt1 V c t.val t.isLt).1 := rfl
theorem after1_2 (t : Fin cfg1.N) : (dat1 V c).after 2 t = (outsAt1 V c t.val t.isLt).2 := rfl

theorem before1_0 (t : Fin cfg1.N) (d) : (dat1 V c).before 0 t d = iblk1 V c 0 t :=
  ((dat1 V c).before_in_eq_fetched 0 rfl (fun _ => rfl) (fun _ _ _ => rfl) (fun _ => rfl) t d).trans rfl

theorem before1_B (t : Fin cfg1.N) (h0 : ¬t.val % 100 = 0) :
    (∀ d, (dat1 V c).before 1 t d = (outsAt1 V c (t.val - 1) (Nat.lt_of_le_of_lt (Nat.sub_le _ _) t.isLt)).1)
    ∧ ∀ d, (dat1 V c).before 2 t d = (outsAt1 V c (t.val - 1) (Nat.lt_of_le_of_lt (Nat.sub_le _ _) t.isLt)).2 := by
  have hN : t.val < 100 := lt_of_lt_of_eq t.isLt (show cfg1.N = 100 from N_1)
  constructor <;> intro d
  · rw [Dat.before_out_kept _ 1 rfl t (by omega) (Bool.eq_false_iff.mpr fun h => by have := (flush1_1 _).mp h; dsimp only at this; omega)
      (fun _ => rfl) (fun _ _ => rfl)]
    rfl
  · rw [Dat.before_out_kept _ 2 rfl t (by omega) (Bool.eq_false_iff.mpr fun h => by have := (flush1_2 _).mp h; dsimp only at this; omega)
      (fun _ => rfl) (fun _ _ => rfl)]
    rfl

-- at every point that case's run applies; its stores tile each row, so the row reads back as the last store at each index
theorem body_obligation1 : BodyObligation (dat1 (F := F) V c) (defs₀ (F := F)) Variants.none () Set.univ := fun t => by
  rw [bigSep_W1, bigSep_W1]
  simp only [before1_0]
  change _ ⊢ wp _ _ _ (bodyAt1 t) _
  unfold bodyAt1
  rw [show (dat1 V c).Φ t.succ = (dat1 V c).Φ t.castSucc from rfl, show (dat1 V c).owesAt () t.succ = (dat1 V c).owesAt () t.castSucc from rfl,
    after1_0, after1_1, after1_2]
  by_cases h0 : t.val % 100 = 0
  on_goal 1 =>
    rw [outsAt1_A V c t h0]
    unfold outA1; (try dsimp only)
    iintro ⟨HΦ, Ho, ⟨%d0, H0⟩, ⟨%d1, H1⟩, ⟨%d2, H2⟩⟩
    iapply ((runA1 V c t h0).2.2 Set.univ _)
  on_goal 2 =>
    rw [outsAt1_B V c t h0]
    simp only [(before1_B V c t h0).1, (before1_B V c t h0).2]
    unfold outB1; (try dsimp only)
    iintro ⟨HΦ, Ho, ⟨%d0, H0⟩, ⟨%d1, H1⟩, ⟨%d2, H2⟩⟩
    iapply ((runB1 V c t h0 _ _).2.2 Set.univ _)
  all_goals
    isplitl [H0]; · iexact H0
    isplitl [H1 H2]
    · isplitl [H1]; · first | iexact H1 | (iexists _; iexact H1)
      first | iexact H2 | (iexists _; iexact H2)
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (View.cover_of_tiledL _ S1x128.size (by sl_kernel_rfl))
    unfold owns; iexists _; isplitr
    swap; · iexact H2
    ipureintro; exact View.read_writes_eq_canon _ _ _ (View.cover_of_tiledL _ S1x128.size (by sl_kernel_rfl))

end Region1

end Cert.Kernel.Hand

end
-- ==== Proof.K.Region2.lean ====
import proofs.«163757_j14508399526691_2_alg».proof.Proof.Gen.Kernel.Launch
import proofs.«163757_j14508399526691_2_alg».proof.Proof.Gen.Kernel.Skeleton
import proofs.«163757_j14508399526691_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S128x384 := Rect.unit (s := S128x384) ![0, 0] S128x384.size inb_S128x384_S128x384_0_0
abbrev r2_3 : Rect S5000x384 := Rect.unit (s := S5000x384) ![0, 0] S5000x384.size inb_S5000x384_S5000x384_0_0

def out2_6 (x0 : Vec F S5000x128 .f32) (x1 x2 x3 x4 : Vec F S1x128 .f32) (x5 : Vec F S128x384 .f32) : Vec F S5000x384 .f32 :=
  View.canon [⟨r2_3, k2_pay1 (View.ld x0 r2_0) (View.ld x2 r2_1) (View.ld x1 r2_1) (View.ld x3 r2_1) (View.ld x4 r2_1) (View.ld x5 r2_2)⟩]

set_option maxHeartbeats 1000000 in
/-- The one store covers the whole output, so the output ends as `out2_6` of the inputs, which are only read. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x384 .f32) (harg6 : arg6.IsWhole) (arg7 : Memref sig .tc .vmem S5000x384 .f32) (harg7 : arg7.IsWhole)
    (x0 : Vec F S5000x128 .f32) (x1 x2 x3 x4 : Vec F S1x128 .f32) (x5 : Vec F S128x384 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out2_6 x0 x1 x2 x3 x4 x5)) -∗ K ⟨⟩))
      ⊢ wp frame (wpE (defs₀ (F := F)) Variants.none c none) E (cc2__bn_mm_kernel i arg1 harg1 arg2 harg2 arg3 harg3 arg4 harg4 arg5 harg5 arg6 harg6 arg7 harg7) K := by
  simp only [cc2__bn_mm_kernel_eq_skeleton]; unfold cc2__bn_mm_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x384.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem before2 (c : Dev nD) (t : Fin cfg2.N) :
    ∀ (w : Fin cfg2.W) (_ : (cfg2.win w).isOut = false) (d), (dat2 V c).before w t d = (dat2 V c).after w t
  | ⟨6, _⟩, h, _ => Bool.noConfusion h
  | ⟨0, _⟩, h, d | ⟨1, _⟩, h, d | ⟨2, _⟩, h, d | ⟨3, _⟩, h, d | ⟨4, _⟩, h, d | ⟨5, _⟩, h, d =>
    ((dat2 V c).before_in_eq_fetched _ h (fun _ => rfl) (fun _ _ _ => rfl) (fun _ => rfl) t d).trans rfl

/-- At a point the inputs are their blocks (`before2`), so `sound_kernel2` applies and the invariant is framed. -/
theorem body_obligation2 (c : Dev nD) : BodyObligation (dat2 (F := F) V c) (defs₀ (F := F)) Variants.none () Set.univ := fun t => by
  have hb := before2 V c t
  simp only [bigSep_W2, hb 0 rfl, hb 1 rfl, hb 2 rfl, hb 3 rfl, hb 4 rfl, hb 5 rfl]
  show _ ⊢ wp _ _ _ (bodyAt2 t) fun _ => iprop(_ ∗ _ ∗ owns _ _ _ _ ∗ owns _ _ _ _ ∗ owns _ _ _ _ ∗ owns _ _ _ _ ∗ owns _ _ _ _ ∗ owns _ _ _ _ ∗ owns _ _ _ _)
  rw [show (dat2 V c).Φ t.succ = (dat2 V c).Φ t.castSucc from rfl,
    show (dat2 V c).owesAt () t.succ = (dat2 V c).owesAt () t.castSucc from rfl,
    show (dat2 V c).after 6 t = out2_6 ((dat2 V c).after 0 t) ((dat2 V c).after 1 t) ((dat2 V c).after 2 t) ((dat2 V c).after 3 t) ((dat2 V c).after 4 t) ((dat2 V c).after 5 t) by dsimp only [dat2]]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ ((dat2 V c).after 0 t) ((dat2 V c).after 1 t) ((dat2 V c).after 2 t) ((dat2 V c).after 3 t) ((dat2 V c).after 4 t) ((dat2 V c).after 5 t) _)
  iframe H0 H1 H2 H3 H4 H5
  isplitl [H6]; · iexists _; iexact H6
  iintro ⟨H0, H1, H2, H3, H4, H5, H6⟩
  iframe

end Region

end Cert.Kernel.Hand
-- ==== Proof.K.Region3.lean ====
import proofs.«163757_j14508399526691_2_alg».proof.Proof.Gen.Kernel.Launch
import proofs.«163757_j14508399526691_2_alg».proof.Proof.Gen.Kernel.Skeleton
import proofs.«163757_j14508399526691_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S8000x128 := Rect.unit (s := S8000x128) ![0, 0] S8000x128.size inb_S8000x128_S8000x128_0_0
abbrev r3_1 : Rect S1x128 := Rect.unit (s := S1x128) ![0, 0] S1x128.size inb_S1x128_S1x128_0_0
abbrev r3_2 : Rect S128x128 := Rect.unit (s := S128x128) ![0, 0] S128x128.size inb_S128x128_S128x128_0_0

def out3_6 (x0 : Vec F S8000x128 .f32) (x1 x2 x3 x4 : Vec F S1x128 .f32) (x5 : Vec F S128x128 .f32) : Vec F S8000x128 .f32 :=
  View.canon [⟨r3_0, k3_pay1 (View.ld x0 r3_0) (View.ld x2 r3_1) (View.ld x1 r3_1) (View.ld x3 r3_1) (View.ld x4 r3_1) (View.ld x5 r3_2)⟩]

set_option maxHeartbeats 1000000 in
/-- The one store covers the whole output, so the output ends as `out3_6` of the inputs, which are only read. -/
theorem sound_kernel3 (c : Dev nD) (E : Set ℕ) (i : grid3.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S8000x128 .f32) (harg7 : arg7.IsWhole)
    (x0 : Vec F S8000x128 .f32) (x1 x2 x3 x4 : Vec F S1x128 .f32) (x5 : Vec F S128x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out3_6 x0 x1 x2 x3 x4 x5)) -∗ K ⟨⟩))
      ⊢ wp frame (wpE (defs₀ (F := F)) Variants.none c none) E (cc3__bn_mm_kernel i arg1 harg1 arg2 harg2 arg3 harg3 arg4 harg4 arg5 harg5 arg6 harg6 arg7 harg7) K := by
  simp only [cc3__bn_mm_kernel_eq_skeleton]; unfold cc3__bn_mm_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S8000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem before3 (c : Dev nD) (t : Fin cfg3.N) :
    ∀ (w : Fin cfg3.W) (_ : (cfg3.win w).isOut = false) (d), (dat3 V c).before w t d = (dat3 V c).after w t
  | ⟨6, _⟩, h, _ => Bool.noConfusion h
  | ⟨0, _⟩, h, d | ⟨1, _⟩, h, d | ⟨2, _⟩, h, d | ⟨3, _⟩, h, d | ⟨4, _⟩, h, d | ⟨5, _⟩, h, d =>
    ((dat3 V c).before_in_eq_fetched _ h (fun _ => rfl) (fun _ _ _ => rfl) (fun _ => rfl) t d).trans rfl

/-- At a point the inputs are their blocks (`before3`), so `sound_kernel3` applies and the invariant is framed. -/
theorem body_obligation3 (c : Dev nD) : BodyObligation (dat3 (F := F) V c) (defs₀ (F := F)) Variants.none () Set.univ := fun t => by
  have hb := before3 V c t
  simp only [bigSep_W3, hb 0 rfl, hb 1 rfl, hb 2 rfl, hb 3 rfl, hb 4 rfl, hb 5 rfl]
  show _ ⊢ wp _ _ _ (bodyAt3 t) fun _ => iprop(_ ∗ _ ∗ owns _ _ _ _ ∗ owns _ _ _ _ ∗ owns _ _ _ _ ∗ owns _ _ _ _ ∗ owns _ _ _ _ ∗ owns _ _ _ _ ∗ owns _ _ _ _)
  rw [show (dat3 V c).Φ t.succ = (dat3 V c).Φ t.castSucc from rfl,
    show (dat3 V c).owesAt () t.succ = (dat3 V c).owesAt () t.castSucc from rfl,
    show (dat3 V c).after 6 t = out3_6 ((dat3 V c).after 0 t) ((dat3 V c).after 1 t) ((dat3 V c).after 2 t) ((dat3 V c).after 3 t) ((dat3 V c).after 4 t) ((dat3 V c).after 5 t) by dsimp only [dat3]]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ ((dat3 V c).after 0 t) ((dat3 V c).after 1 t) ((dat3 V c).after 2 t) ((dat3 V c).after 3 t) ((dat3 V c).after 4 t) ((dat3 V c).after 5 t) _)
  iframe H0 H1 H2 H3 H4 H5
  isplitl [H6]; · iexists _; iexact H6
  iintro ⟨H0, H1, H2, H3, H4, H5, H6⟩
  iframe

end Region

end Cert.Kernel.Hand
-- ==== Proof.K.Region4.lean ====
import proofs.«163757_j14508399526691_2_alg».proof.Proof.Gen.Kernel.Launch
import proofs.«163757_j14508399526691_2_alg».proof.Proof.Gen.Kernel.Skeleton
import proofs.«163757_j14508399526691_2_alg».proof.Proof.Gen.Kernel.Points
import Idealize.ShloMosaic.Lib.Pipeline.FrameBody
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S4000x256 := Rect.unit (s := S4000x256) ![0, 0] S4000x256.size inb_S4000x256_S4000x256_0_0
abbrev r4_1 : Rect S4000x128 := Rect.unit (s := S4000x128) ![0, 0] S4000x128.size inb_S4000x128_S4000x128_0_0
abbrev r4_2 : Rect S128x4 := Rect.unit (s := S128x4) ![0, 0] S128x4.size inb_S128x4_S128x4_0_0
abbrev r4_3 : Rect S4x128 := Rect.unit (s := S4x128) ![0, 0] S4x128.size inb_S4x128_S4x128_0_0
abbrev r4_4 : Rect S4000x256 := Rect.unit (s := S4000x256) ![0, 0] S4000x128.size inb_S4000x256_S4000x128_0_0
abbrev r4_5 : Rect S4000x256 := Rect.unit (s := S4000x256) ![0, 128] S4000x128.size inb_S4000x256_S4000x128_0_128

def out4_5 (x0 : Vec F S4000x256 .f32) (x1 : Vec F S4000x128 .f32) (x2 : Vec F S4000x128 .f32) (x3 : Vec F S128x4 .f32) (x4 : Vec F S4x128 .f32) : Vec F S4000x256 .f32 :=
  View.canon [⟨r4_5, k4_pay2 (View.ld x0 r4_0) (View.ld x1 r4_1) (View.ld x2 r4_1) (View.ld x3 r4_2) (View.ld x4 r4_3)⟩,
    ⟨r4_4, k4_pay3 (View.ld x0 r4_0) (View.ld x1 r4_1) (View.ld x2 r4_1) (View.ld x3 r4_2) (View.ld x4 r4_3)⟩]

set_option maxHeartbeats 1000000 in
theorem sound_kernel4 (c : Dev nD) (E : Set ℕ) (i : grid4.Coords) (arg1 : Memref sig .tc .vmem S4000x256 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x4 .f32) (harg4 : arg4.IsWhole) (arg5 : Memref sig .tc .vmem S4x128 .f32) (harg5 : arg5.IsWhole) (arg6 : Memref sig .tc .vmem S4000x256 .f32) (harg6 : arg6.IsWhole)
    (x0 : Vec F S4000x256 .f32) (x1 : Vec F S4000x128 .f32) (x2 : Vec F S4000x128 .f32) (x3 : Vec F S128x4 .f32) (x4 : Vec F S4x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ (∃ d, owns c.tc arg6 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare (out4_5 x0 x1 x2 x3 x4)) -∗ K ⟨⟩))
      ⊢ wp frame (wpE (defs₀ (F := F)) Variants.none c none) E (cc4__edge_kernel i arg1 harg1 arg2 harg2 arg3 harg3 arg4 harg4 arg5 harg5 arg6 harg6) K := by
  simp only [cc4__edge_kernel_eq_skeleton]; unfold cc4__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S4000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns c.tc (st4_0 t) fullShare ((dat4 V c).before 0 t d))
    ∗ (∃ d, owns c.tc (st4_1 t) fullShare ((dat4 V c).before 1 t d))
    ∗ (∃ d, owns c.tc (st4_2 t) fullShare ((dat4 V c).before 2 t d))
    ∗ (∃ d, owns c.tc (st4_3 t) fullShare ((dat4 V c).before 3 t d))
    ∗ (∃ d, owns c.tc (st4_4 t) fullShare ((dat4 V c).before 4 t d))
    ∗ (∃ d, owns c.tc (st4_5 t) fullShare ((dat4 V c).before 5 t d)))

def bodyPost4 (c : Dev nD) (t : Fin cfg4.N) : sProp 𝕄 :=
  iprop((dat4 V c).Φ t.castSucc ∗ (dat4 V c).owesAt () t.castSucc
    ∗ owns c.tc (st4_0 t) fullShare (iblk4 V c 0 t)
    ∗ owns c.tc (st4_1 t) fullShare (iblk4 V c 1 t)
    ∗ owns c.tc (st4_2 t) fullShare (iblk4 V c 2 t)
    ∗ owns c.tc (st4_3 t) fullShare (iblk4 V c 3 t)
    ∗ owns c.tc (st4_4 t) fullShare (iblk4 V c 4 t)
    ∗ owns c.tc (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe

theorem body_obligation4 (c : Dev nD) : BodyObligation (dat4 (F := F) V c) (defs₀ (F := F)) Variants.none () Set.univ := fun t => by
  rw [bigSep_W4, bigSep_W4]
  exact sound_body4 V c t

end Region4

end Cert.Kernel.Hand
-- ==== Proof.K.Region5.lean ====
import proofs.«163757_j14508399526691_2_alg».proof.Proof.Gen.Kernel.Launch
import proofs.«163757_j14508399526691_2_alg».proof.Proof.Gen.Kernel.Skeleton
import proofs.«163757_j14508399526691_2_alg».proof.Proof.Gen.Kernel.Points
import Idealize.ShloMosaic.Lib.Pipeline.FrameBody
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

def out5_5 (x0 : Vec F S5000x128 .f32) (x1 : Vec F S5000x128 .f32) (x2 : Vec F S128x128 .f32) (x3 : Vec F S1x128 .f32) (x4 : Vec F S5000x128 .f32) : Vec F S5000x128 .f32 :=
  View.canon [⟨r5_0, k5_pay1 (View.ld x0 r5_0) (View.ld x1 r5_0) (View.ld x2 r5_1) (View.ld x3 r5_2) (View.ld x4 r5_0)⟩]

set_option maxHeartbeats 1000000 in
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S1x128 .f32) (x4 : Vec F S5000x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ (∃ d, owns c.tc arg6 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare (out5_5 x0 x1 x2 x3 x4)) -∗ K ⟨⟩))
      ⊢ wp frame (wpE (defs₀ (F := F)) Variants.none c none) E (cc5__divide_mm_bias_res_kernel i arg1 harg1 arg2 harg2 arg3 harg3 arg4 harg4 arg5 harg5 arg6 harg6) K := by
  simp only [cc5__divide_mm_bias_res_kernel_eq_skeleton]; unfold cc5__divide_mm_bias_res_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl

theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns c.tc (st5_0 t) fullShare ((dat5 V c).before 0 t d))
    ∗ (∃ d, owns c.tc (st5_1 t) fullShare ((dat5 V c).before 1 t d))
    ∗ (∃ d, owns c.tc (st5_2 t) fullShare ((dat5 V c).before 2 t d))
    ∗ (∃ d, owns c.tc (st5_3 t) fullShare ((dat5 V c).before 3 t d))
    ∗ (∃ d, owns c.tc (st5_4 t) fullShare ((dat5 V c).before 4 t d))
    ∗ (∃ d, owns c.tc (st5_5 t) fullShare ((dat5 V c).before 5 t d)))

def bodyPost5 (c : Dev nD) (t : Fin cfg5.N) : sProp 𝕄 :=
  iprop((dat5 V c).Φ t.castSucc ∗ (dat5 V c).owesAt () t.castSucc
    ∗ owns c.tc (st5_0 t) fullShare (iblk5 V c 0 t)
    ∗ owns c.tc (st5_1 t) fullShare (iblk5 V c 1 t)
    ∗ owns c.tc (st5_2 t) fullShare (iblk5 V c 2 t)
    ∗ owns c.tc (st5_3 t) fullShare (iblk5 V c 3 t)
    ∗ owns c.tc (st5_4 t) fullShare (iblk5 V c 4 t)
    ∗ owns c.tc (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe

theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.K.Region6.lean ====
import proofs.«163757_j14508399526691_2_alg».proof.Proof.Gen.Kernel.Launch
import proofs.«163757_j14508399526691_2_alg».proof.Proof.Gen.Kernel.Skeleton
import proofs.«163757_j14508399526691_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
-- the two rows are reset at the first point only
theorem hcond6_0 : ∀ t : Fin cfg6.N, cond6_0 (grid6.coords t) ↔ t.val % 10 = 0 :=
  (by decide +kernel : ∀ t : Fin grid6.N, cond6_0 (grid6.coords t) ↔ t.val % 10 = 0)

abbrev hs6_0 (t : Fin cfg6.N) : (win6_0.stage (cfg6.slots t 0)).IsWhole := hstage6_0 ((cfg6.slots t 0).cast nbuf6_0)
abbrev hs6_1 (t : Fin cfg6.N) : (win6_1.stage (cfg6.slots t 1)).IsWhole := hstage6_1 ((cfg6.slots t 1).cast nbuf6_1)
abbrev hs6_2 (t : Fin cfg6.N) : (win6_2.stage (cfg6.slots t 2)).IsWhole := hstage6_2 ((cfg6.slots t 2).cast nbuf6_2)

section Run
variable (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole)

-- a run from `pre`: the body leaves the input as it was and each row at the pieces it stored
abbrev Run6 (x0 : Vec F S5000x128 .f32) (pre : sProp 𝕄) : Type :=
  Σ' (L1 : List (View.Piece (Elt F) S1x128 .f32)), { L2 : List (View.Piece (Elt F) S1x128 .f32) //
    ∀ (E : Set ℕ) (K : PUnit → sProp 𝕄),
      iprop(owns (c : Thread nD τ) arg1 fullShare x0 ∗ pre
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
        ⊢ wp frame (wpE (defs₀ (F := F)) Variants.none c none) E (cc6__bn_stats_kernel i arg1 harg1 arg2 harg2 arg3 harg3) K }

-- the reset taken: whatever the two rows held
def kernelRun6_A (hc0 : cond6_0 i) (x0 : Vec F S5000x128 .f32) :
    Run6 c i arg1 harg1 arg2 harg2 arg3 harg3 x0 iprop((∃ d, owns (c : Thread nD τ) arg2 fullShare d) ∗ (∃ d, owns (c : Thread nD τ) arg3 fullShare d)) := by
  refine ⟨?_, ?_, fun E K => ?run⟩
  case run =>
    simp only [cc6__bn_stats_kernel_eq_skeleton]; unfold cc6__bn_stats_kernel_skel
    unfold owns
    iintro ⟨⟨%f0, %hf0, H0⟩, ⟨⟨%d1, %f1, -, H1⟩, ⟨%d2, %f2, -, H2⟩⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    iexists _; iexact H2

-- the reset not taken: from the rows the point before left, which the body reads before it stores over them
def kernelRun6_B (hc0 : ¬cond6_0 i) (x0 : Vec F S5000x128 .f32) (xo1 xo2 : Vec F S1x128 .f32) :
    Run6 c i arg1 harg1 arg2 harg2 arg3 harg3 x0 iprop(owns (c : Thread nD τ) arg2 fullShare xo1 ∗ owns (c : Thread nD τ) arg3 fullShare xo2) := by
  refine ⟨?_, ?_, fun E K => ?run⟩
  case run =>
    simp only [cc6__bn_stats_kernel_eq_skeleton]; unfold cc6__bn_stats_kernel_skel
    unfold owns
    iintro ⟨⟨%f0, %hf0, H0⟩, ⟨⟨%f1, %hf1, H1⟩, ⟨%f2, %hf2, H2⟩⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]; · iexists _; iexact H1
    iexists _; iexact H2

end Run

def runA6 (t : Fin cfg6.N) (h0 : t.val % 10 = 0) :=
  kernelRun6_A c (grid6.coords t) _ (hs6_0 t) _ (hs6_1 t) _ (hs6_2 t) ((hcond6_0 t).mpr h0) (iblk6 V c 0 t)
def runB6 (t : Fin cfg6.N) (h0 : ¬t.val % 10 = 0) :=
  kernelRun6_B c (grid6.coords t) _ (hs6_0 t) _ (hs6_1 t) _ (hs6_2 t) (fun h => h0 ((hcond6_0 t).mp h)) (iblk6 V c 0 t)

-- what a point leaves in the two rows: at each index the last store to reach it
def outA6 (t : Fin cfg6.N) (h0 : t.val % 10 = 0) : Vec F S1x128 .f32 × Vec F S1x128 .f32 :=
  (View.canon (runA6 V c t h0).1, View.canon (runA6 V c t h0).2.1)
def outB6 (t : Fin cfg6.N) (h0 : ¬t.val % 10 = 0) (p : Vec F S1x128 .f32 × Vec F S1x128 .f32) : Vec F S1x128 .f32 × Vec F S1x128 .f32 :=
  (View.canon (runB6 V c t h0 p.1 p.2).1, View.canon (runB6 V c t h0 p.1 p.2).2.1)

-- the two rows after point n: a point that does not reset reads what the point before left
def outsAt6 : (n : ℕ) → n < cfg6.N → Vec F S1x128 .f32 × Vec F S1x128 .f32
  | 0, hn => outA6 V c ⟨0, hn⟩ (Nat.zero_mod _)
  | n + 1, hn =>
    if h0 : (n + 1) % 10 = 0 then outA6 V c ⟨n + 1, hn⟩ h0
    else outB6 V c ⟨n + 1, hn⟩ h0 (outsAt6 n (Nat.lt_of_succ_lt hn))

theorem outsAt6_A (t : Fin cfg6.N) (h0 : t.val % 10 = 0) : outsAt6 V c t.val t.isLt = outA6 V c t h0 := by
  obtain ⟨n, hn⟩ := t
  cases n with
  | zero => rfl
  | succ n => exact dif_pos h0

theorem outsAt6_B (t : Fin cfg6.N) (h0 : ¬t.val % 10 = 0) :
    outsAt6 V c t.val t.isLt = outB6 V c t h0 (outsAt6 V c (t.val - 1) (Nat.lt_of_le_of_lt (Nat.sub_le _ _) t.isLt)) := by
  obtain ⟨n, hn⟩ := t
  cases n with
  | zero => exact absurd (Nat.zero_mod _) h0
  | succ n => exact dif_neg h0

def dat6 : Dat τ (Elt F) Unit ℕ (UR sig nD τ) ℕ cfg6 c where
  A w := V c (Pipeline.arrRef spec6 w)
  after w t := match w with
    | ⟨0, _⟩ => iblk6 V c 0 t
    | ⟨1, _⟩ => (outsAt6 V c t.val t.isLt).1
    | ⟨2, _⟩ => (outsAt6 V c t.val t.isLt).2
  Φ _ := Pipeline.ΦA spec6 c
  q _ := fullShare
  owed _ := 0

theorem A_eq6 (w : Fin cfg6.W) : (dat6 V c).A w = V c (Pipeline.arrRef spec6 w) := rfl

theorem after6_0 (t : Fin cfg6.N) : (dat6 V c).after 0 t = iblk6 V c 0 t := rfl
theorem after6_1 (t : Fin cfg6.N) : (dat6 V c).after 1 t = (outsAt6 V c t.val t.isLt).1 := rfl
theorem after6_2 (t : Fin cfg6.N) : (dat6 V c).after 2 t = (outsAt6 V c t.val t.isLt).2 := rfl

theorem before6_0 (t : Fin cfg6.N) (d) : (dat6 V c).before 0 t d = iblk6 V c 0 t :=
  ((dat6 V c).before_in_eq_fetched 0 rfl (fun _ => rfl) (fun _ _ _ => rfl) (fun _ => rfl) t d).trans rfl

theorem before6_B (t : Fin cfg6.N) (h0 : ¬t.val % 10 = 0) :
    (∀ d, (dat6 V c).before 1 t d = (outsAt6 V c (t.val - 1) (Nat.lt_of_le_of_lt (Nat.sub_le _ _) t.isLt)).1)
    ∧ ∀ d, (dat6 V c).before 2 t d = (outsAt6 V c (t.val - 1) (Nat.lt_of_le_of_lt (Nat.sub_le _ _) t.isLt)).2 := by
  have hN : t.val < 10 := lt_of_lt_of_eq t.isLt (show cfg6.N = 10 from N_6)
  constructor <;> intro d
  · rw [Dat.before_out_kept _ 1 rfl t (by omega) (Bool.eq_false_iff.mpr fun h => by have := (flush6_1 _).mp h; dsimp only at this; omega)
      (fun _ => rfl) (fun _ _ => rfl)]
    rfl
  · rw [Dat.before_out_kept _ 2 rfl t (by omega) (Bool.eq_false_iff.mpr fun h => by have := (flush6_2 _).mp h; dsimp only at this; omega)
      (fun _ => rfl) (fun _ _ => rfl)]
    rfl

-- at every point that case's run applies; its stores tile each row, so the row reads back as the last store at each index
theorem body_obligation6 : BodyObligation (dat6 (F := F) V c) (defs₀ (F := F)) Variants.none () Set.univ := fun t => by
  rw [bigSep_W6, bigSep_W6]
  simp only [before6_0]
  change _ ⊢ wp _ _ _ (bodyAt6 t) _
  unfold bodyAt6
  rw [show (dat6 V c).Φ t.succ = (dat6 V c).Φ t.castSucc from rfl, show (dat6 V c).owesAt () t.succ = (dat6 V c).owesAt () t.castSucc from rfl,
    after6_0, after6_1, after6_2]
  by_cases h0 : t.val % 10 = 0
  on_goal 1 =>
    rw [outsAt6_A V c t h0]
    unfold outA6; (try dsimp only)
    iintro ⟨HΦ, Ho, ⟨%d0, H0⟩, ⟨%d1, H1⟩, ⟨%d2, H2⟩⟩
    iapply ((runA6 V c t h0).2.2 Set.univ _)
  on_goal 2 =>
    rw [outsAt6_B V c t h0]
    simp only [(before6_B V c t h0).1, (before6_B V c t h0).2]
    unfold outB6; (try dsimp only)
    iintro ⟨HΦ, Ho, ⟨%d0, H0⟩, ⟨%d1, H1⟩, ⟨%d2, H2⟩⟩
    iapply ((runB6 V c t h0 _ _).2.2 Set.univ _)
  all_goals
    isplitl [H0]; · iexact H0
    isplitl [H1 H2]
    · isplitl [H1]; · first | iexact H1 | (iexists _; iexact H1)
      first | iexact H2 | (iexists _; iexact H2)
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_eq_canon _ _ _ (View.cover_of_tiledL _ S1x128.size (by sl_kernel_rfl))
    unfold owns; iexists _; isplitr
    swap; · iexact H2
    ipureintro; exact View.read_writes_eq_canon _ _ _ (View.cover_of_tiledL _ S1x128.size (by sl_kernel_rfl))

end Region6

end Cert.Kernel.Hand

end
-- ==== Proof.K.Region7.lean ====
import proofs.«163757_j14508399526691_2_alg».proof.Proof.Gen.Kernel.Launch
import proofs.«163757_j14508399526691_2_alg».proof.Proof.Gen.Kernel.Skeleton
import proofs.«163757_j14508399526691_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0
abbrev r7_2 : Rect S128x256 := Rect.unit (s := S128x256) ![0, 0] S128x256.size inb_S128x256_S128x256_0_0
abbrev r7_3 : Rect S5000x256 := Rect.unit (s := S5000x256) ![0, 0] S5000x256.size inb_S5000x256_S5000x256_0_0

def out7_6 (x0 : Vec F S5000x128 .f32) (x1 x2 x3 x4 : Vec F S1x128 .f32) (x5 : Vec F S128x256 .f32) : Vec F S5000x256 .f32 :=
  View.canon [⟨r7_3, k7_pay1 (View.ld x0 r7_0) (View.ld x2 r7_1) (View.ld x1 r7_1) (View.ld x3 r7_1) (View.ld x4 r7_1) (View.ld x5 r7_2)⟩]

set_option maxHeartbeats 1000000 in
/-- The one store covers the whole output, so the output ends as `out7_6` of the inputs, which are only read. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S5000x256 .f32) (harg7 : arg7.IsWhole)
    (x0 : Vec F S5000x128 .f32) (x1 x2 x3 x4 : Vec F S1x128 .f32) (x5 : Vec F S128x256 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out7_6 x0 x1 x2 x3 x4 x5)) -∗ K ⟨⟩))
      ⊢ wp frame (wpE (defs₀ (F := F)) Variants.none c none) E (cc7__bn_mm_kernel i arg1 harg1 arg2 harg2 arg3 harg3 arg4 harg4 arg5 harg5 arg6 harg6 arg7 harg7) K := by
  simp only [cc7__bn_mm_kernel_eq_skeleton]; unfold cc7__bn_mm_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S5000x256.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := rfl

theorem before7 (c : Dev nD) (t : Fin cfg7.N) :
    ∀ (w : Fin cfg7.W) (_ : (cfg7.win w).isOut = false) (d), (dat7 V c).before w t d = (dat7 V c).after w t
  | ⟨6, _⟩, h, _ => Bool.noConfusion h
  | ⟨0, _⟩, h, d | ⟨1, _⟩, h, d | ⟨2, _⟩, h, d | ⟨3, _⟩, h, d | ⟨4, _⟩, h, d | ⟨5, _⟩, h, d =>
    ((dat7 V c).before_in_eq_fetched _ h (fun _ => rfl) (fun _ _ _ => rfl) (fun _ => rfl) t d).trans rfl

/-- At a point the inputs are their blocks (`before7`), so `sound_kernel7` applies and the invariant is framed. -/
theorem body_obligation7 (c : Dev nD) : BodyObligation (dat7 (F := F) V c) (defs₀ (F := F)) Variants.none () Set.univ := fun t => by
  have hb := before7 V c t
  simp only [bigSep_W7, hb 0 rfl, hb 1 rfl, hb 2 rfl, hb 3 rfl, hb 4 rfl, hb 5 rfl]
  show _ ⊢ wp _ _ _ (bodyAt7 t) fun _ => iprop(_ ∗ _ ∗ owns _ _ _ _ ∗ owns _ _ _ _ ∗ owns _ _ _ _ ∗ owns _ _ _ _ ∗ owns _ _ _ _ ∗ owns _ _ _ _ ∗ owns _ _ _ _)
  rw [show (dat7 V c).Φ t.succ = (dat7 V c).Φ t.castSucc from rfl,
    show (dat7 V c).owesAt () t.succ = (dat7 V c).owesAt () t.castSucc from rfl,
    show (dat7 V c).after 6 t = out7_6 ((dat7 V c).after 0 t) ((dat7 V c).after 1 t) ((dat7 V c).after 2 t) ((dat7 V c).after 3 t) ((dat7 V c).after 4 t) ((dat7 V c).after 5 t) by dsimp only [dat7]]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ ((dat7 V c).after 0 t) ((dat7 V c).after 1 t) ((dat7 V c).after 2 t) ((dat7 V c).after 3 t) ((dat7 V c).after 4 t) ((dat7 V c).after 5 t) _)
  iframe H0 H1 H2 H3 H4 H5
  isplitl [H6]; · iexists _; iexact H6
  iintro ⟨H0, H1, H2, H3, H4, H5, H6⟩
  iframe

end Region

end Cert.Kernel.Hand
-- ==== Proof.K.Region8.lean ====
import proofs.«163757_j14508399526691_2_alg».proof.Proof.Gen.Kernel.Launch
import proofs.«163757_j14508399526691_2_alg».proof.Proof.Gen.Kernel.Skeleton
import proofs.«163757_j14508399526691_2_alg».proof.Proof.Gen.Kernel.Points
import Idealize.ShloMosaic.Lib.Pipeline.FrameBody
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S5000x256 := Rect.unit (s := S5000x256) ![0, 0] S5000x256.size inb_S5000x256_S5000x256_0_0
abbrev r8_1 : Rect S256x128 := Rect.unit (s := S256x128) ![0, 0] S256x128.size inb_S256x128_S256x128_0_0
abbrev r8_2 : Rect S5000x128 := Rect.unit (s := S5000x128) ![0, 0] S5000x128.size inb_S5000x128_S5000x128_0_0

def out8_3 (x0 : Vec F S5000x256 .f32) (x1 : Vec F S256x128 .f32) (x2 : Vec F S5000x128 .f32) : Vec F S5000x128 .f32 :=
  View.canon [⟨r8_2, k8_pay1 (View.ld x0 r8_0) (View.ld x1 r8_1) (View.ld x2 r8_2)⟩]

set_option maxHeartbeats 1000000 in
theorem sound_kernel8 (c : Dev nD) (E : Set ℕ) (i : grid8.Coords) (arg1 : Memref sig .tc .vmem S5000x256 .f32) (harg1 : arg1.IsWhole) (arg2 : Memref sig .tc .vmem S256x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x256 .f32) (x1 : Vec F S256x128 .f32) (x2 : Vec F S5000x128 .f32) (K : PUnit → sProp 𝕄) :
    iprop(owns c.tc arg1 fullShare x0 ∗ owns c.tc arg2 fullShare x1 ∗ owns c.tc arg3 fullShare x2 ∗ (∃ d, owns c.tc arg4 fullShare d)
        ∗ (iprop(owns c.tc arg1 fullShare x0 ∗ owns c.tc arg2 fullShare x1 ∗ owns c.tc arg3 fullShare x2 ∗ owns c.tc arg4 fullShare (out8_3 x0 x1 x2)) -∗ K ⟨⟩))
      ⊢ wp frame (wpE (defs₀ (F := F)) Variants.none c none) E (cc8__mm_res_kernel i arg1 harg1 arg2 harg2 arg3 harg3 arg4 harg4) K := by
  simp only [cc8__mm_res_kernel_eq_skeleton]; unfold cc8__mm_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl

theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d

def bodyPre8 (c : Dev nD) (t : Fin cfg8.N) : sProp 𝕄 :=
  iprop((dat8 V c).Φ t.castSucc ∗ (dat8 V c).owesAt () t.castSucc
    ∗ (∃ d, owns c.tc (st8_0 t) fullShare ((dat8 V c).before 0 t d))
    ∗ (∃ d, owns c.tc (st8_1 t) fullShare ((dat8 V c).before 1 t d))
    ∗ (∃ d, owns c.tc (st8_2 t) fullShare ((dat8 V c).before 2 t d))
    ∗ (∃ d, owns c.tc (st8_3 t) fullShare ((dat8 V c).before 3 t d)))

def bodyPost8 (c : Dev nD) (t : Fin cfg8.N) : sProp 𝕄 :=
  iprop((dat8 V c).Φ t.castSucc ∗ (dat8 V c).owesAt () t.castSucc
    ∗ owns c.tc (st8_0 t) fullShare (iblk8 V c 0 t)
    ∗ owns c.tc (st8_1 t) fullShare (iblk8 V c 1 t)
    ∗ owns c.tc (st8_2 t) fullShare (iblk8 V c 2 t)
    ∗ owns c.tc (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  iframe H0 H1 H2
  isplitl [H3]; · iexists _; iexact H3
  iintro ⟨H0, H1, H2, H3⟩
  iframe

theorem body_obligation8 (c : Dev nD) : BodyObligation (dat8 (F := F) V c) (defs₀ (F := F)) Variants.none () Set.univ := fun t => by
  rw [bigSep_W8, bigSep_W8]
  exact sound_body8 V c t

end Region8

end Cert.Kernel.Hand

end
-- ==== Proof.K.Fold.lean ====
import proofs.«163757_j14508399526691_2_alg».proof.Proof.Gen.Kernel.Launch
import proofs.«163757_j14508399526691_2_alg».proof.Proof.Gen.Kernel.Regions
import proofs.«163757_j14508399526691_2_alg».proof.Proof.K.Region0
import proofs.«163757_j14508399526691_2_alg».proof.Proof.K.Region1
import proofs.«163757_j14508399526691_2_alg».proof.Proof.K.Region2
import proofs.«163757_j14508399526691_2_alg».proof.Proof.K.Region3
import proofs.«163757_j14508399526691_2_alg».proof.Proof.K.Region4
import proofs.«163757_j14508399526691_2_alg».proof.Proof.K.Region5
import proofs.«163757_j14508399526691_2_alg».proof.Proof.K.Region6
import proofs.«163757_j14508399526691_2_alg».proof.Proof.K.Region7
import proofs.«163757_j14508399526691_2_alg».proof.Proof.K.Region8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every core's buffer contents. -/
abbrev Conts : Type := Dev nD → Valuation τ sig (Elt F)
abbrev TcConts : Type := (c : Dev nD) → (b : Ref sig .tc) → Buf (Elt F) ((c : Thread nD τ).loc b)
abbrev tcOf (W : Conts (F := F)) : TcConts (F := F) := fun c b => W c b

section Region

variable {p : Fin 9} (lf : Pipeline.LaunchFacts (nD := nD) (τ := τ) cfgs p)
  (D : TcConts (F := F) → (c : Dev nD) → Dat τ (Elt F) Unit ℕ (UR sig nD τ) ℕ (cfgs p) c) (W : Conts (F := F))

/-- A region's exit contents: its arrays at what the last grid point leaves in them, every other buffer as entered. -/
def exitOf (c : Dev nD) : Valuation τ sig (Elt F) :=
  Pipeline.withArrays (cfgs p).spec c (W c) fun w => (D (tcOf W) c).arrAt w (cfgs p).N

include lf

theorem exitOf_arr (c : Dev nD) (w : Fin (cfgs p).W) :
    exitOf D W c (Proc.devRef .tc (Pipeline.arrRef (cfgs p).spec w)) = (D (tcOf W) c).arrAt w (cfgs p).N :=
  Pipeline.withArrays_arr _ lf.win.arr_inj c _ _ w

/-- Only output arrays change: an input array holds its entry contents at every point, any other buffer is untouched. -/
theorem exitOf_keep (hA : ∀ V c w, (D V c).A w = V c (Pipeline.arrRef (cfgs p).spec w)) (c : Dev nD) (r : Ref sig .tc)
    (hr : ∀ w, ((cfgs p).win w).isOut = true → Pipeline.arrRef (cfgs p).spec w ≠ r) :
    exitOf D W c (Proc.devRef .tc r) = W c (Proc.devRef .tc r) := by
  by_cases h : ∃ w, Pipeline.arrRef (cfgs p).spec w = r
  · obtain ⟨w, rfl⟩ := h
    exact (exitOf_arr lf D W c w).trans (((D (tcOf W) c).arrAt_in w (Bool.eq_false_iff.mpr fun hw => hr w hw rfl) _).trans (hA _ c w))
  · exact Pipeline.withArrays_of_ne _ c _ _ r fun w e => h ⟨w, e⟩

end Region

variable (m : (ℓ : Loc nD τ sig) → Buf (Elt F) ℓ) (ρ : Dev nD → PrngReg)

/-- The contents between the items, from the launch memory on: a host stretch applies its operations, a region leaves its exit contents. -/
abbrev W0 : Conts (F := F) := fun c b => (s₀ m ρ).mem ((c : Dev nD), b)
abbrev W1 : Conts (F := F) := fun c => StableHlo.after hostOps0 (W0 m ρ c)
def W2 : Conts (F := F) := exitOf (p := 0) dat0 (W1 m ρ)
abbrev W3 : Conts (F := F) := fun c => StableHlo.after hostOps1 (W2 m ρ c)
def W4 : Conts (F := F) := exitOf (p := 1) dat1 (W3 m ρ)
abbrev W5 : Conts (F := F) := fun c => StableHlo.after hostOps2 (W4 m ρ c)
def W6 : Conts (F := F) := exitOf (p := 2) dat2 (W5 m ρ)
abbrev W7 : Conts (F := F) := fun c => StableHlo.after hostOps3 (W6 m ρ c)
def W8 : Conts (F := F) := exitOf (p := 3) dat3 (W7 m ρ)
abbrev W9 : Conts (F := F) := fun c => StableHlo.after hostOps4 (W8 m ρ c)
def W10 : Conts (F := F) := exitOf (p := 4) dat4 (W9 m ρ)
abbrev W11 : Conts (F := F) := fun c => StableHlo.after hostOps5 (W10 m ρ c)
def W12 : Conts (F := F) := exitOf (p := 5) dat5 (W11 m ρ)
def W13 : Conts (F := F) := exitOf (p := 6) dat6 (W12 m ρ)
abbrev W14 : Conts (F := F) := fun c => StableHlo.after hostOps7 (W13 m ρ c)
def W15 : Conts (F := F) := exitOf (p := 7) dat7 (W14 m ρ)
def W16 : Conts (F := F) := exitOf (p := 8) dat8 (W15 m ρ)

/-- The references each host stretch writes. -/
noncomputable def hostW : Fin 7 → List (Ref sig .tc)
  | ⟨0, _⟩ => hostOps0_W | ⟨1, _⟩ => hostOps1_W | ⟨2, _⟩ => hostOps2_W | ⟨3, _⟩ => hostOps3_W | ⟨4, _⟩ => hostOps4_W
  | ⟨5, _⟩ => hostOps5_W | _ => hostOps7_W

/-- No item writes `r`: no host stretch's operation does, and it is no region's output array. -/
abbrev Kept (r : Ref sig .tc) : Prop :=
  (∀ j, r ∉ hostW j) ∧ ∀ p w, ((cfgs p).win w).isOut = true → Pipeline.arrRef (cfgs p).spec w ≠ r

section Walk

variable (c : Dev nD) (r : Ref sig .tc) (h : Kept r)
include h

/-- A buffer no item writes holds its launch contents at every boundary: item by item back to the launch memory. -/
theorem W1_launch : W1 m ρ c (Proc.devRef .tc r) = m ((c : Thread nD τ).loc r) :=
  StableHlo.after_of_writes_sub hostOps0 _ hostOps0_writes (h.1 0)
theorem W2_launch : W2 m ρ c (Proc.devRef .tc r) = m ((c : Thread nD τ).loc r) :=
  (exitOf_keep launch0 dat0 _ A_eq0 c r (h.2 0)).trans (W1_launch m ρ c r h)
theorem W3_launch : W3 m ρ c (Proc.devRef .tc r) = m ((c : Thread nD τ).loc r) :=
  (StableHlo.after_of_writes_sub hostOps1 _ hostOps1_writes (h.1 1)).trans (W2_launch m ρ c r h)
theorem W4_launch : W4 m ρ c (Proc.devRef .tc r) = m ((c : Thread nD τ).loc r) :=
  (exitOf_keep launch1 dat1 _ A_eq1 c r (h.2 1)).trans (W3_launch m ρ c r h)
theorem W5_launch : W5 m ρ c (Proc.devRef .tc r) = m ((c : Thread nD τ).loc r) :=
  (StableHlo.after_of_writes_sub hostOps2 _ hostOps2_writes (h.1 2)).trans (W4_launch m ρ c r h)
theorem W6_launch : W6 m ρ c (Proc.devRef .tc r) = m ((c : Thread nD τ).loc r) :=
  (exitOf_keep launch2 dat2 _ A_eq2 c r (h.2 2)).trans (W5_launch m ρ c r h)
theorem W7_launch : W7 m ρ c (Proc.devRef .tc r) = m ((c : Thread nD τ).loc r) :=
  (StableHlo.after_of_writes_sub hostOps3 _ hostOps3_writes (h.1 3)).trans (W6_launch m ρ c r h)
theorem W8_launch : W8 m ρ c (Proc.devRef .tc r) = m ((c : Thread nD τ).loc r) :=
  (exitOf_keep launch3 dat3 _ A_eq3 c r (h.2 3)).trans (W7_launch m ρ c r h)
theorem W9_launch : W9 m ρ c (Proc.devRef .tc r) = m ((c : Thread nD τ).loc r) :=
  (StableHlo.after_of_writes_sub hostOps4 _ hostOps4_writes (h.1 4)).trans (W8_launch m ρ c r h)
theorem W10_launch : W10 m ρ c (Proc.devRef .tc r) = m ((c : Thread nD τ).loc r) :=
  (exitOf_keep launch4 dat4 _ A_eq4 c r (h.2 4)).trans (W9_launch m ρ c r h)
theorem W11_launch : W11 m ρ c (Proc.devRef .tc r) = m ((c : Thread nD τ).loc r) :=
  (StableHlo.after_of_writes_sub hostOps5 _ hostOps5_writes (h.1 5)).trans (W10_launch m ρ c r h)
theorem W12_launch : W12 m ρ c (Proc.devRef .tc r) = m ((c : Thread nD τ).loc r) :=
  (exitOf_keep launch5 dat5 _ A_eq5 c r (h.2 5)).trans (W11_launch m ρ c r h)
theorem W13_launch : W13 m ρ c (Proc.devRef .tc r) = m ((c : Thread nD τ).loc r) :=
  (exitOf_keep launch6 dat6 _ A_eq6 c r (h.2 6)).trans (W12_launch m ρ c r h)
theorem W14_launch : W14 m ρ c (Proc.devRef .tc r) = m ((c : Thread nD τ).loc r) :=
  (StableHlo.after_of_writes_sub hostOps7 _ hostOps7_writes (h.1 6)).trans (W13_launch m ρ c r h)
theorem W15_launch : W15 m ρ c (Proc.devRef .tc r) = m ((c : Thread nD τ).loc r) :=
  (exitOf_keep launch7 dat7 _ A_eq7 c r (h.2 7)).trans (W14_launch m ρ c r h)
theorem W16_launch : W16 m ρ c (Proc.devRef .tc r) = m ((c : Thread nD τ).loc r) :=
  (exitOf_keep launch8 dat8 _ A_eq8 c r (h.2 8)).trans (W15_launch m ρ c r h)

end Walk

end Cert.Kernel.Hand

end
-- ==== Proof.K.Records.lean ====
import proofs.«163757_j14508399526691_2_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each region's data, taken at the region's entry contents. -/
def pdats : (p : Fin 9) → (c : Dev nD) → Dat τ (Elt F) Unit ℕ (UR sig nD τ) ℕ (Pipeline.pin (pcfgs (F := F)) adm p) c
  | ⟨0, _⟩ => dat0 (tcOf (W1 m ρ))
  | ⟨1, _⟩ => dat1 (tcOf (W3 m ρ))
  | ⟨2, _⟩ => dat2 (tcOf (W5 m ρ))
  | ⟨3, _⟩ => dat3 (tcOf (W7 m ρ))
  | ⟨4, _⟩ => dat4 (tcOf (W9 m ρ))
  | ⟨5, _⟩ => dat5 (tcOf (W11 m ρ))
  | ⟨6, _⟩ => dat6 (tcOf (W12 m ρ))
  | ⟨7, _⟩ => dat7 (tcOf (W14 m ρ))
  | ⟨8, _⟩ => dat8 (tcOf (W15 m ρ))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A host stretch as a segment from the contents `W`, left at its operations applied to them. -/
abbrev hseg (ops : List (HloOp τ sig (Elt F))) (hsub : ops.Forall fun op => op.bufs ⊆ StableHlo.tcRefs τ sig)
    (hfresh : ops.Forall fun op => op.fresh = ∅) (W : Conts (F := F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

/-- A region as a segment: entered at the contents `W`, left at `W'`, which differs from `W` only at the region's arrays. -/
def regSeg {p : Fin 9} (lf : Pipeline.LaunchFacts (nD := nD) (τ := τ) cfgs p) (W W' : Conts (F := F))
    (hW' : ∀ c b, W' c b = Pipeline.withArrays (cfgs p).spec c (W c) (fun w => (pdats m ρ p c).arrAt w (cfgs p).N) b)
    (hb : ∀ c, BodyObligation (pdats m ρ p c) (defs₀ (F := F)) Variants.none () Set.univ)
    (hA : ∀ c w, (pdats m ρ p c).A w = tcOf W c (Pipeline.arrRef (cfgs p).spec w))
    (hΦ : ∀ c t, (pdats m ρ p c).Φ t = Pipeline.ΦA (cfgs p).spec c) (hq : ∀ c w, (pdats m ρ p c).q w = fullShare)
    (howed : ∀ c t, (pdats m ρ p c).owed t = 0) (hrec : ∀ c t, (pdats m ρ p c).recorded t = Set.univ) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (tcOf W c)
  hentry c := by
    have hsplit := Pipeline.arrays_of_unscopedBufs (p := p) (pcfgs (F := F)) adm (pdats m ρ) lf.win lf.arr_whole c
      ((pdats m ρ p c).share_full (hq c)) (tcOf W c) (hA c)
    rw [Pipeline.unscopedBufs_held] at hsplit
    rw [Pipeline.ownSems0_none]; unfold Pipeline.Dat.owesAt Pipeline.owesWithin; rw [howed c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%O, HO⟩; iexists O; isplitr; · ipureintro; exact fun x _ => Or.inl (by rw [hrec c]; exact Set.mem_univ x)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (tcOf W c) (tcOf W' c)
      ((pdats m ρ p c).arrAt · (cfgs p).N)
      (fun w => ((hW' c _).trans (Pipeline.withArrays_arr _ lf.win.arr_inj c _ _ w)).symm)
      (fun b hb => (hW' c _).trans
        (Pipeline.withArrays_of_ne _ c _ _ b fun w e => hb (Finset.mem_image.mpr ⟨w, Finset.mem_univ _, e⟩)))
    rw [Pipeline.unscopedBufs_held] at hjoin
    unfold Pipeline.Dat.owesAt Pipeline.owesWithin; rw [howed c]
    iintro ⟨Ha, HO, HY, Hrest⟩
    imodintro
    isplitl [Ha Hrest]
    · iapply hjoin; isplitl [Ha] <;> iassumption
    isplitl [HY]; · iexact HY
    icases HO with ⟨%O, -, HO⟩; iexists O; iexact HO

def reg0 := regSeg m ρ launch0 (W1 m ρ) (W2 m ρ) (fun _ _ => rfl) (body_obligation0 _) (A_eq0 _)
  (fun _ _ => rfl) (fun _ _ => rfl) (fun _ _ => rfl) (fun _ _ => rfl)
def reg1 := regSeg m ρ launch1 (W3 m ρ) (W4 m ρ) (fun _ _ => rfl) (body_obligation1 _) (A_eq1 _)
  (fun _ _ => rfl) (fun _ _ => rfl) (fun _ _ => rfl) (fun _ _ => rfl)
def reg2 := regSeg m ρ launch2 (W5 m ρ) (W6 m ρ) (fun _ _ => rfl) (body_obligation2 _) (A_eq2 _)
  (fun _ _ => rfl) (fun _ _ => rfl) (fun _ _ => rfl) (fun _ _ => rfl)
def reg3 := regSeg m ρ launch3 (W7 m ρ) (W8 m ρ) (fun _ _ => rfl) (body_obligation3 _) (A_eq3 _)
  (fun _ _ => rfl) (fun _ _ => rfl) (fun _ _ => rfl) (fun _ _ => rfl)
def reg4 := regSeg m ρ launch4 (W9 m ρ) (W10 m ρ) (fun _ _ => rfl) (body_obligation4 _) (A_eq4 _)
  (fun _ _ => rfl) (fun _ _ => rfl) (fun _ _ => rfl) (fun _ _ => rfl)
def reg5 := regSeg m ρ launch5 (W11 m ρ) (W12 m ρ) (fun _ _ => rfl) (body_obligation5 _) (A_eq5 _)
  (fun _ _ => rfl) (fun _ _ => rfl) (fun _ _ => rfl) (fun _ _ => rfl)
def reg6 := regSeg m ρ launch6 (W12 m ρ) (W13 m ρ) (fun _ _ => rfl) (body_obligation6 _) (A_eq6 _)
  (fun _ _ => rfl) (fun _ _ => rfl) (fun _ _ => rfl) (fun _ _ => rfl)
def reg7 := regSeg m ρ launch7 (W14 m ρ) (W15 m ρ) (fun _ _ => rfl) (body_obligation7 _) (A_eq7 _)
  (fun _ _ => rfl) (fun _ _ => rfl) (fun _ _ => rfl) (fun _ _ => rfl)
def reg8 := regSeg m ρ launch8 (W15 m ρ) (W16 m ρ) (fun _ _ => rfl) (body_obligation8 _) (A_eq8 _)
  (fun _ _ => rfl) (fun _ _ => rfl) (fun _ _ => rfl) (fun _ _ => rfl)

end Cert.Kernel.Hand

end
-- ==== Proof.K.Run.lean ====
import proofs.«163757_j14508399526691_2_alg».proof.Proof.K.Records
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's sixteen items in order: a host segment per stretch, a region per kernel launch. -/
abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)), .region (reg3 m ρ),
    .host (hseg hostOps4 hostOps4_sub hostOps4_fresh (W8 m ρ)), .region (reg4 m ρ),
    .host (hseg hostOps5 hostOps5_sub hostOps5_fresh (W10 m ρ)), .region (reg5 m ρ), .region (reg6 m ρ),
    .host (hseg hostOps7 hostOps7_sub hostOps7_fresh (W13 m ρ)), .region (reg7 m ρ), .region (reg8 m ρ) ]
theorem main_run (c : Dev nD) : main (F := F) c = Pipeline.Seg.run (segs m ρ) := (main_chain c).trans (by chain_rfl)

set_option backward.isDefEq.respectTransparency.types false in
/-- The several-region launch theorem over the segments; the result read off the last contents, each argument walked back to the launch. -/
theorem run : θ_run defs (onTc (τ := τ) (main (F := F))) ⟨m, fun _ => 0, ρ⟩ (fun r => ∀ c : Dev nD,
      r.2.mem ((c.tc : Thread nD τ).loc main_v68) = W16 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      have a (r : Ref sig .tc) (hu : ¬ (Proc.devRef .tc r : DevRef τ sig).isScoped) (hk : Kept r) :=
        (h c _ (mem_uc r hu)).trans (W16_launch m ρ c r hk)
      ⟨h c _ (mem_uc main_v68 (by decide)),
       a main_arg0 (by decide) (by decide), a main_arg1 (by decide) (by decide), a main_arg2 (by decide) (by decide),
       a main_arg3 (by decide) (by decide), a main_arg4 (by decide) (by decide), a main_arg5 (by decide) (by decide),
       a main_arg6 (by decide) (by decide), a main_arg7 (by decide) (by decide), a main_arg8 (by decide) (by decide),
       a main_arg9 (by decide) (by decide), a main_arg10 (by decide) (by decide), a main_arg11 (by decide) (by decide),
       a main_arg12 (by decide) (by decide), a main_arg13 (by decide) (by decide), a main_arg14 (by decide) (by decide),
       a main_arg15 (by decide) (by decide), a main_arg16 (by decide) (by decide), a main_arg17 (by decide) (by decide)⟩)

end Cert.Kernel.Hand

end
-- ==== Proof.Ref.Ops.lean ====
import proofs.«163757_j14508399526691_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops_p0 : List (HloOp τ sig (Elt F)) :=
  [ nullary main_cst (constant S_ .f32 0x00000000#32),
    binary main_arg0 main_cst main_v0 (fun x v => Host.reduceAdd x v reducesTo_S50000x128_S128_d0 h_S_),
    nullary main_cst_0 (constant S_ .f32 0x47435000#32),
    unary main_cst_0 main_v1 (broadcastInDim S128 ![] bcast_S_S128),
    binary main_v0 main_v1 main_v2 Host.divf,
    nullary main_c (constantI S_ 32 0#32),
    TRef.nullary main_call0.cst (constant S_ .f32 0x00000000#32),
    TRef.binary (.of main_arg0) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v2 main_v4 (broadcastInDim S1x128 ![1] bcast_S128_S1x128_1),
    unary main_v4 main_v5 (broadcastInDim S50000x128 ![0, 1] bcast_S1x128_S50000x128_0_1),
    binary main_arg0 main_v5 main_v6 subf,
    nullary main_cst_1 (constant S_ .f32 0x3727C5AC#32),
    unary main_cst_1 main_v7 (broadcastInDim S128 ![] bcast_S_S128),
    binary main_v3 main_v7 main_v8 addf,
    unary main_v8 main_v9 Host.rsqrt,
    unary main_v9 main_v10 (broadcastInDim S1x128 ![1] bcast_S128_S1x128_1),
    unary main_v10 main_v11 (broadcastInDim S50000x128 ![0, 1] bcast_S1x128_S50000x128_0_1),
    binary main_v6 main_v11 main_v12 mulf,
    unary main_arg10 main_v13 (broadcastInDim S1x128 ![1] bcast_S128_S1x128_1),
    unary main_v13 main_v14 (broadcastInDim S50000x128 ![0, 1] bcast_S1x128_S50000x128_0_1),
    binary main_v12 main_v14 main_v15 mulf,
    unary main_arg11 main_v16 (broadcastInDim S1x128 ![1] bcast_S128_S1x128_1),
    unary main_v16 main_v17 (broadcastInDim S50000x128 ![0, 1] bcast_S1x128_S50000x128_0_1),
    binary main_v15 main_v17 main_v18 addf ]
abbrev ops_p0_W : List (Ref sig .tc) :=
  [main_cst, main_v0, main_cst_0, main_v1, main_v2, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v3, main_v4, main_v5, main_v6, main_cst_1, main_v7, main_v8, main_v9, main_v10, main_v11, main_v12, main_v13, main_v14, main_v15, main_v16, main_v17, main_v18]
set_option maxRecDepth 8192 in
theorem ops_p0_sub : (ops_p0 : List (HloOp τ sig (Elt F))).Forall fun op => op.bufs ⊆ tcRefs τ sig := by
  repeat' apply And.intro
  all_goals
    try unfold List.Forall
    with_reducible first | exact nullary_bufs_sub .. | exact unary_bufs_sub .. | exact binary_bufs_sub .. | exact ternary_bufs_sub .. | exact reshape_bufs_sub ..
set_option maxRecDepth 8192 in
theorem ops_p0_fresh : (ops_p0 : List (HloOp τ sig (Elt F))).Forall fun op => op.fresh = ∅ := by
  repeat' apply And.intro
  all_goals rfl

abbrev ops_p1 : List (HloOp τ sig (Elt F)) :=
  [ nullary main_cst_2 (constant S_ .f32 0x00000000#32),
    binary main_arg1 main_cst_2 main_v19 (fun x v => Host.reduceAdd x v reducesTo_S800000x128_S128_d0 h_S_),
    nullary main_cst_3 (constant S_ .f32 0x49435000#32),
    unary main_cst_3 main_v20 (broadcastInDim S128 ![] bcast_S_S128),
    binary main_v19 main_v20 main_v21 Host.divf,
    nullary main_c_4 (constantI S_ 32 0#32),
    TRef.nullary main_call1.cst (constant S_ .f32 0x00000000#32),
    TRef.binary (.of main_arg1) main_call1.cst main_call1.v0 (fun x v => Host.reduceAdd x v reducesTo_S800000x128_S128_d0 h_S_),
    TRef.unary main_call1.v0 main_call1.v1 (broadcastInDim S1x128 ![1] bcast_S128_S1x128_1),
    TRef.nullary main_call1.cst_0 (constant S_ .f32 0x49435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S800000x128 ![0, 1] bcast_S1x128_S800000x128_0_1),
    TRef.binary (.of main_arg1) main_call1.v4 main_call1.v5 subf,
    TRef.binary main_call1.v5 main_call1.v5 main_call1.v6 mulf,
    TRef.unary (.of main_c_4) main_call1.v7 (sitofp .f32),
    TRef.nullary main_call1.cst_1 (constant S_ .f32 0x49435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S800000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v21 main_v23 (broadcastInDim S1x128 ![1] bcast_S128_S1x128_1),
    unary main_v23 main_v24 (broadcastInDim S800000x128 ![0, 1] bcast_S1x128_S800000x128_0_1),
    binary main_arg1 main_v24 main_v25 subf,
    nullary main_cst_5 (constant S_ .f32 0x3727C5AC#32),
    unary main_cst_5 main_v26 (broadcastInDim S128 ![] bcast_S_S128),
    binary main_v22 main_v26 main_v27 addf,
    unary main_v27 main_v28 Host.rsqrt,
    unary main_v28 main_v29 (broadcastInDim S1x128 ![1] bcast_S128_S1x128_1),
    unary main_v29 main_v30 (broadcastInDim S800000x128 ![0, 1] bcast_S1x128_S800000x128_0_1),
    binary main_v25 main_v30 main_v31 mulf,
    unary main_arg12 main_v32 (broadcastInDim S1x128 ![1] bcast_S128_S1x128_1),
    unary main_v32 main_v33 (broadcastInDim S800000x128 ![0, 1] bcast_S1x128_S800000x128_0_1),
    binary main_v31 main_v33 main_v34 mulf,
    unary main_arg13 main_v35 (broadcastInDim S1x128 ![1] bcast_S128_S1x128_1),
    unary main_v35 main_v36 (broadcastInDim S800000x128 ![0, 1] bcast_S1x128_S800000x128_0_1),
    binary main_v34 main_v36 main_v37 addf ]
abbrev ops_p1_W : List (Ref sig .tc) :=
  [main_cst_2, main_v19, main_cst_3, main_v20, main_v21, main_c_4, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v22, main_v23, main_v24, main_v25, main_cst_5, main_v26, main_v27, main_v28, main_v29, main_v30, main_v31, main_v32, main_v33, main_v34, main_v35, main_v36, main_v37]
set_option maxRecDepth 8192 in
theorem ops_p1_sub : (ops_p1 : List (HloOp τ sig (Elt F))).Forall fun op => op.bufs ⊆ tcRefs τ sig := by
  repeat' apply And.intro
  all_goals
    try unfold List.Forall
    with_reducible first | exact nullary_bufs_sub .. | exact unary_bufs_sub .. | exact binary_bufs_sub .. | exact ternary_bufs_sub .. | exact reshape_bufs_sub ..
set_option maxRecDepth 8192 in
theorem ops_p1_fresh : (ops_p1 : List (HloOp τ sig (Elt F))).Forall fun op => op.fresh = ∅ := by
  repeat' apply And.intro
  all_goals rfl

abbrev ops_p2 : List (HloOp τ sig (Elt F)) :=
  [ binary main_v18 main_arg4 main_v38 (fun l r => Host.dotGeneral dot_S50000x128_S128x128_S50000x128_1_0_0_1_n_n none l r),
    reshape main_v38 main_v39 rfl shapeCasts_S50000x128_S50000x4x32,
    binary main_v18 main_arg5 main_v40 (fun l r => Host.dotGeneral dot_S50000x128_S128x128_S50000x128_1_0_0_1_n_n none l r),
    reshape main_v40 main_v41 rfl shapeCasts_S50000x128_S50000x4x32,
    binary main_v18 main_arg6 main_v42 (fun l r => Host.dotGeneral dot_S50000x128_S128x128_S50000x128_1_0_0_1_n_n none l r),
    reshape main_v42 main_v43 rfl shapeCasts_S50000x128_S50000x4x32,
    binary main_v37 main_arg7 main_v44 (fun l r => Host.dotGeneral dot_S800000x128_S128x128_S800000x128_1_0_0_1_n_n none l r),
    reshape main_v44 main_v45 rfl shapeCasts_S800000x128_S800000x4x32,
    nullary main_c_6 (constantI S_ 32 0#32),
    unary main_c_6 main_v46 (broadcastInDim S800000 ![] bcast_S_S800000),
    binary main_arg2 main_v46 main_v47 (cmpi .slt),
    nullary main_c_7 (constantI S_ 32 50000#32),
    unary main_c_7 main_v48 (broadcastInDim S800000 ![] bcast_S_S800000),
    binary main_arg2 main_v48 main_v49 addi ]
abbrev ops_p2_W : List (Ref sig .tc) :=
  [main_v38, main_v39, main_v40, main_v41, main_v42, main_v43, main_v44, main_v45, main_c_6, main_v46, main_v47, main_c_7, main_v48, main_v49]
set_option maxRecDepth 8192 in
theorem ops_p2_sub : (ops_p2 : List (HloOp τ sig (Elt F))).Forall fun op => op.bufs ⊆ tcRefs τ sig := by
  repeat' apply And.intro
  all_goals
    try unfold List.Forall
    with_reducible first | exact nullary_bufs_sub .. | exact unary_bufs_sub .. | exact binary_bufs_sub .. | exact ternary_bufs_sub .. | exact reshape_bufs_sub ..
set_option maxRecDepth 8192 in
theorem ops_p2_fresh : (ops_p2 : List (HloOp τ sig (Elt F))).Forall fun op => op.fresh = ∅ := by
  repeat' apply And.intro
  all_goals rfl

abbrev ops_p3 : List (HloOp τ sig (Elt F)) :=
  [ ternary main_v47 main_v49 main_arg2 main_v50 select,
    unary main_v50 main_v51 (broadcastInDim S800000x1 ![0] bcast_S800000_S800000x1_0),
    binary main_v41 main_v51 main_v52 (fun x i => Host.gather gather_S50000x4x32_S800000x1_S800000x4x32_12_0_n_n_0_1_1432 x i),
    nullary main_c_8 (constantI S_ 32 0#32),
    unary main_c_8 main_v53 (broadcastInDim S800000 ![] bcast_S_S800000),
    binary main_arg3 main_v53 main_v54 (cmpi .slt),
    nullary main_c_9 (constantI S_ 32 50000#32),
    unary main_c_9 main_v55 (broadcastInDim S800000 ![] bcast_S_S800000),
    binary main_arg3 main_v55 main_v56 addi,
    ternary main_v54 main_v56 main_arg3 main_v57 select,
    unary main_v57 main_v58 (broadcastInDim S800000x1 ![0] bcast_S800000_S800000x1_0),
    binary main_v39 main_v58 main_v59 (fun x i => Host.gather gather_S50000x4x32_S800000x1_S800000x4x32_12_0_n_n_0_1_1432 x i),
    binary main_v52 main_v59 main_v60 mulf,
    nullary main_cst_10 (constant S_ .f32 0x40B504F3#32),
    unary main_cst_10 main_v61 (broadcastInDim S800000x4x32 ![] bcast_S_S800000x4x32),
    binary main_v60 main_v61 main_v62 Host.divf,
    nullary main_cst_11 (constant S_ .f32 0xC0A00000#32),
    nullary main_cst_12 (constant S_ .f32 0x40A00000#32),
    TRef.unary (.of main_cst_11) main_call2.v0 id,
    TRef.unary main_call2.v0 main_call2.v1 (broadcastInDim S800000x4x32 ![] bcast_S_S800000x4x32),
    TRef.binary main_call2.v1 (.of main_v62) main_call2.v2 maximumf,
    TRef.unary (.of main_cst_12) main_call2.v3 id,
    TRef.unary main_call2.v3 main_call2.v4 (broadcastInDim S800000x4x32 ![] bcast_S_S800000x4x32),
    TRef.binary main_call2.v4 main_call2.v2 main_call2.v5 minimumf,
    binary main_v63 main_v45 main_v64 mulf,
    nullary main_cst_13 (constant S_ .f32 0x00000000#32),
    binary main_v64 main_cst_13 main_v65 (fun x v => Host.reduceAdd x v reducesTo_S800000x4x32_S800000x4_d2 h_S_),
    unary main_v65 main_v66 (broadcastInDim S800000x4x1 ![0, 1] bcast_S800000x4_S800000x4x1_0_1),
    nullary main_cst_14 (constant S_ .f32 0xC0A00000#32),
    nullary main_cst_15 (constant S_ .f32 0x40A00000#32),
    TRef.unary (.of main_cst_14) main_call3.v0 id,
    TRef.unary main_call3.v0 main_call3.v1 (broadcastInDim S800000x4x1 ![] bcast_S_S800000x4x1),
    TRef.binary main_call3.v1 (.of main_v66) main_call3.v2 maximumf,
    TRef.unary (.of main_cst_15) main_call3.v3 id,
    TRef.unary main_call3.v3 main_call3.v4 (broadcastInDim S800000x4x1 ![] bcast_S_S800000x4x1),
    TRef.binary main_call3.v4 main_call3.v2 main_call3.v5 minimumf,
    unary main_v67 main_v68 Host.exp ]
abbrev ops_p3_W : List (Ref sig .tc) :=
  [main_v50, main_v51, main_v52, main_c_8, main_v53, main_v54, main_c_9, main_v55, main_v56, main_v57, main_v58, main_v59, main_v60, main_cst_10, main_v61, main_v62, main_cst_11, main_cst_12, main_call2_v0, main_call2_v1, main_call2_v2, main_call2_v3, main_call2_v4, main_v63, main_v64, main_cst_13, main_v65, main_v66, main_cst_14, main_cst_15, main_call3_v0, main_call3_v1, main_call3_v2, main_call3_v3, main_call3_v4, main_v67, main_v68]
set_option maxRecDepth 8192 in
theorem ops_p3_sub : (ops_p3 : List (HloOp τ sig (Elt F))).Forall fun op => op.bufs ⊆ tcRefs τ sig := by
  repeat' apply And.intro
  all_goals
    try unfold List.Forall
    with_reducible first | exact nullary_bufs_sub .. | exact unary_bufs_sub .. | exact binary_bufs_sub .. | exact ternary_bufs_sub .. | exact reshape_bufs_sub ..
set_option maxRecDepth 8192 in
theorem ops_p3_fresh : (ops_p3 : List (HloOp τ sig (Elt F))).Forall fun op => op.fresh = ∅ := by
  repeat' apply And.intro
  all_goals rfl

abbrev ops_p4 : List (HloOp τ sig (Elt F)) :=
  [ nullary main_c_16 (constantI S_ 32 0#32),
    unary main_c_16 main_v69 (broadcastInDim S800000 ![] bcast_S_S800000),
    binary main_arg2 main_v69 main_v70 (cmpi .slt),
    nullary main_c_17 (constantI S_ 32 50000#32),
    unary main_c_17 main_v71 (broadcastInDim S800000 ![] bcast_S_S800000),
    binary main_arg2 main_v71 main_v72 addi,
    ternary main_v70 main_v72 main_arg2 main_v73 select,
    unary main_v73 main_v74 (broadcastInDim S800000x1 ![0] bcast_S800000_S800000x1_0),
    binary main_v43 main_v74 main_v75 (fun x i => Host.gather gather_S50000x4x32_S800000x1_S800000x4x32_12_0_n_n_0_1_1432 x i),
    unary main_v68 main_v76 (broadcastInDim S800000x4x32 ![0, 1, 2] bcast_S800000x4x1_S800000x4x32_0_1_2),
    binary main_v76 main_v75 main_v77 mulf,
    nullary main_cst_18 (constant S_ .f32 0x00000000#32),
    unary main_cst_18 main_v78 (broadcastInDim S50000x4x32 ![] bcast_S_S50000x4x32),
    unary main_arg3 main_v79 (broadcastInDim S800000x1 ![0] bcast_S800000_S800000x1_0),
    ternary main_v78 main_v79 main_v77 main_v80 (fun x i u => Host.scatterAdd scatter_S50000x4x32_S800000x1_S800000x4x32_12_0_0_1 x i u),
    nullary main_cst_19 (constant S_ .f32 0x00000000#32),
    unary main_cst_19 main_v81 (broadcastInDim S50000x4x1 ![] bcast_S_S50000x4x1),
    unary main_arg3 main_v82 (broadcastInDim S800000x1 ![0] bcast_S800000_S800000x1_0),
    ternary main_v81 main_v82 main_v68 main_v83 (fun x i u => Host.scatterAdd scatter_S50000x4x1_S800000x1_S800000x4x1_12_0_0_1 x i u),
    nullary main_cst_20 (constant S_ .f32 0x358637BD#32),
    unary main_cst_20 main_v84 (broadcastInDim S50000x4x1 ![] bcast_S_S50000x4x1),
    binary main_v83 main_v84 main_v85 addf,
    unary main_v85 main_v86 (broadcastInDim S50000x4x32 ![0, 1, 2] bcast_S50000x4x1_S50000x4x32_0_1_2),
    binary main_v80 main_v86 main_v87 Host.divf,
    reshape main_v87 main_v88 rfl shapeCasts_S50000x4x32_S50000x128,
    binary main_v88 main_arg8 main_v89 (fun l r => Host.dotGeneral dot_S50000x128_S128x128_S50000x128_1_0_0_1_n_n none l r),
    unary main_arg9 main_v90 (broadcastInDim S1x128 ![1] bcast_S128_S1x128_1),
    unary main_v90 main_v91 (broadcastInDim S50000x128 ![0, 1] bcast_S1x128_S50000x128_0_1),
    binary main_v89 main_v91 main_v92 addf,
    binary main_arg0 main_v92 main_v93 addf,
    nullary main_cst_21 (constant S_ .f32 0x00000000#32),
    binary main_v93 main_cst_21 main_v94 (fun x v => Host.reduceAdd x v reducesTo_S50000x128_S128_d0 h_S_),
    nullary main_cst_22 (constant S_ .f32 0x47435000#32) ]
abbrev ops_p4_W : List (Ref sig .tc) :=
  [main_c_16, main_v69, main_v70, main_c_17, main_v71, main_v72, main_v73, main_v74, main_v75, main_v76, main_v77, main_cst_18, main_v78, main_v79, main_v80, main_cst_19, main_v81, main_v82, main_v83, main_cst_20, main_v84, main_v85, main_v86, main_v87, main_v88, main_v89, main_v90, main_v91, main_v92, main_v93, main_cst_21, main_v94, main_cst_22]
set_option maxRecDepth 8192 in
theorem ops_p4_sub : (ops_p4 : List (HloOp τ sig (Elt F))).Forall fun op => op.bufs ⊆ tcRefs τ sig := by
  repeat' apply And.intro
  all_goals
    try unfold List.Forall
    with_reducible first | exact nullary_bufs_sub .. | exact unary_bufs_sub .. | exact binary_bufs_sub .. | exact ternary_bufs_sub .. | exact reshape_bufs_sub ..
set_option maxRecDepth 8192 in
theorem ops_p4_fresh : (ops_p4 : List (HloOp τ sig (Elt F))).Forall fun op => op.fresh = ∅ := by
  repeat' apply And.intro
  all_goals rfl

abbrev ops_p5 : List (HloOp τ sig (Elt F)) :=
  [ unary main_cst_22 main_v95 (broadcastInDim S128 ![] bcast_S_S128),
    binary main_v94 main_v95 main_v96 Host.divf,
    nullary main_c_23 (constantI S_ 32 0#32),
    TRef.nullary main_call4.cst (constant S_ .f32 0x00000000#32),
    TRef.binary (.of main_v93) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v93) main_call4.v4 main_call4.v5 subf,
    TRef.binary main_call4.v5 main_call4.v5 main_call4.v6 mulf,
    TRef.unary (.of main_c_23) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v96 main_v98 (broadcastInDim S1x128 ![1] bcast_S128_S1x128_1),
    unary main_v98 main_v99 (broadcastInDim S50000x128 ![0, 1] bcast_S1x128_S50000x128_0_1),
    binary main_v93 main_v99 main_v100 subf,
    nullary main_cst_24 (constant S_ .f32 0x3727C5AC#32),
    unary main_cst_24 main_v101 (broadcastInDim S128 ![] bcast_S_S128),
    binary main_v97 main_v101 main_v102 addf,
    unary main_v102 main_v103 Host.rsqrt,
    unary main_v103 main_v104 (broadcastInDim S1x128 ![1] bcast_S128_S1x128_1),
    unary main_v104 main_v105 (broadcastInDim S50000x128 ![0, 1] bcast_S1x128_S50000x128_0_1),
    binary main_v100 main_v105 main_v106 mulf,
    unary main_arg14 main_v107 (broadcastInDim S1x128 ![1] bcast_S128_S1x128_1),
    unary main_v107 main_v108 (broadcastInDim S50000x128 ![0, 1] bcast_S1x128_S50000x128_0_1),
    binary main_v106 main_v108 main_v109 mulf,
    unary main_arg15 main_v110 (broadcastInDim S1x128 ![1] bcast_S128_S1x128_1),
    unary main_v110 main_v111 (broadcastInDim S50000x128 ![0, 1] bcast_S1x128_S50000x128_0_1),
    binary main_v109 main_v111 main_v112 addf ]
abbrev ops_p5_W : List (Ref sig .tc) :=
  [main_v95, main_v96, main_c_23, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v97, main_v98, main_v99, main_v100, main_cst_24, main_v101, main_v102, main_v103, main_v104, main_v105, main_v106, main_v107, main_v108, main_v109, main_v110, main_v111, main_v112]
set_option maxRecDepth 8192 in
theorem ops_p5_sub : (ops_p5 : List (HloOp τ sig (Elt F))).Forall fun op => op.bufs ⊆ tcRefs τ sig := by
  repeat' apply And.intro
  all_goals
    try unfold List.Forall
    with_reducible first | exact nullary_bufs_sub .. | exact unary_bufs_sub .. | exact binary_bufs_sub .. | exact ternary_bufs_sub .. | exact reshape_bufs_sub ..
set_option maxRecDepth 8192 in
theorem ops_p5_fresh : (ops_p5 : List (HloOp τ sig (Elt F))).Forall fun op => op.fresh = ∅ := by
  repeat' apply And.intro
  all_goals rfl

abbrev ops_p6 : List (HloOp τ sig (Elt F)) :=
  [ binary main_v112 main_arg16 main_v113 (fun l r => Host.dotGeneral dot_S50000x128_S128x256_S50000x256_1_0_0_1_n_n none l r),
    TRef.unary (.of main_v113) main_call5.v0 Host.negf,
    TRef.unary main_call5.v0 main_call5.v1 Host.exp,
    TRef.nullary main_call5.cst (constant S_ .f32 0x3F800000#32),
    TRef.unary main_call5.cst main_call5.v2 (broadcastInDim S50000x256 ![] bcast_S_S50000x256),
    TRef.binary main_call5.v2 main_call5.v1 main_call5.v3 addf,
    TRef.nullary main_call5.cst_0 (constant S_ .f32 0x3F800000#32),
    TRef.unary main_call5.cst_0 main_call5.v4 (broadcastInDim S50000x256 ![] bcast_S_S50000x256),
    TRef.binary main_call5.v4 main_call5.v3 main_call5.v5 Host.divf,
    TRef.binary (.of main_v113) main_call5.v5 main_call5.v6 mulf,
    binary main_v114 main_arg17 main_v115 (fun l r => Host.dotGeneral dot_S50000x256_S256x128_S50000x128_1_0_0_1_n_n none l r),
    binary main_v93 main_v115 main_v116 addf ]
abbrev ops_p6_W : List (Ref sig .tc) :=
  [main_v113, main_call5_v0, main_call5_v1, main_call5_cst, main_call5_v2, main_call5_v3, main_call5_cst_0, main_call5_v4, main_call5_v5, main_v114, main_v115, main_v116]
set_option maxRecDepth 8192 in
theorem ops_p6_sub : (ops_p6 : List (HloOp τ sig (Elt F))).Forall fun op => op.bufs ⊆ tcRefs τ sig := by
  repeat' apply And.intro
  all_goals
    try unfold List.Forall
    with_reducible first | exact nullary_bufs_sub .. | exact unary_bufs_sub .. | exact binary_bufs_sub .. | exact ternary_bufs_sub .. | exact reshape_bufs_sub ..
set_option maxRecDepth 8192 in
theorem ops_p6_fresh : (ops_p6 : List (HloOp τ sig (Elt F))).Forall fun op => op.fresh = ∅ := by
  repeat' apply And.intro
  all_goals rfl

abbrev ops : List (HloOp τ sig (Elt F)) :=
  ops_p0 ++ (ops_p1 ++ (ops_p2 ++ (ops_p3 ++ (ops_p4 ++ (ops_p5 ++ (ops_p6))))))

end Cert.ReferenceIdeal.Hand

end
-- ==== Proof.Ref.Run.lean ====
import proofs.«163757_j14508399526691_2_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The shape of an R×128 matrix: the column statistics below are stated once, for every row count. -/
abbrev Mx (R : Nat) : Shape := ⟨2, ![R, 128]⟩

section Cols
variable {R : Nat} (hr : (Mx R).ReducesTo [0] S128)
  (hb : S1x128.BroadcastsInDim (Mx R) (![0, 1] : Fin 2 → Fin (Mx R).rank)) (w : BitVec 32)

/-- A row vector of 128 repeated down the R rows. -/
def rowsOf (v : Vec F S128 .f32) : Vec F (Mx R) .f32 :=
  broadcastInDim (Mx R) ![0, 1] hb (broadcastInDim S1x128 ![1] bcast_S128_S1x128_1 v)

/-- The column means: each column's sum over the count word w. -/
def colMean (x : Vec F (Mx R) .f32) : Vec F S128 .f32 :=
  Host.divf (Host.reduceAdd x (constant S_ .f32 0x00000000#32) hr h_S_)
    (broadcastInDim S128 ![] bcast_S_S128 (constant S_ .f32 w))

def colDev (x : Vec F (Mx R) .f32) : Vec F (Mx R) .f32 :=
  subf x (broadcastInDim (Mx R) ![0, 1] hb
    (Host.divf (broadcastInDim S1x128 ![1] bcast_S128_S1x128_1 (Host.reduceAdd x (constant S_ .f32 0x00000000#32) hr h_S_))
      (broadcastInDim S1x128 ![] bcast_S_S1x128 (constant S_ .f32 w))))

def colCnt : Vec F S_ .f32 :=
  subf (constant S_ .f32 w) (sitofp (F := F) .f32 (constantI S_ 32 0#32))

/-- The column variances: the mean squared deviation, and not-a-number where the divisor is not positive. -/
def colVar (x : Vec F (Mx R) .f32) : Vec F S128 .f32 :=
  select (broadcastInDim S128 ![] bcast_S_S128 (cmpf (F := F) .ogt (colCnt w) (constant S_ .f32 0x00000000#32)))
    (Host.divf (Host.reduceAdd (mulf (colDev hr hb w x) (colDev hr hb w x)) (constant S_ .f32 0x00000000#32) hr h_S_)
      (broadcastInDim S128 ![] bcast_S_S128 (colCnt w)))
    (broadcastInDim S128 ![] bcast_S_S128 (constant S_ .f32 0x7FC00000#32))

/-- (x - mean) * rsqrt (var + eps) * g + b, column by column. -/
def colNorm (x : Vec F (Mx R) .f32) (mean var g b : Vec F S128 .f32) : Vec F (Mx R) .f32 :=
  addf (mulf (mulf (subf x (rowsOf hb mean))
      (rowsOf hb (Host.rsqrt (addf var (broadcastInDim S128 ![] bcast_S_S128 (constant S_ .f32 0x3727C5AC#32))))))
    (rowsOf hb g)) (rowsOf hb b)

end Cols

def wrapIdx (i : Vec F S800000 .i32) : Vec F S800000 .i32 :=
  select (cmpi .slt i (broadcastInDim S800000 ![] bcast_S_S800000 (constantI S_ 32 0#32)))
    (addi i (broadcastInDim S800000 ![] bcast_S_S800000 (constantI S_ 32 50000#32))) i

def rowsAt (x : Vec F S50000x4x32 .f32) (i : Vec F S800000 .i32) : Vec F S800000x4x32 .f32 :=
  Host.gather gather_S50000x4x32_S800000x1_S800000x4x32_12_0_n_n_0_1_1432 x
    (broadcastInDim S800000x1 ![0] bcast_S800000_S800000x1_0 (wrapIdx i))

set_option maxRecDepth 8192 in
theorem main_part0_eq (c : Dev nD) : main_part0 (F := F) c = seq (ops_p0 ++ (ops_p1 ++ ops_p2)) := rfl
set_option maxRecDepth 8192 in
theorem main_part1_eq (c : Dev nD) : main_part1 (F := F) c = seq (ops_p3 ++ ops_p4) := rfl
set_option maxRecDepth 8192 in
theorem main_part2_eq (c : Dev nD) : main_part2 (F := F) c = seq (ops_p5 ++ ops_p6) := rfl

theorem main_eq (c : Dev nD) : main (F := F) c = seq ops := by
  simp only [main, main_part0_eq, main_part1_eq, main_part2_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨ops_p0_sub, ops_p1_sub, ops_p2_sub, ops_p3_sub, ops_p4_sub, ops_p5_sub, ops_p6_sub⟩

theorem ops_fresh : ∀ op ∈ (ops : List (HloOp τ sig (Elt F))), op.fresh = ∅ :=
  List.forall_iff_forall_mem.mp (by
    simp only [ops, List.forall_append]
    exact ⟨ops_p0_fresh, ops_p1_fresh, ops_p2_fresh, ops_p3_fresh, ops_p4_fresh, ops_p5_fresh, ops_p6_fresh⟩)

abbrev ops_W : List (Ref sig .tc) := ops_p0_W ++ (ops_p1_W ++ (ops_p2_W ++ (ops_p3_W ++ (ops_p4_W ++ (ops_p5_W ++ ops_p6_W)))))

set_option maxRecDepth 8192 in
theorem ops_p0_writes : (ops_p0 : List (HloOp τ sig (Elt F))).Forall fun op => op.writes ⊆ (ops_p0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
set_option maxRecDepth 8192 in
theorem ops_p1_writes : (ops_p1 : List (HloOp τ sig (Elt F))).Forall fun op => op.writes ⊆ (ops_p1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
set_option maxRecDepth 8192 in
theorem ops_p2_writes : (ops_p2 : List (HloOp τ sig (Elt F))).Forall fun op => op.writes ⊆ (ops_p2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
set_option maxRecDepth 8192 in
theorem ops_p3_writes : (ops_p3 : List (HloOp τ sig (Elt F))).Forall fun op => op.writes ⊆ (ops_p3_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
set_option maxRecDepth 8192 in
theorem ops_p4_writes : (ops_p4 : List (HloOp τ sig (Elt F))).Forall fun op => op.writes ⊆ (ops_p4_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
set_option maxRecDepth 8192 in
theorem ops_p5_writes : (ops_p5 : List (HloOp τ sig (Elt F))).Forall fun op => op.writes ⊆ (ops_p5_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
set_option maxRecDepth 8192 in
theorem ops_p6_writes : (ops_p6 : List (HloOp τ sig (Elt F))).Forall fun op => op.writes ⊆ (ops_p6_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A reference outside the seven write lists together is outside each of them. -/
theorem not_mem_lists {r : Ref sig .tc} (h : r ∉ ops_W) :
    r ∉ ops_p0_W ∧ r ∉ ops_p1_W ∧ r ∉ ops_p2_W ∧ r ∉ ops_p3_W ∧ r ∉ ops_p4_W ∧ r ∉ ops_p5_W ∧ r ∉ ops_p6_W := by
  simpa only [ops_W, List.mem_append, not_or] using h

section
variable (V0 : Valuation τ sig (Elt F))

def res_main_v2 : Vec F S128 .f32 := colMean reducesTo_S50000x128_S128_d0 0x47435000#32 (V0 (Proc.devRef .tc main_arg0))
def res_main_v3 : Vec F S128 .f32 := colVar reducesTo_S50000x128_S128_d0 bcast_S1x128_S50000x128_0_1 0x47435000#32 (V0 (Proc.devRef .tc main_arg0))
def res_main_v18 : Vec F S50000x128 .f32 :=
  colNorm bcast_S1x128_S50000x128_0_1 (V0 (Proc.devRef .tc main_arg0)) (res_main_v2 V0) (res_main_v3 V0) (V0 (Proc.devRef .tc main_arg10)) (V0 (Proc.devRef .tc main_arg11))
def res_main_v21 : Vec F S128 .f32 := colMean reducesTo_S800000x128_S128_d0 0x49435000#32 (V0 (Proc.devRef .tc main_arg1))
def res_main_v22 : Vec F S128 .f32 := colVar reducesTo_S800000x128_S128_d0 bcast_S1x128_S800000x128_0_1 0x49435000#32 (V0 (Proc.devRef .tc main_arg1))
def res_main_v37 : Vec F S800000x128 .f32 :=
  colNorm bcast_S1x128_S800000x128_0_1 (V0 (Proc.devRef .tc main_arg1)) (res_main_v21 V0) (res_main_v22 V0) (V0 (Proc.devRef .tc main_arg12)) (V0 (Proc.devRef .tc main_arg13))
def res_main_v38 : Vec F S50000x128 .f32 :=
  Host.dotGeneral dot_S50000x128_S128x128_S50000x128_1_0_0_1_n_n none (res_main_v18 V0) (V0 (Proc.devRef .tc main_arg4))
def res_main_v39 : Vec F S50000x4x32 .f32 := shapeCast S50000x4x32 (res_main_v38 V0) shapeCasts_S50000x128_S50000x4x32
def res_main_v40 : Vec F S50000x128 .f32 :=
  Host.dotGeneral dot_S50000x128_S128x128_S50000x128_1_0_0_1_n_n none (res_main_v18 V0) (V0 (Proc.devRef .tc main_arg5))
def res_main_v41 : Vec F S50000x4x32 .f32 := shapeCast S50000x4x32 (res_main_v40 V0) shapeCasts_S50000x128_S50000x4x32
def res_main_v42 : Vec F S50000x128 .f32 :=
  Host.dotGeneral dot_S50000x128_S128x128_S50000x128_1_0_0_1_n_n none (res_main_v18 V0) (V0 (Proc.devRef .tc main_arg6))
def res_main_v43 : Vec F S50000x4x32 .f32 := shapeCast S50000x4x32 (res_main_v42 V0) shapeCasts_S50000x128_S50000x4x32
def res_main_v44 : Vec F S800000x128 .f32 :=
  Host.dotGeneral dot_S800000x128_S128x128_S800000x128_1_0_0_1_n_n none (res_main_v37 V0) (V0 (Proc.devRef .tc main_arg7))
def res_main_v45 : Vec F S800000x4x32 .f32 := shapeCast S800000x4x32 (res_main_v44 V0) shapeCasts_S800000x128_S800000x4x32
def res_main_v62 : Vec F S800000x4x32 .f32 :=
  Host.divf (mulf (rowsAt (res_main_v41 V0) (V0 (Proc.devRef .tc main_arg2))) (rowsAt (res_main_v39 V0) (V0 (Proc.devRef .tc main_arg3))))
    (broadcastInDim S800000x4x32 ![] bcast_S_S800000x4x32 (constant S_ .f32 0x40B504F3#32))
def res_main_v63 : Vec F S800000x4x32 .f32 :=
  minimumf (broadcastInDim S800000x4x32 ![] bcast_S_S800000x4x32 (constant S_ .f32 0x40A00000#32))
    (maximumf (broadcastInDim S800000x4x32 ![] bcast_S_S800000x4x32 (constant S_ .f32 0xC0A00000#32)) (res_main_v62 V0))
def res_main_v65 : Vec F S800000x4 .f32 :=
  Host.reduceAdd (mulf (res_main_v63 V0) (res_main_v45 V0)) (constant S_ .f32 0x00000000#32) reducesTo_S800000x4x32_S800000x4_d2 h_S_
def res_main_v68 : Vec F S800000x4x1 .f32 :=
  Host.exp (minimumf (broadcastInDim S800000x4x1 ![] bcast_S_S800000x4x1 (constant S_ .f32 0x40A00000#32))
    (maximumf (broadcastInDim S800000x4x1 ![] bcast_S_S800000x4x1 (constant S_ .f32 0xC0A00000#32))
      (broadcastInDim S800000x4x1 ![0, 1] bcast_S800000x4_S800000x4x1_0_1 (res_main_v65 V0))))
def res_main_v77 : Vec F S800000x4x32 .f32 :=
  mulf (broadcastInDim S800000x4x32 ![0, 1, 2] bcast_S800000x4x1_S800000x4x32_0_1_2 (res_main_v68 V0)) (rowsAt (res_main_v43 V0) (V0 (Proc.devRef .tc main_arg2)))
def res_main_v80 : Vec F S50000x4x32 .f32 :=
  Host.scatterAdd scatter_S50000x4x32_S800000x1_S800000x4x32_12_0_0_1
    (broadcastInDim S50000x4x32 ![] bcast_S_S50000x4x32 (constant S_ .f32 0x00000000#32))
    (broadcastInDim S800000x1 ![0] bcast_S800000_S800000x1_0 (V0 (Proc.devRef .tc main_arg3))) (res_main_v77 V0)
def res_main_v83 : Vec F S50000x4x1 .f32 :=
  Host.scatterAdd scatter_S50000x4x1_S800000x1_S800000x4x1_12_0_0_1
    (broadcastInDim S50000x4x1 ![] bcast_S_S50000x4x1 (constant S_ .f32 0x00000000#32))
    (broadcastInDim S800000x1 ![0] bcast_S800000_S800000x1_0 (V0 (Proc.devRef .tc main_arg3))) (res_main_v68 V0)
def res_main_v88 : Vec F S50000x128 .f32 :=
  shapeCast S50000x128
    (Host.divf (res_main_v80 V0)
      (broadcastInDim S50000x4x32 ![0, 1, 2] bcast_S50000x4x1_S50000x4x32_0_1_2
        (addf (res_main_v83 V0) (broadcastInDim S50000x4x1 ![] bcast_S_S50000x4x1 (constant S_ .f32 0x358637BD#32)))))
    shapeCasts_S50000x4x32_S50000x128
def res_main_v93 : Vec F S50000x128 .f32 :=
  addf (V0 (Proc.devRef .tc main_arg0))
    (addf (Host.dotGeneral dot_S50000x128_S128x128_S50000x128_1_0_0_1_n_n none (res_main_v88 V0) (V0 (Proc.devRef .tc main_arg8))) (rowsOf bcast_S1x128_S50000x128_0_1 (V0 (Proc.devRef .tc main_arg9))))
def res_main_v96 : Vec F S128 .f32 := colMean reducesTo_S50000x128_S128_d0 0x47435000#32 (res_main_v93 V0)
def res_main_v97 : Vec F S128 .f32 := colVar reducesTo_S50000x128_S128_d0 bcast_S1x128_S50000x128_0_1 0x47435000#32 (res_main_v93 V0)
def res_main_v112 : Vec F S50000x128 .f32 :=
  colNorm bcast_S1x128_S50000x128_0_1 (res_main_v93 V0) (res_main_v96 V0) (res_main_v97 V0) (V0 (Proc.devRef .tc main_arg14)) (V0 (Proc.devRef .tc main_arg15))
def res_main_v113 : Vec F S50000x256 .f32 :=
  Host.dotGeneral dot_S50000x128_S128x256_S50000x256_1_0_0_1_n_n none (res_main_v112 V0) (V0 (Proc.devRef .tc main_arg16))
def res_main_v114 : Vec F S50000x256 .f32 :=
  mulf (res_main_v113 V0)
    (Host.divf (broadcastInDim S50000x256 ![] bcast_S_S50000x256 (constant S_ .f32 0x3F800000#32))
      (addf (broadcastInDim S50000x256 ![] bcast_S_S50000x256 (constant S_ .f32 0x3F800000#32)) (Host.exp (Host.negf (res_main_v113 V0)))))
def res_main_v116 : Vec F S50000x128 .f32 :=
  addf (res_main_v93 V0) (Host.dotGeneral dot_S50000x256_S256x128_S50000x128_1_0_0_1_n_n none (res_main_v114 V0) (V0 (Proc.devRef .tc main_arg17)))
abbrev res_out : Vec F S50000x128 .f32 := res_main_v116 V0

def val0 : Valuation τ sig (Elt F) := V0
def val1 : Valuation τ sig (Elt F) := after ops_p0 (val0 V0)
def val2 : Valuation τ sig (Elt F) := after ops_p1 (val1 V0)
def val3 : Valuation τ sig (Elt F) := after ops_p2 (val2 V0)
def val4 : Valuation τ sig (Elt F) := after ops_p3 (val3 V0)
def val5 : Valuation τ sig (Elt F) := after ops_p4 (val4 V0)
def val6 : Valuation τ sig (Elt F) := after ops_p5 (val5 V0)
def val7 : Valuation τ sig (Elt F) := after ops_p6 (val6 V0)

/-- The fold over all operations is the fold list by list. -/
theorem after_ops : after ops V0 = val7 V0 := by
  simp only [ops, after_append]
  rfl

theorem val0_arg (r : Ref sig .tc) (_h : r ∉ ops_W) : val0 V0 (no_index (Proc.devRef .tc r)) = V0 (Proc.devRef .tc r) := rfl
theorem val1_arg (r : Ref sig .tc) (h : r ∉ ops_W) : val1 V0 (no_index (Proc.devRef .tc r)) = V0 (Proc.devRef .tc r) :=
  (after_of_writes_sub ops_p0 _ ops_p0_writes (not_mem_lists h).1).trans (val0_arg V0 r h)
theorem val2_arg (r : Ref sig .tc) (h : r ∉ ops_W) : val2 V0 (no_index (Proc.devRef .tc r)) = V0 (Proc.devRef .tc r) :=
  (after_of_writes_sub ops_p1 _ ops_p1_writes (not_mem_lists h).2.1).trans (val1_arg V0 r h)
theorem val3_arg (r : Ref sig .tc) (h : r ∉ ops_W) : val3 V0 (no_index (Proc.devRef .tc r)) = V0 (Proc.devRef .tc r) :=
  (after_of_writes_sub ops_p2 _ ops_p2_writes (not_mem_lists h).2.2.1).trans (val2_arg V0 r h)
theorem val4_arg (r : Ref sig .tc) (h : r ∉ ops_W) : val4 V0 (no_index (Proc.devRef .tc r)) = V0 (Proc.devRef .tc r) :=
  (after_of_writes_sub ops_p3 _ ops_p3_writes (not_mem_lists h).2.2.2.1).trans (val3_arg V0 r h)
theorem val5_arg (r : Ref sig .tc) (h : r ∉ ops_W) : val5 V0 (no_index (Proc.devRef .tc r)) = V0 (Proc.devRef .tc r) :=
  (after_of_writes_sub ops_p4 _ ops_p4_writes (not_mem_lists h).2.2.2.2.1).trans (val4_arg V0 r h)
theorem val6_arg (r : Ref sig .tc) (h : r ∉ ops_W) : val6 V0 (no_index (Proc.devRef .tc r)) = V0 (Proc.devRef .tc r) :=
  (after_of_writes_sub ops_p5 _ ops_p5_writes (not_mem_lists h).2.2.2.2.2.1).trans (val5_arg V0 r h)
theorem val7_arg (r : Ref sig .tc) (h : r ∉ ops_W) : val7 V0 (no_index (Proc.devRef .tc r)) = V0 (Proc.devRef .tc r) :=
  (after_of_writes_sub ops_p6 _ ops_p6_writes (not_mem_lists h).2.2.2.2.2.2).trans (val6_arg V0 r h)

theorem val7_keep (r : Ref sig .tc) (h : r ∉ ops_W) : val7 V0 (Proc.devRef .tc r) = V0 (Proc.devRef .tc r) := val7_arg V0 r h

set_option maxRecDepth 8192 in
theorem val1_main_v18 : val1 V0 (no_index (Proc.devRef .tc main_v18)) = res_main_v18 V0 := by
  unfold val1
  simp only [ops_p0]
  after_results_simp
  simp (disch := decide) only [val0_arg]
  rfl

theorem val2_main_v18 : val2 V0 (no_index (Proc.devRef .tc main_v18)) = res_main_v18 V0 :=
  (after_of_writes_sub ops_p1 _ ops_p1_writes (by decide)).trans (val1_main_v18 V0)
set_option maxRecDepth 8192 in
theorem val2_main_v37 : val2 V0 (no_index (Proc.devRef .tc main_v37)) = res_main_v37 V0 := by
  unfold val2
  simp only [ops_p1]
  after_results_simp
  simp (disch := decide) only [val1_arg]
  rfl

set_option maxRecDepth 8192 in
theorem val3_main_v39 : val3 V0 (no_index (Proc.devRef .tc main_v39)) = res_main_v39 V0 := by
  unfold val3
  simp only [ops_p2]
  after_results_simp
  simp (disch := decide) only [val2_main_v18, val2_main_v37, val2_arg]
  rfl
set_option maxRecDepth 8192 in
theorem val3_main_v41 : val3 V0 (no_index (Proc.devRef .tc main_v41)) = res_main_v41 V0 := by
  unfold val3
  simp only [ops_p2]
  after_results_simp
  simp (disch := decide) only [val2_main_v18, val2_main_v37, val2_arg]
  rfl
set_option maxRecDepth 8192 in
theorem val3_main_v43 : val3 V0 (no_index (Proc.devRef .tc main_v43)) = res_main_v43 V0 := by
  unfold val3
  simp only [ops_p2]
  after_results_simp
  simp (disch := decide) only [val2_main_v18, val2_main_v37, val2_arg]
  rfl
set_option maxRecDepth 8192 in
theorem val3_main_v45 : val3 V0 (no_index (Proc.devRef .tc main_v45)) = res_main_v45 V0 := by
  unfold val3
  simp only [ops_p2]
  after_results_simp
  simp (disch := decide) only [val2_main_v18, val2_main_v37, val2_arg]
  rfl
set_option maxRecDepth 8192 in
theorem val3_main_v47 : val3 V0 (no_index (Proc.devRef .tc main_v47)) = (cmpi .slt (V0 (Proc.devRef .tc main_arg2)) (broadcastInDim S800000 ![] bcast_S_S800000 (constantI S_ 32 0#32)) : Vec F S800000 .i1) := by
  unfold val3
  simp only [ops_p2]
  after_results_simp
  simp (disch := decide) only [val2_arg]
set_option maxRecDepth 8192 in
theorem val3_main_v49 : val3 V0 (no_index (Proc.devRef .tc main_v49)) = (addi (V0 (Proc.devRef .tc main_arg2)) (broadcastInDim S800000 ![] bcast_S_S800000 (constantI S_ 32 50000#32)) : Vec F S800000 .i32) := by
  unfold val3
  simp only [ops_p2]
  after_results_simp
  simp (disch := decide) only [val2_arg]

theorem val4_main_v43 : val4 V0 (no_index (Proc.devRef .tc main_v43)) = res_main_v43 V0 :=
  (after_of_writes_sub ops_p3 _ ops_p3_writes (by decide)).trans (val3_main_v43 V0)
set_option maxRecDepth 8192 in
theorem val4_main_v68 : val4 V0 (no_index (Proc.devRef .tc main_v68)) = res_main_v68 V0 := by
  unfold val4
  simp only [ops_p3]
  after_results_simp
  simp (disch := decide) only [val3_main_v39, val3_main_v41, val3_main_v45, val3_main_v47, val3_main_v49, val3_arg]
  rfl

set_option maxRecDepth 8192 in
theorem val5_main_v93 : val5 V0 (no_index (Proc.devRef .tc main_v93)) = res_main_v93 V0 := by
  unfold val5
  simp only [ops_p4]
  after_results_simp
  simp (disch := decide) only [val4_main_v43, val4_main_v68, val4_arg]
  rfl
set_option maxRecDepth 8192 in
theorem val5_main_v94 : val5 V0 (no_index (Proc.devRef .tc main_v94)) = Host.reduceAdd (res_main_v93 V0) (constant S_ .f32 0x00000000#32) reducesTo_S50000x128_S128_d0 h_S_ := by
  unfold val5
  simp only [ops_p4]
  after_results_simp
  simp (disch := decide) only [val4_main_v43, val4_main_v68, val4_arg]
  rfl
set_option maxRecDepth 8192 in
theorem val5_main_cst_22 : val5 V0 (no_index (Proc.devRef .tc main_cst_22)) = (constant S_ .f32 0x47435000#32 : Vec F S_ .f32) := by
  unfold val5
  simp only [ops_p4]
  after_results_simp

theorem val6_main_v93 : val6 V0 (no_index (Proc.devRef .tc main_v93)) = res_main_v93 V0 :=
  (after_of_writes_sub ops_p5 _ ops_p5_writes (by decide)).trans (val5_main_v93 V0)
set_option maxRecDepth 8192 in
theorem val6_main_v112 : val6 V0 (no_index (Proc.devRef .tc main_v112)) = res_main_v112 V0 := by
  unfold val6
  simp only [ops_p5]
  after_results_simp
  simp (disch := decide) only [val5_main_v93, val5_main_v94, val5_main_cst_22, val5_arg]
  rfl

set_option maxRecDepth 8192 in
theorem val7_main_v116 : val7 V0 (no_index (Proc.devRef .tc main_v116)) = res_main_v116 V0 := by
  unfold val7
  simp only [ops_p6]
  after_results_simp
  simp (disch := decide) only [val6_main_v93, val6_main_v112, val6_arg]
  rfl

end

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = res_out (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
      refine ⟨(h c _).trans ((congrFun (after_ops _) _).trans (val7_main_v116 _)), ?_⟩
      repeat' apply And.intro
      all_goals exact (h c _).trans ((congrFun (after_ops _) _).trans (val7_keep _ _ (by decide))))
    (run_seq scopedRefs_eq scopedSems_eq defs main (fun _ => ops) main_eq (fun _ => ops_sub) m ρ (fun _ => ops_fresh))

end Cert.ReferenceIdeal.Hand

end
-- ==== Proof.Frames.lean ====
import proofs.«163757_j14508399526691_2_alg».proof.Defs
import proofs.«163757_j14508399526691_2_alg».proof.Proof.KI.Run
import proofs.«163757_j14508399526691_2_alg».proof.Proof.K.Run
import proofs.«163757_j14508399526691_2_alg».proof.Proof.Ref.Run

noncomputable section

open Idealize.ShloMosaic Idealize.ShloMosaic.TcCoe Idealize.SL.Sem

namespace Cert.Proof.Hand

/-- Each frame claim is the program's run with the statement about its result dropped. -/
theorem frame_p [Cert.Kernel.Facts] [Cert.Pre_finite_inputs.Facts] : Cert.frame_Kernel := fun m ρ _ =>
  (Cert.Kernel.Hand.run m ρ).mono (fun _ h c => (h c).2)

theorem frame_pi [Cert.KernelIdeal.Facts] [Cert.Pre_finite_inputs.Facts] : Cert.frame_KernelIdeal := fun m ρ _ =>
  (Cert.KernelIdeal.Hand.run m ρ).mono (fun _ h c => (h c).2)

theorem frame_ri [Cert.ReferenceIdeal.Facts] [Cert.Pre_finite_inputs.Facts] : Cert.frame_ReferenceIdeal := fun m ρ _ =>
  (Cert.ReferenceIdeal.Hand.run (F := Ideal) m ρ).mono (fun _ h c => (h c).2)

end Cert.Proof.Hand

end
-- ==== Proof.Preserves.lean ====
import proofs.«163757_j14508399526691_2_alg».proof.Defs

noncomputable section

open Idealize.ShloMosaic

namespace Cert.Proof.Hand

/-- The named scale denotes 2097152 / 11863283, the exact reciprocal of the reference's divisor. -/
theorem preserves : Cert.preserves_Kernel_KernelIdeal :=
  IdealRules.named_const.statement Cert.KernelIdeal.κ "inv_sqrt_dh" .f32 0x3E3504F3#32 ((2097152 / 11863283 : ℝ) : EReal) rfl

end Cert.Proof.Hand

end
-- ==== Proof.LibNary3.lean ====
/- The result of an operation over a literal family of three references, each operand's contents at its own reference. -/
import Idealize.ShloMosaic.Lib.StableHlo.Run

noncomputable section

namespace Idealize.ShloMosaic.StableHlo

variable {nD : Nat} {τ : Topo} {sig : RefSig} {Val : EltTy → Type}
variable {x a b y : Ref sig .tc}

/-- `nary_result`'s family read pointwise: at `0`, `1`, `2` it is the contents at `x`, `a`, `b`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

macro "after_results_simp3" : tactic =>
  `(tactic| (simp (disch := decide) only [after_cons, after_nil,
      nullary_result', unary_result', binary_result', ternary_result', quaternary_result', reshape_result',
      nary3_result', nary4_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KI.Host1.lean ====
import proofs.«163757_j14508399526691_2_alg».proof.Proof.Gen.KernelIdeal.Launch
import proofs.«163757_j14508399526691_2_alg».proof.Proof.LibNary3
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx

variable {F : FTy → Type} [FloatOps F] [Named F]

abbrev meanOf (n : BitVec 32) (s : Vec F S1x128 .f32) : Vec F S128 .f32 :=
  Host.divf (shapeCast S128 s shapeCasts_S1x128_S128) (broadcastInDim S128 ![] bcast_S_S128 (constant S_ .f32 n))

abbrev varOf (n : BitVec 32) (s q : Vec F S1x128 .f32) : Vec F S128 .f32 :=
  subf (meanOf n q) (mulf (meanOf n s) (meanOf n s))

abbrev rowOf (x : Vec F S128 .f32) : Vec F S1x128 .f32 := shapeCast S1x128 x shapeCasts_S128_S1x128

abbrev cat3 (a b c : Vec F S128x128 .f32) : Vec F S128x384 .f32 :=
  concatenate S128x384 1 [⟨S128x128, a⟩, ⟨S128x128, b⟩, ⟨S128x128, c⟩] concatenates_S128x128_S128x128_S128x128_S128x384_d1

abbrev maskTable : Vec F S128x4 .f32 := fun i => FloatOps.ofBits .f32 (lit0 (S128x4.rowMajor i))

section Terms
variable (W : Valuation τ sig (Elt F))

theorem after_hostOps0_main_cst :
    (StableHlo.after hostOps0 W (Proc.devRef .tc main_cst) : Vec F S128x4 .f32) = maskTable := by
  simp only [hostOps0]; after_results; rfl

theorem after_hostOps1_main_v3 :
    (StableHlo.after hostOps1 W (Proc.devRef .tc main_v3) : Vec F S128 .f32)
      = meanOf 0x47435000#32 (W (Proc.devRef .tc main_v0_0)) := by
  simp only [hostOps1]; after_results; rfl

theorem after_hostOps1_main_v8 :
    (StableHlo.after hostOps1 W (Proc.devRef .tc main_v8) : Vec F S128 .f32)
      = varOf 0x47435000#32 (W (Proc.devRef .tc main_v0_0)) (W (Proc.devRef .tc main_v0_1)) := by
  simp only [hostOps1]; after_results; rfl

theorem after_hostOps2_main_v12 :
    (StableHlo.after hostOps2 W (Proc.devRef .tc main_v12) : Vec F S128 .f32)
      = meanOf 0x49435000#32 (W (Proc.devRef .tc main_v9_0)) := by
  simp only [hostOps2]; after_results_simp3; rfl

theorem after_hostOps2_main_v17 :
    (StableHlo.after hostOps2 W (Proc.devRef .tc main_v17) : Vec F S128 .f32)
      = varOf 0x49435000#32 (W (Proc.devRef .tc main_v9_0)) (W (Proc.devRef .tc main_v9_1)) := by
  simp only [hostOps2]; after_results_simp3; rfl

theorem after_hostOps2_main_v18 :
    (StableHlo.after hostOps2 W (Proc.devRef .tc main_v18) : Vec F S128x384 .f32)
      = cat3 (W (Proc.devRef .tc main_arg4)) (W (Proc.devRef .tc main_arg5)) (W (Proc.devRef .tc main_arg6)) := by
  simp only [hostOps2]; after_results_simp3; rfl

theorem after_hostOps2_main_v19 :
    (StableHlo.after hostOps2 W (Proc.devRef .tc main_v19) : Vec F S1x128 .f32) = rowOf (W (Proc.devRef .tc main_v3)) := by
  simp only [hostOps2]; after_results_simp3; rfl

theorem after_hostOps2_main_v20 :
    (StableHlo.after hostOps2 W (Proc.devRef .tc main_v20) : Vec F S1x128 .f32) = rowOf (W (Proc.devRef .tc main_v8)) := by
  simp only [hostOps2]; after_results_simp3; rfl

theorem after_hostOps2_main_v21 :
    (StableHlo.after hostOps2 W (Proc.devRef .tc main_v21) : Vec F S1x128 .f32) = rowOf (W (Proc.devRef .tc main_arg10)) := by
  simp only [hostOps2]; after_results_simp3; rfl

theorem after_hostOps2_main_v22 :
    (StableHlo.after hostOps2 W (Proc.devRef .tc main_v22) : Vec F S1x128 .f32) = rowOf (W (Proc.devRef .tc main_arg11)) := by
  simp only [hostOps2]; after_results_simp3; rfl

theorem after_hostOps3_main_v24 :
    (StableHlo.after hostOps3 W (Proc.devRef .tc main_v24) : Vec F S1x128 .f32) = rowOf (W (Proc.devRef .tc main_v12)) := by
  simp only [hostOps3]; after_results; rfl

theorem after_hostOps3_main_v25 :
    (StableHlo.after hostOps3 W (Proc.devRef .tc main_v25) : Vec F S1x128 .f32) = rowOf (W (Proc.devRef .tc main_v17)) := by
  simp only [hostOps3]; after_results; rfl

theorem after_hostOps3_main_v26 :
    (StableHlo.after hostOps3 W (Proc.devRef .tc main_v26) : Vec F S1x128 .f32) = rowOf (W (Proc.devRef .tc main_arg12)) := by
  simp only [hostOps3]; after_results; rfl

theorem after_hostOps3_main_v27 :
    (StableHlo.after hostOps3 W (Proc.devRef .tc main_v27) : Vec F S1x128 .f32) = rowOf (W (Proc.devRef .tc main_arg13)) := by
  simp only [hostOps3]; after_results; rfl

theorem after_hostOps7_main_v57 :
    (StableHlo.after hostOps7 W (Proc.devRef .tc main_v57) : Vec F S128 .f32)
      = meanOf 0x47435000#32 (W (Proc.devRef .tc main_v54_0)) := by
  simp only [hostOps7]; after_results; rfl

theorem after_hostOps7_main_v62 :
    (StableHlo.after hostOps7 W (Proc.devRef .tc main_v62) : Vec F S128 .f32)
      = varOf 0x47435000#32 (W (Proc.devRef .tc main_v54_0)) (W (Proc.devRef .tc main_v54_1)) := by
  simp only [hostOps7]; after_results; rfl

theorem after_hostOps7_main_v63 :
    (StableHlo.after hostOps7 W (Proc.devRef .tc main_v63) : Vec F S1x128 .f32)
      = rowOf (meanOf 0x47435000#32 (W (Proc.devRef .tc main_v54_0))) := by
  simp only [hostOps7]; after_results; rfl

theorem after_hostOps7_main_v64 :
    (StableHlo.after hostOps7 W (Proc.devRef .tc main_v64) : Vec F S1x128 .f32)
      = rowOf (varOf 0x47435000#32 (W (Proc.devRef .tc main_v54_0)) (W (Proc.devRef .tc main_v54_1))) := by
  simp only [hostOps7]; after_results; rfl

theorem after_hostOps7_main_v65 :
    (StableHlo.after hostOps7 W (Proc.devRef .tc main_v65) : Vec F S1x128 .f32) = rowOf (W (Proc.devRef .tc main_arg14)) := by
  simp only [hostOps7]; after_results; rfl

theorem after_hostOps7_main_v66 :
    (StableHlo.after hostOps7 W (Proc.devRef .tc main_v66) : Vec F S1x128 .f32) = rowOf (W (Proc.devRef .tc main_arg15)) := by
  simp only [hostOps7]; after_results; rfl

end Terms

section Table

/-- Table `k` of four holds the float one at the offsets congruent to `k` modulo 4 and zero elsewhere. -/
theorem lit0t_eq (n : Nat) (hn : n < 512) :
    lit0t n = if n / 128 = n % 128 % 4 then 0x3F800000#32 else 0x00000000#32 := by
  have hq : n / 128 < 4 := by omega
  have hd : n % 128 < 128 := Nat.mod_lt _ (by decide)
  unfold lit0t lit0t0_0 lit0t0_1 lit0t0_2 lit0t0_3
  generalize n / 128 = q at hq ⊢
  generalize n % 128 = d at hd ⊢
  interval_cases q <;> interval_cases d <;> rfl

/-- Entry `(i, h)` has flat index `4 i + h`: table `i / 32`, offset congruent to `h`. -/
theorem maskTable_apply_ideal (i : Fin 128) (h : Fin 4) :
    (maskTable (F := Ideal)) (ix2 i h) = if i.val / 32 = h.val then (1 : EReal) else 0 := by
  have hv : (S128x4.rowMajor (ix2 i h)).val = i.val * 4 + h.val := Shape.rowMajor_val_two _
  have hi := i.isLt
  have hh := h.isLt
  show Ideal.ofBits .f32 (lit0t (S128x4.rowMajor (ix2 i h)).val) = _
  rw [hv, lit0t_eq _ (by omega), show (i.val * 4 + h.val) / 128 = i.val / 32 by omega,
    show (i.val * 4 + h.val) % 128 % 4 = h.val by omega, apply_ite (Ideal.ofBits .f32),
    Ideal.ofBits_one_f32, Ideal.ofBits_zero_f32]

end Table

section Layout

theorem rowOf_apply (x : Vec F S128 .f32) (u : Fin 1) (j : Fin 128) : rowOf x (ix2 u j) = x (ix1 j) :=
  shapeCast_a_1a_apply x shapeCasts_S128_S1x128 u j

/-- Column `128 p + l` of the three matrices side by side is column `l` of matrix `p`. -/
theorem cat3_apply (a b c : Vec F S128x128 .f32) (k : Fin 128) (j : Fin 384) (p : Fin 3) (l : Fin 128)
    (hj : 128 * p.val + l.val = j.val) : cat3 a b c (ix2 k j) = (![a, b, c] p) (ix2 k l) := by
  refine concatenate_apply_piece (t := S128x384) 1 _ _ (ix2 k j) p.val (by exact p.isLt) S128x128 (![a, b, c] p) ?_ rfl (128 * p.val) ?_
    (ix2 k l) ?_ hj
  · fin_cases p <;> rfl
  · fin_cases p <;> rfl
  · intro b hb
    match b with
    | ⟨0, _⟩ => rfl
    | ⟨1, _⟩ => exact absurd rfl hb

end Layout

section AtIdeal

theorem meanOf_apply (n : BitVec 32) (s : Vec Ideal S1x128 .f32) (j : Fin 128) :
    meanOf n s (ix1 j) = Ideal.div (s (ix2 (0 : Fin 1) j)) (Ideal.ofBits .f32 n) := by
  show Ideal.div (shapeCast S128 s shapeCasts_S1x128_S128 (ix1 j))
      (broadcastInDim S128 ![] bcast_S_S128 (constant (F := Ideal) S_ .f32 n) (ix1 j)) = _
  rw [shapeCast_1a_a_apply, broadcastInDim_scalar_apply]
  rfl

theorem varOf_apply (n : BitVec 32) (s q : Vec Ideal S1x128 .f32) (j : Fin 128) :
    varOf n s q (ix1 j)
      = Ideal.div (q (ix2 (0 : Fin 1) j)) (Ideal.ofBits .f32 n)
        - Ideal.div (s (ix2 (0 : Fin 1) j)) (Ideal.ofBits .f32 n) * Ideal.div (s (ix2 (0 : Fin 1) j)) (Ideal.ofBits .f32 n) := by
  show meanOf n q (ix1 j) - meanOf n s (ix1 j) * meanOf n s (ix1 j) = _
  rw [meanOf_apply, meanOf_apply]

end AtIdeal

end Cert.KernelIdeal.Hand

end
-- ==== Proof.KI.Host4.lean ====
import proofs.«163757_j14508399526691_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.ValueIdx

variable {F : FTy → Type} [FloatOps F] [Named F]

def wrapIdx (a : IVec S800000 32) : IVec S800000 32 :=
  select (cmpi .slt a (broadcastInDim S800000 ![] bcast_S_S800000 (constantI S_ 32 0#32)))
    (addi a (broadcastInDim S800000 ![] bcast_S_S800000 (constantI S_ 32 50000#32))) a

def idxCol (a : IVec S800000 32) : IVec S800000x1 32 := broadcastInDim S800000x1 ![0] bcast_S800000_S800000x1_0 a

def cutLo384 (x : FVec F S50000x384 .f32) : FVec F S50000x128 .f32 :=
  extractStridedSlice S50000x128 ![0, 0] x slices_S50000x384_S50000x128_0_0

def cutHi384 (x : FVec F S50000x384 .f32) : FVec F S50000x256 .f32 :=
  extractStridedSlice S50000x256 ![0, 128] x slices_S50000x384_S50000x256_0_128

def zeros256 : FVec F S50000x256 .f32 := broadcastInDim S50000x256 ![] bcast_S_S50000x256 (constant S_ .f32 0x00000000#32)

def scat256 (idx : IVec S800000 32) (u : FVec F S800000x256 .f32) : FVec F S50000x256 .f32 :=
  Host.scatterAdd scatter_S50000x256_S800000x1_S800000x256_1_0_0_1 zeros256 (idxCol idx) u

section Terms
variable (W : Valuation τ sig (Elt F))

theorem after_hostOps4_main_v29 :
    (StableHlo.after hostOps4 W (Proc.devRef .tc main_v29) : FVec F S50000x128 .f32)
      = cutLo384 (W (Proc.devRef .tc main_v23)) := by
  after_results
  rfl

theorem after_hostOps4_main_v30 :
    (StableHlo.after hostOps4 W (Proc.devRef .tc main_v30) : FVec F S50000x256 .f32)
      = cutHi384 (W (Proc.devRef .tc main_v23)) := by
  after_results
  rfl

theorem after_hostOps4_main_v37 :
    (StableHlo.after hostOps4 W (Proc.devRef .tc main_v37) : FVec F S800000x256 .f32)
      = Host.gather gather_S50000x256_S800000x1_S800000x256_1_0_n_n_0_1_1256 (cutHi384 (W (Proc.devRef .tc main_v23)))
          (idxCol (wrapIdx (W (Proc.devRef .tc main_arg2)))) := by
  after_results
  rfl

theorem after_hostOps4_main_v44 :
    (StableHlo.after hostOps4 W (Proc.devRef .tc main_v44) : FVec F S800000x128 .f32)
      = Host.gather gather_S50000x128_S800000x1_S800000x128_1_0_n_n_0_1_1128 (cutLo384 (W (Proc.devRef .tc main_v23)))
          (idxCol (wrapIdx (W (Proc.devRef .tc main_arg3)))) := by
  after_results_simp <;> rfl

theorem after_hostOps4_main_v45 :
    (StableHlo.after hostOps4 W (Proc.devRef .tc main_v45) : FVec F S4x128 .f32)
      = transpose S4x128 [1, 0] (W (Proc.devRef .tc main_cst)) transposes_S128x4_S4x128_1_0 := by
  after_results

theorem after_hostOps5_main_v49 :
    (StableHlo.after hostOps5 W (Proc.devRef .tc main_v49) : FVec F S50000x256 .f32)
      = scat256 (W (Proc.devRef .tc main_arg3)) (W (Proc.devRef .tc main_v46)) := by
  after_results
  rfl

theorem after_hostOps5_main_v50 :
    (StableHlo.after hostOps5 W (Proc.devRef .tc main_v50) : FVec F S50000x128 .f32)
      = extractStridedSlice S50000x128 ![0, 0] (scat256 (W (Proc.devRef .tc main_arg3)) (W (Proc.devRef .tc main_v46)))
          slices_S50000x256_S50000x128_0_0 := by
  after_results
  rfl

theorem after_hostOps5_main_v51 :
    (StableHlo.after hostOps5 W (Proc.devRef .tc main_v51) : FVec F S50000x128 .f32)
      = extractStridedSlice S50000x128 ![0, 128] (scat256 (W (Proc.devRef .tc main_arg3)) (W (Proc.devRef .tc main_v46)))
          slices_S50000x256_S50000x128_0_128 := by
  after_results
  rfl

theorem after_hostOps5_main_v52 :
    (StableHlo.after hostOps5 W (Proc.devRef .tc main_v52) : FVec F S1x128 .f32)
      = shapeCast S1x128 (W (Proc.devRef .tc main_arg9)) shapeCasts_S128_S1x128 := by
  after_results
  rfl

end Terms

end Cert.KernelIdeal.Hand
-- ==== Proof.LibBlockSum.lean ====
import Mathlib.Algebra.BigOperators.Fin
import Idealize.ShloMosaic.Lib.ValueIdx

/-! A total built up one block of `R` consecutive terms at a time is, after the last of `B` blocks, the sum of all `R * B` terms; the same column by column for a row of totals over an array of rows. -/

namespace Cert.BlockSum

open Finset Idealize.ShloMosaic Idealize.ShloMosaic.ValueIdx

variable {α M : Type*} [AddCommMonoid M] {N : ℕ}

-- φ ∘ x on the naturals below N, zero from N on
def ext (x : Fin N → α) (φ : α → M) (i : ℕ) : M := if hi : i < N then φ (x ⟨i, hi⟩) else 0

theorem ext_lt (x : Fin N → α) (φ : α → M) {i : ℕ} (hi : i < N) : ext x φ i = φ (x ⟨i, hi⟩) := dif_pos hi

-- block t holds terms R * t, …, R * t + R - 1, so by induction the total after block n is the sum of the first R * (n + 1) terms
theorem total_eq_sum {R B : ℕ} (hN : R * B = N) (x : Fin N → α) (φ : α → M)
    (blk : (t : ℕ) → t < B → Fin R → α)
    (hblk : ∀ t h (r : Fin R) (hr : R * t + r.val < N), blk t h r = x ⟨R * t + r.val, hr⟩)
    (s : (n : ℕ) → n < B → M)
    (h0 : ∀ h, s 0 h = 0 + ∑ r, φ (blk 0 h r))
    (hs : ∀ n h, s (n + 1) h = s n (Nat.lt_of_succ_lt h) + ∑ r, φ (blk (n + 1) h r))
    (n : ℕ) (h : n < B) (hn : n + 1 = B) : s n h = ∑ i : Fin N, φ (x i) := by
  have hb : ∀ t (ht : t < B), ∑ r, φ (blk t ht r) = ∑ r ∈ range R, ext x φ (R * t + r) := fun t ht => by
    rw [Finset.sum_range]
    refine Finset.sum_congr rfl fun r _ => ?_
    have hr : R * t + r.val < N :=
      hN ▸ lt_of_lt_of_le (Nat.add_lt_add_left r.isLt _) ((Nat.mul_succ R t).symm.le.trans (Nat.mul_le_mul_left R ht))
    rw [hblk t ht r hr, ext_lt x φ hr]
  have key : ∀ m (hm : m < B), s m hm = ∑ i ∈ range (R * (m + 1)), ext x φ i := by
    intro m
    induction m with
    | zero => intro hm; rw [h0, hb, zero_add, Nat.mul_zero, Nat.zero_add, Nat.mul_one]; simp only [Nat.zero_add]
    | succ m ih => intro hm; rw [hs, ih, hb, Nat.mul_succ R (m + 1), Finset.sum_range_add]
  rw [key n h, hn, hN, Finset.sum_range]
  exact Finset.sum_congr rfl fun i _ => ext_lt x φ i.isLt

abbrev Ix (r C : ℕ) : Type := (⟨2, ![r, C]⟩ : Shape).Idx

theorem row_ix {C : ℕ} (j : Fin C) : (fun a : Fin 1 => (ix2 (0 : Fin 1) j : Ix 1 C) a.succ) = ix1 j :=
  funext fun a => by match a with | ⟨0, _⟩ => rfl

-- column by column: a row of totals that starts from zero and at each point takes a payload adding φ of the block's column ends as the array's column sums of φ
theorem col_total {R B C : ℕ} (hN : R * B = N) (φ : α → M) (pay : (Ix R C → α) → (Ix 1 C → M) → Ix 1 C → M)
    (hpay : ∀ x xo (j : Fin C), pay x xo (ix2 0 j) = xo (ix2 0 j) + ∑ r : Fin R, φ (x (ix2 r j)))
    (z : Ix 1 C → M) (hz : ∀ y, z y = 0) (arr : Ix N C → α) (blk : (t : ℕ) → t < B → Ix R C → α)
    (hblk : ∀ t h (r : Fin R) (j : Fin C) (hr : R * t + r.val < N), blk t h (ix2 r j) = arr (ix2 ⟨R * t + r.val, hr⟩ j))
    (s : (n : ℕ) → n < B → Ix 1 C → M) (h0 : ∀ h, s 0 h = pay (blk 0 h) z)
    (hs : ∀ n h, s (n + 1) h = pay (blk (n + 1) h) (s n (Nat.lt_of_succ_lt h)))
    (n : ℕ) (h : n < B) (hn : n + 1 = B) (j : Fin C) : s n h (ix2 0 j) = ∑ i : Fin N, φ (arr (ix2 i j)) :=
  total_eq_sum hN (fun i => arr (ix2 i j)) φ (fun t h r => blk t h (ix2 r j)) (fun t h r hr => hblk t h r j hr)
    (fun n h => s n h (ix2 0 j)) (fun h => by rw [h0, hpay, hz]) (fun n h => by rw [hs, hpay]) n h hn

end Cert.BlockSum
-- ==== Proof.LibWholeBlock.lean ====
import Idealize.ShloMosaic.Shape

/-! Every index of a shape lies in the unit-stride rectangle at zero offsets whose extents are the shape's own. -/

namespace Cert.WholeBlock

open Idealize.ShloMosaic

theorem mem_unit_zero {s : Shape} {off size : Fin s.rank → Nat} {inb} (h0 : ∀ a, off a = 0) (hs : ∀ a, size a = s.size a)
    (i : s.Idx) : i ∈ (Rect.unit off size inb).set :=
  Rect.mem_set_unit.mpr fun a => by rw [h0 a, hs a]; exact ⟨Nat.zero_le _, by rw [Nat.zero_add]; exact (i a).isLt⟩

end Cert.WholeBlock
-- ==== Proof.LibMatmul2.lean ====
import Idealize.ShloMosaic.Lib.ValueIdx
import Idealize.ShloMosaic.PureOps.Ideal.Laws

namespace Idealize.ShloMosaic.ValueIdx

open scoped BigOperators

/-- An m×k by k×n product into the zero accumulator, at an index, is the sum over the contracted axis. -/
theorem matmul2_apply {m k n : Nat} {φ₁ φ₂ : FTy}
    (w : DotDims.WF ⟨2, ![m, k]⟩ ⟨2, ![k, n]⟩ ⟨2, ![m, n]⟩ [1] [0] [0] [1] [] []) (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (⟨[1], [0], [0], [1], [], [], w⟩ : DotDims _ _ _) k rfl rfl).symm]
  refine Finset.sum_congr rfl fun c _ => ?_
  have hc := contrEquiv1_symm_val (⟨[1], [0], [0], [1], [], [], w⟩ : DotDims ⟨2, ![m, k]⟩ ⟨2, ![k, n]⟩ ⟨2, ![m, n]⟩) k rfl rfl c
  congr 2 <;> funext ax <;> apply Fin.ext <;> match ax with
    | ⟨0, _⟩ => simp [DotDims.lhsIdx, DotDims.rhsIdx] <;> first | rfl | exact hc
    | ⟨1, _⟩ => simp [DotDims.lhsIdx, DotDims.rhsIdx] <;> first | rfl | exact hc

/-- The zero offset of a rank-2 rectangle. -/
theorem zero2 : (![0, 0] : Fin 2 → Nat) = fun _ => 0 := funext fun a => by fin_cases a <;> rfl

end Idealize.ShloMosaic.ValueIdx
-- ==== Proof.KI.Region0Value.lean ====
import proofs.«163757_j14508399526691_2_alg».proof.Proof.KI.Region0
import proofs.«163757_j14508399526691_2_alg».proof.Proof.LibBlockSum
import proofs.«163757_j14508399526691_2_alg».proof.Proof.LibWholeBlock
import proofs.«163757_j14508399526691_2_alg».proof.Proof.LibMatmul2
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx
open scoped BigOperators

section Pieces0
variable {F : FTy → Type} [FloatOps F] [Named F]
variable (V : (c : Dev nD) → (b : Ref sig .tc) → Buf (Elt F) ((c : Thread nD τ).loc b)) (c : Dev nD)

-- each output's last store covers its block, so the output holds that store's payload: over the zero row after a reset,
theorem outA0_eq (t : Fin cfg0.N) (h0 : t.val % 10 = 0) :
    outA0 V c t h0 = (k0_pay3 (iblk0 V c 0 t) (k0_pay1 (F := F)), k0_pay4 (iblk0 V c 0 t) (k0_pay2 (F := F))) := by
  unfold outA0 runA0 kernelRun0_A
  dsimp only
  sl_unfold_words
  rw [View.canon_cons_unit_zero (S := S1x128) zero2, View.canon_cons_unit_zero (S := S1x128) zero2,
    View.readCov_unit_zero (S := S1x128) _ zero2, View.readCov_unit_zero (S := S1x128) _ zero2]
  simp only [View.readAt_eq_ld, (hs0_0 t).read_unread, View.ld_unit_zero (S := S5000x128) zero2]

-- over the row it read otherwise
theorem outB0_eq (t : Fin cfg0.N) (h0 : ¬t.val % 10 = 0) (p : Vec F S1x128 .f32 × Vec F S1x128 .f32) :
    outB0 V c t h0 p = (k0_pay3 (iblk0 V c 0 t) p.1, k0_pay4 (iblk0 V c 0 t) p.2) := by
  unfold outB0 runB0 kernelRun0_B
  dsimp only
  rw [View.canon_unit_zero zero2, View.canon_unit_zero zero2]
  simp only [View.readAt_eq_ld, (hs0_0 t).read_unread, (hs0_1 t).read_unread, (hs0_2 t).read_unread,
    View.ld_unit_zero (S := S5000x128) zero2, View.ld_unit_zero (S := S1x128) zero2]

theorem outsAt0_zero (h : 0 < cfg0.N) :
    outsAt0 V c 0 h = (k0_pay3 (iblk0 V c 0 ⟨0, h⟩) (k0_pay1 (F := F)), k0_pay4 (iblk0 V c 0 ⟨0, h⟩) (k0_pay2 (F := F))) :=
  (outsAt0_A V c ⟨0, h⟩ rfl).trans (outA0_eq V c _ _)

theorem outsAt0_succ (n : ℕ) (h : n + 1 < cfg0.N) :
    outsAt0 V c (n + 1) h = (k0_pay3 (iblk0 V c 0 ⟨n + 1, h⟩) (outsAt0 V c n (Nat.lt_of_succ_lt h)).1,
      k0_pay4 (iblk0 V c 0 ⟨n + 1, h⟩) (outsAt0 V c n (Nat.lt_of_succ_lt h)).2) :=
  (outsAt0_B V c ⟨n + 1, h⟩ (by have hN : cfg0.N = 10 := N_0; dsimp only; omega)).trans (outB0_eq V c _ _ _)

end Pieces0

section Value0
variable (V : (c : Dev nD) → (b : Ref sig .tc) → Buf (Elt Ideal) ((c : Thread nD τ).loc b)) (c : Dev nD)

def colSum0 (x : S50000x128.Idx → EReal) : S1x128.Idx → EReal :=
  fun y => ∑ i : Fin 50000, x (ix2 i (⟨(y 1).val, idx2_lt1 y⟩ : Fin 128))
def colSumSq0 (x : S50000x128.Idx → EReal) : S1x128.Idx → EReal :=
  fun y => ∑ i : Fin 50000, x (ix2 i (⟨(y 1).val, idx2_lt1 y⟩ : Fin 128)) * x (ix2 i (⟨(y 1).val, idx2_lt1 y⟩ : Fin 128))

theorem colSum0_apply (x : S50000x128.Idx → EReal) (j : Fin 128) : colSum0 x (ix2 0 j) = ∑ i : Fin 50000, x (ix2 i j) := rfl
theorem colSumSq0_apply (x : S50000x128.Idx → EReal) (j : Fin 128) : colSumSq0 x (ix2 0 j) = ∑ i : Fin 50000, x (ix2 i j) * x (ix2 i j) := rfl

theorem lift0 (j : Fin 128) (r : Fin 5000) : reduces_S5000x128_S128.lift (ix1 j) r = ix2 r j := by
  funext a
  match a with
  | ⟨0, _⟩ => rfl
  | ⟨1, _⟩ => rfl

-- at a column a payload is the row it was handed plus the block's column sum,
theorem k0_pay3_apply (x : S5000x128.Idx → EReal) (xo : S1x128.Idx → EReal) (j : Fin 128) :
    (k0_pay3 (F := Ideal) x xo (ix2 0 j) : EReal) = xo (ix2 0 j) + ∑ r : Fin 5000, x (ix2 r j) := by
  unfold k0_pay3
  rw [addf_apply]
  simp only [shapeCast_self]
  rw [shapeCast_addUnit_apply ![128] _ shapeCasts_S128_S1x128 (ix2 0 j), BlockSum.row_ix]
  refine congrArg (xo (ix2 0 j) + ·) ((Ideal.multiReduction_add_single x 0x00000000#32 reduces_S5000x128_S128 (.inl rfl) rfl (ix1 j)).trans ?_)
  exact Finset.sum_congr rfl fun r _ => congrArg x (lift0 j r)

-- and the second payload is the first at the block's squares
theorem k0_pay4_apply (x : S5000x128.Idx → EReal) (xo : S1x128.Idx → EReal) (j : Fin 128) :
    (k0_pay4 (F := Ideal) x xo (ix2 0 j) : EReal) = xo (ix2 0 j) + ∑ r : Fin 5000, x (ix2 r j) * x (ix2 r j) :=
  k0_pay3_apply (mulf (F := Ideal) x x) xo j

theorem index0_0 : ∀ t : Fin cfg0.N, win0_0.index t 0 = t.val ∧ win0_0.index t 1 = 0 :=
  (by decide +kernel : ∀ t : Fin grid0.N, win0_0.index t 0 = t.val ∧ win0_0.index t 1 = 0)

abbrev xarr0 : S50000x128.Idx → EReal := V c (Pipeline.arrRef spec0 0)
abbrev xblk0 (t : Fin cfg0.N) : S5000x128.Idx → EReal := iblk0 V c 0 t

-- row r of the block at point t is row 5000 t + r of the array
theorem xblk0_apply (t : Fin cfg0.N) (r : Fin 5000) (j : Fin 128) (hr : 5000 * t.val + r.val < 50000) :
    xblk0 V c t (ix2 r j) = xarr0 V c (ix2 ⟨5000 * t.val + r.val, hr⟩ j) := by
  unfold xblk0 xarr0 iblk0
  rw [View.read_apply]
  show (V c (Pipeline.arrRef spec0 0) : S50000x128.Idx → EReal) _ = _
  congr 1
  funext a
  apply Fin.ext
  match a with
  | ⟨0, _⟩ => show win0_0.index t 0 * 5000 + 1 * r.val = 5000 * t.val + r.val; rw [(index0_0 t).1]; omega
  | ⟨1, _⟩ => show win0_0.index t 1 * 128 + 1 * j.val = j.val; rw [(index0_0 t).2]; omega

-- each row starts from zero and takes its payload at every point, so it ends as the whole column's sum: of the entries, of their squares
theorem last0 (t : Fin cfg0.N) (ht : t.val = 9) :
    ((outsAt0 V c t.val t.isLt).1 : S1x128.Idx → EReal) = colSum0 (xarr0 V c)
    ∧ ((outsAt0 V c t.val t.isLt).2 : S1x128.Idx → EReal) = colSumSq0 (xarr0 V c) := by
  have hN : cfg0.N = 10 := N_0
  constructor <;> funext y <;> obtain ⟨a, b, rfl⟩ : ∃ (a : Fin 1) (b : Fin 128), y = ix2 a b := ⟨y 0, y 1, eq_ix2 y⟩ <;>
    obtain rfl : a = 0 := Subsingleton.elim _ _
  · exact BlockSum.col_total (α := EReal) (M := EReal) (N := 50000) (R := 5000) (B := cfg0.N) (C := 128) (by omega) (fun v => v)
      (k0_pay3 (F := Ideal)) k0_pay3_apply (k0_pay1 (F := Ideal)) (fun _ => Ideal.ofBits_zero_f32) (xarr0 V c)
      (fun t h => xblk0 V c ⟨t, h⟩) (fun t h r j hr => xblk0_apply V c ⟨t, h⟩ r j hr) (fun n h => (outsAt0 V c n h).1)
      (fun h => congrArg Prod.fst (outsAt0_zero V c h)) (fun n h => congrArg Prod.fst (outsAt0_succ V c n h)) t.val t.isLt (by omega) b
  · exact BlockSum.col_total (α := EReal) (M := EReal) (N := 50000) (R := 5000) (B := cfg0.N) (C := 128) (by omega) (fun v => v * v)
      (k0_pay4 (F := Ideal)) k0_pay4_apply (k0_pay2 (F := Ideal)) (fun _ => Ideal.ofBits_zero_f32) (xarr0 V c)
      (fun t h => xblk0 V c ⟨t, h⟩) (fun t h r j hr => xblk0_apply V c ⟨t, h⟩ r j hr) (fun n h => (outsAt0 V c n h).2)
      (fun h => congrArg Prod.snd (outsAt0_zero V c h)) (fun n h => congrArg Prod.snd (outsAt0_succ V c n h)) t.val t.isLt (by omega) b

def tl0 : Fin cfg0.N := ⟨9, by rw [show cfg0.N = 10 from N_0]; decide⟩

-- the last point's block of a 1x128 result is the whole array, so the array ends as that point's row
theorem value0_1 : (dat0 (F := Ideal) V c).arrAt 1 cfg0.N = colSum0 (V c (Pipeline.arrRef spec0 0)) :=
  (dat0 (F := Ideal) V c).arrAt_eq_of_cover 1 (colSum0 (xarr0 V c))
    (fun t hf => by
      have hN : cfg0.N = 10 := N_0
      have hl : t.val = 9 := by have := (flush0_1 t).mp hf; have := t.isLt; omega
      obtain rfl : t = tl0 := Fin.ext hl
      show (cfg0.win 1).cut (grid0.coords tl0) ((dat0 V c).after 1 tl0) = _
      rw [after0_1, (last0 V c tl0 rfl).1]
      have hz' : (fun a => win0_1.index tl0 a * main_v0_0.ty.shape.size a) = fun _ => 0 := funext fun a => by fin_cases a <;> decide +kernel
      exact (Memref.read_access_unit_zero (Elt Ideal) main_v0_0 hz' (fun a => by rw [congrFun hz' a]; simp) (colSum0 (xarr0 V c))).symm)
    fun i => ⟨tl0, (flush0_1 tl0).mpr rfl, by
      show i ∈ ((View.whole main_v0_0).slice (win0_1.rect tl0)).set
      rw [View.set_slice_whole]
      exact WholeBlock.mem_unit_zero (s := main_v0_0.ty.shape) (fun a => by fin_cases a <;> decide +kernel) (fun a => by fin_cases a <;> decide +kernel) i⟩

theorem value0_2 : (dat0 (F := Ideal) V c).arrAt 2 cfg0.N = colSumSq0 (V c (Pipeline.arrRef spec0 0)) :=
  (dat0 (F := Ideal) V c).arrAt_eq_of_cover 2 (colSumSq0 (xarr0 V c))
    (fun t hf => by
      have hN : cfg0.N = 10 := N_0
      have hl : t.val = 9 := by have := (flush0_2 t).mp hf; have := t.isLt; omega
      obtain rfl : t = tl0 := Fin.ext hl
      show (cfg0.win 2).cut (grid0.coords tl0) ((dat0 V c).after 2 tl0) = _
      rw [after0_2, (last0 V c tl0 rfl).2]
      have hz' : (fun a => win0_2.index tl0 a * main_v0_1.ty.shape.size a) = fun _ => 0 := funext fun a => by fin_cases a <;> decide +kernel
      exact (Memref.read_access_unit_zero (Elt Ideal) main_v0_1 hz' (fun a => by rw [congrFun hz' a]; simp) (colSumSq0 (xarr0 V c))).symm)
    fun i => ⟨tl0, (flush0_2 tl0).mpr rfl, by
      show i ∈ ((View.whole main_v0_1).slice (win0_2.rect tl0)).set
      rw [View.set_slice_whole]
      exact WholeBlock.mem_unit_zero (s := main_v0_1.ty.shape) (fun a => by fin_cases a <;> decide +kernel) (fun a => by fin_cases a <;> decide +kernel) i⟩

end Value0

end Cert.KernelIdeal.Hand

end
-- ==== Proof.KI.Region1Value.lean ====
import proofs.«163757_j14508399526691_2_alg».proof.Proof.KI.Region1
import proofs.«163757_j14508399526691_2_alg».proof.Proof.LibBlockSum
import proofs.«163757_j14508399526691_2_alg».proof.Proof.LibWholeBlock
import proofs.«163757_j14508399526691_2_alg».proof.Proof.LibMatmul2
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx
open scoped BigOperators

section Pieces1
variable {F : FTy → Type} [FloatOps F] [Named F]
variable (V : (c : Dev nD) → (b : Ref sig .tc) → Buf (Elt F) ((c : Thread nD τ).loc b)) (c : Dev nD)

-- each output's last store covers its block, so the output holds that store's payload: over the zero row after a reset,
theorem outA1_eq (t : Fin cfg1.N) (h0 : t.val % 100 = 0) :
    outA1 V c t h0 = (k1_pay3 (iblk1 V c 0 t) (k1_pay1 (F := F)), k1_pay4 (iblk1 V c 0 t) (k1_pay2 (F := F))) := by
  unfold outA1 runA1 kernelRun1_A
  dsimp only
  sl_unfold_words
  rw [View.canon_cons_unit_zero (S := S1x128) zero2, View.canon_cons_unit_zero (S := S1x128) zero2,
    View.readCov_unit_zero (S := S1x128) _ zero2, View.readCov_unit_zero (S := S1x128) _ zero2]
  simp only [View.readAt_eq_ld, (hs1_0 t).read_unread, View.ld_unit_zero (S := S8000x128) zero2]

-- over the row it read otherwise
theorem outB1_eq (t : Fin cfg1.N) (h0 : ¬t.val % 100 = 0) (p : Vec F S1x128 .f32 × Vec F S1x128 .f32) :
    outB1 V c t h0 p = (k1_pay3 (iblk1 V c 0 t) p.1, k1_pay4 (iblk1 V c 0 t) p.2) := by
  unfold outB1 runB1 kernelRun1_B
  dsimp only
  rw [View.canon_unit_zero zero2, View.canon_unit_zero zero2]
  simp only [View.readAt_eq_ld, (hs1_0 t).read_unread, (hs1_1 t).read_unread, (hs1_2 t).read_unread,
    View.ld_unit_zero (S := S8000x128) zero2, View.ld_unit_zero (S := S1x128) zero2]

theorem outsAt1_zero (h : 0 < cfg1.N) :
    outsAt1 V c 0 h = (k1_pay3 (iblk1 V c 0 ⟨0, h⟩) (k1_pay1 (F := F)), k1_pay4 (iblk1 V c 0 ⟨0, h⟩) (k1_pay2 (F := F))) :=
  (outsAt1_A V c ⟨0, h⟩ rfl).trans (outA1_eq V c _ _)

theorem outsAt1_succ (n : ℕ) (h : n + 1 < cfg1.N) :
    outsAt1 V c (n + 1) h = (k1_pay3 (iblk1 V c 0 ⟨n + 1, h⟩) (outsAt1 V c n (Nat.lt_of_succ_lt h)).1,
      k1_pay4 (iblk1 V c 0 ⟨n + 1, h⟩) (outsAt1 V c n (Nat.lt_of_succ_lt h)).2) :=
  (outsAt1_B V c ⟨n + 1, h⟩ (by have hN : cfg1.N = 100 := N_1; dsimp only; omega)).trans (outB1_eq V c _ _ _)

end Pieces1

section Value1
variable (V : (c : Dev nD) → (b : Ref sig .tc) → Buf (Elt Ideal) ((c : Thread nD τ).loc b)) (c : Dev nD)

def colSum1 (x : S800000x128.Idx → EReal) : S1x128.Idx → EReal :=
  fun y => ∑ i : Fin 800000, x (ix2 i (⟨(y 1).val, idx2_lt1 y⟩ : Fin 128))
def colSumSq1 (x : S800000x128.Idx → EReal) : S1x128.Idx → EReal :=
  fun y => ∑ i : Fin 800000, x (ix2 i (⟨(y 1).val, idx2_lt1 y⟩ : Fin 128)) * x (ix2 i (⟨(y 1).val, idx2_lt1 y⟩ : Fin 128))

theorem colSum1_apply (x : S800000x128.Idx → EReal) (j : Fin 128) : colSum1 x (ix2 0 j) = ∑ i : Fin 800000, x (ix2 i j) := rfl
theorem colSumSq1_apply (x : S800000x128.Idx → EReal) (j : Fin 128) : colSumSq1 x (ix2 0 j) = ∑ i : Fin 800000, x (ix2 i j) * x (ix2 i j) := rfl

theorem lift1 (j : Fin 128) (r : Fin 8000) : reduces_S8000x128_S128.lift (ix1 j) r = ix2 r j := by
  funext a
  match a with
  | ⟨0, _⟩ => rfl
  | ⟨1, _⟩ => rfl

-- at a column a payload is the row it was handed plus the block's column sum,
theorem k1_pay3_apply (x : S8000x128.Idx → EReal) (xo : S1x128.Idx → EReal) (j : Fin 128) :
    (k1_pay3 (F := Ideal) x xo (ix2 0 j) : EReal) = xo (ix2 0 j) + ∑ r : Fin 8000, x (ix2 r j) := by
  unfold k1_pay3
  rw [addf_apply]
  simp only [shapeCast_self]
  rw [shapeCast_addUnit_apply ![128] _ shapeCasts_S128_S1x128 (ix2 0 j), BlockSum.row_ix]
  refine congrArg (xo (ix2 0 j) + ·) ((Ideal.multiReduction_add_single x 0x00000000#32 reduces_S8000x128_S128 (.inl rfl) rfl (ix1 j)).trans ?_)
  exact Finset.sum_congr rfl fun r _ => congrArg x (lift1 j r)

-- and the second payload is the first at the block's squares
theorem k1_pay4_apply (x : S8000x128.Idx → EReal) (xo : S1x128.Idx → EReal) (j : Fin 128) :
    (k1_pay4 (F := Ideal) x xo (ix2 0 j) : EReal) = xo (ix2 0 j) + ∑ r : Fin 8000, x (ix2 r j) * x (ix2 r j) :=
  k1_pay3_apply (mulf (F := Ideal) x x) xo j

theorem index1_0 : ∀ t : Fin cfg1.N, win1_0.index t 0 = t.val ∧ win1_0.index t 1 = 0 :=
  (by decide +kernel : ∀ t : Fin grid1.N, win1_0.index t 0 = t.val ∧ win1_0.index t 1 = 0)

abbrev xarr1 : S800000x128.Idx → EReal := V c (Pipeline.arrRef spec1 0)
abbrev xblk1 (t : Fin cfg1.N) : S8000x128.Idx → EReal := iblk1 V c 0 t

-- row r of the block at point t is row 8000 t + r of the array
theorem xblk1_apply (t : Fin cfg1.N) (r : Fin 8000) (j : Fin 128) (hr : 8000 * t.val + r.val < 800000) :
    xblk1 V c t (ix2 r j) = xarr1 V c (ix2 ⟨8000 * t.val + r.val, hr⟩ j) := by
  unfold xblk1 xarr1 iblk1
  rw [View.read_apply]
  show (V c (Pipeline.arrRef spec1 0) : S800000x128.Idx → EReal) _ = _
  congr 1
  funext a
  apply Fin.ext
  match a with
  | ⟨0, _⟩ => show win1_0.index t 0 * 8000 + 1 * r.val = 8000 * t.val + r.val; rw [(index1_0 t).1]; omega
  | ⟨1, _⟩ => show win1_0.index t 1 * 128 + 1 * j.val = j.val; rw [(index1_0 t).2]; omega

-- each row starts from zero and takes its payload at every point, so it ends as the whole column's sum: of the entries, of their squares
theorem last1 (t : Fin cfg1.N) (ht : t.val = 99) :
    ((outsAt1 V c t.val t.isLt).1 : S1x128.Idx → EReal) = colSum1 (xarr1 V c)
    ∧ ((outsAt1 V c t.val t.isLt).2 : S1x128.Idx → EReal) = colSumSq1 (xarr1 V c) := by
  have hN : cfg1.N = 100 := N_1
  constructor <;> funext y <;> obtain ⟨a, b, rfl⟩ : ∃ (a : Fin 1) (b : Fin 128), y = ix2 a b := ⟨y 0, y 1, eq_ix2 y⟩ <;>
    obtain rfl : a = 0 := Subsingleton.elim _ _
  · exact BlockSum.col_total (α := EReal) (M := EReal) (N := 800000) (R := 8000) (B := cfg1.N) (C := 128) (by omega) (fun v => v)
      (k1_pay3 (F := Ideal)) k1_pay3_apply (k1_pay1 (F := Ideal)) (fun _ => Ideal.ofBits_zero_f32) (xarr1 V c)
      (fun t h => xblk1 V c ⟨t, h⟩) (fun t h r j hr => xblk1_apply V c ⟨t, h⟩ r j hr) (fun n h => (outsAt1 V c n h).1)
      (fun h => congrArg Prod.fst (outsAt1_zero V c h)) (fun n h => congrArg Prod.fst (outsAt1_succ V c n h)) t.val t.isLt (by omega) b
  · exact BlockSum.col_total (α := EReal) (M := EReal) (N := 800000) (R := 8000) (B := cfg1.N) (C := 128) (by omega) (fun v => v * v)
      (k1_pay4 (F := Ideal)) k1_pay4_apply (k1_pay2 (F := Ideal)) (fun _ => Ideal.ofBits_zero_f32) (xarr1 V c)
      (fun t h => xblk1 V c ⟨t, h⟩) (fun t h r j hr => xblk1_apply V c ⟨t, h⟩ r j hr) (fun n h => (outsAt1 V c n h).2)
      (fun h => congrArg Prod.snd (outsAt1_zero V c h)) (fun n h => congrArg Prod.snd (outsAt1_succ V c n h)) t.val t.isLt (by omega) b

def tl1 : Fin cfg1.N := ⟨99, by rw [show cfg1.N = 100 from N_1]; decide⟩

-- the last point's block of a 1x128 result is the whole array, so the array ends as that point's row
theorem value1_1 : (dat1 (F := Ideal) V c).arrAt 1 cfg1.N = colSum1 (V c (Pipeline.arrRef spec1 0)) :=
  (dat1 (F := Ideal) V c).arrAt_eq_of_cover 1 (colSum1 (xarr1 V c))
    (fun t hf => by
      have hN : cfg1.N = 100 := N_1
      have hl : t.val = 99 := by have := (flush1_1 t).mp hf; have := t.isLt; omega
      obtain rfl : t = tl1 := Fin.ext hl
      show (cfg1.win 1).cut (grid1.coords tl1) ((dat1 V c).after 1 tl1) = _
      rw [after1_1, (last1 V c tl1 rfl).1]
      have hz' : (fun a => win1_1.index tl1 a * main_v9_0.ty.shape.size a) = fun _ => 0 := funext fun a => by fin_cases a <;> decide +kernel
      exact (Memref.read_access_unit_zero (Elt Ideal) main_v9_0 hz' (fun a => by rw [congrFun hz' a]; simp) (colSum1 (xarr1 V c))).symm)
    fun i => ⟨tl1, (flush1_1 tl1).mpr rfl, by
      show i ∈ ((View.whole main_v9_0).slice (win1_1.rect tl1)).set
      rw [View.set_slice_whole]
      exact WholeBlock.mem_unit_zero (s := main_v9_0.ty.shape) (fun a => by fin_cases a <;> decide +kernel) (fun a => by fin_cases a <;> decide +kernel) i⟩

theorem value1_2 : (dat1 (F := Ideal) V c).arrAt 2 cfg1.N = colSumSq1 (V c (Pipeline.arrRef spec1 0)) :=
  (dat1 (F := Ideal) V c).arrAt_eq_of_cover 2 (colSumSq1 (xarr1 V c))
    (fun t hf => by
      have hN : cfg1.N = 100 := N_1
      have hl : t.val = 99 := by have := (flush1_2 t).mp hf; have := t.isLt; omega
      obtain rfl : t = tl1 := Fin.ext hl
      show (cfg1.win 2).cut (grid1.coords tl1) ((dat1 V c).after 2 tl1) = _
      rw [after1_2, (last1 V c tl1 rfl).2]
      have hz' : (fun a => win1_2.index tl1 a * main_v9_1.ty.shape.size a) = fun _ => 0 := funext fun a => by fin_cases a <;> decide +kernel
      exact (Memref.read_access_unit_zero (Elt Ideal) main_v9_1 hz' (fun a => by rw [congrFun hz' a]; simp) (colSumSq1 (xarr1 V c))).symm)
    fun i => ⟨tl1, (flush1_2 tl1).mpr rfl, by
      show i ∈ ((View.whole main_v9_1).slice (win1_2.rect tl1)).set
      rw [View.set_slice_whole]
      exact WholeBlock.mem_unit_zero (s := main_v9_1.ty.shape) (fun a => by fin_cases a <;> decide +kernel) (fun a => by fin_cases a <;> decide +kernel) i⟩

end Value1

end Cert.KernelIdeal.Hand

end
-- ==== Proof.KI.Region2Value.lean ====
import proofs.«163757_j14508399526691_2_alg».proof.Proof.KI.Region2
import proofs.«163757_j14508399526691_2_alg».proof.Proof.LibMatmul2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

def G2 (x : S50000x128.Idx → EReal) (mean var gamma beta : S1x128.Idx → EReal) (W : S128x384.Idx → EReal) :
    S50000x384.Idx → EReal := fun idx =>
  ∑ k : Fin 128,
    ((x (ix2 (idx 0 : Fin 50000) k) - mean (ix2 (0 : Fin 1) k))
        * Ideal.rsqrt (var (ix2 (0 : Fin 1) k) + Ideal.ofBits .f32 0x3727C5AC#32)
        * gamma (ix2 (0 : Fin 1) k) + beta (ix2 (0 : Fin 1) k))
      * W (ix2 k (idx 1 : Fin 384))

/-- A stored entry `(p, q)` is `G2` at the array index `o` whenever each block reads its array where `o` says. -/
theorem point2 (A0 : S50000x128.Idx → EReal) (A1 A2 A3 A4 : S1x128.Idx → EReal) (A5 : S128x384.Idx → EReal)
    (x0 : Vec Ideal S5000x128 .f32) (x1 x2 x3 x4 : Vec Ideal S1x128 .f32) (x5 : Vec Ideal S128x384 .f32)
    (o : S50000x384.Idx) (p : Fin 5000) (q : Fin 384)
    (h : ∀ k : Fin 128, x0 (ix2 p k) = A0 (ix2 (o 0) k) ∧ x1 (ix2 (0 : Fin 1) k) = A1 (ix2 (0 : Fin 1) k) ∧ x2 (ix2 (0 : Fin 1) k) = A2 (ix2 (0 : Fin 1) k)
      ∧ x3 (ix2 (0 : Fin 1) k) = A3 (ix2 (0 : Fin 1) k) ∧ x4 (ix2 (0 : Fin 1) k) = A4 (ix2 (0 : Fin 1) k) ∧ x5 (ix2 k q) = A5 (ix2 k (o 1))) :
    k2_pay1 x0 x2 x1 x3 x4 x5 (ix2 p q) = G2 A0 A1 A2 A3 A4 A5 o := by
  unfold k2_pay1 G2
  refine (matmul2_apply dot_S5000x128_S128x384_S5000x384_1_0_0_1_n_n_wf none _ _ p q).trans (Finset.sum_congr rfl fun k _ => ?_)
  obtain ⟨h0, h1, h2, h3, h4, h5⟩ := h k
  rw [← h0, ← h1, ← h2, ← h3, ← h4, ← h5]
  simp only [shapeCast_self, truncf_apply, addf_apply, mulf_apply, subf_apply, broadcastTo_1b_ab_apply]
  rfl

section Region
variable (V : (c : Dev nD) → (b : Ref sig .tc) → Buf (Elt Ideal) ((c : Thread nD τ).loc b))

/-- The block indices over the grid: the data and the output move together along the rows; every other block is its whole array. -/
theorem idx_facts2 : ∀ t : Fin cfg2.N, win2_0.index t (0 : Fin 2) = win2_6.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 :=
  (by decide +kernel : ∀ t : Fin grid2.N, _)

/-- Every row block of the output array is some point's. -/
theorem idx_onto2 : ∀ (q0 : Fin 10), ∃ t : Fin cfg2.N, win2_6.index t = ![q0.val, 0] :=
  (by decide +kernel : ∀ (q0 : Fin 10), ∃ t : Fin grid2.N, win2_6.index t = ![q0.val, 0])

/-- Each input block, read where entry `(p, q)` of the output block uses it, is its array read where that entry sits. -/
theorem read2_0 (c : Dev nD) (t : Fin cfg2.N) (p : Fin 5000) (q : Fin 384) (k : Fin 128) :
    iblk2 V c 0 t (ix2 p k) = V c (Pipeline.arrRef spec2 0) (ix2 ((((cfg2.win 6).blk t).view.emb (ix2 p q)) 0) k) := by
  obtain ⟨e0, e1, -, -, -, -, -, -, -, -, -, -, -⟩ := idx_facts2 t
  refine congrArg (V c (Pipeline.arrRef spec2 0)) (Shape.idx_ext₂ ?_ ?_)
  · show win2_0.index t (0 : Fin 2) * 5000 + 1 * p.val = win2_6.index t (0 : Fin 2) * 5000 + 1 * p.val; omega
  · show win2_0.index t (1 : Fin 2) * 128 + 1 * k.val = k.val; omega

theorem read2_1 (c : Dev nD) (t : Fin cfg2.N) (k : Fin 128) :
    iblk2 V c 1 t (ix2 (0 : Fin 1) k) = V c (Pipeline.arrRef spec2 1) (ix2 (0 : Fin 1) k) := by
  obtain ⟨-, -, e0, e1, -, -, -, -, -, -, -, -, -⟩ := idx_facts2 t
  refine congrArg (V c (Pipeline.arrRef spec2 1)) (Shape.idx_ext₂ ?_ ?_)
  · show win2_1.index t (0 : Fin 2) * 1 + 1 * 0 = 0; omega
  · show win2_1.index t (1 : Fin 2) * 128 + 1 * k.val = k.val; omega

theorem read2_2 (c : Dev nD) (t : Fin cfg2.N) (k : Fin 128) :
    iblk2 V c 2 t (ix2 (0 : Fin 1) k) = V c (Pipeline.arrRef spec2 2) (ix2 (0 : Fin 1) k) := by
  obtain ⟨-, -, -, -, e0, e1, -, -, -, -, -, -, -⟩ := idx_facts2 t
  refine congrArg (V c (Pipeline.arrRef spec2 2)) (Shape.idx_ext₂ ?_ ?_)
  · show win2_2.index t (0 : Fin 2) * 1 + 1 * 0 = 0; omega
  · show win2_2.index t (1 : Fin 2) * 128 + 1 * k.val = k.val; omega

theorem read2_3 (c : Dev nD) (t : Fin cfg2.N) (k : Fin 128) :
    iblk2 V c 3 t (ix2 (0 : Fin 1) k) = V c (Pipeline.arrRef spec2 3) (ix2 (0 : Fin 1) k) := by
  obtain ⟨-, -, -, -, -, -, e0, e1, -, -, -, -, -⟩ := idx_facts2 t
  refine congrArg (V c (Pipeline.arrRef spec2 3)) (Shape.idx_ext₂ ?_ ?_)
  · show win2_3.index t (0 : Fin 2) * 1 + 1 * 0 = 0; omega
  · show win2_3.index t (1 : Fin 2) * 128 + 1 * k.val = k.val; omega

theorem read2_4 (c : Dev nD) (t : Fin cfg2.N) (k : Fin 128) :
    iblk2 V c 4 t (ix2 (0 : Fin 1) k) = V c (Pipeline.arrRef spec2 4) (ix2 (0 : Fin 1) k) := by
  obtain ⟨-, -, -, -, -, -, -, -, e0, e1, -, -, -⟩ := idx_facts2 t
  refine congrArg (V c (Pipeline.arrRef spec2 4)) (Shape.idx_ext₂ ?_ ?_)
  · show win2_4.index t (0 : Fin 2) * 1 + 1 * 0 = 0; omega
  · show win2_4.index t (1 : Fin 2) * 128 + 1 * k.val = k.val; omega

theorem read2_5 (c : Dev nD) (t : Fin cfg2.N) (p : Fin 5000) (q : Fin 384) (k : Fin 128) :
    iblk2 V c 5 t (ix2 k q) = V c (Pipeline.arrRef spec2 5) (ix2 k ((((cfg2.win 6).blk t).view.emb (ix2 p q)) 1)) := by
  obtain ⟨-, -, -, -, -, -, -, -, -, -, e0, e1, e61⟩ := idx_facts2 t
  refine congrArg (V c (Pipeline.arrRef spec2 5)) (Shape.idx_ext₂ ?_ ?_)
  · show win2_5.index t (0 : Fin 2) * 128 + 1 * k.val = k.val; omega
  · show win2_5.index t (1 : Fin 2) * 384 + 1 * q.val = win2_6.index t (1 : Fin 2) * 384 + 1 * q.val; omega

/-- Point `t`'s output block is block `t` of `G2` of the entry arrays. -/
theorem flushed2_eq (c : Dev nD) (t : Fin cfg2.N) :
    (dat2 (F := Ideal) V c).flushed 6 t = ((cfg2.win 6).blk t).view.read (Elt Ideal) (G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 (F := Ideal) V c).after 6 t) = _
  rw [show (dat2 (F := Ideal) V c).after 6 t = out2_6 (iblk2 V c 0 t) (iblk2 V c 1 t) (iblk2 V c 2 t) (iblk2 V c 3 t) (iblk2 V c 4 t) (iblk2 V c 5 t) by dsimp only [dat2]]
  unfold out2_6
  rw [View.canon_unit_zero zero2]
  simp only [View.ld_unit_zero (S := S5000x128) zero2, View.ld_unit_zero (S := S1x128) zero2, View.ld_unit_zero (S := S128x384) zero2]
  funext j
  obtain ⟨p, q, rfl⟩ : ∃ (p : Fin 5000) (q : Fin 384), j = ix2 p q := ⟨j 0, j 1, eq_ix2 j⟩
  exact point2 _ _ _ _ _ _ _ _ _ _ _ _ _ p q fun k =>
    ⟨read2_0 V c t p q k, read2_1 V c t k, read2_2 V c t k, read2_3 V c t k, read2_4 V c t k, read2_5 V c t p q k⟩

theorem mem_blk2 (t : Fin cfg2.N) (i : S50000x384.Idx) :
    i ∈ ((cfg2.win 6).blk t).view.set ↔ ∀ a : Fin 2, win2_6.index t a * S5000x384.size a ≤ (i a).val ∧ (i a).val < win2_6.index t a * S5000x384.size a + S5000x384.size a := by
  show i ∈ ((View.whole main_v23).slice (win2_6.rect t)).set ↔ _
  rw [View.set_slice_whole, Rect.mem_set_unit]
  exact Iff.rfl

/-- Row `i` of the output array lies in the block of the point whose row block is `i / 5000`. -/
theorem cover2 (i : S50000x384.Idx) :
    ∃ t : Fin cfg2.N, (cfg2.win 6).flush t = true ∧ i ∈ ((cfg2.win 6).blk t).view.set := by
  have hi0 : (i 0).val < 50000 := (i 0).isLt
  have hi1 : (i 1).val < 384 := (i 1).isLt
  obtain ⟨t, ht⟩ := idx_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, (mem_blk2 t i).2 fun a => ?_⟩
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 384 ≤ (i 1).val ∧ (i 1).val < win2_6.index t (1 : Fin 2) * 384 + 384; omega

theorem value2 (c : Dev nD) : (dat2 (F := Ideal) V c).arrAt 6 cfg2.N = G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => flushed2_eq V c t) cover2

end Region

end Cert.KernelIdeal.Hand
-- ==== Proof.KI.Region3Value.lean ====
import proofs.«163757_j14508399526691_2_alg».proof.Proof.KI.Region3
import proofs.«163757_j14508399526691_2_alg».proof.Proof.LibMatmul2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

def G3 (x : S800000x128.Idx → EReal) (mean var gamma beta : S1x128.Idx → EReal) (W : S128x128.Idx → EReal) :
    S800000x128.Idx → EReal := fun idx =>
  ∑ k : Fin 128,
    ((x (ix2 (idx 0 : Fin 800000) k) - mean (ix2 (0 : Fin 1) k))
        * Ideal.rsqrt (var (ix2 (0 : Fin 1) k) + Ideal.ofBits .f32 0x3727C5AC#32)
        * gamma (ix2 (0 : Fin 1) k) + beta (ix2 (0 : Fin 1) k))
      * W (ix2 k (idx 1 : Fin 128))

/-- A stored entry `(p, q)` is `G3` at the array index `o` whenever each block reads its array where `o` says. -/
theorem point3 (A0 : S800000x128.Idx → EReal) (A1 A2 A3 A4 : S1x128.Idx → EReal) (A5 : S128x128.Idx → EReal)
    (x0 : Vec Ideal S8000x128 .f32) (x1 x2 x3 x4 : Vec Ideal S1x128 .f32) (x5 : Vec Ideal S128x128 .f32)
    (o : S800000x128.Idx) (p : Fin 8000) (q : Fin 128)
    (h : ∀ k : Fin 128, x0 (ix2 p k) = A0 (ix2 (o 0) k) ∧ x1 (ix2 (0 : Fin 1) k) = A1 (ix2 (0 : Fin 1) k) ∧ x2 (ix2 (0 : Fin 1) k) = A2 (ix2 (0 : Fin 1) k)
      ∧ x3 (ix2 (0 : Fin 1) k) = A3 (ix2 (0 : Fin 1) k) ∧ x4 (ix2 (0 : Fin 1) k) = A4 (ix2 (0 : Fin 1) k) ∧ x5 (ix2 k q) = A5 (ix2 k (o 1))) :
    k3_pay1 x0 x2 x1 x3 x4 x5 (ix2 p q) = G3 A0 A1 A2 A3 A4 A5 o := by
  unfold k3_pay1 G3
  refine (matmul2_apply dot_S8000x128_S128x128_S8000x128_1_0_0_1_n_n_wf none _ _ p q).trans (Finset.sum_congr rfl fun k _ => ?_)
  obtain ⟨h0, h1, h2, h3, h4, h5⟩ := h k
  rw [← h0, ← h1, ← h2, ← h3, ← h4, ← h5]
  simp only [shapeCast_self, truncf_apply, addf_apply, mulf_apply, subf_apply, broadcastTo_1b_ab_apply]
  rfl

section Region
variable (V : (c : Dev nD) → (b : Ref sig .tc) → Buf (Elt Ideal) ((c : Thread nD τ).loc b))

/-- The block indices over the grid: the data and the output move together along the rows; every other block is its whole array. -/
theorem idx_facts3 : ∀ t : Fin cfg3.N, win3_0.index t (0 : Fin 2) = win3_6.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 :=
  (by decide +kernel : ∀ t : Fin grid3.N, _)

/-- Every row block of the output array is some point's. -/
theorem idx_onto3 : ∀ (q0 : Fin 100), ∃ t : Fin cfg3.N, win3_6.index t = ![q0.val, 0] :=
  (by decide +kernel : ∀ (q0 : Fin 100), ∃ t : Fin grid3.N, win3_6.index t = ![q0.val, 0])

/-- Each input block, read where entry `(p, q)` of the output block uses it, is its array read where that entry sits. -/
theorem read3_0 (c : Dev nD) (t : Fin cfg3.N) (p : Fin 8000) (q : Fin 128) (k : Fin 128) :
    iblk3 V c 0 t (ix2 p k) = V c (Pipeline.arrRef spec3 0) (ix2 ((((cfg3.win 6).blk t).view.emb (ix2 p q)) 0) k) := by
  obtain ⟨e0, e1, -, -, -, -, -, -, -, -, -, -, -⟩ := idx_facts3 t
  refine congrArg (V c (Pipeline.arrRef spec3 0)) (Shape.idx_ext₂ ?_ ?_)
  · show win3_0.index t (0 : Fin 2) * 8000 + 1 * p.val = win3_6.index t (0 : Fin 2) * 8000 + 1 * p.val; omega
  · show win3_0.index t (1 : Fin 2) * 128 + 1 * k.val = k.val; omega

theorem read3_1 (c : Dev nD) (t : Fin cfg3.N) (k : Fin 128) :
    iblk3 V c 1 t (ix2 (0 : Fin 1) k) = V c (Pipeline.arrRef spec3 1) (ix2 (0 : Fin 1) k) := by
  obtain ⟨-, -, e0, e1, -, -, -, -, -, -, -, -, -⟩ := idx_facts3 t
  refine congrArg (V c (Pipeline.arrRef spec3 1)) (Shape.idx_ext₂ ?_ ?_)
  · show win3_1.index t (0 : Fin 2) * 1 + 1 * 0 = 0; omega
  · show win3_1.index t (1 : Fin 2) * 128 + 1 * k.val = k.val; omega

theorem read3_2 (c : Dev nD) (t : Fin cfg3.N) (k : Fin 128) :
    iblk3 V c 2 t (ix2 (0 : Fin 1) k) = V c (Pipeline.arrRef spec3 2) (ix2 (0 : Fin 1) k) := by
  obtain ⟨-, -, -, -, e0, e1, -, -, -, -, -, -, -⟩ := idx_facts3 t
  refine congrArg (V c (Pipeline.arrRef spec3 2)) (Shape.idx_ext₂ ?_ ?_)
  · show win3_2.index t (0 : Fin 2) * 1 + 1 * 0 = 0; omega
  · show win3_2.index t (1 : Fin 2) * 128 + 1 * k.val = k.val; omega

theorem read3_3 (c : Dev nD) (t : Fin cfg3.N) (k : Fin 128) :
    iblk3 V c 3 t (ix2 (0 : Fin 1) k) = V c (Pipeline.arrRef spec3 3) (ix2 (0 : Fin 1) k) := by
  obtain ⟨-, -, -, -, -, -, e0, e1, -, -, -, -, -⟩ := idx_facts3 t
  refine congrArg (V c (Pipeline.arrRef spec3 3)) (Shape.idx_ext₂ ?_ ?_)
  · show win3_3.index t (0 : Fin 2) * 1 + 1 * 0 = 0; omega
  · show win3_3.index t (1 : Fin 2) * 128 + 1 * k.val = k.val; omega

theorem read3_4 (c : Dev nD) (t : Fin cfg3.N) (k : Fin 128) :
    iblk3 V c 4 t (ix2 (0 : Fin 1) k) = V c (Pipeline.arrRef spec3 4) (ix2 (0 : Fin 1) k) := by
  obtain ⟨-, -, -, -, -, -, -, -, e0, e1, -, -, -⟩ := idx_facts3 t
  refine congrArg (V c (Pipeline.arrRef spec3 4)) (Shape.idx_ext₂ ?_ ?_)
  · show win3_4.index t (0 : Fin 2) * 1 + 1 * 0 = 0; omega
  · show win3_4.index t (1 : Fin 2) * 128 + 1 * k.val = k.val; omega

theorem read3_5 (c : Dev nD) (t : Fin cfg3.N) (p : Fin 8000) (q : Fin 128) (k : Fin 128) :
    iblk3 V c 5 t (ix2 k q) = V c (Pipeline.arrRef spec3 5) (ix2 k ((((cfg3.win 6).blk t).view.emb (ix2 p q)) 1)) := by
  obtain ⟨-, -, -, -, -, -, -, -, -, -, e0, e1, e61⟩ := idx_facts3 t
  refine congrArg (V c (Pipeline.arrRef spec3 5)) (Shape.idx_ext₂ ?_ ?_)
  · show win3_5.index t (0 : Fin 2) * 128 + 1 * k.val = k.val; omega
  · show win3_5.index t (1 : Fin 2) * 128 + 1 * q.val = win3_6.index t (1 : Fin 2) * 128 + 1 * q.val; omega

/-- Point `t`'s output block is block `t` of `G3` of the entry arrays. -/
theorem flushed3_eq (c : Dev nD) (t : Fin cfg3.N) :
    (dat3 (F := Ideal) V c).flushed 6 t = ((cfg3.win 6).blk t).view.read (Elt Ideal) (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 (F := Ideal) V c).after 6 t) = _
  rw [show (dat3 (F := Ideal) V c).after 6 t = out3_6 (iblk3 V c 0 t) (iblk3 V c 1 t) (iblk3 V c 2 t) (iblk3 V c 3 t) (iblk3 V c 4 t) (iblk3 V c 5 t) by dsimp only [dat3]]
  unfold out3_6
  rw [View.canon_unit_zero zero2]
  simp only [View.ld_unit_zero (S := S8000x128) zero2, View.ld_unit_zero (S := S1x128) zero2, View.ld_unit_zero (S := S128x128) zero2]
  funext j
  obtain ⟨p, q, rfl⟩ : ∃ (p : Fin 8000) (q : Fin 128), j = ix2 p q := ⟨j 0, j 1, eq_ix2 j⟩
  exact point3 _ _ _ _ _ _ _ _ _ _ _ _ _ p q fun k =>
    ⟨read3_0 V c t p q k, read3_1 V c t k, read3_2 V c t k, read3_3 V c t k, read3_4 V c t k, read3_5 V c t p q k⟩

theorem mem_blk3 (t : Fin cfg3.N) (i : S800000x128.Idx) :
    i ∈ ((cfg3.win 6).blk t).view.set ↔ ∀ a : Fin 2, win3_6.index t a * S8000x128.size a ≤ (i a).val ∧ (i a).val < win3_6.index t a * S8000x128.size a + S8000x128.size a := by
  show i ∈ ((View.whole main_v28).slice (win3_6.rect t)).set ↔ _
  rw [View.set_slice_whole, Rect.mem_set_unit]
  exact Iff.rfl

/-- Row `i` of the output array lies in the block of the point whose row block is `i / 8000`. -/
theorem cover3 (i : S800000x128.Idx) :
    ∃ t : Fin cfg3.N, (cfg3.win 6).flush t = true ∧ i ∈ ((cfg3.win 6).blk t).view.set := by
  have hi0 : (i 0).val < 800000 := (i 0).isLt
  have hi1 : (i 1).val < 128 := (i 1).isLt
  obtain ⟨t, ht⟩ := idx_onto3 ⟨(i 0).val / 8000, by omega⟩
  have q0 : win3_6.index t (0 : Fin 2) = (i 0).val / 8000 := congrFun ht 0
  have q1 : win3_6.index t (1 : Fin 2) = 0 := congrFun ht 1
  refine ⟨t, flush3_6 t, (mem_blk3 t i).2 fun a => ?_⟩
  match a with
  | ⟨0, _⟩ => show win3_6.index t (0 : Fin 2) * 8000 ≤ (i 0).val ∧ (i 0).val < win3_6.index t (0 : Fin 2) * 8000 + 8000; omega
  | ⟨1, _⟩ => show win3_6.index t (1 : Fin 2) * 128 ≤ (i 1).val ∧ (i 1).val < win3_6.index t (1 : Fin 2) * 128 + 128; omega

theorem value3 (c : Dev nD) : (dat3 (F := Ideal) V c).arrAt 6 cfg3.N = G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => flushed3_eq V c t) cover3

end Region

end Cert.KernelIdeal.Hand
-- ==== Proof.KI.Region4Value.lean ====
import proofs.«163757_j14508399526691_2_alg».proof.Proof.KI.Region4
import proofs.«163757_j14508399526691_2_alg».proof.Proof.LibMatmul2
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

def spread4 (kv : S800000x256.Idx → EReal) (q pe : S800000x128.Idx → EReal) (g : S128x4.Idx → EReal) (gt : S4x128.Idx → EReal)
    (e : Fin 800000) (l : Fin 128) : EReal :=
  ∑ h : Fin 4, Ideal.exp (min (Ideal.ofBits .f32 0x40A00000#32) (max (Ideal.ofBits .f32 0xC0A00000#32)
    (∑ i : Fin 128, (min (Ideal.ofBits .f32 0x40A00000#32) (max (Ideal.ofBits .f32 0xC0A00000#32)
      (kv (ix2 e ⟨i.val, by omega⟩) * q (ix2 e i) * Named.named (F := Ideal) κ "inv_sqrt_dh" (φ := .f32) 0x3E3504F3#32))
      * pe (ix2 e i)) * g (ix2 i h)))) * gt (ix2 h l)

def G4at (kv : S800000x256.Idx → EReal) (q pe : S800000x128.Idx → EReal) (g : S128x4.Idx → EReal) (gt : S4x128.Idx → EReal)
    (e : Fin 800000) (j : Fin 256) : EReal :=
  if h : j.val < 128 then spread4 kv q pe g gt e ⟨j.val, h⟩ * kv (ix2 e ⟨128 + j.val, by omega⟩)
  else spread4 kv q pe g gt e ⟨j.val - 128, by omega⟩

def G4 (kv : S800000x256.Idx → EReal) (q pe : S800000x128.Idx → EReal) (g : S128x4.Idx → EReal) (gt : S4x128.Idx → EReal) :
    S800000x256.Idx → EReal :=
  fun y => G4at kv q pe g gt (y 0) (y 1)

theorem G4_ix2 (kv : S800000x256.Idx → EReal) (q pe : S800000x128.Idx → EReal) (g : S128x4.Idx → EReal) (gt : S4x128.Idx → EReal)
    (e : Fin 800000) (j : Fin 256) : G4 kv q pe g gt (ix2 e j) = G4at kv q pe g gt e j := rfl

theorem dotA_apply (A : FVec Ideal S4000x128 .f32) (B : FVec Ideal S128x4 .f32) (r : Fin 4000) (h : Fin 4) :
    matmul dot_S4000x128_S128x4_S4000x4_1_0_0_1_n_n (some .fp32) A B (constant S4000x4 .f32 0x00000000#32) (ix2 r h)
      = ∑ i : Fin 128, A (ix2 r i) * B (ix2 i h) :=
  matmul2_apply dot_S4000x128_S128x4_S4000x4_1_0_0_1_n_n_wf (some .fp32) A B r h

theorem dotB_apply (A : FVec Ideal S4000x4 .bf16) (B : FVec Ideal S4x128 .bf16) (r : Fin 4000) (l : Fin 128) :
    matmul dot_S4000x4_S4x128_S4000x128_1_0_0_1_n_n none A B (constant S4000x128 .f32 0x00000000#32) (ix2 r l)
      = ∑ h : Fin 4, A (ix2 r h) * B (ix2 h l) :=
  matmul2_apply dot_S4000x4_S4x128_S4000x128_1_0_0_1_n_n_wf none A B r l

section
variable (x0 : S4000x256.Idx → EReal) (x1 x2 : S4000x128.Idx → EReal) (x3 : S128x4.Idx → EReal) (x4 : S4x128.Idx → EReal)

theorem pay4_2_apply (r : Fin 4000) (l : Fin 128) :
    k4_pay2 (F := Ideal) x0 x1 x2 x3 x4 (ix2 r l) =
      ∑ h : Fin 4, Ideal.exp (min (Ideal.ofBits .f32 0x40A00000#32) (max (Ideal.ofBits .f32 0xC0A00000#32)
        (∑ i : Fin 128, (min (Ideal.ofBits .f32 0x40A00000#32) (max (Ideal.ofBits .f32 0xC0A00000#32)
          (x0 (ix2 r ⟨i.val, by omega⟩) * x1 (ix2 r i) * Named.named (F := Ideal) κ "inv_sqrt_dh" (φ := .f32) 0x3E3504F3#32))
          * x2 (ix2 r i)) * x3 (ix2 i h)))) * x4 (ix2 h l) := by
  unfold k4_pay2 k4_pay1
  refine (dotB_apply _ _ r l).trans (Finset.sum_congr rfl fun h _ => ?_)
  refine congrArg₂ (· * ·) ?_ (by
    show shapeCast S4x128 x4 shapeCasts_S4x128_S4x128 (ix2 h l) = _
    rw [shapeCast_self])
  show Ideal.exp (min (Ideal.ofBits .f32 0x40A00000#32) (max (Ideal.ofBits .f32 0xC0A00000#32)
    (matmul (F := Ideal) dot_S4000x128_S128x4_S4000x4_1_0_0_1_n_n (some .fp32) _ x3 (constant (F := Ideal) S4000x4 .f32 0x00000000#32) (ix2 r h)))) = _
  refine congrArg (fun z => Ideal.exp (min (Ideal.ofBits .f32 0x40A00000#32) (max (Ideal.ofBits .f32 0xC0A00000#32) z)))
    ((dotA_apply _ _ r h).trans (Finset.sum_congr rfl fun i _ => ?_))
  refine congrArg (· * x3 (ix2 i h)) ?_
  have e0 : extractStridedSlice S4000x128 ![0, 0] (shapeCast S4000x256 x0 shapeCasts_S4000x256_S4000x256) slices_S4000x256_o0_0_S4000x128 (ix2 r i)
      = x0 (ix2 r ⟨i.val, by omega⟩) := by
    rw [shapeCast_self]
    exact slice2_axis1_apply 0 x0 slices_S4000x256_o0_0_S4000x128 r i ⟨i.val, by omega⟩ (Nat.zero_add _).symm
  have e1 : shapeCast S4000x128 x1 shapeCasts_S4000x128_S4000x128 (ix2 r i) = x1 (ix2 r i) := by rw [shapeCast_self]
  have e2 : shapeCast S4000x128 x2 shapeCasts_S4000x128_S4000x128 (ix2 r i) = x2 (ix2 r i) := by rw [shapeCast_self]
  show min (Ideal.ofBits .f32 0x40A00000#32) (max (Ideal.ofBits .f32 0xC0A00000#32)
      (extractStridedSlice S4000x128 ![0, 0] (shapeCast S4000x256 x0 shapeCasts_S4000x256_S4000x256) slices_S4000x256_o0_0_S4000x128 (ix2 r i)
        * shapeCast S4000x128 x1 shapeCasts_S4000x128_S4000x128 (ix2 r i)
        * Named.named (F := Ideal) κ "inv_sqrt_dh" (φ := .f32) 0x3E3504F3#32))
      * shapeCast S4000x128 x2 shapeCasts_S4000x128_S4000x128 (ix2 r i) = _
  rw [e0, e1, e2]

theorem pay4_3_apply (r : Fin 4000) (l : Fin 128) :
    k4_pay3 (F := Ideal) x0 x1 x2 x3 x4 (ix2 r l) = k4_pay2 (F := Ideal) x0 x1 x2 x3 x4 (ix2 r l) * x0 (ix2 r ⟨128 + l.val, by omega⟩) := by
  unfold k4_pay3 k4_pay1
  show k4_pay2 (F := Ideal) x0 x1 x2 x3 x4 (ix2 r l)
    * extractStridedSlice S4000x128 ![0, 128] (shapeCast S4000x256 x0 shapeCasts_S4000x256_S4000x256) slices_S4000x256_o0_128_S4000x128 (ix2 r l) = _
  rw [shapeCast_self]
  exact congrArg (k4_pay2 (F := Ideal) x0 x1 x2 x3 x4 (ix2 r l) * ·) (slice2_axis1_apply 128 x0 slices_S4000x256_o0_128_S4000x128 r l ⟨128 + l.val, by omega⟩ rfl)

theorem out45_lo (r : Fin 4000) (j : Fin 256) (hj : j.val < 128) :
    out4_5 (F := Ideal) x0 x1 x2 x3 x4 (ix2 r j) = k4_pay3 (F := Ideal) x0 x1 x2 x3 x4 (ix2 r ⟨j.val, hj⟩) := by
  unfold out4_5
  simp only [View.ld_unit_zero (S := S4000x256) zero2, View.ld_unit_zero (S := S4000x128) zero2, View.ld_unit_zero (S := S128x4) zero2,
    View.ld_unit_zero (S := S4x128) zero2]
  have hnot : (ix2 r j : S4000x256.Idx) ∉ r4_5.set := by
    rw [Rect.mem_set_unit]
    intro h
    have h1 : 128 ≤ j.val := (h 1).1
    omega
  refine (View.canon_cons_of_not_mem (Val := Elt Ideal) (s := S4000x256) (e := .f32) ⟨r4_5, k4_pay2 (F := Ideal) x0 x1 x2 x3 x4⟩ [⟨r4_4, k4_pay3 (F := Ideal) x0 x1 x2 x3 x4⟩] hnot).trans ?_
  have he : (ix2 r j : S4000x256.Idx) = r4_4.emb (ix2 r ⟨j.val, hj⟩) := funext fun a => Fin.ext (by
    match a with
    | ⟨0, _⟩ => show r.val = 0 + 1 * r.val; omega
    | ⟨1, _⟩ => show j.val = 0 + 1 * j.val; omega)
  rw [he, View.canon_cons_emb]

theorem out45_hi (r : Fin 4000) (j : Fin 256) (hj : ¬ j.val < 128) :
    out4_5 (F := Ideal) x0 x1 x2 x3 x4 (ix2 r j) = k4_pay2 (F := Ideal) x0 x1 x2 x3 x4 (ix2 r ⟨j.val - 128, by omega⟩) := by
  unfold out4_5
  simp only [View.ld_unit_zero (S := S4000x256) zero2, View.ld_unit_zero (S := S4000x128) zero2, View.ld_unit_zero (S := S128x4) zero2,
    View.ld_unit_zero (S := S4x128) zero2]
  have he : (ix2 r j : S4000x256.Idx) = r4_5.emb (ix2 r ⟨j.val - 128, by omega⟩) := funext fun a => Fin.ext (by
    match a with
    | ⟨0, _⟩ => show r.val = 0 + 1 * r.val; omega
    | ⟨1, _⟩ => show j.val = 128 + 1 * (j.val - 128); omega)
  rw [he, View.canon_cons_emb]

theorem block_value (kv : S800000x256.Idx → EReal) (q pe : S800000x128.Idx → EReal) (g : S128x4.Idx → EReal) (gt : S4x128.Idx → EReal)
    (b : Fin 200)
    (h0 : ∀ (r : Fin 4000) (j : Fin 256), x0 (ix2 r j) = kv (ix2 ⟨b.val * 4000 + r.val, by omega⟩ j))
    (h1 : ∀ (r : Fin 4000) (i : Fin 128), x1 (ix2 r i) = q (ix2 ⟨b.val * 4000 + r.val, by omega⟩ i))
    (h2 : ∀ (r : Fin 4000) (i : Fin 128), x2 (ix2 r i) = pe (ix2 ⟨b.val * 4000 + r.val, by omega⟩ i))
    (h3 : ∀ (i : Fin 128) (h : Fin 4), x3 (ix2 i h) = g (ix2 i h))
    (h4 : ∀ (h : Fin 4) (l : Fin 128), x4 (ix2 h l) = gt (ix2 h l))
    (r : Fin 4000) (j : Fin 256) :
    out4_5 (F := Ideal) x0 x1 x2 x3 x4 (ix2 r j) = G4at kv q pe g gt ⟨b.val * 4000 + r.val, by omega⟩ j := by
  unfold G4at
  by_cases hj : j.val < 128
  · rw [dif_pos hj, out45_lo x0 x1 x2 x3 x4 r j hj, pay4_3_apply, pay4_2_apply]
    unfold spread4
    simp only [h0, h1, h2, h3, h4]
  · rw [dif_neg hj, out45_hi x0 x1 x2 x3 x4 r j hj, pay4_2_apply]
    unfold spread4
    simp only [h0, h1, h2, h3, h4]

end

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem t_lt4 (t : Fin cfg4.N) : t.val < 200 := lt_of_lt_of_eq t.isLt N_4

section Region4Value
variable (V : (c : Dev nD) → (b : Ref sig .tc) → Buf (Elt Ideal) ((c : Thread nD τ).loc b))

theorem blk4_0 (c : Dev nD) (t : Fin cfg4.N) (r : Fin 4000) (j : Fin 256) :
    iblk4 V c 0 t (ix2 r j) = (V c (Pipeline.arrRef spec4 0) : S800000x256.Idx → EReal) (ix2 ⟨t.val * 4000 + r.val, by have := t_lt4 t; omega⟩ j) := by
  obtain ⟨e00, e01, -⟩ := idx_facts4 t
  exact congrArg (V c (Pipeline.arrRef spec4 0)) (Shape.idx_ext₂ (by show win4_0.index t (0 : Fin 2) * 4000 + 1 * r.val = t.val * 4000 + r.val; omega) (by show win4_0.index t (1 : Fin 2) * 256 + 1 * j.val = j.val; omega))

theorem blk4_1 (c : Dev nD) (t : Fin cfg4.N) (r : Fin 4000) (i : Fin 128) :
    iblk4 V c 1 t (ix2 r i) = (V c (Pipeline.arrRef spec4 1) : S800000x128.Idx → EReal) (ix2 ⟨t.val * 4000 + r.val, by have := t_lt4 t; omega⟩ i) := by
  obtain ⟨-, -, e10, e11, -⟩ := idx_facts4 t
  exact congrArg (V c (Pipeline.arrRef spec4 1)) (Shape.idx_ext₂ (by show win4_1.index t (0 : Fin 2) * 4000 + 1 * r.val = t.val * 4000 + r.val; omega) (by show win4_1.index t (1 : Fin 2) * 128 + 1 * i.val = i.val; omega))

theorem blk4_2 (c : Dev nD) (t : Fin cfg4.N) (r : Fin 4000) (i : Fin 128) :
    iblk4 V c 2 t (ix2 r i) = (V c (Pipeline.arrRef spec4 2) : S800000x128.Idx → EReal) (ix2 ⟨t.val * 4000 + r.val, by have := t_lt4 t; omega⟩ i) := by
  obtain ⟨-, -, -, -, e20, e21, -⟩ := idx_facts4 t
  exact congrArg (V c (Pipeline.arrRef spec4 2)) (Shape.idx_ext₂ (by show win4_2.index t (0 : Fin 2) * 4000 + 1 * r.val = t.val * 4000 + r.val; omega) (by show win4_2.index t (1 : Fin 2) * 128 + 1 * i.val = i.val; omega))

theorem blk4_3 (c : Dev nD) (t : Fin cfg4.N) (i : Fin 128) (h : Fin 4) :
    iblk4 V c 3 t (ix2 i h) = (V c (Pipeline.arrRef spec4 3) : S128x4.Idx → EReal) (ix2 i h) := by
  obtain ⟨-, -, -, -, -, -, e30, e31, -⟩ := idx_facts4 t
  exact congrArg (V c (Pipeline.arrRef spec4 3)) (Shape.idx_ext₂ (by show win4_3.index t (0 : Fin 2) * 128 + 1 * i.val = i.val; omega) (by show win4_3.index t (1 : Fin 2) * 4 + 1 * h.val = h.val; omega))

theorem blk4_4 (c : Dev nD) (t : Fin cfg4.N) (h : Fin 4) (l : Fin 128) :
    iblk4 V c 4 t (ix2 h l) = (V c (Pipeline.arrRef spec4 4) : S4x128.Idx → EReal) (ix2 h l) := by
  obtain ⟨-, -, -, -, -, -, -, -, e40, e41, -⟩ := idx_facts4 t
  exact congrArg (V c (Pipeline.arrRef spec4 4)) (Shape.idx_ext₂ (by show win4_4.index t (0 : Fin 2) * 4 + 1 * h.val = h.val; omega) (by show win4_4.index t (1 : Fin 2) * 128 + 1 * l.val = l.val; omega))

theorem flushed4_eq (c : Dev nD) (t : Fin cfg4.N) :
    (dat4 (F := Ideal) V c).flushed 5 t = ((cfg4.win 5).blk t).view.read (Elt Ideal)
      (G4 (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 (F := Ideal) V c).after 5 t) = _
  rw [after4_5]
  obtain ⟨-, -, -, -, -, -, -, -, -, -, e50, e51⟩ := idx_facts4 t
  funext y
  have hy : (cfg4.win 5).xinj (grid4.coords t) y = (ix2 (y 0) (y 1) : S4000x256.Idx) := Shape.idx_ext₂ rfl rfl
  show out4_5 (F := Ideal) (iblk4 V c 0 t) (iblk4 V c 1 t) (iblk4 V c 2 t) (iblk4 V c 3 t) (iblk4 V c 4 t) ((cfg4.win 5).xinj (grid4.coords t) y)
    = G4at _ _ _ _ _ ((((cfg4.win 5).blk t).view.emb y) 0) ((((cfg4.win 5).blk t).view.emb y) 1)
  rw [hy]
  refine (block_value _ _ _ _ _ _ _ _ _ _ ⟨t.val, t_lt4 t⟩
    (blk4_0 V c t) (blk4_1 V c t) (blk4_2 V c t) (blk4_3 V c t) (blk4_4 V c t) (y 0) (y 1)).trans ?_
  refine congrArg₂ (G4at _ _ _ _ _) (Fin.ext ?_) (Fin.ext ?_)
  · show t.val * 4000 + (y 0).val = win4_5.index t (0 : Fin 2) * 4000 + 1 * (y 0).val; omega
  · show (y 1).val = win4_5.index t (1 : Fin 2) * 256 + 1 * (y 1).val; omega

theorem cover4 (i : S800000x256.Idx) : ∃ t : Fin cfg4.N, (cfg4.win 5).flush t = true ∧ i ∈ ((cfg4.win 5).blk t).view.set := by
  have hi0 : (i 0).val < 800000 := (i 0).isLt
  have hi1 : (i 1).val < 256 := (i 1).isLt
  have hN : cfg4.N = 200 := N_4
  obtain ⟨t, ht⟩ : ∃ t : Fin cfg4.N, t.val = (i 0).val / 4000 := ⟨⟨(i 0).val / 4000, by omega⟩, rfl⟩
  obtain ⟨-, -, -, -, -, -, -, -, -, -, e50, e51⟩ := idx_facts4 t
  refine ⟨t, flush4_5 t, ?_⟩
  show i ∈ ((View.whole main_v46).slice (win4_5.rect t)).set
  rw [View.set_slice_whole, Rect.mem_set_unit]
  intro a
  match a with
  | ⟨0, _⟩ => show win4_5.index t (0 : Fin 2) * 4000 ≤ (i 0).val ∧ (i 0).val < win4_5.index t (0 : Fin 2) * 4000 + 4000; omega
  | ⟨1, _⟩ => show win4_5.index t (1 : Fin 2) * 256 ≤ (i 1).val ∧ (i 1).val < win4_5.index t (1 : Fin 2) * 256 + 256; omega

theorem value4 (c : Dev nD) : (dat4 (F := Ideal) V c).arrAt 5 cfg4.N
    = G4 (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 5 _ (fun t _ => flushed4_eq V c t) cover4

end Region4Value

end Cert.KernelIdeal.Hand
-- ==== Proof.KI.Region5Value.lean ====
import proofs.«163757_j14508399526691_2_alg».proof.Proof.KI.Region5
import proofs.«163757_j14508399526691_2_alg».proof.Proof.LibMatmul2
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Region5Value

variable (V : (c : Dev nD) → (b : Ref sig .tc) → Buf (Elt Ideal) ((c : Thread nD τ).loc b))

def G5 (wv : S50000x128.Idx → EReal) (z : S50000x128.Idx → EReal) (b : S128x128.Idx → EReal) (bias : S1x128.Idx → EReal)
    (res : S50000x128.Idx → EReal) : S50000x128.Idx → EReal := fun y =>
  ((∑ k : Fin 128, Ideal.div (wv (ix2 (y 0) k)) (z (ix2 (y 0) k) + Ideal.ofBits .f32 0x358637BD#32) * b (ix2 k (y 1)))
      + bias (ix2 (0 : Fin 1) (y 1)))
    + res (ix2 (y 0) (y 1))

theorem G5_ix2 (wv : S50000x128.Idx → EReal) (z : S50000x128.Idx → EReal) (b : S128x128.Idx → EReal) (bias : S1x128.Idx → EReal)
    (res : S50000x128.Idx → EReal) (i : Fin 50000) (j : Fin 128) :
    G5 wv z b bias res (ix2 i j)
      = ((∑ k : Fin 128, Ideal.div (wv (ix2 i k)) (z (ix2 i k) + Ideal.ofBits .f32 0x358637BD#32) * b (ix2 k j))
          + bias (ix2 (0 : Fin 1) j))
        + res (ix2 i j) := rfl

theorem mm5_apply (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) :=
  matmul2_apply dot_S5000x128_S128x128_S5000x128_1_0_0_1_n_n_wf none lhs rhs p q

theorem pay5_apply (x0 x1 : Vec Ideal S5000x128 .f32) (x2 : Vec Ideal S128x128 .f32) (x3 : Vec Ideal S1x128 .f32)
    (x4 : Vec Ideal S5000x128 .f32) (p : Fin 5000) (q : Fin 128) :
    k5_pay1 x0 x1 x2 x3 x4 (ix2 p q)
      = ((∑ k : Fin 128, Ideal.div (x0 (ix2 p k)) (x1 (ix2 p k) + Ideal.ofBits .f32 0x358637BD#32) * x2 (ix2 k q))
          + x3 (ix2 (0 : Fin 1) q))
        + x4 (ix2 p q) := by
  unfold k5_pay1
  rw [addf_apply, addf_apply, mm5_apply, broadcastTo_1b_ab_apply]
  simp only [shapeCast_self, truncf_apply, divf_apply, addf_apply, broadcast_apply]
  rfl

theorem idx_facts5 : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = win5_5.index t (0 : Fin 2) ∧ win5_4.index t (1 : Fin 2) = 0
    ∧ win5_5.index t (0 : Fin 2) = t.val ∧ win5_5.index t (1 : Fin 2) = 0 :=
  (by decide +kernel : ∀ t : Fin grid5.N, _)

set_option maxHeartbeats 2000000 in
theorem flushed5_eq (c : Dev nD) (t : Fin cfg5.N) :
    (dat5 (F := Ideal) V c).flushed 5 t = ((cfg5.win 5).blk t).view.read (Elt Ideal) (G5 (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero zero2]
  simp only [View.ld_unit_zero (S := S5000x128) zero2, View.ld_unit_zero (S := S128x128) zero2, View.ld_unit_zero (S := S1x128) zero2]
  obtain ⟨e00, e01, e10, e11, e20, e21, e30, e31, e40, e41, e50, e51⟩ := idx_facts5 t
  funext j
  obtain ⟨p, q, rfl⟩ : ∃ (p : Fin 5000) (q : Fin 128), j = ix2 p q := ⟨j 0, j 1, eq_ix2 j⟩
  have ht : t.val < 10 := lt_of_lt_of_eq t.isLt N_5
  have hemb : ((cfg5.win 5).blk t).view.emb (ix2 p q) = (ix2 (⟨t.val * 5000 + p.val, by omega⟩ : Fin 50000) q : S50000x128.Idx) :=
    Shape.idx_ext₂ (by show win5_5.index t (0 : Fin 2) * 5000 + 1 * p.val = t.val * 5000 + p.val; omega) (by show win5_5.index t (1 : Fin 2) * 128 + 1 * q.val = q.val; omega)
  have h0 : ∀ k : Fin 128, (iblk5 V c 0 t : Vec Ideal S5000x128 .f32) (ix2 p k) = V c (Pipeline.arrRef spec5 0) (ix2 (⟨t.val * 5000 + p.val, by omega⟩ : Fin 50000) k) := fun k =>
    congrArg (V c (Pipeline.arrRef spec5 0)) (Shape.idx_ext₂ (by show win5_0.index t (0 : Fin 2) * 5000 + 1 * p.val = t.val * 5000 + p.val; omega) (by show win5_0.index t (1 : Fin 2) * 128 + 1 * k.val = k.val; omega))
  have h1 : ∀ k : Fin 128, (iblk5 V c 1 t : Vec Ideal S5000x128 .f32) (ix2 p k) = V c (Pipeline.arrRef spec5 1) (ix2 (⟨t.val * 5000 + p.val, by omega⟩ : Fin 50000) k) := fun k =>
    congrArg (V c (Pipeline.arrRef spec5 1)) (Shape.idx_ext₂ (by show win5_1.index t (0 : Fin 2) * 5000 + 1 * p.val = t.val * 5000 + p.val; omega) (by show win5_1.index t (1 : Fin 2) * 128 + 1 * k.val = k.val; omega))
  have h2 : ∀ k : Fin 128, (iblk5 V c 2 t : Vec Ideal S128x128 .f32) (ix2 k q) = V c (Pipeline.arrRef spec5 2) (ix2 k q) := fun k =>
    congrArg (V c (Pipeline.arrRef spec5 2)) (Shape.idx_ext₂ (by show win5_2.index t (0 : Fin 2) * 128 + 1 * k.val = k.val; omega) (by show win5_2.index t (1 : Fin 2) * 128 + 1 * q.val = q.val; omega))
  have h3 : (iblk5 V c 3 t : Vec Ideal S1x128 .f32) (ix2 (0 : Fin 1) q) = V c (Pipeline.arrRef spec5 3) (ix2 (0 : Fin 1) q) :=
    congrArg (V c (Pipeline.arrRef spec5 3)) (Shape.idx_ext₂ (by show win5_3.index t (0 : Fin 2) * 1 + 1 * 0 = 0; omega) (by show win5_3.index t (1 : Fin 2) * 128 + 1 * q.val = q.val; omega))
  have h4 : (iblk5 V c 4 t : Vec Ideal S5000x128 .f32) (ix2 p q) = V c (Pipeline.arrRef spec5 4) (ix2 (⟨t.val * 5000 + p.val, by omega⟩ : Fin 50000) q) :=
    congrArg (V c (Pipeline.arrRef spec5 4)) (Shape.idx_ext₂ (by show win5_4.index t (0 : Fin 2) * 5000 + 1 * p.val = t.val * 5000 + p.val; omega) (by show win5_4.index t (1 : Fin 2) * 128 + 1 * q.val = q.val; omega))
  show k5_pay1 (iblk5 V c 0 t) (iblk5 V c 1 t) (iblk5 V c 2 t) (iblk5 V c 3 t) (iblk5 V c 4 t) (ix2 p q) = G5 _ _ _ _ _ (((cfg5.win 5).blk t).view.emb (ix2 p q))
  rw [pay5_apply, hemb, G5_ix2]
  simp only [h0, h1, h2, h3, h4]

theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by omega⟩, rfl⟩
  obtain ⟨-, -, -, -, -, -, -, -, -, -, e50, e51⟩ := idx_facts5 t
  refine ⟨t, flush5_5 t, ?_⟩
  show i ∈ ((View.whole main_v53).slice (win5_5.rect t)).set
  rw [View.set_slice_whole, Rect.mem_set_unit]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

theorem value5 (c : Dev nD) : (dat5 (F := Ideal) V c).arrAt 5 cfg5.N = G5 (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 _ (fun t _ => flushed5_eq V c t) cover5

end Region5Value

end Cert.KernelIdeal.Hand

end
-- ==== Proof.KI.Region6Value.lean ====
import proofs.«163757_j14508399526691_2_alg».proof.Proof.KI.Region6
import proofs.«163757_j14508399526691_2_alg».proof.Proof.LibBlockSum
import proofs.«163757_j14508399526691_2_alg».proof.Proof.LibWholeBlock
import proofs.«163757_j14508399526691_2_alg».proof.Proof.LibMatmul2
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx
open scoped BigOperators

section Pieces6
variable {F : FTy → Type} [FloatOps F] [Named F]
variable (V : (c : Dev nD) → (b : Ref sig .tc) → Buf (Elt F) ((c : Thread nD τ).loc b)) (c : Dev nD)

-- each output's last store covers its block, so the output holds that store's payload: over the zero row after a reset,
theorem outA6_eq (t : Fin cfg6.N) (h0 : t.val % 10 = 0) :
    outA6 V c t h0 = (k6_pay4 (iblk6 V c 0 t) (k6_pay1 (F := F)), k6_pay5 (iblk6 V c 0 t) (k6_pay2 (F := F))) := by
  unfold outA6 runA6 kernelRun6_A
  dsimp only
  sl_unfold_words
  rw [View.canon_cons_unit_zero (S := S1x128) zero2, View.canon_cons_unit_zero (S := S1x128) zero2,
    View.readCov_unit_zero (S := S1x128) _ zero2, View.readCov_unit_zero (S := S1x128) _ zero2]
  simp only [View.readAt_eq_ld, (hs6_0 t).read_unread, View.ld_unit_zero (S := S5000x128) zero2]

-- over the row it read otherwise
theorem outB6_eq (t : Fin cfg6.N) (h0 : ¬t.val % 10 = 0) (p : Vec F S1x128 .f32 × Vec F S1x128 .f32) :
    outB6 V c t h0 p = (k6_pay4 (iblk6 V c 0 t) p.1, k6_pay5 (iblk6 V c 0 t) p.2) := by
  unfold outB6 runB6 kernelRun6_B
  dsimp only
  rw [View.canon_unit_zero zero2, View.canon_unit_zero zero2]
  simp only [View.readAt_eq_ld, (hs6_0 t).read_unread, (hs6_1 t).read_unread, (hs6_2 t).read_unread,
    View.ld_unit_zero (S := S5000x128) zero2, View.ld_unit_zero (S := S1x128) zero2]

theorem outsAt6_zero (h : 0 < cfg6.N) :
    outsAt6 V c 0 h = (k6_pay4 (iblk6 V c 0 ⟨0, h⟩) (k6_pay1 (F := F)), k6_pay5 (iblk6 V c 0 ⟨0, h⟩) (k6_pay2 (F := F))) :=
  (outsAt6_A V c ⟨0, h⟩ rfl).trans (outA6_eq V c _ _)

theorem outsAt6_succ (n : ℕ) (h : n + 1 < cfg6.N) :
    outsAt6 V c (n + 1) h = (k6_pay4 (iblk6 V c 0 ⟨n + 1, h⟩) (outsAt6 V c n (Nat.lt_of_succ_lt h)).1,
      k6_pay5 (iblk6 V c 0 ⟨n + 1, h⟩) (outsAt6 V c n (Nat.lt_of_succ_lt h)).2) :=
  (outsAt6_B V c ⟨n + 1, h⟩ (by have hN : cfg6.N = 10 := N_6; dsimp only; omega)).trans (outB6_eq V c _ _ _)

end Pieces6

section Value6
variable (V : (c : Dev nD) → (b : Ref sig .tc) → Buf (Elt Ideal) ((c : Thread nD τ).loc b)) (c : Dev nD)

def colSum6 (x : S50000x128.Idx → EReal) : S1x128.Idx → EReal :=
  fun y => ∑ i : Fin 50000, x (ix2 i (⟨(y 1).val, idx2_lt1 y⟩ : Fin 128))
def colSumSq6 (x : S50000x128.Idx → EReal) : S1x128.Idx → EReal :=
  fun y => ∑ i : Fin 50000, x (ix2 i (⟨(y 1).val, idx2_lt1 y⟩ : Fin 128)) * x (ix2 i (⟨(y 1).val, idx2_lt1 y⟩ : Fin 128))

theorem colSum6_apply (x : S50000x128.Idx → EReal) (j : Fin 128) : colSum6 x (ix2 0 j) = ∑ i : Fin 50000, x (ix2 i j) := rfl
theorem colSumSq6_apply (x : S50000x128.Idx → EReal) (j : Fin 128) : colSumSq6 x (ix2 0 j) = ∑ i : Fin 50000, x (ix2 i j) * x (ix2 i j) := rfl

theorem lift6 (j : Fin 128) (r : Fin 5000) : reduces_S5000x128_S128.lift (ix1 j) r = ix2 r j := by
  funext a
  match a with
  | ⟨0, _⟩ => rfl
  | ⟨1, _⟩ => rfl

-- at a column a payload is the row it was handed plus the block's column sum,
theorem k6_pay4_apply (x : S5000x128.Idx → EReal) (xo : S1x128.Idx → EReal) (j : Fin 128) :
    (k6_pay4 (F := Ideal) x xo (ix2 0 j) : EReal) = xo (ix2 0 j) + ∑ r : Fin 5000, x (ix2 r j) := by
  unfold k6_pay4 k6_pay3
  rw [addf_apply]
  simp only [shapeCast_self]
  rw [shapeCast_addUnit_apply ![128] _ shapeCasts_S128_S1x128 (ix2 0 j), BlockSum.row_ix]
  refine congrArg (xo (ix2 0 j) + ·) ((Ideal.multiReduction_add_single x 0x00000000#32 reduces_S5000x128_S128 (.inl rfl) rfl (ix1 j)).trans ?_)
  exact Finset.sum_congr rfl fun r _ => congrArg x (lift6 j r)

-- the same over the block's squares
theorem k6_pay5_apply (x : S5000x128.Idx → EReal) (xo : S1x128.Idx → EReal) (j : Fin 128) :
    (k6_pay5 (F := Ideal) x xo (ix2 0 j) : EReal) = xo (ix2 0 j) + ∑ r : Fin 5000, x (ix2 r j) * x (ix2 r j) := by
  unfold k6_pay5 k6_pay3
  rw [addf_apply]
  simp only [shapeCast_self]
  rw [shapeCast_addUnit_apply ![128] _ shapeCasts_S128_S1x128 (ix2 0 j), BlockSum.row_ix]
  refine congrArg (xo (ix2 0 j) + ·) ((Ideal.multiReduction_add_single (mulf x x) 0x00000000#32 reduces_S5000x128_S128 (.inl rfl) rfl (ix1 j)).trans ?_)
  exact Finset.sum_congr rfl fun r _ => congrArg (fun i => x i * x i) (lift6 j r)

theorem index6_0 : ∀ t : Fin cfg6.N, win6_0.index t 0 = t.val ∧ win6_0.index t 1 = 0 :=
  (by decide +kernel : ∀ t : Fin grid6.N, win6_0.index t 0 = t.val ∧ win6_0.index t 1 = 0)

abbrev xarr6 : S50000x128.Idx → EReal := V c (Pipeline.arrRef spec6 0)
abbrev xblk6 (t : Fin cfg6.N) : S5000x128.Idx → EReal := iblk6 V c 0 t

-- row r of the block at point t is row 5000 t + r of the array
theorem xblk6_apply (t : Fin cfg6.N) (r : Fin 5000) (j : Fin 128) (hr : 5000 * t.val + r.val < 50000) :
    xblk6 V c t (ix2 r j) = xarr6 V c (ix2 ⟨5000 * t.val + r.val, hr⟩ j) := by
  unfold xblk6 xarr6 iblk6
  rw [View.read_apply]
  show (V c (Pipeline.arrRef spec6 0) : S50000x128.Idx → EReal) _ = _
  congr 1
  funext a
  apply Fin.ext
  match a with
  | ⟨0, _⟩ => show win6_0.index t 0 * 5000 + 1 * r.val = 5000 * t.val + r.val; rw [(index6_0 t).1]; omega
  | ⟨1, _⟩ => show win6_0.index t 1 * 128 + 1 * j.val = j.val; rw [(index6_0 t).2]; omega

-- each row starts from zero and takes its payload at every point, so it ends as the whole column's sum: of the entries, of their squares
theorem last6 (t : Fin cfg6.N) (ht : t.val = 9) :
    ((outsAt6 V c t.val t.isLt).1 : S1x128.Idx → EReal) = colSum6 (xarr6 V c)
    ∧ ((outsAt6 V c t.val t.isLt).2 : S1x128.Idx → EReal) = colSumSq6 (xarr6 V c) := by
  have hN : cfg6.N = 10 := N_6
  constructor <;> funext y <;> obtain ⟨a, b, rfl⟩ : ∃ (a : Fin 1) (b : Fin 128), y = ix2 a b := ⟨y 0, y 1, eq_ix2 y⟩ <;>
    obtain rfl : a = 0 := Subsingleton.elim _ _
  · exact BlockSum.col_total (α := EReal) (M := EReal) (N := 50000) (R := 5000) (B := cfg6.N) (C := 128) (by omega) (fun v => v)
      (k6_pay4 (F := Ideal)) k6_pay4_apply (k6_pay1 (F := Ideal)) (fun _ => Ideal.ofBits_zero_f32) (xarr6 V c)
      (fun t h => xblk6 V c ⟨t, h⟩) (fun t h r j hr => xblk6_apply V c ⟨t, h⟩ r j hr) (fun n h => (outsAt6 V c n h).1)
      (fun h => congrArg Prod.fst (outsAt6_zero V c h)) (fun n h => congrArg Prod.fst (outsAt6_succ V c n h)) t.val t.isLt (by omega) b
  · exact BlockSum.col_total (α := EReal) (M := EReal) (N := 50000) (R := 5000) (B := cfg6.N) (C := 128) (by omega) (fun v => v * v)
      (k6_pay5 (F := Ideal)) k6_pay5_apply (k6_pay2 (F := Ideal)) (fun _ => Ideal.ofBits_zero_f32) (xarr6 V c)
      (fun t h => xblk6 V c ⟨t, h⟩) (fun t h r j hr => xblk6_apply V c ⟨t, h⟩ r j hr) (fun n h => (outsAt6 V c n h).2)
      (fun h => congrArg Prod.snd (outsAt6_zero V c h)) (fun n h => congrArg Prod.snd (outsAt6_succ V c n h)) t.val t.isLt (by omega) b

def tl6 : Fin cfg6.N := ⟨9, by rw [show cfg6.N = 10 from N_6]; decide⟩

-- the last point's block of a 1x128 result is the whole array, so the array ends as that point's row
theorem value6_1 : (dat6 (F := Ideal) V c).arrAt 1 cfg6.N = colSum6 (V c (Pipeline.arrRef spec6 0)) :=
  (dat6 (F := Ideal) V c).arrAt_eq_of_cover 1 (colSum6 (xarr6 V c))
    (fun t hf => by
      have hN : cfg6.N = 10 := N_6
      have hl : t.val = 9 := by have := (flush6_1 t).mp hf; have := t.isLt; omega
      obtain rfl : t = tl6 := Fin.ext hl
      show (cfg6.win 1).cut (grid6.coords tl6) ((dat6 V c).after 1 tl6) = _
      rw [after6_1, (last6 V c tl6 rfl).1]
      have hz' : (fun a => win6_1.index tl6 a * main_v54_0.ty.shape.size a) = fun _ => 0 := funext fun a => by fin_cases a <;> decide +kernel
      exact (Memref.read_access_unit_zero (Elt Ideal) main_v54_0 hz' (fun a => by rw [congrFun hz' a]; simp) (colSum6 (xarr6 V c))).symm)
    fun i => ⟨tl6, (flush6_1 tl6).mpr rfl, by
      show i ∈ ((View.whole main_v54_0).slice (win6_1.rect tl6)).set
      rw [View.set_slice_whole]
      exact WholeBlock.mem_unit_zero (s := main_v54_0.ty.shape) (fun a => by fin_cases a <;> decide +kernel) (fun a => by fin_cases a <;> decide +kernel) i⟩

theorem value6_2 : (dat6 (F := Ideal) V c).arrAt 2 cfg6.N = colSumSq6 (V c (Pipeline.arrRef spec6 0)) :=
  (dat6 (F := Ideal) V c).arrAt_eq_of_cover 2 (colSumSq6 (xarr6 V c))
    (fun t hf => by
      have hN : cfg6.N = 10 := N_6
      have hl : t.val = 9 := by have := (flush6_2 t).mp hf; have := t.isLt; omega
      obtain rfl : t = tl6 := Fin.ext hl
      show (cfg6.win 2).cut (grid6.coords tl6) ((dat6 V c).after 2 tl6) = _
      rw [after6_2, (last6 V c tl6 rfl).2]
      have hz' : (fun a => win6_2.index tl6 a * main_v54_1.ty.shape.size a) = fun _ => 0 := funext fun a => by fin_cases a <;> decide +kernel
      exact (Memref.read_access_unit_zero (Elt Ideal) main_v54_1 hz' (fun a => by rw [congrFun hz' a]; simp) (colSumSq6 (xarr6 V c))).symm)
    fun i => ⟨tl6, (flush6_2 tl6).mpr rfl, by
      show i ∈ ((View.whole main_v54_1).slice (win6_2.rect tl6)).set
      rw [View.set_slice_whole]
      exact WholeBlock.mem_unit_zero (s := main_v54_1.ty.shape) (fun a => by fin_cases a <;> decide +kernel) (fun a => by fin_cases a <;> decide +kernel) i⟩

end Value6

end Cert.KernelIdeal.Hand

end
-- ==== Proof.KI.Region7Value.lean ====
import proofs.«163757_j14508399526691_2_alg».proof.Proof.KI.Region7
import proofs.«163757_j14508399526691_2_alg».proof.Proof.LibMatmul2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

def norm7 (x : S50000x128.Idx → EReal) (mean var gamma beta : S1x128.Idx → EReal) (i : Fin 50000) (k : Fin 128) : EReal :=
  (x (ix2 i k) - mean (ix2 (0 : Fin 1) k)) * Ideal.rsqrt (var (ix2 (0 : Fin 1) k) + Ideal.ofBits .f32 0x3727C5AC#32)
    * gamma (ix2 (0 : Fin 1) k) + beta (ix2 (0 : Fin 1) k)

def prod7 (x : S50000x128.Idx → EReal) (mean var gamma beta : S1x128.Idx → EReal) (W : S128x256.Idx → EReal)
    (i : Fin 50000) (j : Fin 256) : EReal :=
  ∑ k : Fin 128, norm7 x mean var gamma beta i k * W (ix2 k j)

def G7 (x : S50000x128.Idx → EReal) (mean var gamma beta : S1x128.Idx → EReal) (W : S128x256.Idx → EReal) :
    S50000x256.Idx → EReal :=
  fun o => prod7 x mean var gamma beta W (o 0) (o 1) * Ideal.logistic (prod7 x mean var gamma beta W (o 0) (o 1))

/-- A stored entry `(p, q)` is `G7` at the array index `o` whenever each block reads its array where `o` says. -/
theorem point7 (A0 : S50000x128.Idx → EReal) (A1 A2 A3 A4 : S1x128.Idx → EReal) (A5 : S128x256.Idx → EReal)
    (x0 : Vec Ideal S5000x128 .f32) (x1 x2 x3 x4 : Vec Ideal S1x128 .f32) (x5 : Vec Ideal S128x256 .f32)
    (o : S50000x256.Idx) (p : Fin 5000) (q : Fin 256)
    (h : ∀ k : Fin 128, x0 (ix2 p k) = A0 (ix2 (o 0) k) ∧ x1 (ix2 (0 : Fin 1) k) = A1 (ix2 (0 : Fin 1) k) ∧ x2 (ix2 (0 : Fin 1) k) = A2 (ix2 (0 : Fin 1) k)
      ∧ x3 (ix2 (0 : Fin 1) k) = A3 (ix2 (0 : Fin 1) k) ∧ x4 (ix2 (0 : Fin 1) k) = A4 (ix2 (0 : Fin 1) k) ∧ x5 (ix2 k q) = A5 (ix2 k (o 1))) :
    k7_pay1 x0 x2 x1 x3 x4 x5 (ix2 p q) = G7 A0 A1 A2 A3 A4 A5 o := by
  unfold k7_pay1 G7 prod7 norm7
  refine (mulf_apply _ _ _).trans (congrArg (fun y => y * Ideal.logistic y) ((matmul2_apply dot_S5000x128_S128x256_S5000x256_1_0_0_1_n_n_wf none _ _ p q).trans (Finset.sum_congr rfl fun k _ => ?_)))
  obtain ⟨h0, h1, h2, h3, h4, h5⟩ := h k
  rw [← h0, ← h1, ← h2, ← h3, ← h4, ← h5]
  simp only [shapeCast_self, truncf_apply, addf_apply, mulf_apply, subf_apply, broadcastTo_1b_ab_apply, broadcast_apply]
  rfl

section Region
variable (V : (c : Dev nD) → (b : Ref sig .tc) → Buf (Elt Ideal) ((c : Thread nD τ).loc b))

/-- The block indices over the grid: the data and the output move together along the rows; every other block is its whole array. -/
theorem idx_facts7 : ∀ t : Fin cfg7.N, win7_0.index t (0 : Fin 2) = win7_6.index t (0 : Fin 2)
    ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (1 : Fin 2) = 0 :=
  (by decide +kernel : ∀ t : Fin grid7.N, _)

/-- Every row block of the output array is some point's. -/
theorem idx_onto7 : ∀ (q0 : Fin 10), ∃ t : Fin cfg7.N, win7_6.index t = ![q0.val, 0] :=
  (by decide +kernel : ∀ (q0 : Fin 10), ∃ t : Fin grid7.N, win7_6.index t = ![q0.val, 0])

/-- Each input block, read where entry `(p, q)` of the output block uses it, is its array read where that entry sits. -/
theorem read7_0 (c : Dev nD) (t : Fin cfg7.N) (p : Fin 5000) (q : Fin 256) (k : Fin 128) :
    iblk7 V c 0 t (ix2 p k) = V c (Pipeline.arrRef spec7 0) (ix2 ((((cfg7.win 6).blk t).view.emb (ix2 p q)) 0) k) := by
  obtain ⟨e0, e1, -, -, -, -, -, -, -, -, -, -, -⟩ := idx_facts7 t
  refine congrArg (V c (Pipeline.arrRef spec7 0)) (Shape.idx_ext₂ ?_ ?_)
  · show win7_0.index t (0 : Fin 2) * 5000 + 1 * p.val = win7_6.index t (0 : Fin 2) * 5000 + 1 * p.val; omega
  · show win7_0.index t (1 : Fin 2) * 128 + 1 * k.val = k.val; omega

theorem read7_1 (c : Dev nD) (t : Fin cfg7.N) (k : Fin 128) :
    iblk7 V c 1 t (ix2 (0 : Fin 1) k) = V c (Pipeline.arrRef spec7 1) (ix2 (0 : Fin 1) k) := by
  obtain ⟨-, -, e0, e1, -, -, -, -, -, -, -, -, -⟩ := idx_facts7 t
  refine congrArg (V c (Pipeline.arrRef spec7 1)) (Shape.idx_ext₂ ?_ ?_)
  · show win7_1.index t (0 : Fin 2) * 1 + 1 * 0 = 0; omega
  · show win7_1.index t (1 : Fin 2) * 128 + 1 * k.val = k.val; omega

theorem read7_2 (c : Dev nD) (t : Fin cfg7.N) (k : Fin 128) :
    iblk7 V c 2 t (ix2 (0 : Fin 1) k) = V c (Pipeline.arrRef spec7 2) (ix2 (0 : Fin 1) k) := by
  obtain ⟨-, -, -, -, e0, e1, -, -, -, -, -, -, -⟩ := idx_facts7 t
  refine congrArg (V c (Pipeline.arrRef spec7 2)) (Shape.idx_ext₂ ?_ ?_)
  · show win7_2.index t (0 : Fin 2) * 1 + 1 * 0 = 0; omega
  · show win7_2.index t (1 : Fin 2) * 128 + 1 * k.val = k.val; omega

theorem read7_3 (c : Dev nD) (t : Fin cfg7.N) (k : Fin 128) :
    iblk7 V c 3 t (ix2 (0 : Fin 1) k) = V c (Pipeline.arrRef spec7 3) (ix2 (0 : Fin 1) k) := by
  obtain ⟨-, -, -, -, -, -, e0, e1, -, -, -, -, -⟩ := idx_facts7 t
  refine congrArg (V c (Pipeline.arrRef spec7 3)) (Shape.idx_ext₂ ?_ ?_)
  · show win7_3.index t (0 : Fin 2) * 1 + 1 * 0 = 0; omega
  · show win7_3.index t (1 : Fin 2) * 128 + 1 * k.val = k.val; omega

theorem read7_4 (c : Dev nD) (t : Fin cfg7.N) (k : Fin 128) :
    iblk7 V c 4 t (ix2 (0 : Fin 1) k) = V c (Pipeline.arrRef spec7 4) (ix2 (0 : Fin 1) k) := by
  obtain ⟨-, -, -, -, -, -, -, -, e0, e1, -, -, -⟩ := idx_facts7 t
  refine congrArg (V c (Pipeline.arrRef spec7 4)) (Shape.idx_ext₂ ?_ ?_)
  · show win7_4.index t (0 : Fin 2) * 1 + 1 * 0 = 0; omega
  · show win7_4.index t (1 : Fin 2) * 128 + 1 * k.val = k.val; omega

theorem read7_5 (c : Dev nD) (t : Fin cfg7.N) (p : Fin 5000) (q : Fin 256) (k : Fin 128) :
    iblk7 V c 5 t (ix2 k q) = V c (Pipeline.arrRef spec7 5) (ix2 k ((((cfg7.win 6).blk t).view.emb (ix2 p q)) 1)) := by
  obtain ⟨-, -, -, -, -, -, -, -, -, -, e0, e1, e61⟩ := idx_facts7 t
  refine congrArg (V c (Pipeline.arrRef spec7 5)) (Shape.idx_ext₂ ?_ ?_)
  · show win7_5.index t (0 : Fin 2) * 128 + 1 * k.val = k.val; omega
  · show win7_5.index t (1 : Fin 2) * 256 + 1 * q.val = win7_6.index t (1 : Fin 2) * 256 + 1 * q.val; omega

theorem flushed7_pay (c : Dev nD) (t : Fin cfg7.N) :
    (dat7 (F := Ideal) V c).flushed 6 t = (cfg7.win 6).cut (grid7.coords t)
      (k7_pay1 (iblk7 V c 0 t) (iblk7 V c 2 t) (iblk7 V c 1 t) (iblk7 V c 3 t) (iblk7 V c 4 t) (iblk7 V c 5 t)) := by
  show (cfg7.win 6).cut (grid7.coords t) ((dat7 (F := Ideal) V c).after 6 t) = _
  rw [show (dat7 (F := Ideal) V c).after 6 t = out7_6 (iblk7 V c 0 t) (iblk7 V c 1 t) (iblk7 V c 2 t) (iblk7 V c 3 t) (iblk7 V c 4 t) (iblk7 V c 5 t) by dsimp only [dat7]]
  unfold out7_6
  rw [View.canon_unit_zero zero2]
  simp only [View.ld_unit_zero (S := S5000x128) zero2, View.ld_unit_zero (S := S1x128) zero2, View.ld_unit_zero (S := S128x256) zero2]

/-- Point `t`'s output block is block `t` of `G7` of the entry arrays. -/
theorem flushed7_eq (c : Dev nD) (t : Fin cfg7.N) :
    (dat7 (F := Ideal) V c).flushed 6 t = ((cfg7.win 6).blk t).view.read (Elt Ideal) (G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) := by
  rw [flushed7_pay]
  funext j
  obtain ⟨p, q, rfl⟩ : ∃ (p : Fin 5000) (q : Fin 256), j = ix2 p q := ⟨j 0, j 1, eq_ix2 j⟩
  exact point7 _ _ _ _ _ _ _ _ _ _ _ _ _ p q fun k =>
    ⟨read7_0 V c t p q k, read7_1 V c t k, read7_2 V c t k, read7_3 V c t k, read7_4 V c t k, read7_5 V c t p q k⟩

theorem mem_blk7 (t : Fin cfg7.N) (i : S50000x256.Idx) :
    i ∈ ((cfg7.win 6).blk t).view.set ↔ ∀ a : Fin 2, win7_6.index t a * S5000x256.size a ≤ (i a).val ∧ (i a).val < win7_6.index t a * S5000x256.size a + S5000x256.size a := by
  show i ∈ ((View.whole main_v67).slice (win7_6.rect t)).set ↔ _
  rw [View.set_slice_whole, Rect.mem_set_unit]
  exact Iff.rfl

/-- Row `i` of the output array lies in the block of the point whose row block is `i / 5000`. -/
theorem cover7 (i : S50000x256.Idx) :
    ∃ t : Fin cfg7.N, (cfg7.win 6).flush t = true ∧ i ∈ ((cfg7.win 6).blk t).view.set := by
  have hi0 : (i 0).val < 50000 := (i 0).isLt
  have hi1 : (i 1).val < 256 := (i 1).isLt
  obtain ⟨t, ht⟩ := idx_onto7 ⟨(i 0).val / 5000, by omega⟩
  have q0 : win7_6.index t (0 : Fin 2) = (i 0).val / 5000 := congrFun ht 0
  have q1 : win7_6.index t (1 : Fin 2) = 0 := congrFun ht 1
  refine ⟨t, flush7_6 t, (mem_blk7 t i).2 fun a => ?_⟩
  match a with
  | ⟨0, _⟩ => show win7_6.index t (0 : Fin 2) * 5000 ≤ (i 0).val ∧ (i 0).val < win7_6.index t (0 : Fin 2) * 5000 + 5000; omega
  | ⟨1, _⟩ => show win7_6.index t (1 : Fin 2) * 256 ≤ (i 1).val ∧ (i 1).val < win7_6.index t (1 : Fin 2) * 256 + 256; omega

theorem value7 (c : Dev nD) : (dat7 (F := Ideal) V c).arrAt 6 cfg7.N = G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  (dat7 (F := Ideal) V c).arrAt_eq_of_cover 6 _ (fun t _ => flushed7_eq V c t) cover7

end Region

end Cert.KernelIdeal.Hand
-- ==== Proof.KI.Region8Value.lean ====
import proofs.«163757_j14508399526691_2_alg».proof.Proof.KI.Region8
import proofs.«163757_j14508399526691_2_alg».proof.Proof.LibMatmul2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Region8Value

variable (V : (c : Dev nD) → (b : Ref sig .tc) → Buf (Elt Ideal) ((c : Thread nD τ).loc b))

def G8 (a : S50000x256.Idx → EReal) (b : S256x128.Idx → EReal) (res : S50000x128.Idx → EReal) : S50000x128.Idx → EReal := fun y =>
  (∑ k : Fin 256, a (ix2 (y 0) k) * b (ix2 k (y 1))) + res (ix2 (y 0) (y 1))

theorem G8_ix2 (a : S50000x256.Idx → EReal) (b : S256x128.Idx → EReal) (res : S50000x128.Idx → EReal) (i : Fin 50000) (j : Fin 128) :
    G8 a b res (ix2 i j) = (∑ k : Fin 256, a (ix2 i k) * b (ix2 k j)) + res (ix2 i j) := rfl

theorem mm8_apply (lhs : FVec Ideal S5000x256 .bf16) (rhs : FVec Ideal S256x128 .bf16) (p : Fin 5000) (q : Fin 128) :
    matmul dot_S5000x256_S256x128_S5000x128_1_0_0_1_n_n none lhs rhs (constant (F := Ideal) S5000x128 .f32 0x00000000#32) (ix2 p q)
      = ∑ k : Fin 256, lhs (ix2 p k) * rhs (ix2 k q) :=
  matmul2_apply dot_S5000x256_S256x128_S5000x128_1_0_0_1_n_n_wf none lhs rhs p q

theorem pay8_apply (x0 : Vec Ideal S5000x256 .f32) (x1 : Vec Ideal S256x128 .f32) (x2 : Vec Ideal S5000x128 .f32)
    (p : Fin 5000) (q : Fin 128) :
    k8_pay1 x0 x1 x2 (ix2 p q) = (∑ k : Fin 256, x0 (ix2 p k) * x1 (ix2 k q)) + x2 (ix2 p q) := by
  unfold k8_pay1
  rw [addf_apply, mm8_apply]
  simp only [shapeCast_self, truncf_apply]

theorem idx_facts8 : ∀ t : Fin cfg8.N,
    win8_0.index t (0 : Fin 2) = win8_3.index t (0 : Fin 2) ∧ win8_0.index t (1 : Fin 2) = 0
    ∧ win8_1.index t (0 : Fin 2) = 0 ∧ win8_1.index t (1 : Fin 2) = 0
    ∧ win8_2.index t (0 : Fin 2) = win8_3.index t (0 : Fin 2) ∧ win8_2.index t (1 : Fin 2) = 0
    ∧ win8_3.index t (0 : Fin 2) = t.val ∧ win8_3.index t (1 : Fin 2) = 0 :=
  (by decide +kernel : ∀ t : Fin grid8.N, _)

set_option maxHeartbeats 2000000 in
theorem flushed8_eq (c : Dev nD) (t : Fin cfg8.N) :
    (dat8 (F := Ideal) V c).flushed 3 t = ((cfg8.win 3).blk t).view.read (Elt Ideal) (G8 (V c (Pipeline.arrRef spec8 0)) (V c (Pipeline.arrRef spec8 1)) (V c (Pipeline.arrRef spec8 2))) := by
  show (cfg8.win 3).cut (grid8.coords t) ((dat8 (F := Ideal) V c).after 3 t) = _
  rw [after8_3]
  unfold out8_3
  rw [View.canon_unit_zero zero2]
  simp only [View.ld_unit_zero (S := S5000x256) zero2, View.ld_unit_zero (S := S256x128) zero2, View.ld_unit_zero (S := S5000x128) zero2]
  obtain ⟨e00, e01, e10, e11, e20, e21, e30, e31⟩ := idx_facts8 t
  funext j
  obtain ⟨p, q, rfl⟩ : ∃ (p : Fin 5000) (q : Fin 128), j = ix2 p q := ⟨j 0, j 1, eq_ix2 j⟩
  have ht : t.val < 10 := lt_of_lt_of_eq t.isLt N_8
  have hemb : ((cfg8.win 3).blk t).view.emb (ix2 p q) = (ix2 (⟨t.val * 5000 + p.val, by omega⟩ : Fin 50000) q : S50000x128.Idx) :=
    Shape.idx_ext₂ (by show win8_3.index t (0 : Fin 2) * 5000 + 1 * p.val = t.val * 5000 + p.val; omega)
      (by show win8_3.index t (1 : Fin 2) * 128 + 1 * q.val = q.val; omega)
  have h0 (k : Fin 256) : (iblk8 V c 0 t : Vec Ideal S5000x256 .f32) (ix2 p k) = V c (Pipeline.arrRef spec8 0) (ix2 (⟨t.val * 5000 + p.val, by omega⟩ : Fin 50000) k) :=
    congrArg (V c (Pipeline.arrRef spec8 0)) (Shape.idx_ext₂ (by show win8_0.index t (0 : Fin 2) * 5000 + 1 * p.val = t.val * 5000 + p.val; omega)
      (by show win8_0.index t (1 : Fin 2) * 256 + 1 * k.val = k.val; omega))
  have h1 (k : Fin 256) : (iblk8 V c 1 t : Vec Ideal S256x128 .f32) (ix2 k q) = V c (Pipeline.arrRef spec8 1) (ix2 k q) :=
    congrArg (V c (Pipeline.arrRef spec8 1)) (Shape.idx_ext₂ (by show win8_1.index t (0 : Fin 2) * 256 + 1 * k.val = k.val; omega)
      (by show win8_1.index t (1 : Fin 2) * 128 + 1 * q.val = q.val; omega))
  have h2 : (iblk8 V c 2 t : Vec Ideal S5000x128 .f32) (ix2 p q) = V c (Pipeline.arrRef spec8 2) (ix2 (⟨t.val * 5000 + p.val, by omega⟩ : Fin 50000) q) :=
    congrArg (V c (Pipeline.arrRef spec8 2)) (Shape.idx_ext₂ (by show win8_2.index t (0 : Fin 2) * 5000 + 1 * p.val = t.val * 5000 + p.val; omega)
      (by show win8_2.index t (1 : Fin 2) * 128 + 1 * q.val = q.val; omega))
  show k8_pay1 (iblk8 V c 0 t) (iblk8 V c 1 t) (iblk8 V c 2 t) (ix2 p q) = G8 _ _ _ (((cfg8.win 3).blk t).view.emb (ix2 p q))
  rw [pay8_apply, hemb, G8_ix2]
  simp only [h0, h1, h2]

theorem cover8 (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  have hN : cfg8.N = 10 := N_8
  obtain ⟨t, ht⟩ : ∃ t : Fin cfg8.N, t.val = (i 0).val / 5000 := ⟨⟨(i 0).val / 5000, by omega⟩, rfl⟩
  obtain ⟨-, -, -, -, -, -, e30, e31⟩ := idx_facts8 t
  refine ⟨t, flush8_3 t, ?_⟩
  show i ∈ ((View.whole main_v68).slice (win8_3.rect t)).set
  rw [View.set_slice_whole, Rect.mem_set_unit]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 128 ≤ (i 1).val ∧ (i 1).val < win8_3.index t (1 : Fin 2) * 128 + 128; omega

theorem value8 (c : Dev nD) : (dat8 (F := Ideal) V c).arrAt 3 cfg8.N = G8 (V c (Pipeline.arrRef spec8 0)) (V c (Pipeline.arrRef spec8 1)) (V c (Pipeline.arrRef spec8 2)) :=
  (dat8 (F := Ideal) V c).arrAt_eq_of_cover 3 _ (fun t _ => flushed8_eq V c t) cover8

end Region8Value

end Cert.KernelIdeal.Hand

end
-- ==== Proof.KI.Chain.lean ====
import proofs.«163757_j14508399526691_2_alg».proof.Proof.KI.Fold
import proofs.«163757_j14508399526691_2_alg».proof.Proof.KI.Host1
import proofs.«163757_j14508399526691_2_alg».proof.Proof.KI.Host4
import proofs.«163757_j14508399526691_2_alg».proof.Proof.KI.Region0Value
import proofs.«163757_j14508399526691_2_alg».proof.Proof.KI.Region1Value
import proofs.«163757_j14508399526691_2_alg».proof.Proof.KI.Region2Value
import proofs.«163757_j14508399526691_2_alg».proof.Proof.KI.Region3Value
import proofs.«163757_j14508399526691_2_alg».proof.Proof.KI.Region4Value
import proofs.«163757_j14508399526691_2_alg».proof.Proof.KI.Region5Value
import proofs.«163757_j14508399526691_2_alg».proof.Proof.KI.Region6Value
import proofs.«163757_j14508399526691_2_alg».proof.Proof.KI.Region7Value
import proofs.«163757_j14508399526691_2_alg».proof.Proof.KI.Region8Value

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

def kv_main_cst : Vec Ideal S128x4 .f32 := maskTable
theorem W1_main_cst : (W1 m ρ c (Proc.devRef .tc main_cst) : Vec Ideal S128x4 .f32) = kv_main_cst :=
  after_hostOps0_main_cst (F := Ideal) (W0 m ρ c)

def kv_main_v0_0 (c : Dev nD) : Vec Ideal S1x128 .f32 := colSum0 (m ((c : Thread nD τ).loc main_arg0))
def kv_main_v0_1 (c : Dev nD) : Vec Ideal S1x128 .f32 := colSumSq0 (m ((c : Thread nD τ).loc main_arg0))
theorem W2_main_v0_0 : (W2 m ρ c (Proc.devRef .tc main_v0_0) : Vec Ideal S1x128 .f32) = kv_main_v0_0 m c := by
  have h : (W2 m ρ c (Proc.devRef .tc main_v0_0) : Vec Ideal S1x128 .f32) = colSum0 (W1 m ρ c (Proc.devRef .tc main_arg0)) :=
    (exitOf_arr launch0 dat0 _ c 1).trans (value0_1 _ c)
  rw [W1_launch m ρ c main_arg0 (by decide)] at h
  exact h
theorem W2_main_v0_1 : (W2 m ρ c (Proc.devRef .tc main_v0_1) : Vec Ideal S1x128 .f32) = kv_main_v0_1 m c := by
  have h : (W2 m ρ c (Proc.devRef .tc main_v0_1) : Vec Ideal S1x128 .f32) = colSumSq0 (W1 m ρ c (Proc.devRef .tc main_arg0)) :=
    (exitOf_arr launch0 dat0 _ c 2).trans (value0_2 _ c)
  rw [W1_launch m ρ c main_arg0 (by decide)] at h
  exact h

def kv_main_v3 (c : Dev nD) : Vec Ideal S128 .f32 := meanOf 0x47435000#32 (kv_main_v0_0 m c)
def kv_main_v8 (c : Dev nD) : Vec Ideal S128 .f32 := varOf 0x47435000#32 (kv_main_v0_0 m c) (kv_main_v0_1 m c)
theorem W3_main_v3 : (W3 m ρ c (Proc.devRef .tc main_v3) : Vec Ideal S128 .f32) = kv_main_v3 m c := by
  have h := after_hostOps1_main_v3 (F := Ideal) (W2 m ρ c)
  rw [W2_main_v0_0 m ρ c] at h
  exact h
theorem W3_main_v8 : (W3 m ρ c (Proc.devRef .tc main_v8) : Vec Ideal S128 .f32) = kv_main_v8 m c := by
  have h := after_hostOps1_main_v8 (F := Ideal) (W2 m ρ c)
  rw [W2_main_v0_0 m ρ c, W2_main_v0_1 m ρ c] at h
  exact h

def kv_main_v9_0 (c : Dev nD) : Vec Ideal S1x128 .f32 := colSum1 (m ((c : Thread nD τ).loc main_arg1))
def kv_main_v9_1 (c : Dev nD) : Vec Ideal S1x128 .f32 := colSumSq1 (m ((c : Thread nD τ).loc main_arg1))
theorem W4_main_v9_0 : (W4 m ρ c (Proc.devRef .tc main_v9_0) : Vec Ideal S1x128 .f32) = kv_main_v9_0 m c := by
  have h : (W4 m ρ c (Proc.devRef .tc main_v9_0) : Vec Ideal S1x128 .f32) = colSum1 (W3 m ρ c (Proc.devRef .tc main_arg1)) :=
    (exitOf_arr launch1 dat1 _ c 1).trans (value1_1 _ c)
  rw [W3_launch m ρ c main_arg1 (by decide)] at h
  exact h
theorem W4_main_v9_1 : (W4 m ρ c (Proc.devRef .tc main_v9_1) : Vec Ideal S1x128 .f32) = kv_main_v9_1 m c := by
  have h : (W4 m ρ c (Proc.devRef .tc main_v9_1) : Vec Ideal S1x128 .f32) = colSumSq1 (W3 m ρ c (Proc.devRef .tc main_arg1)) :=
    (exitOf_arr launch1 dat1 _ c 2).trans (value1_2 _ c)
  rw [W3_launch m ρ c main_arg1 (by decide)] at h
  exact h
theorem W4_main_v3 : (W4 m ρ c (Proc.devRef .tc main_v3) : Vec Ideal S128 .f32) = kv_main_v3 m c := (exitOf_keep launch1 dat1 _ A_eq1 c main_v3 (by decide)).trans (W3_main_v3 m ρ c)
theorem W4_main_v8 : (W4 m ρ c (Proc.devRef .tc main_v8) : Vec Ideal S128 .f32) = kv_main_v8 m c := (exitOf_keep launch1 dat1 _ A_eq1 c main_v8 (by decide)).trans (W3_main_v8 m ρ c)

def kv_main_v12 (c : Dev nD) : Vec Ideal S128 .f32 := meanOf 0x49435000#32 (kv_main_v9_0 m c)
def kv_main_v17 (c : Dev nD) : Vec Ideal S128 .f32 := varOf 0x49435000#32 (kv_main_v9_0 m c) (kv_main_v9_1 m c)
def kv_main_v18 (c : Dev nD) : Vec Ideal S128x384 .f32 :=
  cat3 (m ((c : Thread nD τ).loc main_arg4)) (m ((c : Thread nD τ).loc main_arg5)) (m ((c : Thread nD τ).loc main_arg6))
def kv_main_v19 (c : Dev nD) : Vec Ideal S1x128 .f32 := rowOf (kv_main_v3 m c)
def kv_main_v20 (c : Dev nD) : Vec Ideal S1x128 .f32 := rowOf (kv_main_v8 m c)
def kv_main_v21 (c : Dev nD) : Vec Ideal S1x128 .f32 := rowOf (m ((c : Thread nD τ).loc main_arg10))
def kv_main_v22 (c : Dev nD) : Vec Ideal S1x128 .f32 := rowOf (m ((c : Thread nD τ).loc main_arg11))
theorem W5_main_v12 : (W5 m ρ c (Proc.devRef .tc main_v12) : Vec Ideal S128 .f32) = kv_main_v12 m c := by
  have h := after_hostOps2_main_v12 (F := Ideal) (W4 m ρ c)
  rw [W4_main_v9_0 m ρ c] at h
  exact h
theorem W5_main_v17 : (W5 m ρ c (Proc.devRef .tc main_v17) : Vec Ideal S128 .f32) = kv_main_v17 m c := by
  have h := after_hostOps2_main_v17 (F := Ideal) (W4 m ρ c)
  rw [W4_main_v9_0 m ρ c, W4_main_v9_1 m ρ c] at h
  exact h
theorem W5_main_v18 : (W5 m ρ c (Proc.devRef .tc main_v18) : Vec Ideal S128x384 .f32) = kv_main_v18 m c := by
  have h := after_hostOps2_main_v18 (F := Ideal) (W4 m ρ c)
  rw [W4_launch m ρ c main_arg4 (by decide), W4_launch m ρ c main_arg5 (by decide),
    W4_launch m ρ c main_arg6 (by decide)] at h
  exact h
theorem W5_main_v19 : (W5 m ρ c (Proc.devRef .tc main_v19) : Vec Ideal S1x128 .f32) = kv_main_v19 m c := by
  have h := after_hostOps2_main_v19 (F := Ideal) (W4 m ρ c)
  rw [W4_main_v3 m ρ c] at h
  exact h
theorem W5_main_v20 : (W5 m ρ c (Proc.devRef .tc main_v20) : Vec Ideal S1x128 .f32) = kv_main_v20 m c := by
  have h := after_hostOps2_main_v20 (F := Ideal) (W4 m ρ c)
  rw [W4_main_v8 m ρ c] at h
  exact h
theorem W5_main_v21 : (W5 m ρ c (Proc.devRef .tc main_v21) : Vec Ideal S1x128 .f32) = kv_main_v21 m c := by
  have h := after_hostOps2_main_v21 (F := Ideal) (W4 m ρ c)
  rw [W4_launch m ρ c main_arg10 (by decide)] at h
  exact h
theorem W5_main_v22 : (W5 m ρ c (Proc.devRef .tc main_v22) : Vec Ideal S1x128 .f32) = kv_main_v22 m c := by
  have h := after_hostOps2_main_v22 (F := Ideal) (W4 m ρ c)
  rw [W4_launch m ρ c main_arg11 (by decide)] at h
  exact h

def kv_main_v23 (c : Dev nD) : Vec Ideal S50000x384 .f32 :=
  G2 (m ((c : Thread nD τ).loc main_arg0)) (kv_main_v19 m c) (kv_main_v20 m c) (kv_main_v21 m c) (kv_main_v22 m c)
    (kv_main_v18 m c)
theorem W6_main_v23 : (W6 m ρ c (Proc.devRef .tc main_v23) : Vec Ideal S50000x384 .f32) = kv_main_v23 m c := by
  have h : (W6 m ρ c (Proc.devRef .tc main_v23) : Vec Ideal S50000x384 .f32)
      = G2 (W5 m ρ c (Proc.devRef .tc main_arg0)) (W5 m ρ c (Proc.devRef .tc main_v19)) (W5 m ρ c (Proc.devRef .tc main_v20))
          (W5 m ρ c (Proc.devRef .tc main_v21)) (W5 m ρ c (Proc.devRef .tc main_v22)) (W5 m ρ c (Proc.devRef .tc main_v18)) :=
    (exitOf_arr launch2 dat2 _ c 6).trans (value2 _ c)
  rw [W5_launch m ρ c main_arg0 (by decide), W5_main_v19 m ρ c, W5_main_v20 m ρ c, W5_main_v21 m ρ c, W5_main_v22 m ρ c,
    W5_main_v18 m ρ c] at h
  exact h
theorem W6_main_v12 : (W6 m ρ c (Proc.devRef .tc main_v12) : Vec Ideal S128 .f32) = kv_main_v12 m c := (exitOf_keep launch2 dat2 _ A_eq2 c main_v12 (by decide)).trans (W5_main_v12 m ρ c)
theorem W6_main_v17 : (W6 m ρ c (Proc.devRef .tc main_v17) : Vec Ideal S128 .f32) = kv_main_v17 m c := (exitOf_keep launch2 dat2 _ A_eq2 c main_v17 (by decide)).trans (W5_main_v17 m ρ c)

def kv_main_v24 (c : Dev nD) : Vec Ideal S1x128 .f32 := rowOf (kv_main_v12 m c)
def kv_main_v25 (c : Dev nD) : Vec Ideal S1x128 .f32 := rowOf (kv_main_v17 m c)
def kv_main_v26 (c : Dev nD) : Vec Ideal S1x128 .f32 := rowOf (m ((c : Thread nD τ).loc main_arg12))
def kv_main_v27 (c : Dev nD) : Vec Ideal S1x128 .f32 := rowOf (m ((c : Thread nD τ).loc main_arg13))
theorem W7_main_v24 : (W7 m ρ c (Proc.devRef .tc main_v24) : Vec Ideal S1x128 .f32) = kv_main_v24 m c := by
  have h := after_hostOps3_main_v24 (F := Ideal) (W6 m ρ c)
  rw [W6_main_v12 m ρ c] at h
  exact h
theorem W7_main_v25 : (W7 m ρ c (Proc.devRef .tc main_v25) : Vec Ideal S1x128 .f32) = kv_main_v25 m c := by
  have h := after_hostOps3_main_v25 (F := Ideal) (W6 m ρ c)
  rw [W6_main_v17 m ρ c] at h
  exact h
theorem W7_main_v26 : (W7 m ρ c (Proc.devRef .tc main_v26) : Vec Ideal S1x128 .f32) = kv_main_v26 m c := by
  have h := after_hostOps3_main_v26 (F := Ideal) (W6 m ρ c)
  rw [W6_launch m ρ c main_arg12 (by decide)] at h
  exact h
theorem W7_main_v27 : (W7 m ρ c (Proc.devRef .tc main_v27) : Vec Ideal S1x128 .f32) = kv_main_v27 m c := by
  have h := after_hostOps3_main_v27 (F := Ideal) (W6 m ρ c)
  rw [W6_launch m ρ c main_arg13 (by decide)] at h
  exact h

def kv_main_v28 (c : Dev nD) : Vec Ideal S800000x128 .f32 :=
  G3 (m ((c : Thread nD τ).loc main_arg1)) (kv_main_v24 m c) (kv_main_v25 m c) (kv_main_v26 m c) (kv_main_v27 m c)
    (m ((c : Thread nD τ).loc main_arg7))
theorem W8_main_v28 : (W8 m ρ c (Proc.devRef .tc main_v28) : Vec Ideal S800000x128 .f32) = kv_main_v28 m c := by
  have h : (W8 m ρ c (Proc.devRef .tc main_v28) : Vec Ideal S800000x128 .f32)
      = G3 (W7 m ρ c (Proc.devRef .tc main_arg1)) (W7 m ρ c (Proc.devRef .tc main_v24)) (W7 m ρ c (Proc.devRef .tc main_v25))
          (W7 m ρ c (Proc.devRef .tc main_v26)) (W7 m ρ c (Proc.devRef .tc main_v27)) (W7 m ρ c (Proc.devRef .tc main_arg7)) :=
    (exitOf_arr launch3 dat3 _ c 6).trans (value3 _ c)
  rw [W7_launch m ρ c main_arg1 (by decide), W7_main_v24 m ρ c, W7_main_v25 m ρ c, W7_main_v26 m ρ c, W7_main_v27 m ρ c,
    W7_launch m ρ c main_arg7 (by decide)] at h
  exact h
theorem W8_main_v23 : (W8 m ρ c (Proc.devRef .tc main_v23) : Vec Ideal S50000x384 .f32) = kv_main_v23 m c := (exitOf_keep launch3 dat3 _ A_eq3 c main_v23 (by decide)).trans ((StableHlo.after_of_writes_sub (r := main_v23) hostOps3 _ hostOps3_writes (by decide)).trans (W6_main_v23 m ρ c))
theorem W8_main_cst : (W8 m ρ c (Proc.devRef .tc main_cst) : Vec Ideal S128x4 .f32) = kv_main_cst := (exitOf_keep launch3 dat3 _ A_eq3 c main_cst (by decide)).trans <| (StableHlo.after_of_writes_sub (r := main_cst) hostOps3 _ hostOps3_writes (by decide)).trans <| (exitOf_keep launch2 dat2 _ A_eq2 c main_cst (by decide)).trans <|
    (StableHlo.after_of_writes_sub (r := main_cst) hostOps2 _ hostOps2_writes (by decide)).trans <| (exitOf_keep launch1 dat1 _ A_eq1 c main_cst (by decide)).trans <| (StableHlo.after_of_writes_sub (r := main_cst) hostOps1 _ hostOps1_writes (by decide)).trans <|
    (exitOf_keep launch0 dat0 _ A_eq0 c main_cst (by decide)).trans (W1_main_cst m ρ c)

def kv_main_v29 (c : Dev nD) : Vec Ideal S50000x128 .f32 := cutLo384 (F := Ideal) (kv_main_v23 m c)
def kv_main_v30 (c : Dev nD) : Vec Ideal S50000x256 .f32 := cutHi384 (F := Ideal) (kv_main_v23 m c)
def kv_main_v37 (c : Dev nD) : Vec Ideal S800000x256 .f32 :=
  Host.gather gather_S50000x256_S800000x1_S800000x256_1_0_n_n_0_1_1256 (kv_main_v30 m c)
    (idxCol (wrapIdx (m ((c : Thread nD τ).loc main_arg2))))
def kv_main_v44 (c : Dev nD) : Vec Ideal S800000x128 .f32 :=
  Host.gather gather_S50000x128_S800000x1_S800000x128_1_0_n_n_0_1_1128 (kv_main_v29 m c)
    (idxCol (wrapIdx (m ((c : Thread nD τ).loc main_arg3))))
def kv_main_v45 : Vec Ideal S4x128 .f32 := transpose S4x128 [1, 0] kv_main_cst transposes_S128x4_S4x128_1_0
theorem W9_main_v29 : (W9 m ρ c (Proc.devRef .tc main_v29) : Vec Ideal S50000x128 .f32) = kv_main_v29 m c := by
  have h := after_hostOps4_main_v29 (F := Ideal) (W8 m ρ c)
  rw [W8_main_v23 m ρ c] at h
  exact h
theorem W9_main_v30 : (W9 m ρ c (Proc.devRef .tc main_v30) : Vec Ideal S50000x256 .f32) = kv_main_v30 m c := by
  have h := after_hostOps4_main_v30 (F := Ideal) (W8 m ρ c)
  rw [W8_main_v23 m ρ c] at h
  exact h
theorem W9_main_v37 : (W9 m ρ c (Proc.devRef .tc main_v37) : Vec Ideal S800000x256 .f32) = kv_main_v37 m c := by
  have h := after_hostOps4_main_v37 (F := Ideal) (W8 m ρ c)
  rw [W8_main_v23 m ρ c, W8_launch m ρ c main_arg2 (by decide)] at h
  exact h
theorem W9_main_v44 : (W9 m ρ c (Proc.devRef .tc main_v44) : Vec Ideal S800000x128 .f32) = kv_main_v44 m c := by
  have h := after_hostOps4_main_v44 (F := Ideal) (W8 m ρ c)
  rw [W8_main_v23 m ρ c, W8_launch m ρ c main_arg3 (by decide)] at h
  exact h
theorem W9_main_v45 : (W9 m ρ c (Proc.devRef .tc main_v45) : Vec Ideal S4x128 .f32) = kv_main_v45 := by
  have h := after_hostOps4_main_v45 (F := Ideal) (W8 m ρ c)
  rw [W8_main_cst m ρ c] at h
  exact h
theorem W9_main_v28 : (W9 m ρ c (Proc.devRef .tc main_v28) : Vec Ideal S800000x128 .f32) = kv_main_v28 m c := (StableHlo.after_of_writes_sub (r := main_v28) hostOps4 _ hostOps4_writes (by decide)).trans (W8_main_v28 m ρ c)
theorem W9_main_cst : (W9 m ρ c (Proc.devRef .tc main_cst) : Vec Ideal S128x4 .f32) = kv_main_cst := (StableHlo.after_of_writes_sub (r := main_cst) hostOps4 _ hostOps4_writes (by decide)).trans (W8_main_cst m ρ c)

def kv_main_v46 (c : Dev nD) : Vec Ideal S800000x256 .f32 :=
  G4 (kv_main_v37 m c) (kv_main_v44 m c) (kv_main_v28 m c) kv_main_cst kv_main_v45
theorem W10_main_v46 : (W10 m ρ c (Proc.devRef .tc main_v46) : Vec Ideal S800000x256 .f32) = kv_main_v46 m c := by
  have h : (W10 m ρ c (Proc.devRef .tc main_v46) : Vec Ideal S800000x256 .f32)
      = G4 (W9 m ρ c (Proc.devRef .tc main_v37)) (W9 m ρ c (Proc.devRef .tc main_v44)) (W9 m ρ c (Proc.devRef .tc main_v28))
          (W9 m ρ c (Proc.devRef .tc main_cst)) (W9 m ρ c (Proc.devRef .tc main_v45)) :=
    (exitOf_arr launch4 dat4 _ c 5).trans (value4 _ c)
  rw [W9_main_v37 m ρ c, W9_main_v44 m ρ c, W9_main_v28 m ρ c, W9_main_cst m ρ c, W9_main_v45 m ρ c] at h
  exact h

def kv_main_v49 (c : Dev nD) : Vec Ideal S50000x256 .f32 := scat256 (F := Ideal) (m ((c : Thread nD τ).loc main_arg3)) (kv_main_v46 m c)
def kv_main_v50 (c : Dev nD) : Vec Ideal S50000x128 .f32 :=
  extractStridedSlice S50000x128 ![0, 0] (kv_main_v49 m c) slices_S50000x256_S50000x128_0_0
def kv_main_v51 (c : Dev nD) : Vec Ideal S50000x128 .f32 :=
  extractStridedSlice S50000x128 ![0, 128] (kv_main_v49 m c) slices_S50000x256_S50000x128_0_128
def kv_main_v52 (c : Dev nD) : Vec Ideal S1x128 .f32 := rowOf (m ((c : Thread nD τ).loc main_arg9))
theorem W11_main_v49 : (W11 m ρ c (Proc.devRef .tc main_v49) : Vec Ideal S50000x256 .f32) = kv_main_v49 m c := by
  have h := after_hostOps5_main_v49 (F := Ideal) (W10 m ρ c)
  rw [W10_launch m ρ c main_arg3 (by decide), W10_main_v46 m ρ c] at h
  exact h
theorem W11_main_v50 : (W11 m ρ c (Proc.devRef .tc main_v50) : Vec Ideal S50000x128 .f32) = kv_main_v50 m c := by
  have h := after_hostOps5_main_v50 (F := Ideal) (W10 m ρ c)
  rw [W10_launch m ρ c main_arg3 (by decide), W10_main_v46 m ρ c] at h
  exact h
theorem W11_main_v51 : (W11 m ρ c (Proc.devRef .tc main_v51) : Vec Ideal S50000x128 .f32) = kv_main_v51 m c := by
  have h := after_hostOps5_main_v51 (F := Ideal) (W10 m ρ c)
  rw [W10_launch m ρ c main_arg3 (by decide), W10_main_v46 m ρ c] at h
  exact h
theorem W11_main_v52 : (W11 m ρ c (Proc.devRef .tc main_v52) : Vec Ideal S1x128 .f32) = kv_main_v52 m c := by
  have h := after_hostOps5_main_v52 (F := Ideal) (W10 m ρ c)
  rw [W10_launch m ρ c main_arg9 (by decide)] at h
  exact h

def kv_main_v53 (c : Dev nD) : Vec Ideal S50000x128 .f32 :=
  G5 (kv_main_v50 m c) (kv_main_v51 m c) (m ((c : Thread nD τ).loc main_arg8)) (kv_main_v52 m c)
    (m ((c : Thread nD τ).loc main_arg0))
theorem W12_main_v53 : (W12 m ρ c (Proc.devRef .tc main_v53) : Vec Ideal S50000x128 .f32) = kv_main_v53 m c := by
  have h : (W12 m ρ c (Proc.devRef .tc main_v53) : Vec Ideal S50000x128 .f32)
      = G5 (W11 m ρ c (Proc.devRef .tc main_v50)) (W11 m ρ c (Proc.devRef .tc main_v51)) (W11 m ρ c (Proc.devRef .tc main_arg8))
          (W11 m ρ c (Proc.devRef .tc main_v52)) (W11 m ρ c (Proc.devRef .tc main_arg0)) :=
    (exitOf_arr launch5 dat5 _ c 5).trans (value5 _ c)
  rw [W11_main_v50 m ρ c, W11_main_v51 m ρ c, W11_launch m ρ c main_arg8 (by decide), W11_main_v52 m ρ c,
    W11_launch m ρ c main_arg0 (by decide)] at h
  exact h

def kv_main_v54_0 (c : Dev nD) : Vec Ideal S1x128 .f32 := colSum6 (kv_main_v53 m c)
def kv_main_v54_1 (c : Dev nD) : Vec Ideal S1x128 .f32 := colSumSq6 (kv_main_v53 m c)
theorem W13_main_v54_0 : (W13 m ρ c (Proc.devRef .tc main_v54_0) : Vec Ideal S1x128 .f32) = kv_main_v54_0 m c := by
  have h : (W13 m ρ c (Proc.devRef .tc main_v54_0) : Vec Ideal S1x128 .f32) = colSum6 (W12 m ρ c (Proc.devRef .tc main_v53)) :=
    (exitOf_arr launch6 dat6 _ c 1).trans (value6_1 _ c)
  rw [W12_main_v53 m ρ c] at h
  exact h
theorem W13_main_v54_1 : (W13 m ρ c (Proc.devRef .tc main_v54_1) : Vec Ideal S1x128 .f32) = kv_main_v54_1 m c := by
  have h : (W13 m ρ c (Proc.devRef .tc main_v54_1) : Vec Ideal S1x128 .f32) = colSumSq6 (W12 m ρ c (Proc.devRef .tc main_v53)) :=
    (exitOf_arr launch6 dat6 _ c 2).trans (value6_2 _ c)
  rw [W12_main_v53 m ρ c] at h
  exact h
theorem W13_main_v53 : (W13 m ρ c (Proc.devRef .tc main_v53) : Vec Ideal S50000x128 .f32) = kv_main_v53 m c := (exitOf_keep launch6 dat6 _ A_eq6 c main_v53 (by decide)).trans (W12_main_v53 m ρ c)

def kv_main_v57 (c : Dev nD) : Vec Ideal S128 .f32 := meanOf 0x47435000#32 (kv_main_v54_0 m c)
def kv_main_v62 (c : Dev nD) : Vec Ideal S128 .f32 := varOf 0x47435000#32 (kv_main_v54_0 m c) (kv_main_v54_1 m c)
def kv_main_v63 (c : Dev nD) : Vec Ideal S1x128 .f32 := rowOf (kv_main_v57 m c)
def kv_main_v64 (c : Dev nD) : Vec Ideal S1x128 .f32 := rowOf (kv_main_v62 m c)
def kv_main_v65 (c : Dev nD) : Vec Ideal S1x128 .f32 := rowOf (m ((c : Thread nD τ).loc main_arg14))
def kv_main_v66 (c : Dev nD) : Vec Ideal S1x128 .f32 := rowOf (m ((c : Thread nD τ).loc main_arg15))
theorem W14_main_v57 : (W14 m ρ c (Proc.devRef .tc main_v57) : Vec Ideal S128 .f32) = kv_main_v57 m c := by
  have h := after_hostOps7_main_v57 (F := Ideal) (W13 m ρ c)
  rw [W13_main_v54_0 m ρ c] at h
  exact h
theorem W14_main_v62 : (W14 m ρ c (Proc.devRef .tc main_v62) : Vec Ideal S128 .f32) = kv_main_v62 m c := by
  have h := after_hostOps7_main_v62 (F := Ideal) (W13 m ρ c)
  rw [W13_main_v54_0 m ρ c, W13_main_v54_1 m ρ c] at h
  exact h
theorem W14_main_v63 : (W14 m ρ c (Proc.devRef .tc main_v63) : Vec Ideal S1x128 .f32) = kv_main_v63 m c := by
  have h := after_hostOps7_main_v63 (F := Ideal) (W13 m ρ c)
  rw [W13_main_v54_0 m ρ c] at h
  exact h
theorem W14_main_v64 : (W14 m ρ c (Proc.devRef .tc main_v64) : Vec Ideal S1x128 .f32) = kv_main_v64 m c := by
  have h := after_hostOps7_main_v64 (F := Ideal) (W13 m ρ c)
  rw [W13_main_v54_0 m ρ c, W13_main_v54_1 m ρ c] at h
  exact h
theorem W14_main_v65 : (W14 m ρ c (Proc.devRef .tc main_v65) : Vec Ideal S1x128 .f32) = kv_main_v65 m c := by
  have h := after_hostOps7_main_v65 (F := Ideal) (W13 m ρ c)
  rw [W13_launch m ρ c main_arg14 (by decide)] at h
  exact h
theorem W14_main_v66 : (W14 m ρ c (Proc.devRef .tc main_v66) : Vec Ideal S1x128 .f32) = kv_main_v66 m c := by
  have h := after_hostOps7_main_v66 (F := Ideal) (W13 m ρ c)
  rw [W13_launch m ρ c main_arg15 (by decide)] at h
  exact h
theorem W14_main_v53 : (W14 m ρ c (Proc.devRef .tc main_v53) : Vec Ideal S50000x128 .f32) = kv_main_v53 m c := (StableHlo.after_of_writes_sub (r := main_v53) hostOps7 _ hostOps7_writes (by decide)).trans (W13_main_v53 m ρ c)

def kv_main_v67 (c : Dev nD) : Vec Ideal S50000x256 .f32 :=
  G7 (kv_main_v53 m c) (kv_main_v63 m c) (kv_main_v64 m c) (kv_main_v65 m c) (kv_main_v66 m c)
    (m ((c : Thread nD τ).loc main_arg16))
theorem W15_main_v67 : (W15 m ρ c (Proc.devRef .tc main_v67) : Vec Ideal S50000x256 .f32) = kv_main_v67 m c := by
  have h : (W15 m ρ c (Proc.devRef .tc main_v67) : Vec Ideal S50000x256 .f32)
      = G7 (W14 m ρ c (Proc.devRef .tc main_v53)) (W14 m ρ c (Proc.devRef .tc main_v63)) (W14 m ρ c (Proc.devRef .tc main_v64))
          (W14 m ρ c (Proc.devRef .tc main_v65)) (W14 m ρ c (Proc.devRef .tc main_v66)) (W14 m ρ c (Proc.devRef .tc main_arg16)) :=
    (exitOf_arr launch7 dat7 _ c 6).trans (value7 _ c)
  rw [W14_main_v53 m ρ c, W14_main_v63 m ρ c, W14_main_v64 m ρ c, W14_main_v65 m ρ c, W14_main_v66 m ρ c,
    W14_launch m ρ c main_arg16 (by decide)] at h
  exact h
theorem W15_main_v53 : (W15 m ρ c (Proc.devRef .tc main_v53) : Vec Ideal S50000x128 .f32) = kv_main_v53 m c := (exitOf_keep launch7 dat7 _ A_eq7 c main_v53 (by decide)).trans (W14_main_v53 m ρ c)

def kv_main_v68 (c : Dev nD) : Vec Ideal S50000x128 .f32 :=
  G8 (kv_main_v67 m c) (m ((c : Thread nD τ).loc main_arg17)) (kv_main_v53 m c)
theorem result : (W16 m ρ c (Proc.devRef .tc main_v68) : Vec Ideal S50000x128 .f32) = kv_main_v68 m c := by
  have h : (W16 m ρ c (Proc.devRef .tc main_v68) : Vec Ideal S50000x128 .f32)
      = G8 (W15 m ρ c (Proc.devRef .tc main_v67)) (W15 m ρ c (Proc.devRef .tc main_arg17)) (W15 m ρ c (Proc.devRef .tc main_v53)) :=
    (exitOf_arr launch8 dat8 _ c 3).trans (value8 _ c)
  rw [W15_main_v67 m ρ c, W15_launch m ρ c main_arg17 (by decide), W15_main_v53 m ρ c] at h
  exact h

end Cert.KernelIdeal.Hand

end
-- ==== Proof.KI.Rows.lean ====
import Idealize.ShloMosaic.Lib.ValueIdx
import Idealize.ShloMosaic.PureOps.Ideal.Laws

noncomputable section

namespace Idealize.ShloMosaic.ValueIdx

open Idealize.ShloMosaic

section Rows
variable {α : Type}

/-- An update lands at index i exactly when, on every axis, start plus window coordinate is i's coordinate. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : ℤ) := by
  unfold ScatterDims.resultIdx?
  split
  · rename_i h
    refine ⟨fun heq a => ?_, fun h' => congrArg some (funext fun a => Fin.ext ?_)⟩
    · have e : (d.start j idx a + d.window j a).toNat = (i a).val := congrArg (fun f => (f a).val) (Option.some.inj heq)
      have := h a
      omega
    · show (d.start j idx a + d.window j a).toNat = (i a).val
      rw [h' a]
      rfl
  · rename_i h
    refine ⟨fun heq => (nomatch heq), fun h' => absurd (fun a => ?_) h⟩
    have := (i a).isLt
    rw [h' a]
    omega

private theorem one_not_mem_zero : (1 : Fin 2) ∉ ([0] : List (Fin 2)) := by decide
private theorem one_mem_kept_zero' : (1 : Fin 2) ∈ (List.finRange 2).filter (· ∉ ([0] ++ [] : List (Fin 2))) := by decide
private theorem one_mem_kept_zero : (1 : Fin 2) ∈ (List.finRange 2).filter (· ∉ ([0] : List (Fin 2))) := by decide
private theorem zero_not_mem_kept_zero : (0 : Fin 2) ∉ (List.finRange 2).filter (· ∉ ([0] : List (Fin 2))) := by decide

abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row an index entry names: read signed and clamped into [0, N - 1]. -/
def rowOf (N : Nat) (hN : 0 < N) {w : Nat} (b : BitVec w) : Fin N := ⟨min b.toInt.toNat (N - 1), by omega⟩

/-- A gather of whole rows at (e, j): the operand at row rowOf (idx (e, 0)), column j. -/
theorem gatherRows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowsDims N R C wf) x idx (ix2 e j) = x (ix2 (rowOf N hN (idx (ix2 e 0))) j) := by
  have h0 : (rowsDims N R C wf).start (ix2 e j) idx 0 + (rowsDims N R C wf).batchCoord (ix2 e j) 0
      + (rowsDims N R C wf).offCoord (ix2 e j) 0 = (rowOf N hN (idx (ix2 e 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e j) ⟨List.idxOf (0 : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowsDims N R C wf).start (ix2 e j) idx 1 + (rowsDims N R C wf).batchCoord (ix2 e j) 1
      + (rowsDims N R C wf).offCoord (ix2 e j) 1 = j.val := by
    rw [GatherDims.batchCoord_eq_zero _ _ _ List.not_mem_nil]
    unfold GatherDims.start GatherDims.offCoord
    rw [dif_neg (show ¬ (1 : Fin 2) ∈ (rowsDims N R C wf).startIndexMap from one_not_mem_zero),
      dif_pos (show (1 : Fin 2) ∈ (rowsDims N R C wf).sKept from one_mem_kept_zero')]
    simp only [Nat.add_zero, Nat.zero_add]
    rfl
  unfold Host.gather
  refine congrArg x (funext fun a => ?_)
  match a with
  | ⟨0, _⟩ => exact Fin.ext h0
  | ⟨1, _⟩ => exact Fin.ext h1

abbrev rowsScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An entry lands on row n when, read signed and not clamped, it is n. -/
def lands {w N : Nat} (b : BitVec w) (n : Fin N) : Prop := b.toInt = (n.val : ℤ)

instance {w N : Nat} (b : BitVec w) (n : Fin N) : Decidable (lands b n) := inferInstanceAs (Decidable (_ = _))

variable {N R C w : Nat} (wf : ScatterDims.WF ⟨2, ![N, C]⟩ ⟨2, ![R, 1]⟩ ⟨2, ![R, C]⟩ [1] [0] [0] 1)

theorem rowsScatter_start0 (idx : IVec ⟨2, ![R, 1]⟩ w) (e : Fin R) (b : Fin C) :
    (rowsScatter N R C wf).start (ix2 e b) idx 0 = (idx (ix2 e 0)).toInt := by
  unfold ScatterDims.start
  rw [dif_pos (show (0 : Fin 2) ∈ (rowsScatter N R C wf).scatterDimsToOperandDims from List.mem_singleton.mpr rfl)]
  have hsi : (rowsScatter N R C wf).siIdx (ix2 e b) ⟨List.idxOf (0 : Fin 2) (rowsScatter N R C wf).scatterDimsToOperandDims,
      List.idxOf_lt_length_iff.2 (List.mem_singleton.mpr rfl)⟩ = ix2 e 0 := by
    funext a; refine Fin.ext ?_
    match a with
    | ⟨0, _⟩ => rfl
    | ⟨1, _⟩ => rfl
  rw [hsi]

theorem rowsScatter_start1 (idx : IVec ⟨2, ![R, 1]⟩ w) (e : Fin R) (b : Fin C) :
    (rowsScatter N R C wf).start (ix2 e b) idx 1 = 0 := by
  unfold ScatterDims.start
  rw [dif_neg (show ¬ (1 : Fin 2) ∈ (rowsScatter N R C wf).scatterDimsToOperandDims from one_not_mem_zero)]

theorem rowsScatter_window0 (e : Fin R) (b : Fin C) : (rowsScatter N R C wf).window (ix2 e b) 0 = 0 := by
  unfold ScatterDims.window
  rw [dif_neg (show ¬ (0 : Fin 2) ∈ (rowsScatter N R C wf).sKept from zero_not_mem_kept_zero)]

theorem rowsScatter_window1 (e : Fin R) (b : Fin C) : (rowsScatter N R C wf).window (ix2 e b) 1 = b.val := by
  unfold ScatterDims.window
  rw [dif_pos (show (1 : Fin 2) ∈ (rowsScatter N R C wf).sKept from one_mem_kept_zero)]
  rfl

theorem rowsScatter_resultIdx?_eq_some_iff (idx : IVec ⟨2, ![R, 1]⟩ w) (e : Fin R) (b : Fin C) (n : Fin N) (c : Fin C) :
    (rowsScatter N R C wf).resultIdx? (ix2 e b) idx = some (ix2 n c) ↔ lands (idx (ix2 e 0)) n ∧ b = c := by
  rw [resultIdx?_eq_some_iff]
  refine Iff.trans ⟨fun h => And.intro (show _ = (n.val : ℤ) from h 0) (show _ = (c.val : ℤ) from h 1), fun h a => ?_⟩ ?_
  · match a with
    | ⟨0, _⟩ => exact h.1
    | ⟨1, _⟩ => exact h.2
  · rw [rowsScatter_start0, rowsScatter_window0, rowsScatter_start1, rowsScatter_window1]
    unfold lands
    constructor
    · rintro ⟨h0, h1⟩
      exact ⟨by omega, Fin.ext (by omega)⟩
    · rintro ⟨h0, rfl⟩
      exact ⟨by omega, by omega⟩

/-- A scatter-add of whole rows at (n, c): the operand plus the updates of the entries that land on row n. -/
theorem scatterAddRows_host_apply {φ : FTy} (x : FVec Ideal ⟨2, ![N, C]⟩ φ) (idx : IVec ⟨2, ![R, 1]⟩ w)
    (u : FVec Ideal ⟨2, ![R, C]⟩ φ) (n : Fin N) (c : Fin C) :
    Host.scatterAdd (rowsScatter N R C wf) x idx u (ix2 n c)
      = x (ix2 n c) + ∑ e ∈ Finset.univ.filter (fun e : Fin R => lands (idx (ix2 e 0)) n), u (ix2 e c) := by
  show Ideal.hostScatterAdd (rowsScatter N R C wf) x idx u (ix2 n c) = _
  unfold Ideal.hostScatterAdd
  congr 1
  rw [Finset.sum_filter, sum_idx2, Finset.sum_filter]
  refine Finset.sum_congr rfl fun e _ => ?_
  simp only [rowsScatter_resultIdx?_eq_some_iff]
  by_cases hl : lands (idx (ix2 e 0)) n
  · simp only [hl, true_and, if_true]
    rw [Finset.sum_ite_eq' Finset.univ c (fun b => u (ix2 e b))]
    simp
  · simp only [hl, false_and, if_false, Finset.sum_const_zero]

end Rows

end Idealize.ShloMosaic.ValueIdx
-- ==== Proof.KI.Host4Idx.lean ====
import proofs.«163757_j14508399526691_2_alg».proof.Proof.KI.Host4
import proofs.«163757_j14508399526691_2_alg».proof.Proof.KI.Rows
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.ValueIdx

variable {F : FTy → Type} [FloatOps F] [Named F]

def wrap (b : BitVec 32) : BitVec 32 := Scalar.select (IntOp.cmpi .slt b 0#32) (IntOp.addi b 50000#32) b

def colLo (j : Fin 128) : Fin 384 := ⟨j.val, by omega⟩

def colHi (j : Fin 256) : Fin 384 := ⟨128 + j.val, by omega⟩

def halfLo (j : Fin 128) : Fin 256 := ⟨j.val, by omega⟩

def halfHi (j : Fin 128) : Fin 256 := ⟨128 + j.val, by omega⟩

theorem idxCol_apply (a : IVec S800000 32) (e : Fin 800000) (u : Fin 1) : idxCol a (ix2 e u) = a (ix1 e) :=
  broadcastInDim_apply _ _ a _ _ fun c => match c with | ⟨0, _⟩ => rfl

theorem cutLo384_apply (x : FVec F S50000x384 .f32) (i : Fin 50000) (j : Fin 128) :
    cutLo384 x (ix2 i j) = x (ix2 i (colLo j)) :=
  slice2_axis1_apply 0 x slices_S50000x384_S50000x128_0_0 i j (colLo j) (Nat.zero_add _).symm

theorem cutHi384_apply (x : FVec F S50000x384 .f32) (i : Fin 50000) (j : Fin 256) :
    cutHi384 x (ix2 i j) = x (ix2 i (colHi j)) :=
  slice2_axis1_apply 128 x slices_S50000x384_S50000x256_0_128 i j (colHi j) rfl

theorem gather256_apply (x : FVec F S50000x256 .f32) (idx : IVec S800000x1 32) (e : Fin 800000) (j : Fin 256) :
    Host.gather gather_S50000x256_S800000x1_S800000x256_1_0_n_n_0_1_1256 x idx (ix2 e j)
      = x (ix2 (rowOf 50000 (by decide) (idx (ix2 e 0))) j) :=
  gatherRows_apply (by decide) gather_S50000x256_S800000x1_S800000x256_1_0_n_n_0_1_1256_wf x idx e j

theorem gather128_apply (x : FVec F S50000x128 .f32) (idx : IVec S800000x1 32) (e : Fin 800000) (j : Fin 128) :
    Host.gather gather_S50000x128_S800000x1_S800000x128_1_0_n_n_0_1_1128 x idx (ix2 e j)
      = x (ix2 (rowOf 50000 (by decide) (idx (ix2 e 0))) j) :=
  gatherRows_apply (by decide) gather_S50000x128_S800000x1_S800000x128_1_0_n_n_0_1_1128_wf x idx e j

theorem scat256_apply (idx : IVec S800000 32) (u : FVec Ideal S800000x256 .f32) (n : Fin 50000) (c : Fin 256) :
    scat256 idx u (ix2 n c) = Ideal.ofBits .f32 0x00000000#32
      + ∑ e ∈ Finset.univ.filter (fun e : Fin 800000 => lands (idx (ix1 e)) n), u (ix2 e c) := by
  have hidx : ∀ e : Fin 800000, idxCol idx (ix2 e 0) = idx (ix1 e) := fun e => idxCol_apply idx e 0
  unfold scat256
  refine (scatterAddRows_host_apply scatter_S50000x256_S800000x1_S800000x256_1_0_0_1_wf zeros256 (idxCol idx) u n c).trans ?_
  simp only [hidx]
  rfl

end Cert.KernelIdeal.Hand
-- ==== Proof.Ref.Read1.lean ====
import proofs.«163757_j14508399526691_2_alg».proof.Proof.Ref.Run
import Idealize.ShloMosaic.Lib.ValueIdx
import Idealize.ShloMosaic.Lib.StackMember
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Read

open Cert.ReferenceIdeal Cert.ReferenceIdeal.Gen Cert.ReferenceIdeal.Hand Idealize.ShloMosaic Idealize.SL.Sem Idealize.ShloMosaic.ValueIdx
open scoped BigOperators

theorem ofBits_50000 : Ideal.ofBits .f32 0x47435000#32 = ((50000 : ℝ) : EReal) := by
  simp [Ideal.ofBits, Ideal.ieee, -EReal.coe_mul]; norm_num

theorem ofBits_800000 : Ideal.ofBits .f32 0x49435000#32 = ((800000 : ℝ) : EReal) := by
  simp [Ideal.ofBits, Ideal.ieee, -EReal.coe_mul]; norm_num

theorem pos_50000 : (0 : EReal) < Ideal.ofBits .f32 0x47435000#32 := by
  rw [ofBits_50000]; exact EReal.coe_pos.mpr (by norm_num)

theorem pos_800000 : (0 : EReal) < Ideal.ofBits .f32 0x49435000#32 := by
  rw [ofBits_800000]; exact EReal.coe_pos.mpr (by norm_num)

theorem hostRsqrt_apply (v : Vec Ideal S128 .f32) (j : Fin 128) :
    Host.rsqrt (F := Ideal) (φ := .f32) v (ix1 j) = Ideal.rsqrt (v (ix1 j)) := rfl

theorem sub_sitofp_zero (c : EReal) : c - (((0#32 : BitVec 32).toInt : ℝ) : EReal) = c := by
  have h : (((0#32 : BitVec 32).toInt : ℝ) : EReal) = 0 := by
    rw [show (0#32 : BitVec 32).toInt = 0 from rfl, Int.cast_zero, EReal.coe_zero]
  rw [h, sub_zero]

section Cols
variable {R : Nat} (hr : (Mx R).ReducesTo [0] S128) (hr' : (Mx R).Reduces [0] S128)
  (hb : S1x128.BroadcastsInDim (Mx R) (![0, 1] : Fin 2 → Fin (Mx R).rank)) (w : BitVec 32)

theorem rowsOf_apply (v : Vec Ideal S128 .f32) (i : Fin R) (j : Fin 128) : rowsOf hb v (ix2 i j) = v (ix1 j) := by
  unfold rowsOf
  refine (broadcastInDim_apply _ _ _ (ix2 i j) (ix2 (0 : Fin 1) j) (fun a => ?_)).trans ?_
  · match a with
    | ⟨0, _⟩ => rfl
    | ⟨1, _⟩ => rfl
  · exact broadcastInDim_apply _ _ _ _ (ix1 j) (fun a => by match a with | ⟨0, _⟩ => rfl)

theorem colNorm_apply (x : Vec Ideal (Mx R) .f32) (mean var g b : Vec Ideal S128 .f32) (i : Fin R) (j : Fin 128) :
    colNorm hb x mean var g b (ix2 i j)
      = (x (ix2 i j) - mean (ix1 j)) * Ideal.rsqrt (var (ix1 j) + Ideal.ofBits .f32 0x3727C5AC#32) * g (ix1 j) + b (ix1 j) := by
  unfold colNorm
  rw [addf_apply, mulf_apply, mulf_apply, subf_apply, rowsOf_apply, rowsOf_apply, rowsOf_apply, rowsOf_apply,
    hostRsqrt_apply, addf_apply, broadcastInDim_scalar_apply, constant_apply]

/-- By heads, entry (n, a, d) is the matrix entry (n, 32 a + d). -/
theorem heads_apply (hc : (Mx R).ShapeCasts ⟨3, ![R, 4, 32]⟩) (x : Vec Ideal (Mx R) .f32) (n : Fin R) (a : Fin 4) (d : Fin 32) :
    shapeCast ⟨3, ![R, 4, 32]⟩ x hc (ix3 n a d) = x (ix2 n (⟨32 * a.val + d.val, by omega⟩ : Fin 128)) :=
  shapeCast_apply x _ (ix3 n a d) (ix2 n (⟨32 * a.val + d.val, by omega⟩ : Fin 128)) (by
    rw [Shape.rowMajor_val_two, Shape.rowMajor_val_three]
    show n.val * 128 + (32 * a.val + d.val) = (n.val * 4 + a.val) * 32 + d.val
    omega)

theorem colCnt_apply : colCnt (F := Ideal) w ix0 = Ideal.ofBits .f32 w - (((0#32 : BitVec 32).toInt : ℝ) : EReal) := rfl

include hr'

/-- A column sum from the zero word: zero plus the sum down the R rows. -/
theorem colsum_apply (x : Vec Ideal (Mx R) .f32) (j : Fin 128) :
    Host.reduceAdd (F := Ideal) (φ := .f32) x (constant S_ .f32 0x00000000#32) hr h_S_ (ix1 j)
      = 0 + ∑ i : Fin R, x (ix2 i j) := by
  rw [hostReduceAdd_apply, constant_apply, Ideal.ofBits_zero_f32, Ideal.hostReduceAdd_single hr hr']
  refine congrArg (_ + ·) (Finset.sum_congr rfl fun k _ => ?_)
  exact congrArg x (funext fun a => Fin.ext (by match a with | ⟨0, _⟩ => rfl | ⟨1, _⟩ => rfl))

theorem colMean_apply (x : Vec Ideal (Mx R) .f32) (j : Fin 128) :
    colMean hr w x (ix1 j) = Ideal.div (0 + ∑ i : Fin R, x (ix2 i j)) (Ideal.ofBits .f32 w) := by
  unfold colMean
  rw [hostDivf_apply, broadcastInDim_scalar_apply, constant_apply, colsum_apply hr hr']

theorem colDev_apply (x : Vec Ideal (Mx R) .f32) (i : Fin R) (j : Fin 128) :
    colDev hr hb w x (ix2 i j) = x (ix2 i j) - colMean hr w x (ix1 j) := by
  unfold colDev
  rw [subf_apply, colMean_apply hr hr']
  refine congrArg (x (ix2 i j) - ·) ?_
  refine (broadcastInDim_apply _ _ _ (ix2 i j) (ix2 (0 : Fin 1) j) (fun a => ?_)).trans ?_
  · match a with
    | ⟨0, _⟩ => rfl
    | ⟨1, _⟩ => rfl
  · rw [hostDivf_apply, broadcastInDim_scalar_apply, constant_apply,
      broadcastInDim_apply _ _ _ (ix2 (0 : Fin 1) j) (ix1 j) (fun a => by match a with | ⟨0, _⟩ => rfl), colsum_apply hr hr']

/-- The count is positive, so the select takes the mean squared deviation. -/
theorem colVar_apply (hw : (0 : EReal) < Ideal.ofBits .f32 w) (x : Vec Ideal (Mx R) .f32) (j : Fin 128) :
    colVar hr hb w x (ix1 j)
      = Ideal.div (0 + ∑ i : Fin R, (x (ix2 i j) - colMean hr w x (ix1 j)) * (x (ix2 i j) - colMean hr w x (ix1 j)))
        (Ideal.ofBits .f32 w) := by
  have hpos : Ideal.cmp .ogt (Ideal.ofBits .f32 w) 0 = 1#1 := by
    unfold Ideal.cmp
    rw [show decide ((0 : EReal) < Ideal.ofBits .f32 w) = true from decide_eq_true hw]
    rfl
  unfold colVar
  rw [select_apply, broadcastInDim_scalar_apply, cmpf_apply, Ideal.cmpf_def, constant_apply, Ideal.ofBits_zero_f32,
    colCnt_apply, hostDivf_apply, broadcastInDim_scalar_apply, colCnt_apply, broadcastInDim_scalar_apply, constant_apply,
    colsum_apply hr hr', sub_sitofp_zero, hpos, select_one]
  simp only [mulf_apply, colDev_apply hr hr']

end Cols

variable (V0 : Valuation τ sig (Elt Ideal))

abbrev arg0 : Vec Ideal S50000x128 .f32 := V0 (Proc.devRef .tc main_arg0)
abbrev arg1 : Vec Ideal S800000x128 .f32 := V0 (Proc.devRef .tc main_arg1)
abbrev arg2 : Vec Ideal S800000 .i32 := V0 (Proc.devRef .tc main_arg2)
abbrev arg3 : Vec Ideal S800000 .i32 := V0 (Proc.devRef .tc main_arg3)
abbrev arg4 : Vec Ideal S128x128 .f32 := V0 (Proc.devRef .tc main_arg4)
abbrev arg5 : Vec Ideal S128x128 .f32 := V0 (Proc.devRef .tc main_arg5)
abbrev arg6 : Vec Ideal S128x128 .f32 := V0 (Proc.devRef .tc main_arg6)
abbrev arg7 : Vec Ideal S128x128 .f32 := V0 (Proc.devRef .tc main_arg7)
abbrev arg8 : Vec Ideal S128x128 .f32 := V0 (Proc.devRef .tc main_arg8)
abbrev arg9 : Vec Ideal S128 .f32 := V0 (Proc.devRef .tc main_arg9)
abbrev arg10 : Vec Ideal S128 .f32 := V0 (Proc.devRef .tc main_arg10)
abbrev arg11 : Vec Ideal S128 .f32 := V0 (Proc.devRef .tc main_arg11)
abbrev arg12 : Vec Ideal S128 .f32 := V0 (Proc.devRef .tc main_arg12)
abbrev arg13 : Vec Ideal S128 .f32 := V0 (Proc.devRef .tc main_arg13)
abbrev arg14 : Vec Ideal S128 .f32 := V0 (Proc.devRef .tc main_arg14)
abbrev arg15 : Vec Ideal S128 .f32 := V0 (Proc.devRef .tc main_arg15)
abbrev arg16 : Vec Ideal S128x256 .f32 := V0 (Proc.devRef .tc main_arg16)
abbrev arg17 : Vec Ideal S256x128 .f32 := V0 (Proc.devRef .tc main_arg17)

theorem res_main_v2_apply (j : Fin 128) :
    res_main_v2 V0 (ix1 j)
      = Ideal.div (0 + ∑ i : Fin 50000, arg0 V0 (ix2 i j)) (Ideal.ofBits .f32 0x47435000#32) :=
  colMean_apply _ (by decide) _ (arg0 V0) j

theorem res_main_v3_apply (j : Fin 128) :
    res_main_v3 V0 (ix1 j)
      = Ideal.div (0 + ∑ i : Fin 50000, (arg0 V0 (ix2 i j) - res_main_v2 V0 (ix1 j))
          * (arg0 V0 (ix2 i j) - res_main_v2 V0 (ix1 j)))
        (Ideal.ofBits .f32 0x47435000#32) :=
  colVar_apply _ (by decide) _ _ pos_50000 (arg0 V0) j

theorem res_main_v18_apply (i : Fin 50000) (j : Fin 128) :
    res_main_v18 V0 (ix2 i j)
      = (arg0 V0 (ix2 i j) - res_main_v2 V0 (ix1 j))
          * Ideal.rsqrt (res_main_v3 V0 (ix1 j) + Ideal.ofBits .f32 0x3727C5AC#32)
          * arg10 V0 (ix1 j) + arg11 V0 (ix1 j) :=
  colNorm_apply _ (arg0 V0) _ _ _ _ i j

theorem res_main_v21_apply (j : Fin 128) :
    res_main_v21 V0 (ix1 j)
      = Ideal.div (0 + ∑ i : Fin 800000, arg1 V0 (ix2 i j)) (Ideal.ofBits .f32 0x49435000#32) :=
  colMean_apply _ (by decide) _ (arg1 V0) j

theorem res_main_v22_apply (j : Fin 128) :
    res_main_v22 V0 (ix1 j)
      = Ideal.div (0 + ∑ i : Fin 800000, (arg1 V0 (ix2 i j) - res_main_v21 V0 (ix1 j))
          * (arg1 V0 (ix2 i j) - res_main_v21 V0 (ix1 j)))
        (Ideal.ofBits .f32 0x49435000#32) :=
  colVar_apply _ (by decide) _ _ pos_800000 (arg1 V0) j

theorem res_main_v37_apply (i : Fin 800000) (j : Fin 128) :
    res_main_v37 V0 (ix2 i j)
      = (arg1 V0 (ix2 i j) - res_main_v21 V0 (ix1 j))
          * Ideal.rsqrt (res_main_v22 V0 (ix1 j) + Ideal.ofBits .f32 0x3727C5AC#32)
          * arg12 V0 (ix1 j) + arg13 V0 (ix1 j) :=
  colNorm_apply _ (arg1 V0) _ _ _ _ i j

theorem res_main_v38_apply (n : Fin 50000) (c : Fin 128) :
    res_main_v38 V0 (ix2 n c) = ∑ k : Fin 128, res_main_v18 V0 (ix2 n k) * arg4 V0 (ix2 k c) :=
  StackMember.dotGeneral_plain_apply none _ _ n c

theorem res_main_v39_apply (n : Fin 50000) (a : Fin 4) (d : Fin 32) :
    res_main_v39 V0 (ix3 n a d) = res_main_v38 V0 (ix2 n (⟨32 * a.val + d.val, by omega⟩ : Fin 128)) :=
  heads_apply _ (res_main_v38 V0) n a d

theorem res_main_v40_apply (n : Fin 50000) (c : Fin 128) :
    res_main_v40 V0 (ix2 n c) = ∑ k : Fin 128, res_main_v18 V0 (ix2 n k) * arg5 V0 (ix2 k c) :=
  StackMember.dotGeneral_plain_apply none _ _ n c

theorem res_main_v41_apply (n : Fin 50000) (a : Fin 4) (d : Fin 32) :
    res_main_v41 V0 (ix3 n a d) = res_main_v40 V0 (ix2 n (⟨32 * a.val + d.val, by omega⟩ : Fin 128)) :=
  heads_apply _ (res_main_v40 V0) n a d

theorem res_main_v42_apply (n : Fin 50000) (c : Fin 128) :
    res_main_v42 V0 (ix2 n c) = ∑ k : Fin 128, res_main_v18 V0 (ix2 n k) * arg6 V0 (ix2 k c) :=
  StackMember.dotGeneral_plain_apply none _ _ n c

theorem res_main_v43_apply (n : Fin 50000) (a : Fin 4) (d : Fin 32) :
    res_main_v43 V0 (ix3 n a d) = res_main_v42 V0 (ix2 n (⟨32 * a.val + d.val, by omega⟩ : Fin 128)) :=
  heads_apply _ (res_main_v42 V0) n a d

theorem res_main_v44_apply (n : Fin 800000) (c : Fin 128) :
    res_main_v44 V0 (ix2 n c) = ∑ k : Fin 128, res_main_v37 V0 (ix2 n k) * arg7 V0 (ix2 k c) :=
  StackMember.dotGeneral_plain_apply none _ _ n c

theorem res_main_v45_apply (n : Fin 800000) (a : Fin 4) (d : Fin 32) :
    res_main_v45 V0 (ix3 n a d) = res_main_v44 V0 (ix2 n (⟨32 * a.val + d.val, by omega⟩ : Fin 128)) :=
  heads_apply _ (res_main_v44 V0) n a d

end Cert.ReferenceIdeal.Read

end
-- ==== Proof.KI.Rows3.lean ====
import proofs.«163757_j14508399526691_2_alg».proof.Proof.KI.Rows
import Idealize.ShloMosaic.Lib.ValueIdx
import Idealize.ShloMosaic.PureOps.Ideal.Laws

noncomputable section

namespace Idealize.ShloMosaic.ValueIdx

open Idealize.ShloMosaic

section Rows3
variable {α : Type}

private theorem one_not_mem_zero3 : (1 : Fin 3) ∉ ([0] : List (Fin 3)) := by decide
private theorem two_not_mem_zero3 : (2 : Fin 3) ∉ ([0] : List (Fin 3)) := by decide
private theorem one_mem_kept3' : (1 : Fin 3) ∈ (List.finRange 3).filter (· ∉ ([0] ++ [] : List (Fin 3))) := by decide
private theorem two_mem_kept3' : (2 : Fin 3) ∈ (List.finRange 3).filter (· ∉ ([0] ++ [] : List (Fin 3))) := by decide
private theorem one_mem_kept3 : (1 : Fin 3) ∈ (List.finRange 3).filter (· ∉ ([0] : List (Fin 3))) := by decide
private theorem two_mem_kept3 : (2 : Fin 3) ∈ (List.finRange 3).filter (· ∉ ([0] : List (Fin 3))) := by decide
private theorem zero_not_mem_kept3 : (0 : Fin 3) ∉ (List.finRange 3).filter (· ∉ ([0] : List (Fin 3))) := by decide

abbrev rows3Dims (N R A B : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A gather of whole slabs at (e, a, b): the operand at row rowOf (idx (e, 0)), position (a, b). -/
theorem gatherRows3_apply {N R A B w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (e : Fin R) (a : Fin A) (b : Fin B) :
    Host.gather (rows3Dims N R A B wf) x idx (ix3 e a b) = x (ix3 (rowOf N hN (idx (ix2 e 0))) a b) := by
  have h0 : (rows3Dims N R A B wf).start (ix3 e a b) idx 0 + (rows3Dims N R A B wf).batchCoord (ix3 e a b) 0
      + (rows3Dims N R A B wf).offCoord (ix3 e a b) 0 = (rowOf N hN (idx (ix2 e 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rows3Dims N R A B wf).startIndexMap from List.mem_singleton.mpr rfl)]
    have hsi : (rows3Dims N R A B wf).siIdx (ix3 e a b) ⟨List.idxOf (0 : Fin 3) (rows3Dims N R A B wf).startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl
  have h1 : (rows3Dims N R A B wf).start (ix3 e a b) idx 1 + (rows3Dims N R A B wf).batchCoord (ix3 e a b) 1
      + (rows3Dims N R A B wf).offCoord (ix3 e a b) 1 = a.val := by
    rw [GatherDims.batchCoord_eq_zero _ _ _ List.not_mem_nil]
    unfold GatherDims.start GatherDims.offCoord
    rw [dif_neg (show ¬ (1 : Fin 3) ∈ (rows3Dims N R A B wf).startIndexMap from one_not_mem_zero3),
      dif_pos (show (1 : Fin 3) ∈ (rows3Dims N R A B wf).sKept from one_mem_kept3')]
    simp only [Nat.add_zero, Nat.zero_add]
    rfl
  have h2 : (rows3Dims N R A B wf).start (ix3 e a b) idx 2 + (rows3Dims N R A B wf).batchCoord (ix3 e a b) 2
      + (rows3Dims N R A B wf).offCoord (ix3 e a b) 2 = b.val := by
    rw [GatherDims.batchCoord_eq_zero _ _ _ List.not_mem_nil]
    unfold GatherDims.start GatherDims.offCoord
    rw [dif_neg (show ¬ (2 : Fin 3) ∈ (rows3Dims N R A B wf).startIndexMap from two_not_mem_zero3),
      dif_pos (show (2 : Fin 3) ∈ (rows3Dims N R A B wf).sKept from two_mem_kept3')]
    simp only [Nat.add_zero, Nat.zero_add]
    rfl
  unfold Host.gather
  refine congrArg x (funext fun c => ?_)
  match c with
  | ⟨0, _⟩ => exact Fin.ext h0
  | ⟨1, _⟩ => exact Fin.ext h1
  | ⟨2, _⟩ => exact Fin.ext h2

abbrev rows3Scatter (N R A B : Nat) (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ where
  updateWindowDims := [1, 2]
  insertedWindowDims := [0]
  scatterDimsToOperandDims := [0]
  indexVectorDim := 1
  wf := wf

variable {N R A B w : Nat} (wf : ScatterDims.WF ⟨3, ![N, A, B]⟩ ⟨2, ![R, 1]⟩ ⟨3, ![R, A, B]⟩ [1, 2] [0] [0] 1)

theorem rows3Scatter_start0 (idx : IVec ⟨2, ![R, 1]⟩ w) (e : Fin R) (a : Fin A) (b : Fin B) :
    (rows3Scatter N R A B wf).start (ix3 e a b) idx 0 = (idx (ix2 e 0)).toInt := by
  unfold ScatterDims.start
  rw [dif_pos (show (0 : Fin 3) ∈ (rows3Scatter N R A B wf).scatterDimsToOperandDims from List.mem_singleton.mpr rfl)]
  have hsi : (rows3Scatter N R A B wf).siIdx (ix3 e a b) ⟨List.idxOf (0 : Fin 3) (rows3Scatter N R A B wf).scatterDimsToOperandDims,
      List.idxOf_lt_length_iff.2 (List.mem_singleton.mpr rfl)⟩ = ix2 e 0 := by
    funext c; refine Fin.ext ?_
    match c with
    | ⟨0, _⟩ => rfl
    | ⟨1, _⟩ => rfl
  rw [hsi]

theorem rows3Scatter_start1 (idx : IVec ⟨2, ![R, 1]⟩ w) (e : Fin R) (a : Fin A) (b : Fin B) :
    (rows3Scatter N R A B wf).start (ix3 e a b) idx 1 = 0 := by
  unfold ScatterDims.start
  rw [dif_neg (show ¬ (1 : Fin 3) ∈ (rows3Scatter N R A B wf).scatterDimsToOperandDims from one_not_mem_zero3)]
theorem rows3Scatter_start2 (idx : IVec ⟨2, ![R, 1]⟩ w) (e : Fin R) (a : Fin A) (b : Fin B) :
    (rows3Scatter N R A B wf).start (ix3 e a b) idx 2 = 0 := by
  unfold ScatterDims.start
  rw [dif_neg (show ¬ (2 : Fin 3) ∈ (rows3Scatter N R A B wf).scatterDimsToOperandDims from two_not_mem_zero3)]

theorem rows3Scatter_window0 (e : Fin R) (a : Fin A) (b : Fin B) : (rows3Scatter N R A B wf).window (ix3 e a b) 0 = 0 := by
  unfold ScatterDims.window
  rw [dif_neg (show ¬ (0 : Fin 3) ∈ (rows3Scatter N R A B wf).sKept from zero_not_mem_kept3)]
theorem rows3Scatter_window1 (e : Fin R) (a : Fin A) (b : Fin B) : (rows3Scatter N R A B wf).window (ix3 e a b) 1 = a.val := by
  unfold ScatterDims.window
  rw [dif_pos (show (1 : Fin 3) ∈ (rows3Scatter N R A B wf).sKept from one_mem_kept3)]
  rfl
theorem rows3Scatter_window2 (e : Fin R) (a : Fin A) (b : Fin B) : (rows3Scatter N R A B wf).window (ix3 e a b) 2 = b.val := by
  unfold ScatterDims.window
  rw [dif_pos (show (2 : Fin 3) ∈ (rows3Scatter N R A B wf).sKept from two_mem_kept3)]
  rfl

theorem rows3Scatter_resultIdx?_eq_some_iff (idx : IVec ⟨2, ![R, 1]⟩ w) (e : Fin R) (a : Fin A) (b : Fin B)
    (n : Fin N) (a' : Fin A) (b' : Fin B) :
    (rows3Scatter N R A B wf).resultIdx? (ix3 e a b) idx = some (ix3 n a' b')
      ↔ lands (idx (ix2 e 0)) n ∧ a = a' ∧ b = b' := by
  rw [resultIdx?_eq_some_iff]
  refine Iff.trans ⟨fun h => And.intro (show _ = (n.val : ℤ) from h 0) (And.intro (show _ = (a'.val : ℤ) from h 1) (show _ = (b'.val : ℤ) from h 2)),
    fun h c => ?_⟩ ?_
  · match c with
    | ⟨0, _⟩ => exact h.1
    | ⟨1, _⟩ => exact h.2.1
    | ⟨2, _⟩ => exact h.2.2
  · rw [rows3Scatter_start0, rows3Scatter_window0, rows3Scatter_start1, rows3Scatter_window1, rows3Scatter_start2,
      rows3Scatter_window2]
    unfold lands
    constructor
    · rintro ⟨h0, h1, h2⟩
      exact ⟨by omega, Fin.ext (by omega), Fin.ext (by omega)⟩
    · rintro ⟨h0, rfl, rfl⟩
      exact ⟨by omega, by omega, by omega⟩

/-- A scatter-add of whole slabs at (n, a, b): the operand plus the updates of the entries that land on row n. -/
theorem scatterAddRows3_host_apply {φ : FTy} (x : FVec Ideal ⟨3, ![N, A, B]⟩ φ) (idx : IVec ⟨2, ![R, 1]⟩ w)
    (u : FVec Ideal ⟨3, ![R, A, B]⟩ φ) (n : Fin N) (a : Fin A) (b : Fin B) :
    Host.scatterAdd (rows3Scatter N R A B wf) x idx u (ix3 n a b)
      = x (ix3 n a b) + ∑ e ∈ Finset.univ.filter (fun e : Fin R => lands (idx (ix2 e 0)) n), u (ix3 e a b) := by
  show Ideal.hostScatterAdd (rows3Scatter N R A B wf) x idx u (ix3 n a b) = _
  unfold Ideal.hostScatterAdd
  congr 1
  have key : ∀ j : (⟨3, ![R, A, B]⟩ : Shape).Idx, (rows3Scatter N R A B wf).resultIdx? j idx = some (ix3 n a b)
      → lands (idx (ix2 (j 0) 0)) n ∧ j 1 = a ∧ j 2 = b := fun j h =>
    (rows3Scatter_resultIdx?_eq_some_iff wf idx (j 0) (j 1) (j 2) n a b).mp (eq_ix3 j ▸ h)
  refine Finset.sum_nbij' (fun j => j 0) (fun e => ix3 e a b) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rows3Scatter_resultIdx?_eq_some_iff wf idx e a b n a b).mpr ⟨(Finset.mem_filter.mp he).2, rfl, rfl⟩⟩
  · intro j hj
    obtain ⟨-, h1, h2⟩ := key j (Finset.mem_filter.mp hj).2
    show ix3 (j 0) a b = j
    rw [← h1, ← h2]
    exact (eq_ix3 j).symm
  · intro e he
    rfl
  · intro j hj
    obtain ⟨-, h1, h2⟩ := key j (Finset.mem_filter.mp hj).2
    show u j = u (ix3 (j 0) a b)
    rw [← h1, ← h2]
    exact congrArg u (eq_ix3 j)

end Rows3

end Idealize.ShloMosaic.ValueIdx
-- ==== Proof.Ref.Read2.lean ====
import proofs.«163757_j14508399526691_2_alg».proof.Proof.Ref.Run
import proofs.«163757_j14508399526691_2_alg».proof.Proof.KI.Rows
import proofs.«163757_j14508399526691_2_alg».proof.Proof.KI.Rows3
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Read

open Cert.ReferenceIdeal Cert.ReferenceIdeal.Gen Cert.ReferenceIdeal.Hand Idealize.ShloMosaic Idealize.ShloMosaic.ValueIdx
open scoped BigOperators

theorem nodes_pos : 0 < 50000 := by decide

variable (V0 : Valuation τ sig (Elt Ideal))

private theorem hostExp_apply {s : Shape} {φ : FTy} (x : FVec Ideal s φ) (i : s.Idx) : Host.exp x i = Ideal.exp (x i) := rfl

theorem wrapIdx_apply {F : FTy → Type} [FloatOps F] (i : Vec F S800000 .i32) (e : Fin 800000) :
    wrapIdx i (ix1 e)
      = Scalar.select (IntOp.cmpi .slt (i (ix1 e)) 0#32) (IntOp.addi (i (ix1 e)) 50000#32) (i (ix1 e)) := by
  unfold wrapIdx
  rw [select_apply]
  show Scalar.select (IntOp.cmpi .slt (i (ix1 e)) (broadcastInDim S800000 ![] bcast_S_S800000 (constantI S_ 32 0#32) (ix1 e)))
      (IntOp.addi (i (ix1 e)) (broadcastInDim S800000 ![] bcast_S_S800000 (constantI S_ 32 50000#32) (ix1 e))) (i (ix1 e)) = _
  rw [broadcastInDim_scalar_apply, broadcastInDim_scalar_apply]
  rfl

theorem column_apply (i : IVec S800000 32) (e : Fin 800000) :
    broadcastInDim S800000x1 ![0] bcast_S800000_S800000x1_0 i (ix2 e 0) = i (ix1 e) :=
  broadcastInDim_apply ![0] bcast_S800000_S800000x1_0 i (ix2 e 0) (ix1 e) (fun a => by match a with | ⟨0, _⟩ => rfl)

theorem rowsAt_apply {F : FTy → Type} [FloatOps F] (x : Vec F S50000x4x32 .f32) (i : Vec F S800000 .i32)
    (e : Fin 800000) (a : Fin 4) (d : Fin 32) :
    rowsAt x i (ix3 e a d) = x (ix3 (rowOf 50000 nodes_pos (wrapIdx i (ix1 e))) a d) := by
  unfold rowsAt
  refine (gatherRows3_apply nodes_pos gather_S50000x4x32_S800000x1_S800000x4x32_12_0_n_n_0_1_1432_wf x _ e a d).trans ?_
  rw [column_apply]

theorem res_main_v62_apply (e : Fin 800000) (a : Fin 4) (d : Fin 32) :
    res_main_v62 V0 (ix3 e a d)
      = Ideal.div
          (res_main_v41 V0 (ix3 (rowOf 50000 nodes_pos (wrapIdx (V0 (Proc.devRef .tc main_arg2)) (ix1 e))) a d)
            * res_main_v39 V0 (ix3 (rowOf 50000 nodes_pos (wrapIdx (V0 (Proc.devRef .tc main_arg3)) (ix1 e))) a d))
          (Ideal.ofBits .f32 0x40B504F3#32) := by
  unfold res_main_v62
  rw [hostDivf_apply, mulf_apply, rowsAt_apply, rowsAt_apply, broadcastInDim_scalar_apply, constant_apply]

theorem res_main_v63_apply (e : Fin 800000) (a : Fin 4) (d : Fin 32) :
    res_main_v63 V0 (ix3 e a d)
      = min (Ideal.ofBits .f32 0x40A00000#32) (max (Ideal.ofBits .f32 0xC0A00000#32) (res_main_v62 V0 (ix3 e a d))) := by
  unfold res_main_v63
  rw [minimumf_apply, maximumf_apply, broadcastInDim_scalar_apply, broadcastInDim_scalar_apply, constant_apply, constant_apply]

theorem res_main_v65_apply (e : Fin 800000) (a : Fin 4) :
    res_main_v65 V0 (ix2 e a) = 0 + ∑ d : Fin 32, res_main_v63 V0 (ix3 e a d) * res_main_v45 V0 (ix3 e a d) := by
  unfold res_main_v65
  rw [hostReduceAdd_apply, Ideal.hostReduceAdd_single reducesTo_S800000x4x32_S800000x4_d2 (by decide), constant_apply,
    Ideal.ofBits_zero_f32]
  refine congrArg (_ + ·) (Finset.sum_congr rfl fun k _ => ?_)
  rw [← mulf_apply]
  exact congrArg (mulf (res_main_v63 V0) (res_main_v45 V0)) (funext fun b => Fin.ext (by match b with | ⟨0, _⟩ => rfl | ⟨1, _⟩ => rfl | ⟨2, _⟩ => rfl))

theorem res_main_v68_apply (e : Fin 800000) (a : Fin 4) (z : Fin 1) :
    res_main_v68 V0 (ix3 e a z)
      = Ideal.exp (min (Ideal.ofBits .f32 0x40A00000#32) (max (Ideal.ofBits .f32 0xC0A00000#32) (res_main_v65 V0 (ix2 e a)))) := by
  unfold res_main_v68
  rw [hostExp_apply, minimumf_apply, maximumf_apply, broadcastInDim_scalar_apply, broadcastInDim_scalar_apply, constant_apply, constant_apply,
    broadcastInDim_apply ![0, 1] bcast_S800000x4_S800000x4x1_0_1 (res_main_v65 V0) (ix3 e a z) (ix2 e a)
      (fun b => by match b with | ⟨0, _⟩ => rfl | ⟨1, _⟩ => rfl)]

theorem res_main_v77_apply (e : Fin 800000) (a : Fin 4) (d : Fin 32) :
    res_main_v77 V0 (ix3 e a d)
      = res_main_v68 V0 (ix3 e a 0)
          * res_main_v43 V0 (ix3 (rowOf 50000 nodes_pos (wrapIdx (V0 (Proc.devRef .tc main_arg2)) (ix1 e))) a d) := by
  unfold res_main_v77
  rw [mulf_apply, rowsAt_apply,
    broadcastInDim_apply ![0, 1, 2] bcast_S800000x4x1_S800000x4x32_0_1_2 (res_main_v68 V0) (ix3 e a d) (ix3 e a 0)
      (fun b => by match b with | ⟨0, _⟩ => rfl | ⟨1, _⟩ => rfl | ⟨2, _⟩ => rfl)]

theorem res_main_v80_apply (n : Fin 50000) (a : Fin 4) (d : Fin 32) :
    res_main_v80 V0 (ix3 n a d)
      = 0 + ∑ e ∈ Finset.univ.filter (fun e : Fin 800000 => lands (V0 (Proc.devRef .tc main_arg3) (ix1 e)) n),
          res_main_v77 V0 (ix3 e a d) := by
  unfold res_main_v80
  refine (scatterAddRows3_host_apply scatter_S50000x4x32_S800000x1_S800000x4x32_12_0_0_1_wf _ _ _ n a d).trans ?_
  rw [broadcastInDim_scalar_apply, constant_apply, Ideal.ofBits_zero_f32]
  refine congrArg (0 + ·) (Finset.sum_congr (Finset.filter_congr fun e _ => ?_) fun _ _ => rfl)
  rw [column_apply]

theorem res_main_v83_apply (n : Fin 50000) (a : Fin 4) (z : Fin 1) :
    res_main_v83 V0 (ix3 n a z)
      = 0 + ∑ e ∈ Finset.univ.filter (fun e : Fin 800000 => lands (V0 (Proc.devRef .tc main_arg3) (ix1 e)) n),
          res_main_v68 V0 (ix3 e a z) := by
  unfold res_main_v83
  refine (scatterAddRows3_host_apply scatter_S50000x4x1_S800000x1_S800000x4x1_12_0_0_1_wf _ _ _ n a z).trans ?_
  rw [broadcastInDim_scalar_apply, constant_apply, Ideal.ofBits_zero_f32]
  refine congrArg (0 + ·) (Finset.sum_congr (Finset.filter_congr fun e _ => ?_) fun _ _ => rfl)
  rw [column_apply]

theorem res_main_v88_apply (n : Fin 50000) (j : Fin 128) :
    res_main_v88 V0 (ix2 n j)
      = Ideal.div (res_main_v80 V0 (ix3 n ⟨j.val / 32, by have := j.isLt; omega⟩ ⟨j.val % 32, by omega⟩))
          (res_main_v83 V0 (ix3 n ⟨j.val / 32, by have := j.isLt; omega⟩ 0) + Ideal.ofBits .f32 0x358637BD#32) := by
  unfold res_main_v88
  rw [shapeCast_apply _ shapeCasts_S50000x4x32_S50000x128 (ix2 n j)
      (ix3 n ⟨j.val / 32, by have := j.isLt; omega⟩ ⟨j.val % 32, by omega⟩)
      (by rw [Shape.rowMajor_val_three, Shape.rowMajor_val_two]
          show (n.val * 4 + j.val / 32) * 32 + j.val % 32 = n.val * 128 + j.val
          omega),
    hostDivf_apply,
    broadcastInDim_apply ![0, 1, 2] bcast_S50000x4x1_S50000x4x32_0_1_2 _ _ (ix3 n ⟨j.val / 32, by have := j.isLt; omega⟩ 0)
      (fun b => by match b with | ⟨0, _⟩ => rfl | ⟨1, _⟩ => rfl | ⟨2, _⟩ => rfl),
    addf_apply, broadcastInDim_scalar_apply, constant_apply]

end Cert.ReferenceIdeal.Read

end
-- ==== Proof.Ref.Read3.lean ====
import proofs.«163757_j14508399526691_2_alg».proof.Proof.Ref.Read1

noncomputable section

namespace Cert.ReferenceIdeal.Read

open Cert.ReferenceIdeal Cert.ReferenceIdeal.Facts₀ Cert.ReferenceIdeal.Hand Idealize.ShloMosaic Idealize.ShloMosaic.ValueIdx
open scoped BigOperators

variable (V0 : Valuation τ sig (Elt Ideal))

theorem res_main_v93_apply (n : Fin 50000) (j : Fin 128) :
    res_main_v93 V0 (ix2 n j)
      = arg0 V0 (ix2 n j)
        + ((∑ k : Fin 128, res_main_v88 V0 (ix2 n k) * arg8 V0 (ix2 k j)) + arg9 V0 (ix1 j)) := by
  unfold res_main_v93
  rw [addf_apply, addf_apply, rowsOf_apply]
  exact congrArg (fun s => arg0 V0 (ix2 n j) + (s + arg9 V0 (ix1 j))) (StackMember.dotGeneral_plain_apply none (res_main_v88 V0) (arg8 V0) n j)

theorem res_main_v96_apply (j : Fin 128) :
    res_main_v96 V0 (ix1 j)
      = Ideal.div (0 + ∑ i : Fin 50000, res_main_v93 V0 (ix2 i j)) (Ideal.ofBits .f32 0x47435000#32) :=
  colMean_apply _ (by decide) _ (res_main_v93 V0) j

theorem res_main_v97_apply (j : Fin 128) :
    res_main_v97 V0 (ix1 j)
      = Ideal.div (0 + ∑ i : Fin 50000, (res_main_v93 V0 (ix2 i j) - res_main_v96 V0 (ix1 j))
          * (res_main_v93 V0 (ix2 i j) - res_main_v96 V0 (ix1 j)))
        (Ideal.ofBits .f32 0x47435000#32) :=
  colVar_apply _ (by decide) _ _ pos_50000 (res_main_v93 V0) j

theorem res_main_v112_apply (n : Fin 50000) (k : Fin 128) :
    res_main_v112 V0 (ix2 n k)
      = (res_main_v93 V0 (ix2 n k) - res_main_v96 V0 (ix1 k))
          * Ideal.rsqrt (res_main_v97 V0 (ix1 k) + Ideal.ofBits .f32 0x3727C5AC#32)
          * arg14 V0 (ix1 k) + arg15 V0 (ix1 k) :=
  colNorm_apply _ _ _ _ _ _ n k

theorem res_main_v113_apply (n : Fin 50000) (c : Fin 256) :
    res_main_v113 V0 (ix2 n c) = ∑ k : Fin 128, res_main_v112 V0 (ix2 n k) * arg16 V0 (ix2 k c) :=
  StackMember.dotGeneral_plain_apply none _ _ n c

theorem res_main_v114_apply_printed (n : Fin 50000) (c : Fin 256) :
    res_main_v114 V0 (ix2 n c)
      = res_main_v113 V0 (ix2 n c)
          * Ideal.div (Ideal.ofBits .f32 0x3F800000#32)
              (Ideal.ofBits .f32 0x3F800000#32 + Ideal.exp (-(res_main_v113 V0 (ix2 n c)))) := by
  unfold res_main_v114
  simp only [mulf_apply, hostDivf_apply, addf_apply, broadcastInDim_scalar_apply, constant_apply]
  rfl

theorem res_main_v114_apply (n : Fin 50000) (c : Fin 256) :
    res_main_v114 V0 (ix2 n c) = res_main_v113 V0 (ix2 n c) * Ideal.logistic (res_main_v113 V0 (ix2 n c)) := by
  rw [res_main_v114_apply_printed, Ideal.ofBits_one_f32]
  rfl

theorem res_main_v116_apply (n : Fin 50000) (j : Fin 128) :
    res_main_v116 V0 (ix2 n j)
      = res_main_v93 V0 (ix2 n j) + ∑ k : Fin 256, res_main_v114 V0 (ix2 n k) * arg17 V0 (ix2 k j) := by
  unfold res_main_v116
  rw [addf_apply]
  exact congrArg (res_main_v93 V0 (ix2 n j) + ·) (StackMember.dotGeneral_plain_apply none (res_main_v114 V0) (arg17 V0) n j)

theorem res_out_apply (n : Fin 50000) (j : Fin 128) :
    res_out V0 (ix2 n j)
      = res_main_v93 V0 (ix2 n j) + ∑ k : Fin 256, res_main_v114 V0 (ix2 n k) * arg17 V0 (ix2 k j) :=
  res_main_v116_apply V0 n j

end Cert.ReferenceIdeal.Read

end
-- ==== Proof.Bridge.Real.lean ====
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Exp
import Mathlib.Analysis.SpecialFunctions.Sqrt
import Mathlib.Algebra.BigOperators.Group.Finset.Basic
import Mathlib.Tactic.NormNum
import Mathlib.Tactic.Positivity
import Mathlib.Tactic.Linarith

noncomputable section

namespace Cert.Bridge

open Idealize.ShloMosaic
open scoped BigOperators

def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x with
    | bot => exact absurd rfl hb
    | top => exact absurd rfl ht
    | coe r => exact ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by rw [Finset.sum_empty]; rfl⟩
  | insert a s ha ih =>
    rw [Finset.sum_insert ha]
    exact (h _ (Finset.mem_insert_self _ _)).add (ih fun i hi => h i (Finset.mem_insert_of_mem hi))

theorem coe_finset_sum {ι : Type*} (s : Finset ι) (f : ι → ℝ) : (∑ i ∈ s, ((f i : ℝ) : EReal)) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

theorem IsReal.div_coe {x : EReal} (hx : IsReal x) {d : ℝ} (hd : d ≠ 0) : IsReal (Ideal.div x (d : EReal)) := by
  rw [Ideal.div_coe hd]
  exact hx.mul (isReal_coe _)

theorem div_coe_coe (a : ℝ) {d : ℝ} (hd : d ≠ 0) : Ideal.div (a : EReal) (d : EReal) = ((a / d : ℝ) : EReal) := by
  rw [Ideal.div_coe hd, ← EReal.coe_mul, mul_one_div]

theorem IsReal.div_pos {x y : EReal} (hx : IsReal x) (hy : IsReal y) (hpos : 0 < y) : IsReal (Ideal.div x y) := by
  obtain ⟨b, rfl⟩ := hy
  have hb : 0 < b := EReal.coe_pos.mp hpos
  exact hx.div_coe hb.ne'

theorem IsReal.rsqrt_pos {x : EReal} (hx : IsReal x) (hpos : 0 < x) : IsReal (Ideal.rsqrt x) ∧ 0 < Ideal.rsqrt x := by
  obtain ⟨r, rfl⟩ := hx
  have hr : 0 < r := EReal.coe_pos.mp hpos
  rw [Ideal.rsqrt_coe, if_neg (not_lt.mpr hr.le), if_neg hr.ne']
  exact ⟨⟨_, rfl⟩, EReal.coe_pos.mpr (inv_pos.mpr (Real.sqrt_pos.mpr hr))⟩

theorem IsReal.exp {x : EReal} (hx : IsReal x) : IsReal (Ideal.exp x) ∧ 0 < Ideal.exp x := by
  obtain ⟨r, rfl⟩ := hx
  rw [Ideal.exp_coe]
  exact ⟨⟨_, rfl⟩, EReal.coe_pos.mpr (Real.exp_pos r)⟩

theorem ofBits_50000 : Ideal.ofBits .f32 0x47435000#32 = ((50000 : ℝ) : EReal) := by
  simp [Ideal.ofBits, Ideal.ieee, -EReal.coe_mul]; norm_num

theorem ofBits_800000 : Ideal.ofBits .f32 0x49435000#32 = ((800000 : ℝ) : EReal) := by
  simp [Ideal.ofBits, Ideal.ieee, -EReal.coe_mul]; norm_num

theorem ofBits_sqrt32 : Ideal.ofBits .f32 0x40B504F3#32 = ((11863283 / 2097152 : ℝ) : EReal) := by
  simp [Ideal.ofBits, Ideal.ieee, -EReal.coe_mul]; norm_num

theorem ofBits_eps5 : Ideal.ofBits .f32 0x3727C5AC#32 = ((10995116 / 1099511627776 : ℝ) : EReal) := by
  simp [Ideal.ofBits, Ideal.ieee, -EReal.coe_mul]; norm_num

theorem ofBits_eps6 : Ideal.ofBits .f32 0x358637BD#32 = ((8796093 / 8796093022208 : ℝ) : EReal) := by
  simp [Ideal.ofBits, Ideal.ieee, -EReal.coe_mul]; norm_num

theorem ofBits_five : Ideal.ofBits .f32 0x40A00000#32 = ((5 : ℝ) : EReal) := by
  simp [Ideal.ofBits, Ideal.ieee, -EReal.coe_mul]; norm_num

theorem ofBits_neg_five : Ideal.ofBits .f32 0xC0A00000#32 = ((-5 : ℝ) : EReal) := by
  simp [Ideal.ofBits, Ideal.ieee, -EReal.coe_mul, -EReal.coe_neg]; norm_num

theorem isReal_ofBits_eps5 : IsReal (Ideal.ofBits .f32 0x3727C5AC#32) := ⟨_, ofBits_eps5⟩
theorem isReal_ofBits_eps6 : IsReal (Ideal.ofBits .f32 0x358637BD#32) := ⟨_, ofBits_eps6⟩
theorem ofBits_eps5_pos : 0 < Ideal.ofBits .f32 0x3727C5AC#32 := by
  rw [ofBits_eps5]; exact EReal.coe_pos.mpr (by norm_num)

theorem ofBits_eps6_pos : 0 < Ideal.ofBits .f32 0x358637BD#32 := by
  rw [ofBits_eps6]; exact EReal.coe_pos.mpr (by norm_num)

end Cert.Bridge

end
-- ==== Proof.Bridge.Heads.lean ====
import Mathlib.Data.EReal.Basic
import Mathlib.Algebra.BigOperators.Fin
import Mathlib.Algebra.BigOperators.Ring.Finset
import Idealize.ShloMosaic.Lib.FinSumWindow

open scoped BigOperators

noncomputable section

namespace Cert.Bridge

def headMask (i : Fin 128) (h : Fin 4) : EReal := if i.val / 32 = h.val then 1 else 0

def laneOf (h : Fin 4) (d : Fin 32) : Fin 128 := ⟨32 * h.val + d.val, by omega⟩

def headOf (l : Fin 128) : Fin 4 := ⟨l.val / 32, by omega⟩

theorem headOf_laneOf (h : Fin 4) (d : Fin 32) : headOf (laneOf h d) = h := by
  apply Fin.ext; simp only [headOf, laneOf]; omega

theorem sum_heads_mask (s : Fin 4 → EReal) (l : Fin 128) :
    ∑ h : Fin 4, s h * headMask l h = s (headOf l) := by
  rw [Finset.sum_eq_single (headOf l)]
  · simp [headMask, headOf]
  · intro h _ hne
    have : ¬ l.val / 32 = h.val := fun e => hne (Fin.ext (by simp only [headOf]; omega))
    simp [headMask, this]
  · intro h; exact absurd (Finset.mem_univ _) h

/-- The summand vanishes off the head's window of 32 consecutive lanes. -/
theorem sum_lanes_mask (f : Fin 128 → EReal) (h : Fin 4) :
    ∑ i : Fin 128, f i * headMask i h = ∑ d : Fin 32, f (laneOf h d) := by
  have hh := h.isLt
  refine (Idealize.ShloMosaic.FinSumWindow.sum_window (W := 32) (32 * h.val) (by omega) _ fun i hi => ?_).trans
    (Finset.sum_congr rfl fun d _ => ?_)
  · have : ¬ i.val / 32 = h.val := by omega
    simp [headMask, this]
  · have : (32 * h.val + d.val) / 32 = h.val := by omega
    simp [headMask, laneOf, this]

end Cert.Bridge

end
-- ==== Proof.Bridge.Stages.lean ====
import proofs.«163757_j14508399526691_2_alg».proof.Proof.KI.Chain
import proofs.«163757_j14508399526691_2_alg».proof.Proof.KI.Host4Idx
import proofs.«163757_j14508399526691_2_alg».proof.Proof.Ref.Read1
import proofs.«163757_j14508399526691_2_alg».proof.Proof.Ref.Read2
import proofs.«163757_j14508399526691_2_alg».proof.Proof.Ref.Read3
import proofs.«163757_j14508399526691_2_alg».proof.Proof.Bridge.Real
import proofs.«163757_j14508399526691_2_alg».proof.Proof.Bridge.Heads

noncomputable section

open Idealize.ShloMosaic Idealize.ShloMosaic.TcCoe Idealize.ShloMosaic.ValueIdx

namespace Cert.Bridge

open Cert.KernelIdeal.Hand Cert.ReferenceIdeal.Hand

abbrev KMem := (ℓ : Loc Cert.KernelIdeal.nD Cert.KernelIdeal.τ Cert.KernelIdeal.sig) → Buf (Elt Ideal) ℓ
abbrev KDev := Dev Cert.KernelIdeal.nD
abbrev RVal := Valuation Cert.ReferenceIdeal.τ Cert.ReferenceIdeal.sig (Elt Ideal)

abbrev kArg (m : KMem) (c : KDev) (r : Ref Cert.KernelIdeal.sig .tc) := m ((c : Thread Cert.KernelIdeal.nD Cert.KernelIdeal.τ).loc r)
abbrev rArg (V0 : RVal) (r : Ref Cert.ReferenceIdeal.sig .tc) := V0 (Proc.devRef .tc r)

open Cert.KernelIdeal in
structure Agree (m : KMem) (c : KDev) (V0 : RVal) : Prop where
  a0 : rArg V0 Cert.ReferenceIdeal.main_arg0 = kArg m c main_arg0
  a1 : rArg V0 Cert.ReferenceIdeal.main_arg1 = kArg m c main_arg1
  a2 : rArg V0 Cert.ReferenceIdeal.main_arg2 = kArg m c main_arg2
  a3 : rArg V0 Cert.ReferenceIdeal.main_arg3 = kArg m c main_arg3
  a4 : rArg V0 Cert.ReferenceIdeal.main_arg4 = kArg m c main_arg4
  a5 : rArg V0 Cert.ReferenceIdeal.main_arg5 = kArg m c main_arg5
  a6 : rArg V0 Cert.ReferenceIdeal.main_arg6 = kArg m c main_arg6
  a7 : rArg V0 Cert.ReferenceIdeal.main_arg7 = kArg m c main_arg7
  a8 : rArg V0 Cert.ReferenceIdeal.main_arg8 = kArg m c main_arg8
  a9 : rArg V0 Cert.ReferenceIdeal.main_arg9 = kArg m c main_arg9
  a10 : rArg V0 Cert.ReferenceIdeal.main_arg10 = kArg m c main_arg10
  a11 : rArg V0 Cert.ReferenceIdeal.main_arg11 = kArg m c main_arg11
  a12 : rArg V0 Cert.ReferenceIdeal.main_arg12 = kArg m c main_arg12
  a13 : rArg V0 Cert.ReferenceIdeal.main_arg13 = kArg m c main_arg13
  a14 : rArg V0 Cert.ReferenceIdeal.main_arg14 = kArg m c main_arg14
  a15 : rArg V0 Cert.ReferenceIdeal.main_arg15 = kArg m c main_arg15
  a16 : rArg V0 Cert.ReferenceIdeal.main_arg16 = kArg m c main_arg16
  a17 : rArg V0 Cert.ReferenceIdeal.main_arg17 = kArg m c main_arg17
  r0 : ∀ i, IsReal ((kArg m c main_arg0 : Vec Ideal S50000x128 .f32) i)
  r1 : ∀ i, IsReal ((kArg m c main_arg1 : Vec Ideal S800000x128 .f32) i)
  r4 : ∀ i, IsReal ((kArg m c main_arg4 : Vec Ideal S128x128 .f32) i)
  r5 : ∀ i, IsReal ((kArg m c main_arg5 : Vec Ideal S128x128 .f32) i)
  r6 : ∀ i, IsReal ((kArg m c main_arg6 : Vec Ideal S128x128 .f32) i)
  r7 : ∀ i, IsReal ((kArg m c main_arg7 : Vec Ideal S128x128 .f32) i)
  r8 : ∀ i, IsReal ((kArg m c main_arg8 : Vec Ideal S128x128 .f32) i)
  r9 : ∀ i, IsReal ((kArg m c main_arg9 : Vec Ideal S128 .f32) i)
  r10 : ∀ i, IsReal ((kArg m c main_arg10 : Vec Ideal S128 .f32) i)
  r11 : ∀ i, IsReal ((kArg m c main_arg11 : Vec Ideal S128 .f32) i)
  r12 : ∀ i, IsReal ((kArg m c main_arg12 : Vec Ideal S128 .f32) i)
  r13 : ∀ i, IsReal ((kArg m c main_arg13 : Vec Ideal S128 .f32) i)
  r14 : ∀ i, IsReal ((kArg m c main_arg14 : Vec Ideal S128 .f32) i)
  r15 : ∀ i, IsReal ((kArg m c main_arg15 : Vec Ideal S128 .f32) i)
  r16 : ∀ i, IsReal ((kArg m c main_arg16 : Vec Ideal S128x256 .f32) i)
  r17 : ∀ i, IsReal ((kArg m c main_arg17 : Vec Ideal S256x128 .f32) i)

variable (m : KMem) (c : KDev) (V0 : RVal)

def colMid (l : Fin 128) : Fin 384 := ⟨128 + l.val, by omega⟩
def colTop (l : Fin 128) : Fin 384 := ⟨256 + l.val, by omega⟩

def S1N : Prop := ∀ j : Fin 128,
  kv_main_v3 m c (ix1 j) = res_main_v2 V0 (ix1 j) ∧ kv_main_v8 m c (ix1 j) = res_main_v3 V0 (ix1 j)

def S1E : Prop := ∀ j : Fin 128,
  kv_main_v12 m c (ix1 j) = res_main_v21 V0 (ix1 j) ∧ kv_main_v17 m c (ix1 j) = res_main_v22 V0 (ix1 j)

def S2 : Prop := ∀ (n : Fin 50000) (l : Fin 128),
  kv_main_v23 m c (ix2 n (⟨l.val, by omega⟩ : Fin 384)) = res_main_v38 V0 (ix2 n l)
  ∧ kv_main_v23 m c (ix2 n (colMid l)) = res_main_v40 V0 (ix2 n l)
  ∧ kv_main_v23 m c (ix2 n (colTop l)) = res_main_v42 V0 (ix2 n l)

def S3 : Prop := ∀ (e : Fin 800000) (l : Fin 128), kv_main_v28 m c (ix2 e l) = res_main_v44 V0 (ix2 e l)

def S4 : Prop := ∀ (e : Fin 800000) (a : Fin 4) (d : Fin 32),
  kv_main_v46 m c (ix2 e (halfLo (laneOf a d))) = res_main_v77 V0 (ix3 e a d)
  ∧ kv_main_v46 m c (ix2 e (halfHi (laneOf a d))) = res_main_v68 V0 (ix3 e a (0 : Fin 1))

def S5 : Prop := ∀ (n : Fin 50000) (a : Fin 4) (d : Fin 32),
  kv_main_v50 m c (ix2 n (laneOf a d)) = res_main_v80 V0 (ix3 n a d)
  ∧ kv_main_v51 m c (ix2 n (laneOf a d)) = res_main_v83 V0 (ix3 n a (0 : Fin 1))

def S6 : Prop := ∀ (n : Fin 50000) (j : Fin 128), kv_main_v53 m c (ix2 n j) = res_main_v93 V0 (ix2 n j)

def Real6 : Prop := ∀ (n : Fin 50000) (j : Fin 128), IsReal (kv_main_v53 m c (ix2 n j))

def S7 : Prop := ∀ j : Fin 128,
  kv_main_v57 m c (ix1 j) = res_main_v96 V0 (ix1 j) ∧ kv_main_v62 m c (ix1 j) = res_main_v97 V0 (ix1 j)

def S8 : Prop := ∀ (n : Fin 50000) (k : Fin 256), kv_main_v67 m c (ix2 n k) = res_main_v114 V0 (ix2 n k)

def S9 : Prop := ∀ (n : Fin 50000) (j : Fin 128), kv_main_v68 m c (ix2 n j) = res_out V0 (ix2 n j)

end Cert.Bridge

end
-- ==== Proof.Bridge.PreReal.lean ====
import proofs.«163757_j14508399526691_2_alg».proof.Defs
import proofs.«163757_j14508399526691_2_alg».proof.Proof.Gen.Pre_finite_inputs
import proofs.«163757_j14508399526691_2_alg».proof.Proof.Bridge.Real
import Idealize.ShloMosaic.Lib.ReduceAll
import Idealize.ShloMosaic.Lib.ValueIdx

noncomputable section

namespace Cert.Bridge

open Idealize.ShloMosaic Idealize.ShloMosaic.ValueIdx
open scoped BigOperators

section Test
open Cert.Pre_finite_inputs

instance : Subsingleton S_.Idx := ⟨fun a b => funext fun d => d.elim0⟩

/-- `|x| = max x (−x)` is below `⊤` only when `x` is neither infinity. -/
theorem isReal_of_all_lt_inf {s : Shape} {axes : List (Fin s.rank)} {x : FVec Ideal s .f32}
    {hb : S_.BroadcastsInDim s (![] : Fin 0 → Fin s.rank)} {hr : s.ReducesTo axes S_} {hu : 0 < S_.numel}
    (e : Host.reduce IntOp.andi
          (cmpf .olt (Host.absf x) (broadcastInDim s ![] hb (constant (F := Ideal) S_ .f32 0x7F800000#32)))
          (constantI S_ 1 1#1) hr hu ix0 = 1#1)
    (i : s.Idx) : IsReal (x i) := by
  have hi := Host.reduce_andi_all _ _ hr hu ix0 e i
  have hlt : max (x i) (-(x i)) < Ideal.ofBits .f32 0x7F800000#32 := by
    by_contra hn
    have h0 : Ideal.cmp .olt (max (x i) (-(x i))) (Ideal.ofBits .f32 0x7F800000#32) = 0#1 := by
      show BitVec.ofBool (decide (max (x i) (-(x i)) < Ideal.ofBits .f32 0x7F800000#32)) = 0#1
      rw [decide_eq_false hn]; rfl
    have h1 : Ideal.cmp .olt (max (x i) (-(x i))) (Ideal.ofBits .f32 0x7F800000#32) = 1#1 := hi
    rw [h0] at h1
    exact absurd h1 (by decide)
  have htop : Ideal.ofBits .f32 0x7F800000#32 = ⊤ := by simp [Ideal.ofBits, Ideal.ieee]
  rw [htop] at hlt
  rw [isReal_iff]
  constructor
  · intro hb'
    rw [hb', EReal.neg_bot] at hlt
    exact absurd hlt (by simp)
  · intro ht
    rw [ht] at hlt
    exact absurd hlt (by simp)

end Test

open Cert.KernelIdeal in
/-- The precondition is the conjunction of the sixteen float arguments' tests: taken apart from the outside in. -/
theorem args_real [Cert.Pre_finite_inputs.Facts] (m : (ℓ : Loc nD τ sig) → Buf (Elt Ideal) ℓ) (h : Cert.Pre_KernelIdeal m) (c : Dev nD) :
    (∀ i, IsReal ((m ((c.tc : Thread nD τ).loc main_arg0) : Vec Ideal S50000x128 .f32) i))
      ∧ (∀ i, IsReal ((m ((c.tc : Thread nD τ).loc main_arg1) : Vec Ideal S800000x128 .f32) i))
      ∧ (∀ i, IsReal ((m ((c.tc : Thread nD τ).loc main_arg4) : Vec Ideal S128x128 .f32) i))
      ∧ (∀ i, IsReal ((m ((c.tc : Thread nD τ).loc main_arg5) : Vec Ideal S128x128 .f32) i))
      ∧ (∀ i, IsReal ((m ((c.tc : Thread nD τ).loc main_arg6) : Vec Ideal S128x128 .f32) i))
      ∧ (∀ i, IsReal ((m ((c.tc : Thread nD τ).loc main_arg7) : Vec Ideal S128x128 .f32) i))
      ∧ (∀ i, IsReal ((m ((c.tc : Thread nD τ).loc main_arg8) : Vec Ideal S128x128 .f32) i))
      ∧ (∀ i, IsReal ((m ((c.tc : Thread nD τ).loc main_arg9) : Vec Ideal S128 .f32) i))
      ∧ (∀ i, IsReal ((m ((c.tc : Thread nD τ).loc main_arg10) : Vec Ideal S128 .f32) i))
      ∧ (∀ i, IsReal ((m ((c.tc : Thread nD τ).loc main_arg11) : Vec Ideal S128 .f32) i))
      ∧ (∀ i, IsReal ((m ((c.tc : Thread nD τ).loc main_arg12) : Vec Ideal S128 .f32) i))
      ∧ (∀ i, IsReal ((m ((c.tc : Thread nD τ).loc main_arg13) : Vec Ideal S128 .f32) i))
      ∧ (∀ i, IsReal ((m ((c.tc : Thread nD τ).loc main_arg14) : Vec Ideal S128 .f32) i))
      ∧ (∀ i, IsReal ((m ((c.tc : Thread nD τ).loc main_arg15) : Vec Ideal S128 .f32) i))
      ∧ (∀ i, IsReal ((m ((c.tc : Thread nD τ).loc main_arg16) : Vec Ideal S128x256 .f32) i))
      ∧ (∀ i, IsReal ((m ((c.tc : Thread nD τ).loc main_arg17) : Vec Ideal S256x128 .f32) i)) := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e, h17⟩ := IntOp.andi_eq_one.1 e
  obtain ⟨e, h16⟩ := IntOp.andi_eq_one.1 e
  obtain ⟨e, h15⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h1⟩ := IntOp.andi_eq_one.1 e
  exact ⟨isReal_of_all_lt_inf e, isReal_of_all_lt_inf h1, isReal_of_all_lt_inf h4, isReal_of_all_lt_inf h5, isReal_of_all_lt_inf h6, isReal_of_all_lt_inf h7, isReal_of_all_lt_inf h8, isReal_of_all_lt_inf h9, isReal_of_all_lt_inf h10, isReal_of_all_lt_inf h11, isReal_of_all_lt_inf h12, isReal_of_all_lt_inf h13, isReal_of_all_lt_inf h14, isReal_of_all_lt_inf h15, isReal_of_all_lt_inf h16, isReal_of_all_lt_inf h17⟩

end Cert.Bridge

end
-- ==== Proof.Bridge.Variance.lean ====
import proofs.«163757_j14508399526691_2_alg».proof.Proof.Bridge.Real
import Mathlib.Algebra.BigOperators.Ring.Finset
import Mathlib.Algebra.BigOperators.Field
import Mathlib.Algebra.Order.BigOperators.Ring.Finset
import Mathlib.Tactic.FieldSimp
import Mathlib.Tactic.Ring

noncomputable section

namespace Cert.Bridge

open Idealize.ShloMosaic
open scoped BigOperators

/-- Expand the square: `∑ (a − m)² = ∑ a² − 2 m ∑ a + N m²` over `N` terms. -/
theorem sum_sq_dev {ι : Type*} (s : Finset ι) (a : ι → ℝ) (m N : ℝ) (hN : N = (s.card : ℝ)) :
    ∑ i ∈ s, (a i - m) * (a i - m) = (∑ i ∈ s, a i * a i) - 2 * m * (∑ i ∈ s, a i) + N * (m * m) := by
  have h : ∀ i, (a i - m) * (a i - m) = a i * a i - 2 * m * a i + m * m := fun i => by ring
  simp only [h, Finset.sum_add_distrib, Finset.sum_sub_distrib, ← Finset.mul_sum, Finset.sum_const, nsmul_eq_mul, ← hN]
  ring

theorem real_var_eq {ι : Type*} (s : Finset ι) (a : ι → ℝ) (N : ℝ) (hN : N = (s.card : ℝ)) (h0 : N ≠ 0) :
    (∑ i ∈ s, a i * a i) / N - (∑ i ∈ s, a i) / N * ((∑ i ∈ s, a i) / N)
      = (∑ i ∈ s, (a i - (∑ i' ∈ s, a i') / N) * (a i - (∑ i' ∈ s, a i') / N)) / N := by
  rw [sum_sq_dev s a _ N hN]
  field_simp
  ring

section EReal
variable {n : ℕ} (x : Fin n → EReal) (hx : ∀ i, IsReal (x i)) (N : ℝ) (hN : N = (n : ℝ)) (hn : 0 < n)
include hx hN hn

/-- On `n > 0` real entries the mean of the squares minus the squared mean is the mean of the squared deviations. -/
theorem var_eq :
    Ideal.div (∑ i, x i * x i) (N : EReal) - Ideal.div (∑ i, x i) (N : EReal) * Ideal.div (∑ i, x i) (N : EReal)
      = Ideal.div (∑ i, (x i - Ideal.div (∑ i', x i') (N : EReal)) * (x i - Ideal.div (∑ i', x i') (N : EReal))) (N : EReal) := by
  have h0 : N ≠ 0 := by rw [hN]; exact_mod_cast hn.ne'
  choose a ha using hx
  obtain rfl : x = fun i => ((a i : ℝ) : EReal) := funext ha
  simp only [← EReal.coe_mul, coe_finset_sum, div_coe_coe _ h0, ← EReal.coe_sub]
  exact congrArg _ (real_var_eq Finset.univ a N (by rw [hN, Finset.card_univ, Fintype.card_fin]) h0)

/-- The mean of squared deviations of real entries is a real number that is not negative. -/
theorem var2_real_nonneg :
    IsReal (Ideal.div (∑ i, (x i - Ideal.div (∑ i', x i') (N : EReal)) * (x i - Ideal.div (∑ i', x i') (N : EReal))) (N : EReal))
      ∧ 0 ≤ Ideal.div (∑ i, (x i - Ideal.div (∑ i', x i') (N : EReal)) * (x i - Ideal.div (∑ i', x i') (N : EReal))) (N : EReal) := by
  have hpos : 0 < N := by rw [hN]; exact_mod_cast hn
  choose a ha using hx
  obtain rfl : x = fun i => ((a i : ℝ) : EReal) := funext ha
  simp only [← EReal.coe_mul, coe_finset_sum, div_coe_coe _ hpos.ne', ← EReal.coe_sub]
  exact ⟨⟨_, rfl⟩, EReal.coe_nonneg.mpr (div_nonneg (Finset.sum_nonneg fun i _ => mul_self_nonneg _) hpos.le)⟩

end EReal

theorem isReal_add_pos {v ε : EReal} (hv : IsReal v ∧ 0 ≤ v) (hε : IsReal ε) (hε0 : 0 < ε) : IsReal (v + ε) ∧ 0 < v + ε := by
  obtain ⟨⟨a, rfl⟩, hv0⟩ := hv
  obtain ⟨b, rfl⟩ := hε
  rw [← EReal.coe_add]
  exact ⟨⟨_, rfl⟩, EReal.coe_pos.mpr (add_pos_of_nonneg_of_pos (EReal.coe_nonneg.mp hv0) (EReal.coe_pos.mp hε0))⟩

/-- So the one-pass variance plus a positive real is a positive real. -/
theorem var1_add_eps {n : ℕ} (x : Fin n → EReal) (hx : ∀ i, IsReal (x i)) (N : ℝ) (hN : N = (n : ℝ)) (hn : 0 < n)
    {ε : EReal} (hε : IsReal ε) (hε0 : 0 < ε) :
    IsReal (Ideal.div (∑ i, x i * x i) (N : EReal) - Ideal.div (∑ i, x i) (N : EReal) * Ideal.div (∑ i, x i) (N : EReal) + ε)
      ∧ 0 < Ideal.div (∑ i, x i * x i) (N : EReal) - Ideal.div (∑ i, x i) (N : EReal) * Ideal.div (∑ i, x i) (N : EReal) + ε := by
  rw [var_eq x hx N hN hn]
  exact isReal_add_pos (var2_real_nonneg x hx N hN hn) hε hε0

end Cert.Bridge

end
-- ==== Proof.Bridge.Stats.lean ====
import proofs.«163757_j14508399526691_2_alg».proof.Proof.Bridge.Variance
import proofs.«163757_j14508399526691_2_alg».proof.Proof.KI.Host1

noncomputable section

namespace Cert.Bridge

open Idealize.ShloMosaic Idealize.ShloMosaic.ValueIdx Cert.KernelIdeal Cert.KernelIdeal.Hand
open scoped BigOperators

variable {n : ℕ} (x : Fin n → Fin 128 → EReal) (hx : ∀ i j, IsReal (x i j)) (b : BitVec 32) {N : ℝ}
  (hb : Ideal.ofBits .f32 b = (N : EReal)) (hN : N = (n : ℝ)) (hn : 0 < n) (s q : Vec Ideal S1x128 .f32)
  (hs : ∀ j, s (ix2 (0 : Fin 1) j) = ∑ i, x i j) (hq : ∀ j, q (ix2 (0 : Fin 1) j) = ∑ i, x i j * x i j) (j : Fin 128)
include hx hb hN hn hs hq

/-- From the column sums of `n` real rows: the mean is the one summed from zero, and one pass gives the two-pass variance. -/
theorem stats_eq :
    meanOf b s (ix1 j) = Ideal.div (0 + ∑ i, x i j) (Ideal.ofBits .f32 b)
      ∧ varOf b s q (ix1 j)
        = Ideal.div (0 + ∑ i, (x i j - Ideal.div (0 + ∑ i', x i' j) (Ideal.ofBits .f32 b))
            * (x i j - Ideal.div (0 + ∑ i', x i' j) (Ideal.ofBits .f32 b))) (Ideal.ofBits .f32 b) := by
  rw [meanOf_apply, varOf_apply, hs, hq, hb]
  simp only [zero_add, true_and]
  exact var_eq (fun i => x i j) (fun i => hx i j) N hN hn

/-- The mean is a real number and the variance plus the epsilon a positive real number. -/
theorem stats_real :
    IsReal (meanOf b s (ix1 j))
      ∧ IsReal (varOf b s q (ix1 j) + Ideal.ofBits .f32 0x3727C5AC#32) ∧ 0 < varOf b s q (ix1 j) + Ideal.ofBits .f32 0x3727C5AC#32 := by
  rw [meanOf_apply, varOf_apply, hs, hq, hb]
  exact ⟨(isReal_sum _ _ fun i _ => hx i j).div_coe (by rw [hN]; exact_mod_cast hn.ne'),
    var1_add_eps (fun i => x i j) (fun i => hx i j) N hN hn isReal_ofBits_eps5 ofBits_eps5_pos⟩

end Cert.Bridge

end
-- ==== Proof.Bridge.S1.lean ====
import proofs.«163757_j14508399526691_2_alg».proof.Proof.Bridge.Stages
import proofs.«163757_j14508399526691_2_alg».proof.Proof.Bridge.Stats

noncomputable section

open Idealize.ShloMosaic Idealize.ShloMosaic.TcCoe Idealize.ShloMosaic.ValueIdx
open scoped BigOperators

namespace Cert.Bridge

open Cert.KernelIdeal.Hand Cert.ReferenceIdeal.Hand Cert.ReferenceIdeal.Read

variable {m : KMem} {c : KDev} {V0 : RVal}

abbrev xN (m : KMem) (c : KDev) : Fin 50000 → Fin 128 → EReal :=
  fun i j => (kArg m c Cert.KernelIdeal.main_arg0 : Vec Ideal Cert.KernelIdeal.S50000x128 .f32) (ix2 i j)
abbrev xE (m : KMem) (c : KDev) : Fin 800000 → Fin 128 → EReal :=
  fun i j => (kArg m c Cert.KernelIdeal.main_arg1 : Vec Ideal Cert.KernelIdeal.S800000x128 .f32) (ix2 i j)

theorem s1n (h : Agree m c V0) : S1N m c V0 := fun j => by
  rw [res_main_v3_apply, res_main_v2_apply, show arg0 V0 = kArg m c Cert.KernelIdeal.main_arg0 from h.a0]
  exact stats_eq (xN m c) (fun i j => h.r0 (ix2 i j)) 0x47435000#32 ofBits_50000 (by norm_num) (by norm_num)
    (kv_main_v0_0 m c) (kv_main_v0_1 m c) (colSum0_apply _) (colSumSq0_apply _) j

theorem s1e (h : Agree m c V0) : S1E m c V0 := fun j => by
  rw [res_main_v22_apply, res_main_v21_apply, show arg1 V0 = kArg m c Cert.KernelIdeal.main_arg1 from h.a1]
  exact stats_eq (xE m c) (fun i j => h.r1 (ix2 i j)) 0x49435000#32 ofBits_800000 (by norm_num) (by norm_num)
    (kv_main_v9_0 m c) (kv_main_v9_1 m c) (colSum1_apply _) (colSumSq1_apply _) j

end Cert.Bridge

end
-- ==== Proof.Bridge.S2.lean ====
import proofs.«163757_j14508399526691_2_alg».proof.Proof.Bridge.Stages

noncomputable section

open scoped BigOperators

namespace Cert.Bridge

open Cert.KernelIdeal.Hand Cert.ReferenceIdeal.Hand Cert.ReferenceIdeal.Read
open Idealize.ShloMosaic Idealize.ShloMosaic.TcCoe Idealize.ShloMosaic.ValueIdx

abbrev kNodes (m : KMem) (c : KDev) : Vec Ideal Cert.KernelIdeal.S50000x128 .f32 := kArg m c Cert.KernelIdeal.main_arg0
abbrev kEdges (m : KMem) (c : KDev) : Vec Ideal Cert.KernelIdeal.S800000x128 .f32 := kArg m c Cert.KernelIdeal.main_arg1

variable {m : KMem} {c : KDev} {V0 : RVal}

theorem normN_eq (h : Agree m c V0) (h1 : S1N m c V0) (n : Fin 50000) (k : Fin 128) :
    (kNodes m c (ix2 n k) - kv_main_v19 m c (ix2 (0 : Fin 1) k))
        * Ideal.rsqrt (kv_main_v20 m c (ix2 (0 : Fin 1) k) + Ideal.ofBits .f32 0x3727C5AC#32)
        * kv_main_v21 m c (ix2 (0 : Fin 1) k) + kv_main_v22 m c (ix2 (0 : Fin 1) k)
      = res_main_v18 V0 (ix2 n k) := by
  rw [res_main_v18_apply]
  unfold kv_main_v19 kv_main_v20 kv_main_v21 kv_main_v22
  rw [rowOf_apply, rowOf_apply, rowOf_apply, rowOf_apply, (h1 k).1, (h1 k).2,
    show arg0 V0 = kNodes m c from h.a0,
    show arg10 V0 = kArg m c Cert.KernelIdeal.main_arg10 from h.a10,
    show arg11 V0 = kArg m c Cert.KernelIdeal.main_arg11 from h.a11]

theorem normE_eq (h : Agree m c V0) (h1 : S1E m c V0) (e : Fin 800000) (k : Fin 128) :
    (kEdges m c (ix2 e k) - kv_main_v24 m c (ix2 (0 : Fin 1) k))
        * Ideal.rsqrt (kv_main_v25 m c (ix2 (0 : Fin 1) k) + Ideal.ofBits .f32 0x3727C5AC#32)
        * kv_main_v26 m c (ix2 (0 : Fin 1) k) + kv_main_v27 m c (ix2 (0 : Fin 1) k)
      = res_main_v37 V0 (ix2 e k) := by
  rw [res_main_v37_apply]
  unfold kv_main_v24 kv_main_v25 kv_main_v26 kv_main_v27
  rw [rowOf_apply, rowOf_apply, rowOf_apply, rowOf_apply, (h1 k).1, (h1 k).2,
    show arg1 V0 = kEdges m c from h.a1,
    show arg12 V0 = kArg m c Cert.KernelIdeal.main_arg12 from h.a12,
    show arg13 V0 = kArg m c Cert.KernelIdeal.main_arg13 from h.a13]

theorem wq_eq (h : Agree m c V0) (k l : Fin 128) :
    kv_main_v18 m c (ix2 k (⟨l.val, by omega⟩ : Fin 384)) = arg4 V0 (ix2 k l) := by
  unfold kv_main_v18
  exact (cat3_apply _ _ _ k _ 0 l (Nat.zero_add _)).trans (congrFun h.a4 (ix2 k l)).symm

theorem wk_eq (h : Agree m c V0) (k l : Fin 128) : kv_main_v18 m c (ix2 k (colMid l)) = arg5 V0 (ix2 k l) := by
  unfold kv_main_v18
  exact (cat3_apply _ _ _ k _ 1 l rfl).trans (congrFun h.a5 (ix2 k l)).symm

theorem wv_eq (h : Agree m c V0) (k l : Fin 128) : kv_main_v18 m c (ix2 k (colTop l)) = arg6 V0 (ix2 k l) := by
  unfold kv_main_v18
  exact (cat3_apply _ _ _ k _ 2 l rfl).trans (congrFun h.a6 (ix2 k l)).symm

/-- Entry by entry both are the sum over the contracted column of the normalised feature times the weight's entry. -/
theorem s2 (h : Agree m c V0) (h1 : S1N m c V0) : S2 m c V0 := by
  intro n l
  have key : ∀ (j : Fin 384) (w : Fin 128 → EReal), (∀ k, kv_main_v18 m c (ix2 k j) = w k) →
      kv_main_v23 m c (ix2 n j) = ∑ k : Fin 128, res_main_v18 V0 (ix2 n k) * w k := fun j w hw => by
    unfold kv_main_v23 G2
    exact Finset.sum_congr rfl fun k _ => congrArg₂ (· * ·) (normN_eq h h1 n k) (hw k)
  rw [res_main_v38_apply, res_main_v40_apply, res_main_v42_apply]
  exact ⟨key _ _ fun k => wq_eq h k l, key _ _ fun k => wk_eq h k l, key _ _ fun k => wv_eq h k l⟩

theorem s3 (h : Agree m c V0) (h1 : S1E m c V0) : S3 m c V0 := by
  intro e l
  rw [res_main_v44_apply]
  unfold kv_main_v28 G3
  exact Finset.sum_congr rfl fun k _ =>
    congrArg₂ (· * ·) (normE_eq h h1 e k) (congrFun h.a7 (ix2 k l)).symm

end Cert.Bridge

end
-- ==== Proof.Bridge.Edge.lean ====
import proofs.«163757_j14508399526691_2_alg».proof.KernelIdeal
import proofs.«163757_j14508399526691_2_alg».proof.Proof.Bridge.Real
import proofs.«163757_j14508399526691_2_alg».proof.Proof.Bridge.Heads
import Idealize.ShloMosaic.PureOps.Ideal
import Idealize.ShloMosaic.PureOps.Ideal.Laws
import Idealize.ShloMosaic.PureOps.IdealRules

noncomputable section

namespace Cert.Bridge

open Idealize.ShloMosaic
open scoped BigOperators

local notation "five" => Ideal.ofBits FTy.f32 0x40A00000#32
local notation "negfive" => Ideal.ofBits FTy.f32 0xC0A00000#32
local notation "sqrt32w" => Ideal.ofBits FTy.f32 0x40B504F3#32

theorem named_inv_sqrt_dh :
    Named.named (F := Ideal) Cert.KernelIdeal.κ "inv_sqrt_dh" (φ := .f32) 0x3E3504F3#32 = ((2097152 / 11863283 : ℝ) : EReal) :=
  IdealRules.named_const.ideal_named_scalar _ _ _ _ rfl

theorem mul_inv_eq_div (x : EReal) :
    x * ((2097152 / 11863283 : ℝ) : EReal) = Ideal.div x sqrt32w := by
  rw [ofBits_sqrt32, Ideal.div_coe (by norm_num : (11863283 / 2097152 : ℝ) ≠ 0)]
  congr 2
  norm_num

/-- A sum against a head's column of the table is the sum over its lanes; a sum against a lane's row picks the lane's head. -/
theorem weight_named_eq (k q pe : Fin 128 → EReal) (l : Fin 128) :
    (∑ h : Fin 4, Ideal.exp (min five (max negfive (∑ i : Fin 128,
        (min five (max negfive (k i * q i
          * Named.named (F := Ideal) Cert.KernelIdeal.κ "inv_sqrt_dh" (φ := .f32) 0x3E3504F3#32)) * pe i) * headMask i h)))
        * headMask l h)
      = Ideal.exp (min five (max negfive (0 + ∑ d : Fin 32,
          min five (max negfive (Ideal.div (k (laneOf (headOf l) d) * q (laneOf (headOf l) d)) sqrt32w))
            * pe (laneOf (headOf l) d)))) := by
  rw [named_inv_sqrt_dh]
  refine (sum_heads_mask _ l).trans ?_
  show Ideal.exp (min five (max negfive (∑ i : Fin 128,
    (min five (max negfive (k i * q i * ((2097152 / 11863283 : ℝ) : EReal))) * pe i) * headMask i (headOf l)))) = _
  rw [sum_lanes_mask (fun i => min five (max negfive (k i * q i * ((2097152 / 11863283 : ℝ) : EReal))) * pe i) (headOf l),
    zero_add]
  simp only [mul_inv_eq_div]

end Cert.Bridge
-- ==== Proof.Bridge.EdgeG4.lean ====
import proofs.«163757_j14508399526691_2_alg».proof.Proof.KI.Region4Value
import proofs.«163757_j14508399526691_2_alg».proof.Proof.Bridge.Edge

noncomputable section

namespace Cert.Bridge

open Cert.KernelIdeal Cert.KernelIdeal.Hand
open Idealize.ShloMosaic Idealize.ShloMosaic.ValueIdx
open scoped BigOperators

local notation "five" => Ideal.ofBits FTy.f32 0x40A00000#32
local notation "negfive" => Ideal.ofBits FTy.f32 0xC0A00000#32
local notation "sqrt32w" => Ideal.ofBits FTy.f32 0x40B504F3#32

variable (kv : S800000x256.Idx → EReal) (q pe : S800000x128.Idx → EReal)

/-- Edge `e`'s weight for head `a`: the exponential of the clamped sum over the head's 32 lanes of the clamped scaled products. -/
def headWeight (e : Fin 800000) (a : Fin 4) : EReal :=
  Ideal.exp (min five (max negfive (0 + ∑ d : Fin 32,
    min five (max negfive (Ideal.div (kv (ix2 e ⟨(laneOf a d).val, by have := (laneOf a d).isLt; omega⟩) * q (ix2 e (laneOf a d))) sqrt32w))
      * pe (ix2 e (laneOf a d)))))

variable (g : S128x4.Idx → EReal) (gt : S4x128.Idx → EReal)
  (hg : ∀ (i : Fin 128) (h : Fin 4), g (ix2 i h) = headMask i h) (hgt : ∀ (h : Fin 4) (l : Fin 128), gt (ix2 h l) = headMask l h)
include hg hgt

/-- At the grouping table the spread weight at lane `l` is the weight of `l`'s head. -/
theorem spread4_mask (e : Fin 800000) (l : Fin 128) : spread4 kv q pe g gt e l = headWeight kv q pe e (headOf l) := by
  unfold spread4 headWeight
  simp only [hg, hgt]
  exact weight_named_eq (fun i => kv (ix2 e ⟨i.val, by omega⟩)) (fun i => q (ix2 e i)) (fun i => pe (ix2 e i)) l

theorem G4at_mask (e : Fin 800000) (j : Fin 256) :
    G4at kv q pe g gt e j = if h : j.val < 128 then headWeight kv q pe e (headOf ⟨j.val, h⟩) * kv (ix2 e ⟨128 + j.val, by omega⟩)
      else headWeight kv q pe e (headOf ⟨j.val - 128, by omega⟩) := by
  unfold G4at
  by_cases h : j.val < 128
  · rw [dif_pos h, dif_pos h, spread4_mask kv q pe g gt hg hgt]
  · rw [dif_neg h, dif_neg h, spread4_mask kv q pe g gt hg hgt]

theorem G4at_head_lo (e : Fin 800000) (a : Fin 4) (d : Fin 32) :
    G4at kv q pe g gt e ⟨(laneOf a d).val, by have := (laneOf a d).isLt; omega⟩
      = headWeight kv q pe e a * kv (ix2 e ⟨128 + (laneOf a d).val, by have := (laneOf a d).isLt; omega⟩) := by
  have hl : (laneOf a d).val < 128 := (laneOf a d).isLt
  rw [G4at_mask kv q pe g gt hg hgt, dif_pos (show (⟨(laneOf a d).val, by omega⟩ : Fin 256).val < 128 from hl)]
  show headWeight kv q pe e (headOf (laneOf a d)) * _ = _
  rw [headOf_laneOf]

theorem G4at_head_hi (e : Fin 800000) (a : Fin 4) (d : Fin 32) :
    G4at kv q pe g gt e ⟨128 + (laneOf a d).val, by have := (laneOf a d).isLt; omega⟩ = headWeight kv q pe e a := by
  have hl : (laneOf a d).val < 128 := (laneOf a d).isLt
  rw [G4at_mask kv q pe g gt hg hgt, dif_neg (show ¬ (⟨128 + (laneOf a d).val, by omega⟩ : Fin 256).val < 128 from by show ¬ (128 + (laneOf a d).val < 128); omega)]
  refine congrArg (headWeight kv q pe e) (Fin.ext ?_)
  show (128 + (laneOf a d).val - 128) / 32 = a.val
  simp only [laneOf]
  omega

end Cert.Bridge
-- ==== Proof.Bridge.S4.lean ====
import proofs.«163757_j14508399526691_2_alg».proof.Proof.Bridge.Stages
import proofs.«163757_j14508399526691_2_alg».proof.Proof.Bridge.EdgeG4
import proofs.«163757_j14508399526691_2_alg».proof.Proof.KI.Host1
import proofs.«163757_j14508399526691_2_alg».proof.Proof.KI.Host4Idx
import proofs.«163757_j14508399526691_2_alg».proof.Proof.Ref.Read1
import proofs.«163757_j14508399526691_2_alg».proof.Proof.Ref.Read2
import Idealize.ShloMosaic.Lib.ValueIdx
import Idealize.ShloMosaic.Lib.ValueLayout

noncomputable section

open Idealize.ShloMosaic Idealize.ShloMosaic.TcCoe Idealize.ShloMosaic.ValueIdx
open scoped BigOperators

namespace Cert.Bridge

open Cert.KernelIdeal.Hand Cert.ReferenceIdeal.Hand Cert.ReferenceIdeal.Read

local notation "five" => Ideal.ofBits FTy.f32 0x40A00000#32
local notation "negfive" => Ideal.ofBits FTy.f32 0xC0A00000#32
local notation "sqrt32w" => Ideal.ofBits FTy.f32 0x40B504F3#32

variable (m : KMem) (c : KDev) (V0 : RVal)

theorem s4_table (i : Fin 128) (h : Fin 4) : kv_main_cst (ix2 i h) = headMask i h :=
  maskTable_apply_ideal i h

theorem s4_tableT (h : Fin 4) (l : Fin 128) : kv_main_v45 (ix2 h l) = headMask l h := by
  unfold kv_main_v45
  exact (transpose_ix2_apply _ _ h l).trans (s4_table l h)

def s4_src (e : Fin 800000) : Fin 50000 :=
  rowOf 50000 (by decide) (wrap ((kArg m c Cert.KernelIdeal.main_arg2 : IVec Cert.KernelIdeal.S800000 32) (ix1 e)))

def s4_dst (e : Fin 800000) : Fin 50000 :=
  rowOf 50000 (by decide) (wrap ((kArg m c Cert.KernelIdeal.main_arg3 : IVec Cert.KernelIdeal.S800000 32) (ix1 e)))

theorem s4_v37 (e : Fin 800000) (j : Fin 256) :
    kv_main_v37 m c (ix2 e j) = kv_main_v23 m c (ix2 (s4_src m c e) (colHi j)) := by
  unfold kv_main_v37
  refine (gather256_apply _ _ e j).trans ?_
  rw [idxCol_apply]
  exact cutHi384_apply _ _ j

theorem s4_v44 (e : Fin 800000) (j : Fin 128) :
    kv_main_v44 m c (ix2 e j) = kv_main_v23 m c (ix2 (s4_dst m c e) (colLo j)) := by
  unfold kv_main_v44
  refine (gather128_apply _ _ e j).trans ?_
  rw [idxCol_apply]
  exact cutLo384_apply _ _ j

theorem s4_src_eq (h : Agree m c V0) (e : Fin 800000) :
    rowOf 50000 nodes_pos (Cert.ReferenceIdeal.Hand.wrapIdx (V0 (Proc.devRef .tc Cert.ReferenceIdeal.main_arg2)) (ix1 e)) = s4_src m c e := by
  rw [wrapIdx_apply]
  exact congrArg (fun b : BitVec 32 => rowOf 50000 (by decide) (wrap b)) (congrFun h.a2 (ix1 e))

theorem s4_dst_eq (h : Agree m c V0) (e : Fin 800000) :
    rowOf 50000 nodes_pos (Cert.ReferenceIdeal.Hand.wrapIdx (V0 (Proc.devRef .tc Cert.ReferenceIdeal.main_arg3)) (ix1 e)) = s4_dst m c e := by
  rw [wrapIdx_apply]
  exact congrArg (fun b : BitVec 32 => rowOf 50000 (by decide) (wrap b)) (congrFun h.a3 (ix1 e))

theorem s4_key (h : Agree m c V0) (h2 : S2 m c V0) (e : Fin 800000) (a : Fin 4) (d : Fin 32) :
    kv_main_v37 m c (ix2 e ⟨(laneOf a d).val, by have := (laneOf a d).isLt; omega⟩)
      = res_main_v41 V0 (ix3 (rowOf 50000 nodes_pos (Cert.ReferenceIdeal.Hand.wrapIdx (V0 (Proc.devRef .tc Cert.ReferenceIdeal.main_arg2)) (ix1 e))) a d) := by
  rw [s4_src_eq m c V0 h e, res_main_v41_apply, s4_v37]
  exact (h2 (s4_src m c e) (laneOf a d)).2.1

theorem s4_query (h : Agree m c V0) (h2 : S2 m c V0) (e : Fin 800000) (a : Fin 4) (d : Fin 32) :
    kv_main_v44 m c (ix2 e (laneOf a d))
      = res_main_v39 V0 (ix3 (rowOf 50000 nodes_pos (Cert.ReferenceIdeal.Hand.wrapIdx (V0 (Proc.devRef .tc Cert.ReferenceIdeal.main_arg3)) (ix1 e))) a d) := by
  rw [s4_dst_eq m c V0 h e, res_main_v39_apply, s4_v44]
  exact (h2 (s4_dst m c e) (laneOf a d)).1

theorem s4_value (h : Agree m c V0) (h2 : S2 m c V0) (e : Fin 800000) (a : Fin 4) (d : Fin 32) :
    kv_main_v37 m c (ix2 e ⟨128 + (laneOf a d).val, by have := (laneOf a d).isLt; omega⟩)
      = res_main_v43 V0 (ix3 (rowOf 50000 nodes_pos (Cert.ReferenceIdeal.Hand.wrapIdx (V0 (Proc.devRef .tc Cert.ReferenceIdeal.main_arg2)) (ix1 e))) a d) := by
  rw [s4_src_eq m c V0 h e, res_main_v43_apply, s4_v37]
  have hc : colHi ⟨128 + (laneOf a d).val, by have := (laneOf a d).isLt; omega⟩ = colTop (laneOf a d) :=
    Fin.ext (by show 128 + (128 + (laneOf a d).val) = 256 + (laneOf a d).val; omega)
  rw [hc]
  exact (h2 (s4_src m c e) (laneOf a d)).2.2

theorem s4_proj (h3 : S3 m c V0) (e : Fin 800000) (a : Fin 4) (d : Fin 32) :
    kv_main_v28 m c (ix2 e (laneOf a d)) = res_main_v45 V0 (ix3 e a d) := by
  rw [res_main_v45_apply]
  exact h3 e (laneOf a d)

theorem s4_weight (h : Agree m c V0) (h2 : S2 m c V0) (h3 : S3 m c V0) (e : Fin 800000) (a : Fin 4) :
    headWeight (kv_main_v37 m c) (kv_main_v44 m c) (kv_main_v28 m c) e a = res_main_v68 V0 (ix3 e a (0 : Fin 1)) := by
  rw [res_main_v68_apply, res_main_v65_apply]
  unfold headWeight
  refine congrArg (fun z => Ideal.exp (min five (max negfive (0 + z)))) (Finset.sum_congr rfl fun d _ => ?_)
  rw [res_main_v63_apply, res_main_v62_apply]
  exact congrArg₂ (· * ·)
    (congrArg (fun z => min five (max negfive (Ideal.div z sqrt32w)))
      (congrArg₂ (· * ·) (s4_key m c V0 h h2 e a d) (s4_query m c V0 h h2 e a d)))
    (s4_proj m c V0 h3 e a d)

theorem s4 (h : Agree m c V0) (h2 : S2 m c V0) (h3 : S3 m c V0) : S4 m c V0 := by
  intro e a d
  constructor
  · show G4at (kv_main_v37 m c) (kv_main_v44 m c) (kv_main_v28 m c) kv_main_cst kv_main_v45 e (halfLo (laneOf a d)) = _
    refine (G4at_head_lo (kv_main_v37 m c) (kv_main_v44 m c) (kv_main_v28 m c) kv_main_cst kv_main_v45 s4_table s4_tableT e a d).trans ?_
    rw [res_main_v77_apply]
    exact congrArg₂ (· * ·) (s4_weight m c V0 h h2 h3 e a) (s4_value m c V0 h h2 e a d)
  · show G4at (kv_main_v37 m c) (kv_main_v44 m c) (kv_main_v28 m c) kv_main_cst kv_main_v45 e (halfHi (laneOf a d)) = _
    exact (G4at_head_hi (kv_main_v37 m c) (kv_main_v44 m c) (kv_main_v28 m c) kv_main_cst kv_main_v45 s4_table s4_tableT e a d).trans
      (s4_weight m c V0 h h2 h3 e a)

end Cert.Bridge

end
-- ==== Proof.Bridge.S5.lean ====
import proofs.«163757_j14508399526691_2_alg».proof.Proof.Bridge.Stages

noncomputable section

open Idealize.ShloMosaic Idealize.ShloMosaic.TcCoe Idealize.ShloMosaic.ValueIdx
open scoped BigOperators

namespace Cert.Bridge

open Cert.KernelIdeal.Hand Cert.ReferenceIdeal.Hand Cert.ReferenceIdeal.Read

variable {m : KMem} {c : KDev} {V0 : RVal}

/-- Column `k` of the sum at node `n`: zero plus the sum over the edges whose destination entry lands on `n`. -/
theorem agg_eq (h : Agree m c V0) (n : Fin 50000) (k : Fin 256) (r : Fin 800000 → EReal)
    (hr : ∀ e, kv_main_v46 m c (ix2 e k) = r e) :
    kv_main_v49 m c (ix2 n k)
      = 0 + ∑ e ∈ Finset.univ.filter (fun e : Fin 800000 =>
          lands ((rArg V0 Cert.ReferenceIdeal.main_arg3 : IVec Cert.ReferenceIdeal.S800000 32) (ix1 e)) n), r e := by
  unfold kv_main_v49
  refine (scat256_apply _ _ n k).trans ?_
  rw [Ideal.ofBits_zero_f32]
  exact congrArg (0 + ·) (Finset.sum_congr (Finset.filter_congr fun e _ =>
    iff_of_eq (congrArg (fun b : BitVec 32 => lands b n) (congrFun h.a3 (ix1 e)).symm)) fun e _ => hr e)

theorem s5 (h : Agree m c V0) (h4 : S4 m c V0) : S5 m c V0 := by
  intro n a d
  rw [res_main_v80_apply, res_main_v83_apply]
  unfold kv_main_v50 kv_main_v51
  exact ⟨(slice2_axis1_apply 0 _ Cert.KernelIdeal.Gen.slices_S50000x256_S50000x128_0_0 n (laneOf a d) (halfLo (laneOf a d))
      (Nat.zero_add _).symm).trans (agg_eq h n _ _ fun e => (h4 e a d).1),
    (slice2_axis1_apply 128 _ Cert.KernelIdeal.Gen.slices_S50000x256_S50000x128_0_128 n (laneOf a d) (halfHi (laneOf a d))
      rfl).trans (agg_eq h n _ _ fun e => (h4 e a d).2)⟩

end Cert.Bridge

end
-- ==== Proof.Bridge.S6.lean ====
import proofs.«163757_j14508399526691_2_alg».proof.Proof.Bridge.Stages

noncomputable section

open Idealize.ShloMosaic Idealize.ShloMosaic.TcCoe Idealize.ShloMosaic.ValueIdx
open scoped BigOperators

namespace Cert.Bridge

open Cert.KernelIdeal.Hand Cert.ReferenceIdeal.Hand Cert.ReferenceIdeal.Read

variable {m : KMem} {c : KDev} {V0 : RVal}

theorem lane_eq (k : Fin 128) :
    laneOf ⟨k.val / 32, by have := k.isLt; omega⟩ ⟨k.val % 32, by omega⟩ = k := by
  apply Fin.ext
  show 32 * (k.val / 32) + k.val % 32 = k.val
  omega

/-- Both are the same sums over the reference's arrays read as the kernel's, up to the order of one addition. -/
theorem s6 (h : Agree m c V0) (h5 : S5 m c V0) : S6 m c V0 := by
  intro n j
  have hk : ∀ k : Fin 128, res_main_v88 V0 (ix2 n k)
      = Ideal.div (kv_main_v50 m c (ix2 n k)) (kv_main_v51 m c (ix2 n k) + Ideal.ofBits .f32 0x358637BD#32) := fun k => by
    have e := h5 n ⟨k.val / 32, by have := k.isLt; omega⟩ ⟨k.val % 32, by omega⟩
    rw [lane_eq k] at e
    rw [res_main_v88_apply, e.1, e.2]
  rw [res_main_v93_apply, add_comm (arg0 V0 (ix2 n j)), show arg0 V0 = kArg m c Cert.KernelIdeal.main_arg0 from h.a0,
    show arg8 V0 = kArg m c Cert.KernelIdeal.main_arg8 from h.a8,
    show arg9 V0 = kArg m c Cert.KernelIdeal.main_arg9 from h.a9]
  simp only [hk]
  unfold kv_main_v53 kv_main_v52
  rw [G5_ix2, rowOf_apply]

theorem s9 (h : Agree m c V0) (h6 : S6 m c V0) (h8 : S8 m c V0) : S9 m c V0 := by
  intro n j
  have h8' : ∀ k, res_main_v114 V0 (ix2 n k) = kv_main_v67 m c (ix2 n k) := fun k => (h8 n k).symm
  rw [res_out_apply, show arg17 V0 = kArg m c Cert.KernelIdeal.main_arg17 from h.a17, ← h6 n j,
    add_comm (kv_main_v53 m c (ix2 n j))]
  simp only [h8']
  rfl

end Cert.Bridge

end
-- ==== Proof.Bridge.S7.lean ====
import proofs.«163757_j14508399526691_2_alg».proof.Proof.Bridge.Stages
import proofs.«163757_j14508399526691_2_alg».proof.Proof.Bridge.Stats
import proofs.«163757_j14508399526691_2_alg».proof.Proof.KI.Host1
import proofs.«163757_j14508399526691_2_alg».proof.Proof.KI.Region6Value
import proofs.«163757_j14508399526691_2_alg».proof.Proof.KI.Region7Value
import proofs.«163757_j14508399526691_2_alg».proof.Proof.Ref.Read3

noncomputable section

open Idealize.ShloMosaic Idealize.ShloMosaic.TcCoe Idealize.ShloMosaic.ValueIdx
open scoped BigOperators

namespace Cert.Bridge

open Cert.KernelIdeal.Hand Cert.ReferenceIdeal.Hand Cert.ReferenceIdeal.Read

variable {m : KMem} {c : KDev} {V0 : RVal}

theorem s7 (h : Agree m c V0) (h6 : S6 m c V0) (hr : Real6 m c) : S7 m c V0 := fun j => by
  have h93 : ∀ i j, res_main_v93 V0 (ix2 i j) = kv_main_v53 m c (ix2 i j) := fun i j => (h6 i j).symm
  rw [res_main_v97_apply, res_main_v96_apply]
  simp only [h93]
  exact stats_eq (fun i j => kv_main_v53 m c (ix2 i j)) (fun i j => hr i j) 0x47435000#32 ofBits_50000 (by norm_num)
    (by norm_num) (kv_main_v54_0 m c) (kv_main_v54_1 m c) (colSum6_apply _) (colSumSq6_apply _) j

theorem s8 (h : Agree m c V0) (h6 : S6 m c V0) (h7 : S7 m c V0) : S8 m c V0 := by
  intro n k
  have hprod : prod7 (kv_main_v53 m c) (kv_main_v63 m c) (kv_main_v64 m c) (kv_main_v65 m c) (kv_main_v66 m c)
      (kArg m c Cert.KernelIdeal.main_arg16) n k = res_main_v113 V0 (ix2 n k) := by
    rw [res_main_v113_apply]
    unfold prod7
    refine Finset.sum_congr rfl fun q _ => ?_
    rw [res_main_v112_apply]
    unfold norm7 kv_main_v63 kv_main_v64 kv_main_v65 kv_main_v66
    rw [rowOf_apply, rowOf_apply, rowOf_apply, rowOf_apply, (h7 q).1, (h7 q).2, h6 n q,
      show arg14 V0 = kArg m c Cert.KernelIdeal.main_arg14 from h.a14,
      show arg15 V0 = kArg m c Cert.KernelIdeal.main_arg15 from h.a15,
      show arg16 V0 = kArg m c Cert.KernelIdeal.main_arg16 from h.a16]
  rw [res_main_v114_apply, ← hprod]
  rfl

end Cert.Bridge
-- ==== Proof.Bridge.FiniteK.lean ====
import proofs.«163757_j14508399526691_2_alg».proof.Proof.Bridge.Variance
import proofs.«163757_j14508399526691_2_alg».proof.Proof.Bridge.Heads
import proofs.«163757_j14508399526691_2_alg».proof.Proof.KI.Region4Value

noncomputable section

namespace Cert.Bridge

open Idealize.ShloMosaic Idealize.ShloMosaic.ValueIdx Cert.KernelIdeal Cert.KernelIdeal.Hand
open scoped BigOperators

theorem IsReal.mul_nonneg {x y : EReal} (hx : IsReal x) (hy : IsReal y) (hx0 : 0 ≤ x) (hy0 : 0 ≤ y) : 0 ≤ x * y := by
  obtain ⟨a, rfl⟩ := hx
  obtain ⟨b, rfl⟩ := hy
  rw [← EReal.coe_mul]
  exact EReal.coe_nonneg.mpr (_root_.mul_nonneg (EReal.coe_nonneg.mp hx0) (EReal.coe_nonneg.mp hy0))

/-- A clamp between −5 and 5 lies between two real bounds whatever it clamps, so its exponential is a positive real. -/
theorem weight_real_pos (y : EReal) :
    IsReal (Ideal.exp (min (Ideal.ofBits .f32 0x40A00000#32) (max (Ideal.ofBits .f32 0xC0A00000#32) y)))
      ∧ 0 < Ideal.exp (min (Ideal.ofBits .f32 0x40A00000#32) (max (Ideal.ofBits .f32 0xC0A00000#32) y)) := by
  refine IsReal.exp ?_
  rw [ofBits_five, ofBits_neg_five, isReal_iff]
  constructor
  · have h : ((-5 : ℝ) : EReal) ≤ min ((5 : ℝ) : EReal) (max ((-5 : ℝ) : EReal) y) :=
      le_min (EReal.coe_le_coe_iff.mpr (by norm_num)) (le_max_left _ _)
    exact fun e => absurd (e ▸ h) (not_le.mpr (EReal.bot_lt_coe _))
  · have h : min ((5 : ℝ) : EReal) (max ((-5 : ℝ) : EReal) y) ≤ ((5 : ℝ) : EReal) := min_le_left _ _
    exact fun e => absurd (e ▸ h) (not_le.mpr (EReal.coe_lt_top _))

section Edge
variable (kv : S800000x256.Idx → EReal) (q pe : S800000x128.Idx → EReal) (g : S128x4.Idx → EReal)
  (gt : S4x128.Idx → EReal) (hgt : ∀ (h : Fin 4) (l : Fin 128), IsReal (gt (ix2 h l)) ∧ 0 ≤ gt (ix2 h l))
include hgt

/-- Each term of the spread weight is a positive real weight times a table entry that is real and not negative. -/
theorem spread4_real_nonneg (e : Fin 800000) (l : Fin 128) :
    IsReal (spread4 kv q pe g gt e l) ∧ 0 ≤ spread4 kv q pe g gt e l := by
  unfold spread4
  exact ⟨isReal_sum _ _ fun h _ => (weight_real_pos _).1.mul (hgt h l).1,
    Finset.sum_nonneg fun h _ => (weight_real_pos _).1.mul_nonneg (hgt h l).1 (weight_real_pos _).2.le (hgt h l).2⟩

theorem G4at_real (hkv : ∀ (e : Fin 800000) (j : Fin 256), IsReal (kv (ix2 e j))) (e : Fin 800000) (j : Fin 256) :
    IsReal (G4at kv q pe g gt e j) := by
  unfold G4at
  split
  · exact (spread4_real_nonneg kv q pe g gt hgt e _).1.mul (hkv e _)
  · exact (spread4_real_nonneg kv q pe g gt hgt e _).1

theorem G4at_nonneg_of_le (e : Fin 800000) (j : Fin 256) (hj : 128 ≤ j.val) : 0 ≤ G4at kv q pe g gt e j := by
  unfold G4at
  rw [dif_neg (by omega)]
  exact (spread4_real_nonneg kv q pe g gt hgt e _).2

end Edge

theorem scatter_real_nonneg (u : Fin 800000 → EReal) (P : Fin 800000 → Prop) [DecidablePred P] (hu : ∀ e, IsReal (u e)) :
    IsReal (Ideal.ofBits .f32 0x00000000#32 + ∑ e ∈ Finset.univ.filter P, u e)
      ∧ ((∀ e, 0 ≤ u e) → 0 ≤ Ideal.ofBits .f32 0x00000000#32 + ∑ e ∈ Finset.univ.filter P, u e) := by
  rw [Ideal.ofBits_zero_f32, zero_add]
  exact ⟨isReal_sum _ _ fun e _ => hu e, fun hu0 => Finset.sum_nonneg fun e _ => hu0 e⟩

end Cert.Bridge

end
-- ==== Proof.Bridge.Real6.lean ====
import proofs.«163757_j14508399526691_2_alg».proof.Proof.Bridge.Stages
import proofs.«163757_j14508399526691_2_alg».proof.Proof.Bridge.FiniteK
import proofs.«163757_j14508399526691_2_alg».proof.Proof.Bridge.Stats
import proofs.«163757_j14508399526691_2_alg».proof.Proof.KI.Host4Idx

noncomputable section

open Idealize.ShloMosaic Idealize.ShloMosaic.TcCoe Idealize.ShloMosaic.ValueIdx
open scoped BigOperators

namespace Cert.Bridge

open Cert.KernelIdeal Cert.KernelIdeal.Gen Cert.KernelIdeal.Hand

section Links
variable (m : KMem) (c : KDev)

/-- The node features' mean row is real and their variance row plus the epsilon a positive real. -/
theorem v19_v20 (h0 : ∀ i, IsReal ((kArg m c main_arg0 : Vec Ideal S50000x128 .f32) i)) (k : Fin 128) :
    IsReal (kv_main_v19 m c (ix2 (0 : Fin 1) k))
      ∧ IsReal (kv_main_v20 m c (ix2 (0 : Fin 1) k) + Ideal.ofBits .f32 0x3727C5AC#32)
      ∧ 0 < kv_main_v20 m c (ix2 (0 : Fin 1) k) + Ideal.ofBits .f32 0x3727C5AC#32 := by
  unfold kv_main_v19 kv_main_v20
  rw [rowOf_apply, rowOf_apply]
  exact stats_real (fun i j => (kArg m c main_arg0 : Vec Ideal S50000x128 .f32) (ix2 i j)) (fun i j => h0 (ix2 i j))
    0x47435000#32 ofBits_50000 (by norm_num) (by norm_num) (kv_main_v0_0 m c) (kv_main_v0_1 m c)
    (colSum0_apply _) (colSumSq0_apply _) k

theorem v18_real (h4 : ∀ i, IsReal ((kArg m c main_arg4 : Vec Ideal S128x128 .f32) i))
    (h5 : ∀ i, IsReal ((kArg m c main_arg5 : Vec Ideal S128x128 .f32) i))
    (h6 : ∀ i, IsReal ((kArg m c main_arg6 : Vec Ideal S128x128 .f32) i)) (k : Fin 128) (j : Fin 384) :
    IsReal (kv_main_v18 m c (ix2 k j)) := by
  unfold kv_main_v18
  have hj := j.isLt
  by_cases h1 : j.val < 128
  · rw [cat3_apply _ _ _ k j 0 ⟨j.val, h1⟩ (Nat.zero_add _)]; exact h4 _
  · by_cases h2 : j.val < 256
    · rw [cat3_apply _ _ _ k j 1 ⟨j.val - 128, by omega⟩ (by show 128 * 1 + (j.val - 128) = j.val; omega)]; exact h5 _
    · rw [cat3_apply _ _ _ k j 2 ⟨j.val - 256, by omega⟩ (by show 128 * 2 + (j.val - 256) = j.val; omega)]; exact h6 _

/-- The grouping table transposed holds zeros and ones. -/
theorem v45_real_nonneg (r : Fin 4) (l : Fin 128) : IsReal (kv_main_v45 (ix2 r l)) ∧ 0 ≤ kv_main_v45 (ix2 r l) := by
  unfold kv_main_v45 kv_main_cst
  rw [transpose_ix2_apply, maskTable_apply_ideal]
  split
  · exact ⟨isReal_one, zero_le_one⟩
  · exact ⟨isReal_zero, le_refl _⟩

end Links

section Chain
variable {m : KMem} {c : KDev} {V0 : RVal}

theorem isReal_rowOf {x : Vec Ideal S128 .f32} (hx : ∀ i, IsReal (x i)) (u : Fin 1) (k : Fin 128) :
    IsReal (rowOf x (ix2 u k)) := by
  rw [rowOf_apply]; exact hx _

/-- Every factor of every term of the normalised rows' product is real, the variance plus epsilon positive. -/
theorem v23_real (h : Agree m c V0) (i : Fin 50000) (j : Fin 384) : IsReal (kv_main_v23 m c (ix2 i j)) := by
  unfold kv_main_v23 G2
  exact isReal_sum _ _ fun k _ =>
    (((((h.r0 _).sub (v19_v20 m c h.r0 k).1).mul ((v19_v20 m c h.r0 k).2.1.rsqrt_pos (v19_v20 m c h.r0 k).2.2).1).mul
      (isReal_rowOf h.r10 _ k)).add (isReal_rowOf h.r11 _ k)).mul (v18_real m c h.r4 h.r5 h.r6 k _)

theorem v37_real (h : Agree m c V0) (e : Fin 800000) (j : Fin 256) : IsReal (kv_main_v37 m c (ix2 e j)) := by
  unfold kv_main_v37 kv_main_v30
  rw [gather256_apply, cutHi384_apply]
  exact v23_real h _ _

theorem v46_real (h : Agree m c V0) (e : Fin 800000) (j : Fin 256) : IsReal (kv_main_v46 m c (ix2 e j)) := by
  unfold kv_main_v46
  rw [G4_ix2]
  exact G4at_real _ _ _ _ _ v45_real_nonneg (v37_real h) e j

theorem v46_nonneg_hi (m : KMem) (c : KDev) (e : Fin 800000) (j : Fin 256) (hj : 128 ≤ j.val) :
    0 ≤ kv_main_v46 m c (ix2 e j) := by
  unfold kv_main_v46
  rw [G4_ix2]
  exact G4at_nonneg_of_le _ _ _ _ _ v45_real_nonneg e j hj

theorem v50_real (h : Agree m c V0) (n : Fin 50000) (k : Fin 128) : IsReal (kv_main_v50 m c (ix2 n k)) := by
  unfold kv_main_v50 kv_main_v49
  rw [slice2_axis1_apply 0 _ slices_S50000x256_S50000x128_0_0 n k (halfLo k) (Nat.zero_add _).symm, scat256_apply]
  exact (scatter_real_nonneg _ _ fun e => v46_real h e _).1

theorem v51_real_nonneg (h : Agree m c V0) (n : Fin 50000) (k : Fin 128) :
    IsReal (kv_main_v51 m c (ix2 n k)) ∧ 0 ≤ kv_main_v51 m c (ix2 n k) := by
  unfold kv_main_v51 kv_main_v49
  rw [slice2_axis1_apply 128 _ slices_S50000x256_S50000x128_0_128 n k (halfHi k) rfl, scat256_apply]
  exact (scatter_real_nonneg _ _ fun e => v46_real h e _).imp_right
    fun p => p fun e => v46_nonneg_hi m c e _ (Nat.le_add_right 128 k.val)

/-- Each quotient is by a real that is not negative plus a positive epsilon. -/
theorem real6 (h : Agree m c V0) : Real6 m c := by
  intro n j
  have hzp := fun k : Fin 128 => isReal_add_pos (v51_real_nonneg h n k) isReal_ofBits_eps6 ofBits_eps6_pos
  unfold kv_main_v53 G5
  exact ((isReal_sum _ _ fun k _ => ((v50_real h n k).div_pos (hzp k).1 (hzp k).2).mul (h.r8 _)).add
    (isReal_rowOf h.r9 _ j)).add (h.r0 _)

end Chain

end Cert.Bridge

end
-- ==== Proof.Algebraic.lean ====
import proofs.«163757_j14508399526691_2_alg».proof.Defs
import proofs.«163757_j14508399526691_2_alg».proof.Proof.KI.Run
import proofs.«163757_j14508399526691_2_alg».proof.Proof.KI.Chain
import proofs.«163757_j14508399526691_2_alg».proof.Proof.Ref.Run
import proofs.«163757_j14508399526691_2_alg».proof.Proof.Bridge.Stages
import proofs.«163757_j14508399526691_2_alg».proof.Proof.Bridge.PreReal
import proofs.«163757_j14508399526691_2_alg».proof.Proof.Bridge.S1
import proofs.«163757_j14508399526691_2_alg».proof.Proof.Bridge.S2
import proofs.«163757_j14508399526691_2_alg».proof.Proof.Bridge.S4
import proofs.«163757_j14508399526691_2_alg».proof.Proof.Bridge.S5
import proofs.«163757_j14508399526691_2_alg».proof.Proof.Bridge.S6
import proofs.«163757_j14508399526691_2_alg».proof.Proof.Bridge.S7
import proofs.«163757_j14508399526691_2_alg».proof.Proof.Bridge.Real6

noncomputable section

open Idealize.ShloMosaic Idealize.ShloMosaic.TcCoe Idealize.ShloMosaic.ValueIdx Idealize.SL.Sem

namespace Cert.Bridge

open Cert.KernelIdeal.Hand Cert.ReferenceIdeal.Hand

/-- Stage by stage the kernel's arrays are the reference's, so the last ones are equal. -/
theorem result_eq {m : KMem} {c : KDev} {V0 : RVal} (h : Agree m c V0) :
    kv_main_v68 m c = res_out V0 := by
  have h1n := s1n h
  have h1e := s1e h
  have h2 := s2 h h1n
  have h3 := s3 h h1e
  have h4 := s4 m c V0 h h2 h3
  have h5 := s5 h h4
  have h6 := s6 h h5
  have hr := real6 h
  have h7 := s7 h h6 hr
  have h8 := s8 h h6 h7
  have h9 := s9 h h6 h8
  funext idx
  rw [eq_ix2 idx]
  exact h9 _ _

end Cert.Bridge

namespace Cert.Proof.Hand

open Cert.Bridge Cert.KernelIdeal.Hand Cert.ReferenceIdeal.Hand

/-- Both runs end with their results named; the memories agree on the arguments and the precondition makes the float ones real. -/
theorem algebraic [Cert.KernelIdeal.Facts] [Cert.ReferenceIdeal.Facts] [Cert.Pre_finite_inputs.Facts] :
    Cert.algebraic_KernelIdeal_ReferenceIdeal := by
  intro m g m' g' hpre hagree
  refine ⟨fun c => Cert.KernelIdeal.Hand.W16 m g c (Proc.devRef .tc Cert.KernelIdeal.main_v68), Cert.KernelIdeal.Hand.run m g, ?_⟩
  refine (θ_run Cert.ReferenceIdeal.defs _ _).mono (fun _ h c => ⟨(h c).1.trans ?_, (h c).2⟩)
    (Cert.ReferenceIdeal.Hand.run (F := Ideal) m' g')
  have hA : Agree m c (StableHlo.launchContents m' c) := by
    obtain ⟨e0, e1, e2, e3, e4, e5, e6, e7, e8, e9, e10, e11, e12, e13, e14, e15, e16, e17⟩ := hagree c
    obtain ⟨r0, r1, r4, r5, r6, r7, r8, r9, r10, r11, r12, r13, r14, r15, r16, r17⟩ := args_real m hpre c
    exact ⟨e0, e1, e2, e3, e4, e5, e6, e7, e8, e9, e10, e11, e12, e13, e14, e15, e16, e17,
      r0, r1, r4, r5, r6, r7, r8, r9, r10, r11, r12, r13, r14, r15, r16, r17⟩
  rw [← result_eq hA]
  exact (Cert.KernelIdeal.Hand.result m g c).symm

end Cert.Proof.Hand

end
-- ==== Proof.lean ====
import proofs.«163757_j14508399526691_2_alg».proof.Defs
import proofs.«163757_j14508399526691_2_alg».proof.Proof.Gen.Kernel
import proofs.«163757_j14508399526691_2_alg».proof.Proof.Gen.KernelIdeal
import proofs.«163757_j14508399526691_2_alg».proof.Proof.Gen.ReferenceIdeal
import proofs.«163757_j14508399526691_2_alg».proof.Proof.Gen.Pre_finite_inputs
import proofs.«163757_j14508399526691_2_alg».proof.Proof.Frames
import proofs.«163757_j14508399526691_2_alg».proof.Proof.Preserves
import proofs.«163757_j14508399526691_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    @Cert.Proof.Hand.frame_p Cert.Kernel.Gen.facts Cert.Pre_finite_inputs.Gen.facts,
    @Cert.Proof.Hand.frame_pi Cert.KernelIdeal.Gen.facts Cert.Pre_finite_inputs.Gen.facts,
    @Cert.Proof.Hand.frame_ri Cert.ReferenceIdeal.Gen.facts Cert.Pre_finite_inputs.Gen.facts,
    Cert.Proof.Hand.preserves,
    @Cert.Proof.Hand.algebraic Cert.KernelIdeal.Gen.facts Cert.ReferenceIdeal.Gen.facts Cert.Pre_finite_inputs.Gen.facts⟩

end Cert.Proof

end
